-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x8192 : Shape := ⟨2, ![4096, 8192]⟩
abbrev S4096x4096 : Shape := ⟨2, ![4096, 4096]⟩
abbrev S4096x768 : Shape := ⟨2, ![4096, 768]⟩
abbrev S8192x768 : Shape := ⟨2, ![8192, 768]⟩
abbrev S4096x128 : Shape := ⟨2, ![4096, 128]⟩
abbrev S128 : Shape := ⟨1, ![128]⟩
abbrev S768x128 : Shape := ⟨2, ![768, 128]⟩
abbrev S8192x128 : Shape := ⟨2, ![8192, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128x128 : Shape := ⟨2, ![128, 128]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x768 : S_.BroadcastsInDim S4096x768 (![] : Fin 0 → Fin S4096x768.rank)
  reducesTo_S4096x768_S_d0_1 : S4096x768.ReducesTo [0, 1] S_
  bcast_S_S8192x768 : S_.BroadcastsInDim S8192x768 (![] : Fin 0 → Fin S8192x768.rank)
  reducesTo_S8192x768_S_d0_1 : S8192x768.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S768x128 : S_.BroadcastsInDim S768x128 (![] : Fin 0 → Fin S768x128.rank)
  reducesTo_S768x128_S_d0_1 : S768x128.ReducesTo [0, 1] S_
  bcast_S_S8192x128 : S_.BroadcastsInDim S8192x128 (![] : Fin 0 → Fin S8192x128.rank)
  reducesTo_S8192x128_S_d0_1 : S8192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_

variable [Facts]

def fn_part10 {F : FTy → Type} [FloatOps F] (main_arg35 : FVec F S128 .f32) (main_v168 : IVec S_ 1) (main_v169 : FVec F S128x128 .f32) (main_v170 : FVec F S128x128 .f32) : IVec S_ 1 :=
  let main_v171 : IVec S128x128 1 := cmpf .olt main_v169 main_v170
  let main_c_67 : IVec S_ 1 := constantI S_ 1 1#1
  let main_v172 : IVec S_ 1 := (fun x v => Host.reduce IntOp.andi x v reducesTo_S128x128_S_d0_1 h_S_) main_v171 main_c_67
  let main_v173 : IVec S_ 1 := andi main_v168 main_v172
  let main_v174 : FVec F S128 .f32 := Host.absf main_arg35
  let main_cst_68 : FVec F S_ .f32 := constant S_ .f32 0x7F800000#32
  let main_v175 : FVec F S128 .f32 := broadcastInDim S128 ![] bcast_S_S128 main_cst_68
  let main_v176 : IVec S128 1 := cmpf .olt main_v174 main_v175
  let main_c_69 : IVec S_ 1 := constantI S_ 1 1#1
  let main_v177 : IVec S_ 1 := (fun x v => Host.reduce IntOp.andi x v reducesTo_S128_S_d0 h_S_) main_v176 main_c_69
  let main_v178 : IVec S_ 1 := andi main_v173 main_v177
  main_v178

def fn_part9 {F : FTy → Type} [FloatOps F] (main_arg31 : FVec F S128 .f32) (main_arg32 : FVec F S256x128 .f32) (main_arg33 : FVec F S128 .f32) (main_arg34 : FVec F S128x128 .f32) (main_arg35 : FVec F S128 .f32) (main_v153 : IVec S_ 1) : IVec S_ 1 :=
  let main_v154 : FVec F S128 .f32 := Host.absf main_arg31
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S256x128 .f32 := Host.absf main_arg32
  let main_cst_62 : FVec F S_ .f32 := constant S_ .f32 0x7F800000#32
  let main_v160 : FVec F S256x128 .f32 := broadcastInDim S256x128 ![] bcast_S_S256x128 main_cst_62
  let main_v161 : IVec S256x128 1 := cmpf .olt main_v159 main_v160
  let main_c_63 : IVec S_ 1 := constantI S_ 1 1#1
  let main_v162 : IVec S_ 1 := (fun x v => Host.reduce IntOp.andi x v reducesTo_S256x128_S_d0_1 h_S_) main_v161 main_c_63
  let main_v163 : IVec S_ 1 := andi main_v158 main_v162
  let main_v164 : FVec F S128 .f32 := Host.absf main_arg33
  let main_cst_64 : FVec F S_ .f32 := constant S_ .f32 0x7F800000#32
  let main_v165 : FVec F S128 .f32 := broadcastInDim S128 ![] bcast_S_S128 main_cst_64
  let main_v166 : IVec S128 1 := cmpf .olt main_v164 main_v165
  let main_c_65 : IVec S_ 1 := constantI S_ 1 1#1
  let main_v167 : IVec S_ 1 := (fun x v => Host.reduce IntOp.andi x v reducesTo_S128_S_d0 h_S_) main_v166 main_c_65
  let main_v168 : IVec S_ 1 := andi main_v163 main_v167
  let main_v169 : FVec F S128x128 .f32 := Host.absf main_arg34
  let main_cst_66 : FVec F S_ .f32 := constant S_ .f32 0x7F800000#32
  let main_v170 : FVec F S128x128 .f32 := broadcastInDim S128x128 ![] bcast_S_S128x128 main_cst_66
  fn_part10 (F := F) main_arg35 main_v168 main_v169 main_v170

def fn_part8 {F : FTy → Type} [FloatOps F] (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  let main_v139 : FVec F S256x128 .f32 := Host.absf main_arg28
  let main_cst_54 : FVec F S_ .f32 := constant S_ .f32 0x7F800000#32
  let main_v140 : FVec F S256x128 .f32 := broadcastInDim S256x128 ![] bcast_S_S256x128 main_cst_54
  let main_v141 : IVec S256x128 1 := cmpf .olt main_v139 main_v140
  let main_c_55 : IVec S_ 1 := constantI S_ 1 1#1
  let main_v142 : IVec S_ 1 := (fun x v => Host.reduce IntOp.andi x v reducesTo_S256x128_S_d0_1 h_S_) main_v141 main_c_55
  let main_v143 : IVec S_ 1 := andi main_v138 main_v142
  let main_v144 : FVec F S128 .f32 := Host.absf main_arg29
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128x128 .f32 := Host.absf main_arg30
  let main_cst_58 : FVec F S_ .f32 := constant S_ .f32 0x7F800000#32
  let main_v150 : FVec F S128x128 .f32 := broadcastInDim S128x128 ![] bcast_S_S128x128 main_cst_58
  let main_v151 : IVec S128x128 1 := cmpf .olt main_v149 main_v150
  let main_c_59 : IVec S_ 1 := constantI S_ 1 1#1
  let main_v152 : IVec S_ 1 := (fun x v => Host.reduce IntOp.andi x v reducesTo_S128x128_S_d0_1 h_S_) main_v151 main_c_59
  let main_v153 : IVec S_ 1 := andi main_v148 main_v152
  fn_part9 (F := F) main_arg31 main_arg32 main_arg33 main_arg34 main_arg35 main_v153

def fn_part7 {F : FTy → Type} [FloatOps F] (main_arg25 : FVec F S64 .f32) (main_arg26 : FVec F S64x1 .f32) (main_arg27 : FVec F S1 .f32) (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) (main_v118 : IVec S_ 1) (main_v119 : FVec F S128x64 .f32) : IVec S_ 1 :=
  let main_cst_46 : FVec F S_ .f32 := constant S_ .f32 0x7F800000#32
  let main_v120 : FVec F S128x64 .f32 := broadcastInDim S128x64 ![] bcast_S_S128x64 main_cst_46
  let main_v121 : IVec S128x64 1 := cmpf .olt main_v119 main_v120
  let main_c_47 : IVec S_ 1 := constantI S_ 1 1#1
  let main_v122 : IVec S_ 1 := (fun x v => Host.reduce IntOp.andi x v reducesTo_S128x64_S_d0_1 h_S_) main_v121 main_c_47
  let main_v123 : IVec S_ 1 := andi main_v118 main_v122
  let main_v124 : FVec F S64 .f32 := Host.absf main_arg25
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x1 .f32 := Host.absf main_arg26
  let main_cst_50 : FVec F S_ .f32 := constant S_ .f32 0x7F800000#32
  let main_v130 : FVec F S64x1 .f32 := broadcastInDim S64x1 ![] bcast_S_S64x1 main_cst_50
  let main_v131 : IVec S64x1 1 := cmpf .olt main_v129 main_v130
  let main_c_51 : IVec S_ 1 := constantI S_ 1 1#1
  let main_v132 : IVec S_ 1 := (fun x v => Host.reduce IntOp.andi x v reducesTo_S64x1_S_d0_1 h_S_) main_v131 main_c_51
  let main_v133 : IVec S_ 1 := andi main_v128 main_v132
  let main_v134 : FVec F S1 .f32 := Host.absf main_arg27
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_arg28 main_arg29 main_arg30 main_arg31 main_arg32 main_arg33 main_arg34 main_arg35 main_v133 main_v136

def fn_part6 {F : FTy → Type} [FloatOps F] (main_arg21 : FVec F S64 .f32) (main_arg22 : FVec F S64x1 .f32) (main_arg23 : FVec F S1 .f32) (main_arg24 : FVec F S128x64 .f32) (main_arg25 : FVec F S64 .f32) (main_arg26 : FVec F S64x1 .f32) (main_arg27 : FVec F S1 .f32) (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg22
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : FVec F S128x64 .f32 := Host.absf main_arg24
  fn_part7 (F := F) main_arg25 main_arg26 main_arg27 main_arg28 main_arg29 main_arg30 main_arg31 main_arg32 main_arg33 main_arg34 main_arg35 main_v118 main_v119

def fn_part5 {F : FTy → Type} [FloatOps F] (main_arg18 : FVec F S8192x128 .f32) (main_arg19 : FVec F S4096x128 .f32) (main_arg20 : FVec F S128x64 .f32) (main_arg21 : FVec F S64 .f32) (main_arg22 : FVec F S64x1 .f32) (main_arg23 : FVec F S1 .f32) (main_arg24 : FVec F S128x64 .f32) (main_arg25 : FVec F S64 .f32) (main_arg26 : FVec F S64x1 .f32) (main_arg27 : FVec F S1 .f32) (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S8192x128 .f32 := Host.absf main_arg18
  let main_cst_34 : FVec F S_ .f32 := constant S_ .f32 0x7F800000#32
  let main_v90 : FVec F S8192x128 .f32 := broadcastInDim S8192x128 ![] bcast_S_S8192x128 main_cst_34
  let main_v91 : IVec S8192x128 1 := cmpf .olt main_v89 main_v90
  let main_c_35 : IVec S_ 1 := constantI S_ 1 1#1
  let main_v92 : IVec S_ 1 := (fun x v => Host.reduce IntOp.andi x v reducesTo_S8192x128_S_d0_1 h_S_) main_v91 main_c_35
  let main_v93 : IVec S_ 1 := andi main_v88 main_v92
  let main_v94 : FVec F S4096x128 .f32 := Host.absf main_arg19
  let main_cst_36 : FVec F S_ .f32 := constant S_ .f32 0x7F800000#32
  let main_v95 : FVec F S4096x128 .f32 := broadcastInDim S4096x128 ![] bcast_S_S4096x128 main_cst_36
  let main_v96 : IVec S4096x128 1 := cmpf .olt main_v94 main_v95
  let main_c_37 : IVec S_ 1 := constantI S_ 1 1#1
  let main_v97 : IVec S_ 1 := (fun x v => Host.reduce IntOp.andi x v reducesTo_S4096x128_S_d0_1 h_S_) main_v96 main_c_37
  let main_v98 : IVec S_ 1 := andi main_v93 main_v97
  let main_v99 : FVec F S128x64 .f32 := Host.absf main_arg20
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_v98 main_v101 main_c_39

def fn_part4 {F : FTy → Type} [FloatOps F] (main_arg14 : FVec F S768x128 .f32) (main_arg15 : FVec F S128 .f32) (main_arg16 : FVec F S768x128 .f32) (main_arg17 : FVec F S128 .f32) (main_arg18 : FVec F S8192x128 .f32) (main_arg19 : FVec F S4096x128 .f32) (main_arg20 : FVec F S128x64 .f32) (main_arg21 : FVec F S64 .f32) (main_arg22 : FVec F S64x1 .f32) (main_arg23 : FVec F S1 .f32) (main_arg24 : FVec F S128x64 .f32) (main_arg25 : FVec F S64 .f32) (main_arg26 : FVec F S64x1 .f32) (main_arg27 : FVec F S1 .f32) (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) (main_v63 : IVec S_ 1) (main_v67 : IVec S_ 1) : IVec S_ 1 :=
  let main_v68 : IVec S_ 1 := andi main_v63 main_v67
  let main_v69 : FVec F S768x128 .f32 := Host.absf main_arg14
  let main_cst_26 : FVec F S_ .f32 := constant S_ .f32 0x7F800000#32
  let main_v70 : FVec F S768x128 .f32 := broadcastInDim S768x128 ![] bcast_S_S768x128 main_cst_26
  let main_v71 : IVec S768x128 1 := cmpf .olt main_v69 main_v70
  let main_c_27 : IVec S_ 1 := constantI S_ 1 1#1
  let main_v72 : IVec S_ 1 := (fun x v => Host.reduce IntOp.andi x v reducesTo_S768x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S768x128 .f32 := Host.absf main_arg16
  let main_cst_30 : FVec F S_ .f32 := constant S_ .f32 0x7F800000#32
  let main_v80 : FVec F S768x128 .f32 := broadcastInDim S768x128 ![] bcast_S_S768x128 main_cst_30
  let main_v81 : IVec S768x128 1 := cmpf .olt main_v79 main_v80
  let main_c_31 : IVec S_ 1 := constantI S_ 1 1#1
  let main_v82 : IVec S_ 1 := (fun x v => Host.reduce IntOp.andi x v reducesTo_S768x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg11 : FVec F S128 .f32) (main_arg12 : FVec F S768x128 .f32) (main_arg13 : FVec F S128 .f32) (main_arg14 : FVec F S768x128 .f32) (main_arg15 : FVec F S128 .f32) (main_arg16 : FVec F S768x128 .f32) (main_arg17 : FVec F S128 .f32) (main_arg18 : FVec F S8192x128 .f32) (main_arg19 : FVec F S4096x128 .f32) (main_arg20 : FVec F S128x64 .f32) (main_arg21 : FVec F S64 .f32) (main_arg22 : FVec F S64x1 .f32) (main_arg23 : FVec F S1 .f32) (main_arg24 : FVec F S128x64 .f32) (main_arg25 : FVec F S64 .f32) (main_arg26 : FVec F S64x1 .f32) (main_arg27 : FVec F S1 .f32) (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) (main_v48 : IVec S_ 1) (main_v49 : FVec F S4096x128 .f32) (main_v50 : FVec F S4096x128 .f32) : IVec S_ 1 :=
  let main_v51 : IVec S4096x128 1 := cmpf .olt main_v49 main_v50
  let main_c_19 : IVec S_ 1 := constantI S_ 1 1#1
  let main_v52 : IVec S_ 1 := (fun x v => Host.reduce IntOp.andi x v reducesTo_S4096x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S768x128 .f32 := Host.absf main_arg12
  let main_cst_22 : FVec F S_ .f32 := constant S_ .f32 0x7F800000#32
  let main_v60 : FVec F S768x128 .f32 := broadcastInDim S768x128 ![] bcast_S_S768x128 main_cst_22
  let main_v61 : IVec S768x128 1 := cmpf .olt main_v59 main_v60
  let main_c_23 : IVec S_ 1 := constantI S_ 1 1#1
  let main_v62 : IVec S_ 1 := (fun x v => Host.reduce IntOp.andi x v reducesTo_S768x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg7 : FVec F S4096x768 .f32) (main_arg8 : FVec F S8192x768 .f32) (main_arg9 : FVec F S4096x768 .f32) (main_arg10 : FVec F S4096x128 .f32) (main_arg11 : FVec F S128 .f32) (main_arg12 : FVec F S768x128 .f32) (main_arg13 : FVec F S128 .f32) (main_arg14 : FVec F S768x128 .f32) (main_arg15 : FVec F S128 .f32) (main_arg16 : FVec F S768x128 .f32) (main_arg17 : FVec F S128 .f32) (main_arg18 : FVec F S8192x128 .f32) (main_arg19 : FVec F S4096x128 .f32) (main_arg20 : FVec F S128x64 .f32) (main_arg21 : FVec F S64 .f32) (main_arg22 : FVec F S64x1 .f32) (main_arg23 : FVec F S1 .f32) (main_arg24 : FVec F S128x64 .f32) (main_arg25 : FVec F S64 .f32) (main_arg26 : FVec F S64x1 .f32) (main_arg27 : FVec F S1 .f32) (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) (main_v33 : IVec S_ 1) : IVec S_ 1 :=
  let main_v34 : FVec F S4096x768 .f32 := Host.absf main_arg7
  let main_cst_12 : FVec F S_ .f32 := constant S_ .f32 0x7F800000#32
  let main_v35 : FVec F S4096x768 .f32 := broadcastInDim S4096x768 ![] bcast_S_S4096x768 main_cst_12
  let main_v36 : IVec S4096x768 1 := cmpf .olt main_v34 main_v35
  let main_c_13 : IVec S_ 1 := constantI S_ 1 1#1
  let main_v37 : IVec S_ 1 := (fun x v => Host.reduce IntOp.andi x v reducesTo_S4096x768_S_d0_1 h_S_) main_v36 main_c_13
  let main_v38 : IVec S_ 1 := andi main_v33 main_v37
  let main_v39 : FVec F S8192x768 .f32 := Host.absf main_arg8
  let main_cst_14 : FVec F S_ .f32 := constant S_ .f32 0x7F800000#32
  let main_v40 : FVec F S8192x768 .f32 := broadcastInDim S8192x768 ![] bcast_S_S8192x768 main_cst_14
  let main_v41 : IVec S8192x768 1 := cmpf .olt main_v39 main_v40
  let main_c_15 : IVec S_ 1 := constantI S_ 1 1#1
  let main_v42 : IVec S_ 1 := (fun x v => Host.reduce IntOp.andi x v reducesTo_S8192x768_S_d0_1 h_S_) main_v41 main_c_15
  let main_v43 : IVec S_ 1 := andi main_v38 main_v42
  let main_v44 : FVec F S4096x768 .f32 := Host.absf main_arg9
  let main_cst_16 : FVec F S_ .f32 := constant S_ .f32 0x7F800000#32
  let main_v45 : FVec F S4096x768 .f32 := broadcastInDim S4096x768 ![] bcast_S_S4096x768 main_cst_16
  let main_v46 : IVec S4096x768 1 := cmpf .olt main_v44 main_v45
  let main_c_17 : IVec S_ 1 := constantI S_ 1 1#1
  let main_v47 : IVec S_ 1 := (fun x v => Host.reduce IntOp.andi x v reducesTo_S4096x768_S_d0_1 h_S_) main_v46 main_c_17
  let main_v48 : IVec S_ 1 := andi main_v43 main_v47
  let main_v49 : FVec F S4096x128 .f32 := Host.absf main_arg10
  let main_cst_18 : FVec F S_ .f32 := constant S_ .f32 0x7F800000#32
  let main_v50 : FVec F S4096x128 .f32 := broadcastInDim S4096x128 ![] bcast_S_S4096x128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg4 : FVec F S8192x4096 .f32) (main_arg5 : FVec F S4096x8192 .f32) (main_arg6 : FVec F S4096x4096 .f32) (main_arg7 : FVec F S4096x768 .f32) (main_arg8 : FVec F S8192x768 .f32) (main_arg9 : FVec F S4096x768 .f32) (main_arg10 : FVec F S4096x128 .f32) (main_arg11 : FVec F S128 .f32) (main_arg12 : FVec F S768x128 .f32) (main_arg13 : FVec F S128 .f32) (main_arg14 : FVec F S768x128 .f32) (main_arg15 : FVec F S128 .f32) (main_arg16 : FVec F S768x128 .f32) (main_arg17 : FVec F S128 .f32) (main_arg18 : FVec F S8192x128 .f32) (main_arg19 : FVec F S4096x128 .f32) (main_arg20 : FVec F S128x64 .f32) (main_arg21 : FVec F S64 .f32) (main_arg22 : FVec F S64x1 .f32) (main_arg23 : FVec F S1 .f32) (main_arg24 : FVec F S128x64 .f32) (main_arg25 : FVec F S64 .f32) (main_arg26 : FVec F S64x1 .f32) (main_arg27 : FVec F S1 .f32) (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S8192x4096 .f32 := Host.absf main_arg4
  let main_cst_6 : FVec F S_ .f32 := constant S_ .f32 0x7F800000#32
  let main_v20 : FVec F S8192x4096 .f32 := broadcastInDim S8192x4096 ![] bcast_S_S8192x4096 main_cst_6
  let main_v21 : IVec S8192x4096 1 := cmpf .olt main_v19 main_v20
  let main_c_7 : IVec S_ 1 := constantI S_ 1 1#1
  let main_v22 : IVec S_ 1 := (fun x v => Host.reduce IntOp.andi x v reducesTo_S8192x4096_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S8192x4096 .f32) (main_arg1 : FVec F S4096x8192 .f32) (main_arg2 : FVec F S8192x4096 .f32) (main_arg3 : FVec F S4096x8192 .f32) (main_arg4 : FVec F S8192x4096 .f32) (main_arg5 : FVec F S4096x8192 .f32) (main_arg6 : FVec F S4096x4096 .f32) (main_arg7 : FVec F S4096x768 .f32) (main_arg8 : FVec F S8192x768 .f32) (main_arg9 : FVec F S4096x768 .f32) (main_arg10 : FVec F S4096x128 .f32) (main_arg11 : FVec F S128 .f32) (main_arg12 : FVec F S768x128 .f32) (main_arg13 : FVec F S128 .f32) (main_arg14 : FVec F S768x128 .f32) (main_arg15 : FVec F S128 .f32) (main_arg16 : FVec F S768x128 .f32) (main_arg17 : FVec F S128 .f32) (main_arg18 : FVec F S8192x128 .f32) (main_arg19 : FVec F S4096x128 .f32) (main_arg20 : FVec F S128x64 .f32) (main_arg21 : FVec F S64 .f32) (main_arg22 : FVec F S64x1 .f32) (main_arg23 : FVec F S1 .f32) (main_arg24 : FVec F S128x64 .f32) (main_arg25 : FVec F S64 .f32) (main_arg26 : FVec F S64x1 .f32) (main_arg27 : FVec F S1 .f32) (main_arg28 : FVec F S256x128 .f32) (main_arg29 : FVec F S128 .f32) (main_arg30 : FVec F S128x128 .f32) (main_arg31 : FVec F S128 .f32) (main_arg32 : FVec F S256x128 .f32) (main_arg33 : FVec F S128 .f32) (main_arg34 : FVec F S128x128 .f32) (main_arg35 : FVec F S128 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S8192x4096 : Shape := ⟨2, ![8192, 4096]⟩
abbrev S4096x8192 : Shape := ⟨2, ![4096, 8192]⟩
abbrev S4096x4096 : Shape := ⟨2, ![4096, 4096]⟩
abbrev S4096x768 : Shape := ⟨2, ![4096, 768]⟩
abbrev S8192x768 : Shape := ⟨2, ![8192, 768]⟩
abbrev S4096x128 : Shape := ⟨2, ![4096, 128]⟩
abbrev S128 : Shape := ⟨1, ![128]⟩
abbrev S768x128 : Shape := ⟨2, ![768, 128]⟩
abbrev S8192x128 : Shape := ⟨2, ![8192, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128x128 : Shape := ⟨2, ![128, 128]⟩
abbrev S1x128 : Shape := ⟨2, ![1, 128]⟩
abbrev S1024x1024 : Shape := ⟨2, ![1024, 1024]⟩
abbrev S1024x128 : Shape := ⟨2, ![1024, 128]⟩
abbrev S1024x768 : Shape := ⟨2, ![1024, 768]⟩
abbrev S1x64 : Shape := ⟨2, ![1, 64]⟩
abbrev S4096x64 : Shape := ⟨2, ![4096, 64]⟩
abbrev S1024x64 : Shape := ⟨2, ![1024, 64]⟩
abbrev S1x1 : Shape := ⟨2, ![1, 1]⟩
abbrev S4096x1 : Shape := ⟨2, ![4096, 1]⟩
abbrev S1024x1 : Shape := ⟨2, ![1024, 1]⟩
abbrev S4096x256 : Shape := ⟨2, ![4096, 256]⟩
abbrev S1024x256 : Shape := ⟨2, ![1024, 256]⟩
abbrev S_ : Shape := ⟨0, ![]⟩
abbrev S4096x512 : Shape := ⟨2, ![4096, 512]⟩
abbrev S512 : Shape := ⟨1, ![512]⟩
abbrev S1x512 : Shape := ⟨2, ![1, 512]⟩
abbrev S8192x512 : Shape := ⟨2, ![8192, 512]⟩
abbrev S1024x512 : Shape := ⟨2, ![1024, 512]⟩
abbrev S8192x640 : Shape := ⟨2, ![8192, 640]⟩
abbrev S640 : Shape := ⟨1, ![640]⟩
abbrev S1x640 : Shape := ⟨2, ![1, 640]⟩
abbrev S4096x640 : Shape := ⟨2, ![4096, 640]⟩
abbrev S1024x640 : Shape := ⟨2, ![1024, 640]⟩
abbrev S256 : Shape := ⟨1, ![256]⟩
abbrev S1x256 : Shape := ⟨2, ![1, 256]⟩
abbrev S8192x256 : Shape := ⟨2, ![8192, 256]⟩
abbrev S8192 : Shape := ⟨1, ![8192]⟩
abbrev S8192x1 : Shape := ⟨2, ![8192, 1]⟩
abbrev S4096 : Shape := ⟨1, ![4096]⟩
abbrev S12288x640 : Shape := ⟨2, ![12288, 640]⟩

abbrev nBuf : Space → Nat
  | .hbm => 153
  | .vmem => 117
  | .smem => 0
  | _ => 0

abbrev hbmTy0_0 (i : Nat) : BufTy := match i % 128 with
  | 0 => ⟨S8192x4096, .f32⟩
  | 1 => ⟨S4096x8192, .f32⟩
  | 2 => ⟨S8192x4096, .f32⟩
  | 3 => ⟨S4096x8192, .f32⟩
  | 4 => ⟨S8192x4096, .f32⟩
  | 5 => ⟨S4096x8192, .f32⟩
  | 6 => ⟨S4096x4096, .f32⟩
  | 7 => ⟨S4096x768, .f32⟩
  | 8 => ⟨S8192x768, .f32⟩
  | 9 => ⟨S4096x768, .f32⟩
  | 10 => ⟨S4096x128, .f32⟩
  | 11 => ⟨S128, .f32⟩
  | 12 => ⟨S768x128, .f32⟩
  | 13 => ⟨S128, .f32⟩
  | 14 => ⟨S768x128, .f32⟩
  | 15 => ⟨S128, .f32⟩
  | 16 => ⟨S768x128, .f32⟩
  | 17 => ⟨S128, .f32⟩
  | 18 => ⟨S8192x128, .f32⟩
  | 19 => ⟨S4096x128, .f32⟩
  | 20 => ⟨S128x64, .f32⟩
  | 21 => ⟨S64, .f32⟩
  | 22 => ⟨S64x1, .f32⟩
  | 23 => ⟨S1, .f32⟩
  | 24 => ⟨S128x64, .f32⟩
  | 25 => ⟨S64, .f32⟩
  | 26 => ⟨S64x1, .f32⟩
  | 27 => ⟨S1, .f32⟩
  | 28 => ⟨S256x128, .f32⟩
  | 29 => ⟨S128, .f32⟩
  | 30 => ⟨S128x128, .f32⟩
  | 31 => ⟨S128, .f32⟩
  | 32 => ⟨S256x128, .f32⟩
  | 33 => ⟨S128, .f32⟩
  | 34 => ⟨S128x128, .f32⟩
  | 35 => ⟨S128, .f32⟩
  | 36 => ⟨S1x128, .f32⟩
  | 37 => ⟨S4096x128, .f32⟩
  | 38 => ⟨S1x128, .f32⟩
  | 39 => ⟨S4096x128, .f32⟩
  | 40 => ⟨S1x128, .f32⟩
  | 41 => ⟨S8192x128, .f32⟩
  | 42 => ⟨S1x128, .f32⟩
  | 43 => ⟨S4096x128, .f32⟩
  | 44 => ⟨S1x64, .f32⟩
  | 45 => ⟨S4096x64, .f32⟩
  | 46 => ⟨S1x1, .f32⟩
  | 47 => ⟨S4096x1, .f32⟩
  | 48 => ⟨S4096x128, .f32⟩
  | 49 => ⟨S4096x128, .f32⟩
  | 50 => ⟨S1x64, .f32⟩
  | 51 => ⟨S4096x64, .f32⟩
  | 52 => ⟨S1x1, .f32⟩
  | 53 => ⟨S4096x1, .f32⟩
  | 54 => ⟨S4096x128, .f32⟩
  | 55 => ⟨S4096x128, .f32⟩
  | 56 => ⟨S4096x256, .f32⟩
  | 57 => ⟨S1x128, .f32⟩
  | 58 => ⟨S4096x128, .f32⟩
  | 59 => ⟨S1x128, .f32⟩
  | 60 => ⟨S4096x128, .f32⟩
  | 61 => ⟨S_, .f32⟩
  | 62 => ⟨S4096x128, .f32⟩
  | 63 => ⟨S4096x128, .f32⟩
  | 64 => ⟨S4096x128, .f32⟩
  | 65 => ⟨S_, .f32⟩
  | 66 => ⟨S4096x128, .f32⟩
  | 67 => ⟨S4096x128, .f32⟩
  | 68 => ⟨S4096x128, .f32⟩
  | 69 => ⟨S4096x256, .f32⟩
  | 70 => ⟨S1x128, .f32⟩
  | 71 => ⟨S4096x128, .f32⟩
  | 72 => ⟨S1x128, .f32⟩
  | 73 => ⟨S4096x128, .f32⟩
  | 74 => ⟨S_, .f32⟩
  | 75 => ⟨S4096x128, .f32⟩
  | 76 => ⟨S4096x128, .f32⟩
  | 77 => ⟨S4096x128, .f32⟩
  | 78 => ⟨S_, .f32⟩
  | 79 => ⟨S4096x128, .f32⟩
  | 80 => ⟨S4096x128, .f32⟩
  | 81 => ⟨S4096x128, .f32⟩
  | 82 => ⟨S4096x512, .f32⟩
  | 83 => ⟨S_, .f32⟩
  | 84 => ⟨S512, .f32⟩
  | 85 => ⟨S1x512, .f32⟩
  | 86 => ⟨S8192x512, .f32⟩
  | 87 => ⟨S8192x128, .f32⟩
  | 88 => ⟨S8192x128, .f32⟩
  | 89 => ⟨S8192x128, .f32⟩
  | 90 => ⟨S8192x128, .f32⟩
  | 91 => ⟨S8192x640, .f32⟩
  | 92 => ⟨S_, .f32⟩
  | 93 => ⟨S640, .f32⟩
  | 94 => ⟨S1x640, .f32⟩
  | 95 => ⟨S4096x640, .f32⟩
  | 96 => ⟨S4096x128, .f32⟩
  | 97 => ⟨S4096x128, .f32⟩
  | 98 => ⟨S4096x128, .f32⟩
  | 99 => ⟨S4096x128, .f32⟩
  | 100 => ⟨S4096x128, .f32⟩
  | 101 => ⟨S4096x256, .f32⟩
  | 102 => ⟨S_, .f32⟩
  | 103 => ⟨S256, .f32⟩
  | 104 => ⟨S1x256, .f32⟩
  | 105 => ⟨S8192x256, .f32⟩
  | 106 => ⟨S8192x128, .f32⟩
  | 107 => ⟨S8192x128, .f32⟩
  | 108 => ⟨S_, .f32⟩
  | 109 => ⟨S8192, .f32⟩
  | 110 => ⟨S_, .f32⟩
  | 111 => ⟨S8192, .f32⟩
  | 112 => ⟨S8192, .f32⟩
  | 113 => ⟨S8192x1, .f32⟩
  | 114 => ⟨S8192x128, .f32⟩
  | 115 => ⟨S8192x128, .f32⟩
  | 116 => ⟨S8192x128, .f32⟩
  | 117 => ⟨S_, .f32⟩
  | 118 => ⟨S8192, .f32⟩
  | 119 => ⟨S8192x1, .f32⟩
  | 120 => ⟨S8192x128, .f32⟩
  | 121 => ⟨S8192x128, .f32⟩
  | 122 => ⟨S_, .f32⟩
  | 123 => ⟨S128, .f32⟩
  | 124 => ⟨S1x128, .f32⟩
  | 125 => ⟨S4096x128, .f32⟩
  | 126 => ⟨S_, .f32⟩
  | 127 => ⟨S4096, .f32⟩
  | _ => ⟨S8192x4096, .f32⟩

abbrev hbmTy0_1 (i : Nat) : BufTy := match i % 128 with
  | 0 => ⟨S_, .f32⟩
  | 1 => ⟨S4096, .f32⟩
  | 2 => ⟨S4096, .f32⟩
  | 3 => ⟨S4096x1, .f32⟩
  | 4 => ⟨S4096x128, .f32⟩
  | 5 => ⟨S4096x128, .f32⟩
  | 6 => ⟨S4096x128, .f32⟩
  | 7 => ⟨S_, .f32⟩
  | 8 => ⟨S4096, .f32⟩
  | 9 => ⟨S4096x1, .f32⟩
  | 10 => ⟨S4096x128, .f32⟩
  | 11 => ⟨S4096x128, .f32⟩
  | 12 => ⟨S8192x128, .f32⟩
  | 13 => ⟨S8192x128, .f32⟩
  | 14 => ⟨S_, .f32⟩
  | 15 => ⟨S8192x128, .f32⟩
  | 16 => ⟨S8192x128, .f32⟩
  | 17 => ⟨S4096x128, .f32⟩
  | 18 => ⟨S4096x128, .f32⟩
  | 19 => ⟨S_, .f32⟩
  | 20 => ⟨S4096x128, .f32⟩
  | 21 => ⟨S4096x128, .f32⟩
  | 22 => ⟨S8192x640, .f32⟩
  | 23 => ⟨S4096x640, .f32⟩
  | 24 => ⟨S12288x640, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x768, .f32⟩
  | .local _ .vmem, ⟨9, _⟩ => ⟨S1024x768, .f32⟩
  | .local _ .vmem, ⟨10, _⟩ => ⟨S768x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x768, .f32⟩
  | .local _ .vmem, ⟨16, _⟩ => ⟨S1024x768, .f32⟩
  | .local _ .vmem, ⟨17, _⟩ => ⟨S768x128, .f32⟩
  | .local _ .vmem, ⟨18, _⟩ => ⟨S1x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x768, .f32⟩
  | .local _ .vmem, ⟨23, _⟩ => ⟨S1024x768, .f32⟩
  | .local _ .vmem, ⟨24, _⟩ => ⟨S768x128, .f32⟩
  | .local _ .vmem, ⟨25, _⟩ => ⟨S1x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S128x64, .f32⟩
  | .local _ .vmem, ⟨32, _⟩ => ⟨S1x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | .local _ .vmem, ⟨36, _⟩ => ⟨S1024x64, .f32⟩
  | .local _ .vmem, ⟨37, _⟩ => ⟨S1024x64, .f32⟩
  | .local _ .vmem, ⟨38, _⟩ => ⟨S64x1, .f32⟩
  | .local _ .vmem, ⟨39, _⟩ => ⟨S1x1, .f32⟩
  | .local _ .vmem, ⟨40, _⟩ => ⟨S1024x1, .f32⟩
  | .local _ .vmem, ⟨41, _⟩ => ⟨S1024x1, .f32⟩
  | .local _ .vmem, ⟨42, _⟩ => ⟨S1024x1, .f32⟩
  | .local _ .vmem, ⟨43, _⟩ => ⟨S1024x128, .f32⟩
  | .local _ .vmem, ⟨44, _⟩ => ⟨S1024x128, .f32⟩
  | .local _ .vmem, ⟨45, _⟩ => ⟨S128x64, .f32⟩
  | .local _ .vmem, ⟨46, _⟩ => ⟨S1x64, .f32⟩
  | .local _ .vmem, ⟨47, _⟩ => ⟨S1024x64, .f32⟩
  | .local _ .vmem, ⟨48, _⟩ => ⟨S1024x64, .f32⟩
  | .local _ .vmem, ⟨49, _⟩ => ⟨S1024x64, .f32⟩
  | .local _ .vmem, ⟨50, _⟩ => ⟨S1024x64, .f32⟩
  | .local _ .vmem, ⟨51, _⟩ => ⟨S1024x64, .f32⟩
  | .local _ .vmem, ⟨52, _⟩ => ⟨S64x1, .f32⟩
  | .local _ .vmem, ⟨53, _⟩ => ⟨S1x1, .f32⟩
  | .local _ .vmem, ⟨54, _⟩ => ⟨S1024x1, .f32⟩
  | .local _ .vmem, ⟨55, _⟩ => ⟨S1024x1, .f32⟩
  | .local _ .vmem, ⟨56, _⟩ => ⟨S1024x1, .f32⟩
  | .local _ .vmem, ⟨57, _⟩ => ⟨S1024x256, .f32⟩
  | .local _ .vmem, ⟨58, _⟩ => ⟨S1024x256, .f32⟩
  | .local _ .vmem, ⟨59, _⟩ => ⟨S256x128, .f32⟩
  | .local _ .vmem, ⟨60, _⟩ => ⟨S1x128, .f32⟩
  | .local _ .vmem, ⟨61, _⟩ => ⟨S1024x128, .f32⟩
  | .local _ .vmem, ⟨62, _⟩ => ⟨S1024x128, .f32⟩
  | .local _ .vmem, ⟨63, _⟩ => ⟨S1024x128, .f32⟩
  | .local _ .vmem, ⟨64, _⟩ => ⟨S1024x128, .f32⟩
  | .local _ .vmem, ⟨65, _⟩ => ⟨S1024x128, .f32⟩
  | .local _ .vmem, ⟨66, _⟩ => ⟨S128x128, .f32⟩
  | .local _ .vmem, ⟨67, _⟩ => ⟨S1x128, .f32⟩
  | .local _ .vmem, ⟨68, _⟩ => ⟨S1024x128, .f32⟩
  | .local _ .vmem, ⟨69, _⟩ => ⟨S1024x128, .f32⟩
  | .local _ .vmem, ⟨70, _⟩ => ⟨S1024x128, .f32⟩
  | .local _ .vmem, ⟨71, _⟩ => ⟨S1024x256, .f32⟩
  | .local _ .vmem, ⟨72, _⟩ => ⟨S1024x256, .f32⟩
  | .local _ .vmem, ⟨73, _⟩ => ⟨S256x128, .f32⟩
  | .local _ .vmem, ⟨74, _⟩ => ⟨S1x128, .f32⟩
  | .local _ .vmem, ⟨75, _⟩ => ⟨S1024x128, .f32⟩
  | .local _ .vmem, ⟨76, _⟩ => ⟨S1024x128, .f32⟩
  | .local _ .vmem, ⟨77, _⟩ => ⟨S1024x128, .f32⟩
  | .local _ .vmem, ⟨78, _⟩ => ⟨S1024x128, .f32⟩
  | .local _ .vmem, ⟨79, _⟩ => ⟨S1024x128, .f32⟩
  | .local _ .vmem, ⟨80, _⟩ => ⟨S128x128, .f32⟩
  | .local _ .vmem, ⟨81, _⟩ => ⟨S1x128, .f32⟩
  | .local _ .vmem, ⟨82, _⟩ => ⟨S1024x128, .f32⟩
  | .local _ .vmem, ⟨83, _⟩ => ⟨S1024x128, .f32⟩
  | .local _ .vmem, ⟨84, _⟩ => ⟨S1024x128, .f32⟩
  | .local _ .vmem, ⟨85, _⟩ => ⟨S1024x1024, .f32⟩
  | .local _ .vmem, ⟨86, _⟩ => ⟨S1024x1024, .f32⟩
  | .local _ .vmem, ⟨87, _⟩ => ⟨S1024x512, .f32⟩
  | .local _ .vmem, ⟨88, _⟩ => ⟨S1024x512, .f32⟩
  | .local _ .vmem, ⟨89, _⟩ => ⟨S1x512, .f32⟩
  | .local _ .vmem, ⟨90, _⟩ => ⟨S1024x512, .f32⟩
  | .local _ .vmem, ⟨91, _⟩ => ⟨S1024x512, .f32⟩
  | .local _ .vmem, ⟨92, _⟩ => ⟨S1024x512, .f32⟩
  | .local _ .vmem, ⟨93, _⟩ => ⟨S1024x1024, .f32⟩
  | .local _ .vmem, ⟨94, _⟩ => ⟨S1024x1024, .f32⟩
  | .local _ .vmem, ⟨95, _⟩ => ⟨S1024x640, .f32⟩
  | .local _ .vmem, ⟨96, _⟩ => ⟨S1024x640, .f32⟩
  | .local _ .vmem, ⟨97, _⟩ => ⟨S1x640, .f32⟩
  | .local _ .vmem, ⟨98, _⟩ => ⟨S1024x640, .f32⟩
  | .local _ .vmem, ⟨99, _⟩ => ⟨S1024x640, .f32⟩
  | .local _ .vmem, ⟨100, _⟩ => ⟨S1024x640, .f32⟩
  | .local _ .vmem, ⟨101, _⟩ => ⟨S1024x1024, .f32⟩
  | .local _ .vmem, ⟨102, _⟩ => ⟨S1024x1024, .f32⟩
  | .local _ .vmem, ⟨103, _⟩ => ⟨S1024x256, .f32⟩
  | .local _ .vmem, ⟨104, _⟩ => ⟨S1024x256, .f32⟩
  | .local _ .vmem, ⟨105, _⟩ => ⟨S1x256, .f32⟩
  | .local _ .vmem, ⟨106, _⟩ => ⟨S1024x256, .f32⟩
  | .local _ .vmem, ⟨107, _⟩ => ⟨S1024x256, .f32⟩
  | .local _ .vmem, ⟨108, _⟩ => ⟨S1024x256, .f32⟩
  | .local _ .vmem, ⟨109, _⟩ => ⟨S1024x1024, .f32⟩
  | .local _ .vmem, ⟨110, _⟩ => ⟨S1024x1024, .f32⟩
  | .local _ .vmem, ⟨111, _⟩ => ⟨S1024x128, .f32⟩
  | .local _ .vmem, ⟨112, _⟩ => ⟨S1024x128, .f32⟩
  | .local _ .vmem, ⟨113, _⟩ => ⟨S1x128, .f32⟩
  | .local _ .vmem, ⟨114, _⟩ => ⟨S1024x128, .f32⟩
  | .local _ .vmem, ⟨115, _⟩ => ⟨S1024x128, .f32⟩
  | .local _ .vmem, ⟨116, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_0 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_1 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_2 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_3 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_4 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_6 : Ref sig .tc := ⟨.hbm, 108, rfl⟩
abbrev main_v65 : Ref sig .tc := ⟨.hbm, 109, rfl⟩
abbrev main_cst_7 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_8 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_9 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_10 : Ref sig .tc := ⟨.hbm, 126, rfl⟩
abbrev main_v79 : Ref sig .tc := ⟨.hbm, 127, rfl⟩
abbrev main_cst_11 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_12 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_13 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_14 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc5_scratch0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc6_scratch0 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc7_scratch0 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg3_1 : Ref sig .tc := ⟨.vmem, 62, rfl⟩
abbrev cc8_scratch0 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc9_scratch0 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg2_0 : Ref sig .tc := ⟨.vmem, 74, rfl⟩
abbrev cc10_stg3_0 : Ref sig .tc := ⟨.vmem, 75, rfl⟩
abbrev cc10_stg3_1 : Ref sig .tc := ⟨.vmem, 76, rfl⟩
abbrev cc10_scratch0 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg2_0 : Ref sig .tc := ⟨.vmem, 81, rfl⟩
abbrev cc11_stg3_0 : Ref sig .tc := ⟨.vmem, 82, rfl⟩
abbrev cc11_stg3_1 : Ref sig .tc := ⟨.vmem, 83, rfl⟩
abbrev cc11_scratch0 : Ref sig .tc := ⟨.vmem, 84, rfl⟩
abbrev cc12_stg0_0 : Ref sig .tc := ⟨.vmem, 85, rfl⟩
abbrev cc12_stg0_1 : Ref sig .tc := ⟨.vmem, 86, rfl⟩
abbrev cc12_stg1_0 : Ref sig .tc := ⟨.vmem, 87, rfl⟩
abbrev cc12_stg1_1 : Ref sig .tc := ⟨.vmem, 88, rfl⟩
abbrev cc12_stg2_0 : Ref sig .tc := ⟨.vmem, 89, rfl⟩
abbrev cc12_stg3_0 : Ref sig .tc := ⟨.vmem, 90, rfl⟩
abbrev cc12_stg3_1 : Ref sig .tc := ⟨.vmem, 91, rfl⟩
abbrev cc12_scratch0 : Ref sig .tc := ⟨.vmem, 92, rfl⟩
abbrev cc13_stg0_0 : Ref sig .tc := ⟨.vmem, 93, rfl⟩
abbrev cc13_stg0_1 : Ref sig .tc := ⟨.vmem, 94, rfl⟩
abbrev cc13_stg1_0 : Ref sig .tc := ⟨.vmem, 95, rfl⟩
abbrev cc13_stg1_1 : Ref sig .tc := ⟨.vmem, 96, rfl⟩
abbrev cc13_stg2_0 : Ref sig .tc := ⟨.vmem, 97, rfl⟩
abbrev cc13_stg3_0 : Ref sig .tc := ⟨.vmem, 98, rfl⟩
abbrev cc13_stg3_1 : Ref sig .tc := ⟨.vmem, 99, rfl⟩
abbrev cc13_scratch0 : Ref sig .tc := ⟨.vmem, 100, rfl⟩
abbrev cc14_stg0_0 : Ref sig .tc := ⟨.vmem, 101, rfl⟩
abbrev cc14_stg0_1 : Ref sig .tc := ⟨.vmem, 102, rfl⟩
abbrev cc14_stg1_0 : Ref sig .tc := ⟨.vmem, 103, rfl⟩
abbrev cc14_stg1_1 : Ref sig .tc := ⟨.vmem, 104, rfl⟩
abbrev cc14_stg2_0 : Ref sig .tc := ⟨.vmem, 105, rfl⟩
abbrev cc14_stg3_0 : Ref sig .tc := ⟨.vmem, 106, rfl⟩
abbrev cc14_stg3_1 : Ref sig .tc := ⟨.vmem, 107, rfl⟩
abbrev cc14_scratch0 : Ref sig .tc := ⟨.vmem, 108, rfl⟩
abbrev cc15_stg0_0 : Ref sig .tc := ⟨.vmem, 109, rfl⟩
abbrev cc15_stg0_1 : Ref sig .tc := ⟨.vmem, 110, rfl⟩
abbrev cc15_stg1_0 : Ref sig .tc := ⟨.vmem, 111, rfl⟩
abbrev cc15_stg1_1 : Ref sig .tc := ⟨.vmem, 112, rfl⟩
abbrev cc15_stg2_0 : Ref sig .tc := ⟨.vmem, 113, rfl⟩
abbrev cc15_stg3_0 : Ref sig .tc := ⟨.vmem, 114, rfl⟩
abbrev cc15_stg3_1 : Ref sig .tc := ⟨.vmem, 115, rfl⟩
abbrev cc15_scratch0 : Ref sig .tc := ⟨.vmem, 116, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem3_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem3_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc7_sem3_1 : DmaSem sig := 48
abbrev cc8_sem0_0 : DmaSem sig := 49
abbrev cc8_sem0_1 : DmaSem sig := 50
abbrev cc8_sem1_0 : DmaSem sig := 51
abbrev cc8_sem2_0 : DmaSem sig := 52
abbrev cc8_sem3_0 : DmaSem sig := 53
abbrev cc8_sem3_1 : DmaSem sig := 54
abbrev cc9_sem0_0 : DmaSem sig := 55
abbrev cc9_sem0_1 : DmaSem sig := 56
abbrev cc9_sem1_0 : DmaSem sig := 57
abbrev cc9_sem2_0 : DmaSem sig := 58
abbrev cc9_sem3_0 : DmaSem sig := 59
abbrev cc9_sem3_1 : DmaSem sig := 60
abbrev cc10_sem0_0 : DmaSem sig := 61
abbrev cc10_sem0_1 : DmaSem sig := 62
abbrev cc10_sem1_0 : DmaSem sig := 63
abbrev cc10_sem2_0 : DmaSem sig := 64
abbrev cc10_sem3_0 : DmaSem sig := 65
abbrev cc10_sem3_1 : DmaSem sig := 66
abbrev cc11_sem0_0 : DmaSem sig := 67
abbrev cc11_sem0_1 : DmaSem sig := 68
abbrev cc11_sem1_0 : DmaSem sig := 69
abbrev cc11_sem2_0 : DmaSem sig := 70
abbrev cc11_sem3_0 : DmaSem sig := 71
abbrev cc11_sem3_1 : DmaSem sig := 72
abbrev cc12_sem0_0 : DmaSem sig := 73
abbrev cc12_sem0_1 : DmaSem sig := 74
abbrev cc12_sem1_0 : DmaSem sig := 75
abbrev cc12_sem1_1 : DmaSem sig := 76
abbrev cc12_sem2_0 : DmaSem sig := 77
abbrev cc12_sem3_0 : DmaSem sig := 78
abbrev cc12_sem3_1 : DmaSem sig := 79
abbrev cc13_sem0_0 : DmaSem sig := 80
abbrev cc13_sem0_1 : DmaSem sig := 81
abbrev cc13_sem1_0 : DmaSem sig := 82
abbrev cc13_sem1_1 : DmaSem sig := 83
abbrev cc13_sem2_0 : DmaSem sig := 84
abbrev cc13_sem3_0 : DmaSem sig := 85
abbrev cc13_sem3_1 : DmaSem sig := 86
abbrev cc14_sem0_0 : DmaSem sig := 87
abbrev cc14_sem0_1 : DmaSem sig := 88
abbrev cc14_sem1_0 : DmaSem sig := 89
abbrev cc14_sem1_1 : DmaSem sig := 90
abbrev cc14_sem2_0 : DmaSem sig := 91
abbrev cc14_sem3_0 : DmaSem sig := 92
abbrev cc14_sem3_1 : DmaSem sig := 93
abbrev cc15_sem0_0 : DmaSem sig := 94
abbrev cc15_sem0_1 : DmaSem sig := 95
abbrev cc15_sem1_0 : DmaSem sig := 96
abbrev cc15_sem1_1 : DmaSem sig := 97
abbrev cc15_sem2_0 : DmaSem sig := 98
abbrev cc15_sem3_0 : DmaSem sig := 99
abbrev cc15_sem3_1 : DmaSem sig := 100

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 1], ![false, false]⟩

def k1_cond2 (i : grid1.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S768x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 1], ![false, false]⟩

def k2_cond2 (i : grid2.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S768x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 1], ![false, false]⟩

def k3_cond2 (i : grid3.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S768x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 1], ![false, false]⟩

def k4_cond2 (i : grid4.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![4, 1], ![false, false]⟩

def k5_cond2 (i : grid5.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S64x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1024x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![4, 1], ![false, false]⟩

def k6_cond2 (i : grid6.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1024x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![4, 1], ![false, false]⟩

def k7_cond2 (i : grid7.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S64x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1024x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![4, 1], ![false, false]⟩

def k8_cond2 (i : grid8.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 1 → Memref sig .tc .vmem S256x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1024x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨2, ![4, 1], ![false, false]⟩

def k9_cond2 (i : grid9.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1024x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1024x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, false]

abbrev grid10 : Pipeline.Grid := ⟨2, ![4, 1], ![false, false]⟩

def k10_cond2 (i : grid10.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S1024x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S256x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S1024x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![4, 1], ![false, false]⟩

def k11_cond2 (i : grid11.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1024x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 2 → Memref sig .tc .vmem S1024x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, false]

abbrev grid12 : Pipeline.Grid := ⟨2, ![8, 4], ![false, false]⟩

def k12_cond2 (i : grid12.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage12_0 : Fin 2 → Memref sig .tc .vmem S1024x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 2 → Memref sig .tc .vmem S1024x512 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 1 → Memref sig .tc .vmem S1x512 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false, false]

abbrev stage12_3 : Fin 2 → Memref sig .tc .vmem S1024x512 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, false]

abbrev grid13 : Pipeline.Grid := ⟨2, ![4, 8], ![false, false]⟩

def k13_cond2 (i : grid13.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage13_0 : Fin 2 → Memref sig .tc .vmem S1024x1024 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, true]

abbrev stage13_1 : Fin 2 → Memref sig .tc .vmem S1024x640 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 1 → Memref sig .tc .vmem S1x640 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false, false]

abbrev stage13_3 : Fin 2 → Memref sig .tc .vmem S1024x640 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, false]

abbrev grid14 : Pipeline.Grid := ⟨2, ![8, 4], ![false, false]⟩

def k14_cond2 (i : grid14.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 2 → Memref sig .tc .vmem S1024x1024 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, true]

abbrev stage14_1 : Fin 2 → Memref sig .tc .vmem S1024x256 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false, false]

abbrev stage14_3 : Fin 2 → Memref sig .tc .vmem S1024x256 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, false]

abbrev grid15 : Pipeline.Grid := ⟨2, ![4, 8], ![false, false]⟩

def k15_cond2 (i : grid15.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage15_0 : Fin 2 → Memref sig .tc .vmem S1024x1024 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, true]

abbrev stage15_1 : Fin 2 → Memref sig .tc .vmem S1024x128 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false, false]

abbrev stage15_3 : Fin 2 → Memref sig .tc .vmem S1024x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, false]

class Facts₀ : Prop where
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x768_S1024x768_0_0 : ∀ a, (![0, 0] : Fin 2 → Nat) a + S1024x768.size a ≤ S1024x768.size a
  h_S1024x768 : 0 < S1024x768.numel
  inb_S768x128_S768x128_0_0 : ∀ a, (![0, 0] : Fin 2 → Nat) a + S768x128.size a ≤ S768x128.size a
  h_S768x128 : 0 < S768x128.numel
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S1_S1x1 : S1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  bcast_S4096x1_S4096x128_0_1 : S4096x1.BroadcastsInDim S4096x128 (![0, 1] : Fin 2 → Fin S4096x128.rank)
  concatenates_S4096x128_S4096x128_S4096x256_d1 : Shape.Concatenates [S4096x128, S4096x128] S4096x256 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  bcast_S_S4096x128 : S_.BroadcastsInDim S4096x128 (![] : Fin 0 → Fin S4096x128.rank)
  concatenates_S4096x128_S4096x128_S4096x128_S4096x128_S4096x512_d1 : Shape.Concatenates [S4096x128, S4096x128, S4096x128, S4096x128] S4096x512 1
  bcast_S_S512 : S_.BroadcastsInDim S512 (![] : Fin 0 → Fin S512.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S8192x512_S8192x128_0_0 : S8192x512.Slices ![0, 0] S8192x128
  slices_S8192x512_S8192x128_0_128 : S8192x512.Slices ![0, 128] S8192x128
  slices_S8192x512_S8192x128_0_256 : S8192x512.Slices ![0, 256] S8192x128
  slices_S8192x512_S8192x128_0_384 : S8192x512.Slices ![0, 384] S8192x128
  concatenates_S8192x128_S8192x128_S8192x128_S8192x128_S8192x128_S8192x640_d1 : Shape.Concatenates [S8192x128, S8192x128, S8192x128, S8192x128, S8192x128] S8192x640 1
  bcast_S_S640 : S_.BroadcastsInDim S640 (![] : Fin 0 → Fin S640.rank)
  shapeCasts_S640_S1x640 : S640.ShapeCasts S1x640
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S1024x640 : S1x640.Broadcasts S1024x640
  slices_S4096x640_S4096x128_0_0 : S4096x640.Slices ![0, 0] S4096x128
  slices_S4096x640_S4096x128_0_128 : S4096x640.Slices ![0, 128] S4096x128
  slices_S4096x640_S4096x128_0_256 : S4096x640.Slices ![0, 256] S4096x128
  slices_S4096x640_S4096x128_0_384 : S4096x640.Slices ![0, 384] S4096x128
  slices_S4096x640_S4096x128_0_512 : S4096x640.Slices ![0, 512] S4096x128
  bcast_S_S256 : S_.BroadcastsInDim S256 (![] : Fin 0 → Fin S256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S8192x256_S8192x128_0_0 : S8192x256.Slices ![0, 0] S8192x128
  slices_S8192x256_S8192x128_0_128 : S8192x256.Slices ![0, 128] S8192x128
  reducesTo_S8192x128_S8192_d1 : S8192x128.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S128 : S_.BroadcastsInDim S128 (![] : Fin 0 → Fin S128.rank)
  reducesTo_S4096x128_S4096_d1 : S4096x128.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S_S8192x128 : S_.BroadcastsInDim S8192x128 (![] : Fin 0 → Fin S8192x128.rank)
  concatenates_S4096x128_S4096x128_S4096x128_S4096x128_S4096x128_S4096x640_d1 : Shape.Concatenates [S4096x128, S4096x128, S4096x128, S4096x128, S4096x128] S4096x640 1
  concatenates_S8192x640_S4096x640_S12288x640_d0 : Shape.Concatenates [S8192x640, S4096x640] S12288x640 0
  dot_S1024x1024_S1024x128_S1024x128_1_0_0_1_n_n_wf : DotDims.WF S1024x1024 S1024x128 S1024x128 [1] [0] [0] [1] [] []
  dot_S1024x768_S768x128_S1024x128_1_0_0_1_n_n_wf : DotDims.WF S1024x768 S768x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x1024_S1024x512_S1024x512_1_0_0_1_n_n_wf : DotDims.WF S1024x1024 S1024x512 S1024x512 [1] [0] [0] [1] [] []
  dot_S1024x1024_S1024x640_S1024x640_1_0_0_1_n_n_wf : DotDims.WF S1024x1024 S1024x640 S1024x640 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .f32 = 32 ∨ (Rect.block (s := S4096x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S4096x768.size a
  hwx1_0 : ∀ i : grid1.Coords, EltTy.bits .f32 = 32 ∨ (Rect.block (s := S4096x768) S1024x768.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S768x128.size a ≤ S768x128.size a
  hwx1_1 : ∀ i : grid1.Coords, EltTy.bits .f32 = 32 ∨ (Rect.block (s := S768x128) S768x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .f32 = 32 ∨ (Rect.block (s := S4096x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S8192x768.size a
  hwx2_0 : ∀ i : grid2.Coords, EltTy.bits .f32 = 32 ∨ (Rect.block (s := S8192x768) S1024x768.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S768x128.size a ≤ S768x128.size a
  hwx2_1 : ∀ i : grid2.Coords, EltTy.bits .f32 = 32 ∨ (Rect.block (s := S768x128) S768x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x768.size a ≤ S4096x768.size a
  hwx3_0 : ∀ i : grid3.Coords, EltTy.bits .f32 = 32 ∨ (Rect.block (s := S4096x768) S1024x768.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S768x128.size a ≤ S768x128.size a
  hwx3_1 : ∀ i : grid3.Coords, EltTy.bits .f32 = 32 ∨ (Rect.block (s := S768x128) S768x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S4096x128.size a
  hwx3_3 : ∀ i : grid3.Coords, EltTy.bits .f32 = 32 ∨ (Rect.block (s := S4096x128) S1024x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S4096x128.size a
  hwx4_0 : ∀ i : grid4.Coords, EltTy.bits .f32 = 32 ∨ (Rect.block (s := S4096x128) S1024x128.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x64.size a ≤ S4096x64.size a
  hwx4_3 : ∀ i : grid4.Coords, EltTy.bits .f32 = 32 ∨ (Rect.block (s := S4096x64) S1024x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x64.size a ≤ S4096x64.size a
  hwx5_0 : ∀ i : grid5.Coords, EltTy.bits .f32 = 32 ∨ (Rect.block (s := S4096x64) S1024x64.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S64x1.size a ≤ S64x1.size a
  hwx5_1 : ∀ i : grid5.Coords, EltTy.bits .f32 = 32 ∨ (Rect.block (s := S64x1) S64x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1.size a ≤ S4096x1.size a
  hwx5_3 : ∀ i : grid5.Coords, EltTy.bits .f32 = 32 ∨ (Rect.block (s := S4096x1) S1024x1.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S4096x128.size a
  hwx6_0 : ∀ i : grid6.Coords, EltTy.bits .f32 = 32 ∨ (Rect.block (s := S4096x128) S1024x128.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x64.size a ≤ S4096x64.size a
  hwx6_3 : ∀ i : grid6.Coords, EltTy.bits .f32 = 32 ∨ (Rect.block (s := S4096x64) S1024x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x64.size a ≤ S4096x64.size a
  hwx7_0 : ∀ i : grid7.Coords, EltTy.bits .f32 = 32 ∨ (Rect.block (s := S4096x64) S1024x64.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S64x1.size a ≤ S64x1.size a
  hwx7_1 : ∀ i : grid7.Coords, EltTy.bits .f32 = 32 ∨ (Rect.block (s := S64x1) S64x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x1.size a ≤ S4096x1.size a
  hwx7_3 : ∀ i : grid7.Coords, EltTy.bits .f32 = 32 ∨ (Rect.block (s := S4096x1) S1024x1.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x256.size a ≤ S4096x256.size a
  hwx8_0 : ∀ i : grid8.Coords, EltTy.bits .f32 = 32 ∨ (Rect.block (s := S4096x256) S1024x256.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .f32 = 32 ∨ (Rect.block (s := S256x128) S256x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x128.size a ≤ S4096x128.size a
  hwx8_3 : ∀ i : grid8.Coords, EltTy.bits .f32 = 32 ∨ (Rect.block (s := S4096x128) S1024x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x128.size a ≤ S4096x128.size a
  hwx9_0 : ∀ i : grid9.Coords, EltTy.bits .f32 = 32 ∨ (Rect.block (s := S4096x128) S1024x128.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x128.size a ≤ S4096x128.size a
  hwx9_3 : ∀ i : grid9.Coords, EltTy.bits .f32 = 32 ∨ (Rect.block (s := S4096x128) S1024x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x256.size a ≤ S4096x256.size a
  hwx10_0 : ∀ i : grid10.Coords, EltTy.bits .f32 = 32 ∨ (Rect.block (s := S4096x256) S1024x256.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S256x128.size a ≤ S256x128.size a
  hwx10_1 : ∀ i : grid10.Coords, EltTy.bits .f32 = 32 ∨ (Rect.block (s := S256x128) S256x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1024x128.size a ≤ S4096x128.size a
  hwx10_3 : ∀ i : grid10.Coords, EltTy.bits .f32 = 32 ∨ (Rect.block (s := S4096x128) S1024x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x128.size a ≤ S4096x128.size a
  hwx11_0 : ∀ i : grid11.Coords, EltTy.bits .f32 = 32 ∨ (Rect.block (s := S4096x128) S1024x128.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1024x128.size a ≤ S4096x128.size a
  hwx11_3 : ∀ i : grid11.Coords, EltTy.bits .f32 = 32 ∨ (Rect.block (s := S4096x128) S1024x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x1024.size a ≤ S8192x4096.size a
  hwx12_0 : ∀ i : grid12.Coords, EltTy.bits .f32 = 32 ∨ (Rect.block (s := S8192x4096) S1024x1024.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1024x512.size a ≤ S4096x512.size a
  hwx12_1 : ∀ i : grid12.Coords, EltTy.bits .f32 = 32 ∨ (Rect.block (s := S4096x512) S1024x512.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x512.size a ≤ S1x512.size a
  hwx12_2 : ∀ i : grid12.Coords, EltTy.bits .f32 = 32 ∨ (Rect.block (s := S1x512) S1x512.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S1024x512.size a ≤ S8192x512.size a
  hwx12_3 : ∀ i : grid12.Coords, EltTy.bits .f32 = 32 ∨ (Rect.block (s := S8192x512) S1024x512.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x1024.size a ≤ S4096x8192.size a
  hwx13_0 : ∀ i : grid13.Coords, EltTy.bits .f32 = 32 ∨ (Rect.block (s := S4096x8192) S1024x1024.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1024x640.size a ≤ S8192x640.size a
  hwx13_1 : ∀ i : grid13.Coords, EltTy.bits .f32 = 32 ∨ (Rect.block (s := S8192x640) S1024x640.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x640.size a ≤ S1x640.size a
  hwx13_2 : ∀ i : grid13.Coords, EltTy.bits .f32 = 32 ∨ (Rect.block (s := S1x640) S1x640.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S1024x640.size a ≤ S4096x640.size a
  hwx13_3 : ∀ i : grid13.Coords, EltTy.bits .f32 = 32 ∨ (Rect.block (s := S4096x640) S1024x640.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S1024x1024.size a ≤ S8192x4096.size a
  hwx14_0 : ∀ i : grid14.Coords, EltTy.bits .f32 = 32 ∨ (Rect.block (s := S8192x4096) S1024x1024.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1024x256.size a ≤ S4096x256.size a
  hwx14_1 : ∀ i : grid14.Coords, EltTy.bits .f32 = 32 ∨ (Rect.block (s := S4096x256) S1024x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S1024x256.size a ≤ S8192x256.size a
  hwx14_3 : ∀ i : grid14.Coords, EltTy.bits .f32 = 32 ∨ (Rect.block (s := S8192x256) S1024x256.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1024x1024.size a ≤ S4096x8192.size a
  hwx15_0 : ∀ i : grid15.Coords, EltTy.bits .f32 = 32 ∨ (Rect.block (s := S4096x8192) S1024x1024.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1024x128.size a ≤ S8192x128.size a
  hwx15_1 : ∀ i : grid15.Coords, EltTy.bits .f32 = 32 ∨ (Rect.block (s := S8192x128) S1024x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S1024x128.size a ≤ S4096x128.size a
  hwx15_3 : ∀ i : grid15.Coords, EltTy.bits .f32 = 32 ∨ (Rect.block (s := S4096x128) S1024x128.size (cc15_transform_3 i) (hinb15_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x768_S768x128_S1024x128_1_0_0_1_n_n : DotDims S1024x768 S768x128 S1024x128 where
  lhsContracting := [1]
  rhsContracting := [0]
  lhsNonContracting := [0]
  rhsNonContracting := [1]
  lhsBatch := []
  rhsBatch := []
  wf := dot_S1024x768_S768x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x640_S1024x640_1_0_0_1_n_n : DotDims S1024x1024 S1024x640 S1024x640 where
  lhsContracting := [1]
  rhsContracting := [0]
  lhsNonContracting := [0]
  rhsNonContracting := [1]
  lhsBatch := []
  rhsBatch := []
  wf := dot_S1024x1024_S1024x640_S1024x640_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg7) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S768x128.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg8) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S768x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg9) S1024x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S768x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v1) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg20) S128x64.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S1024x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v9) S1024x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg22) S64x1.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v10) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v11) S1024x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v3) S1024x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg24) S128x64.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v14) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v15) S1024x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v15) S1024x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg26) S64x1.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v16) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v17) S1024x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v20) S1024x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg28) S256x128.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v21) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v22) S1024x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v22) S1024x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg30) S128x128.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v23) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v24) S1024x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v31) S1024x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg32) S256x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v32) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v33) S1024x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v33) S1024x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg34) S128x128.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v34) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v35) S1024x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun _ => false | 3 => fun i => !(k11_cond2 i == 1#1) | ⟨_ + 4, h⟩ => absurd h (Nat.not_lt.2 (Nat.le_add_left _ _))

abbrev win12_0 : Pipeline.Window sig grid12 :=
  Pipeline.Window.ofSpec (Memref.whole main_arg0) S1024x1024.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v42) S1024x512.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v44) S1x512.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v45) S1024x512.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev idle12 : Fin 4 → grid12.Coords → Bool := fun | 0 => fun _ => false | 1 => fun _ => false | 2 => fun _ => false | 3 => fun i => !(k12_cond2 i == 1#1) | ⟨_ + 4, h⟩ => absurd h (Nat.not_lt.2 (Nat.le_add_left _ _))

abbrev win13_0 : Pipeline.Window sig grid13 :=
  Pipeline.Window.ofSpec (Memref.whole main_arg1) S1024x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v50) S1024x640.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v52) S1x640.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v53) S1024x640.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev idle13 : Fin 4 → grid13.Coords → Bool := fun | 0 => fun _ => false | 1 => fun _ => false | 2 => fun _ => false | 3 => fun i => !(k13_cond2 i == 1#1) | ⟨_ + 4, h⟩ => absurd h (Nat.not_lt.2 (Nat.le_add_left _ _))

abbrev win14_0 : Pipeline.Window sig grid14 :=
  Pipeline.Window.ofSpec (Memref.whole main_arg0) S1024x1024.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v59) S1024x256.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v61) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v62) S1024x256.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev idle14 : Fin 4 → grid14.Coords → Bool := fun | 0 => fun _ => false | 1 => fun _ => false | 2 => fun _ => false | 3 => fun i => !(k14_cond2 i == 1#1) | ⟨_ + 4, h⟩ => absurd h (Nat.not_lt.2 (Nat.le_add_left _ _))

abbrev win15_0 : Pipeline.Window sig grid15 :=
  Pipeline.Window.ofSpec (Memref.whole main_arg1) S1024x1024.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v75) S1024x128.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v77) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v78) S1024x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev idle15 : Fin 4 → grid15.Coords → Bool := fun | 0 => fun _ => false | 1 => fun _ => false | 2 => fun _ => false | 3 => fun i => !(k15_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x8192 : Shape := ⟨2, ![4096, 8192]⟩
abbrev S4096x4096 : Shape := ⟨2, ![4096, 4096]⟩
abbrev S4096x768 : Shape := ⟨2, ![4096, 768]⟩
abbrev S8192x768 : Shape := ⟨2, ![8192, 768]⟩
abbrev S4096x128 : Shape := ⟨2, ![4096, 128]⟩
abbrev S128 : Shape := ⟨1, ![128]⟩
abbrev S768x128 : Shape := ⟨2, ![768, 128]⟩
abbrev S8192x128 : Shape := ⟨2, ![8192, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128x128 : Shape := ⟨2, ![128, 128]⟩
abbrev S1x128 : Shape := ⟨2, ![1, 128]⟩
abbrev S4096x64 : Shape := ⟨2, ![4096, 64]⟩
abbrev S1x64 : Shape := ⟨2, ![1, 64]⟩
abbrev S_ : Shape := ⟨0, ![]⟩
abbrev S4096x1 : Shape := ⟨2, ![4096, 1]⟩
abbrev S1x1 : Shape := ⟨2, ![1, 1]⟩
abbrev S4096x256 : Shape := ⟨2, ![4096, 256]⟩
abbrev S8192 : Shape := ⟨1, ![8192]⟩
abbrev S8192x1 : Shape := ⟨2, ![8192, 1]⟩
abbrev S4096 : Shape := ⟨1, ![4096]⟩
abbrev S1x8192x128 : Shape := ⟨3, ![1, 8192, 128]⟩
abbrev S3x8192x128 : Shape := ⟨3, ![3, 8192, 128]⟩
abbrev S1x4096x128 : Shape := ⟨3, ![1, 4096, 128]⟩
abbrev S3x4096x128 : Shape := ⟨3, ![3, 4096, 128]⟩
abbrev S8192x640 : Shape := ⟨2, ![8192, 640]⟩
abbrev S4096x640 : Shape := ⟨2, ![4096, 640]⟩
abbrev S12288x640 : Shape := ⟨2, ![12288, 640]⟩

abbrev nBuf : Space → Nat
  | .hbm => 195
  | .vmem => 0
  | .smem => 0
  | _ => 0

abbrev hbmTy0_0 (i : Nat) : BufTy := match i % 128 with
  | 0 => ⟨S8192x4096, .f32⟩
  | 1 => ⟨S4096x8192, .f32⟩
  | 2 => ⟨S8192x4096, .f32⟩
  | 3 => ⟨S4096x8192, .f32⟩
  | 4 => ⟨S8192x4096, .f32⟩
  | 5 => ⟨S4096x8192, .f32⟩
  | 6 => ⟨S4096x4096, .f32⟩
  | 7 => ⟨S4096x768, .f32⟩
  | 8 => ⟨S8192x768, .f32⟩
  | 9 => ⟨S4096x768, .f32⟩
  | 10 => ⟨S4096x128, .f32⟩
  | 11 => ⟨S128, .f32⟩
  | 12 => ⟨S768x128, .f32⟩
  | 13 => ⟨S128, .f32⟩
  | 14 => ⟨S768x128, .f32⟩
  | 15 => ⟨S128, .f32⟩
  | 16 => ⟨S768x128, .f32⟩
  | 17 => ⟨S128, .f32⟩
  | 18 => ⟨S8192x128, .f32⟩
  | 19 => ⟨S4096x128, .f32⟩
  | 20 => ⟨S128x64, .f32⟩
  | 21 => ⟨S64, .f32⟩
  | 22 => ⟨S64x1, .f32⟩
  | 23 => ⟨S1, .f32⟩
  | 24 => ⟨S128x64, .f32⟩
  | 25 => ⟨S64, .f32⟩
  | 26 => ⟨S64x1, .f32⟩
  | 27 => ⟨S1, .f32⟩
  | 28 => ⟨S256x128, .f32⟩
  | 29 => ⟨S128, .f32⟩
  | 30 => ⟨S128x128, .f32⟩
  | 31 => ⟨S128, .f32⟩
  | 32 => ⟨S256x128, .f32⟩
  | 33 => ⟨S128, .f32⟩
  | 34 => ⟨S128x128, .f32⟩
  | 35 => ⟨S128, .f32⟩
  | 36 => ⟨S4096x128, .f32⟩
  | 37 => ⟨S1x128, .f32⟩
  | 38 => ⟨S4096x128, .f32⟩
  | 39 => ⟨S4096x128, .f32⟩
  | 40 => ⟨S4096x128, .f32⟩
  | 41 => ⟨S1x128, .f32⟩
  | 42 => ⟨S4096x128, .f32⟩
  | 43 => ⟨S4096x128, .f32⟩
  | 44 => ⟨S8192x128, .f32⟩
  | 45 => ⟨S1x128, .f32⟩
  | 46 => ⟨S8192x128, .f32⟩
  | 47 => ⟨S8192x128, .f32⟩
  | 48 => ⟨S4096x128, .f32⟩
  | 49 => ⟨S1x128, .f32⟩
  | 50 => ⟨S4096x128, .f32⟩
  | 51 => ⟨S4096x128, .f32⟩
  | 52 => ⟨S4096x64, .f32⟩
  | 53 => ⟨S1x64, .f32⟩
  | 54 => ⟨S4096x64, .f32⟩
  | 55 => ⟨S4096x64, .f32⟩
  | 56 => ⟨S_, .f32⟩
  | 57 => ⟨S4096x64, .f32⟩
  | 58 => ⟨S4096x64, .f32⟩
  | 59 => ⟨S4096x1, .f32⟩
  | 60 => ⟨S1x1, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x128, .f32⟩
  | 72 => ⟨S4096x128, .f32⟩
  | 73 => ⟨S4096x64, .f32⟩
  | 74 => ⟨S1x64, .f32⟩
  | 75 => ⟨S4096x64, .f32⟩
  | 76 => ⟨S4096x64, .f32⟩
  | 77 => ⟨S_, .f32⟩
  | 78 => ⟨S4096x64, .f32⟩
  | 79 => ⟨S4096x64, .f32⟩
  | 80 => ⟨S4096x1, .f32⟩
  | 81 => ⟨S1x1, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x128, .f32⟩
  | 93 => ⟨S4096x128, .f32⟩
  | 94 => ⟨S4096x256, .f32⟩
  | 95 => ⟨S4096x128, .f32⟩
  | 96 => ⟨S1x128, .f32⟩
  | 97 => ⟨S4096x128, .f32⟩
  | 98 => ⟨S4096x128, .f32⟩
  | 99 => ⟨S_, .f32⟩
  | 100 => ⟨S4096x128, .f32⟩
  | 101 => ⟨S4096x128, .f32⟩
  | 102 => ⟨S4096x128, .f32⟩
  | 103 => ⟨S1x128, .f32⟩
  | 104 => ⟨S4096x128, .f32⟩
  | 105 => ⟨S4096x128, .f32⟩
  | 106 => ⟨S_, .f32⟩
  | 107 => ⟨S4096x128, .f32⟩
  | 108 => ⟨S4096x128, .f32⟩
  | 109 => ⟨S4096x128, .f32⟩
  | 110 => ⟨S_, .f32⟩
  | 111 => ⟨S4096x128, .f32⟩
  | 112 => ⟨S4096x128, .f32⟩
  | 113 => ⟨S4096x128, .f32⟩
  | 114 => ⟨S4096x256, .f32⟩
  | 115 => ⟨S4096x128, .f32⟩
  | 116 => ⟨S1x128, .f32⟩
  | 117 => ⟨S4096x128, .f32⟩
  | 118 => ⟨S4096x128, .f32⟩
  | 119 => ⟨S_, .f32⟩
  | 120 => ⟨S4096x128, .f32⟩
  | 121 => ⟨S4096x128, .f32⟩
  | 122 => ⟨S4096x128, .f32⟩
  | 123 => ⟨S1x128, .f32⟩
  | 124 => ⟨S4096x128, .f32⟩
  | 125 => ⟨S4096x128, .f32⟩
  | 126 => ⟨S_, .f32⟩
  | 127 => ⟨S4096x128, .f32⟩
  | _ => ⟨S8192x4096, .f32⟩

abbrev hbmTy0_1 (i : Nat) : BufTy := match i % 128 with
  | 0 => ⟨S4096x128, .f32⟩
  | 1 => ⟨S4096x128, .f32⟩
  | 2 => ⟨S_, .f32⟩
  | 3 => ⟨S4096x128, .f32⟩
  | 4 => ⟨S4096x128, .f32⟩
  | 5 => ⟨S4096x128, .f32⟩
  | 6 => ⟨S8192x128, .f32⟩
  | 7 => ⟨S4096x128, .f32⟩
  | 8 => ⟨S8192x128, .f32⟩
  | 9 => ⟨S4096x128, .f32⟩
  | 10 => ⟨S8192x128, .f32⟩
  | 11 => ⟨S4096x128, .f32⟩
  | 12 => ⟨S4096x128, .f32⟩
  | 13 => ⟨S8192x128, .f32⟩
  | 14 => ⟨S8192x128, .f32⟩
  | 15 => ⟨S4096x128, .f32⟩
  | 16 => ⟨S8192x128, .f32⟩
  | 17 => ⟨S_, .f32⟩
  | 18 => ⟨S8192, .f32⟩
  | 19 => ⟨S_, .f32⟩
  | 20 => ⟨S8192, .f32⟩
  | 21 => ⟨S8192, .f32⟩
  | 22 => ⟨S8192x1, .f32⟩
  | 23 => ⟨S8192x128, .f32⟩
  | 24 => ⟨S8192x128, .f32⟩
  | 25 => ⟨S8192x128, .f32⟩
  | 26 => ⟨S_, .f32⟩
  | 27 => ⟨S8192, .f32⟩
  | 28 => ⟨S8192x1, .f32⟩
  | 29 => ⟨S8192x128, .f32⟩
  | 30 => ⟨S8192x128, .f32⟩
  | 31 => ⟨S4096x128, .f32⟩
  | 32 => ⟨S_, .f32⟩
  | 33 => ⟨S4096, .f32⟩
  | 34 => ⟨S_, .f32⟩
  | 35 => ⟨S4096, .f32⟩
  | 36 => ⟨S4096, .f32⟩
  | 37 => ⟨S4096x1, .f32⟩
  | 38 => ⟨S4096x128, .f32⟩
  | 39 => ⟨S4096x128, .f32⟩
  | 40 => ⟨S4096x128, .f32⟩
  | 41 => ⟨S_, .f32⟩
  | 42 => ⟨S4096, .f32⟩
  | 43 => ⟨S4096x1, .f32⟩
  | 44 => ⟨S4096x128, .f32⟩
  | 45 => ⟨S4096x128, .f32⟩
  | 46 => ⟨S1x8192x128, .f32⟩
  | 47 => ⟨S1x8192x128, .f32⟩
  | 48 => ⟨S1x8192x128, .f32⟩
  | 49 => ⟨S3x8192x128, .f32⟩
  | 50 => ⟨S_, .f32⟩
  | 51 => ⟨S8192x128, .f32⟩
  | 52 => ⟨S_, .f32⟩
  | 53 => ⟨S8192x128, .f32⟩
  | 54 => ⟨S8192x128, .f32⟩
  | 55 => ⟨S1x4096x128, .f32⟩
  | 56 => ⟨S1x4096x128, .f32⟩
  | 57 => ⟨S1x4096x128, .f32⟩
  | 58 => ⟨S3x4096x128, .f32⟩
  | 59 => ⟨S_, .f32⟩
  | 60 => ⟨S4096x128, .f32⟩
  | 61 => ⟨S_, .f32⟩
  | 62 => ⟨S4096x128, .f32⟩
  | 63 => ⟨S4096x128, .f32⟩
  | 64 => ⟨S8192x640, .f32⟩
  | 65 => ⟨S4096x640, .f32⟩
  | 66 => ⟨S12288x640, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_call0_cst : Ref sig .tc := ⟨.hbm, 56, rfl⟩
abbrev main_call0_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst : Ref sig .tc := ⟨.hbm, 65, rfl⟩
abbrev main_v27 : Ref sig .tc := ⟨.hbm, 66, rfl⟩
abbrev main_v28 : Ref sig .tc := ⟨.hbm, 67, rfl⟩
abbrev main_cst_0 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call1_cst : Ref sig .tc := ⟨.hbm, 77, rfl⟩
abbrev main_call1_v0 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_1 : Ref sig .tc := ⟨.hbm, 86, rfl⟩
abbrev main_v44 : Ref sig .tc := ⟨.hbm, 87, rfl⟩
abbrev main_v45 : Ref sig .tc := ⟨.hbm, 88, rfl⟩
abbrev main_cst_2 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call2_cst : Ref sig .tc := ⟨.hbm, 99, rfl⟩
abbrev main_call2_v0 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_3 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_4 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_call3_cst : Ref sig .tc := ⟨.hbm, 119, rfl⟩
abbrev main_call3_v0 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_5 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_6 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_7 : Ref sig .tc := ⟨.hbm, 145, rfl⟩
abbrev main_v93 : Ref sig .tc := ⟨.hbm, 146, rfl⟩
abbrev main_cst_8 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_9 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_10 : Ref sig .tc := ⟨.hbm, 160, rfl⟩
abbrev main_v105 : Ref sig .tc := ⟨.hbm, 161, rfl⟩
abbrev main_cst_11 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_12 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_13 : Ref sig .tc := ⟨.hbm, 178, rfl⟩
abbrev main_v120 : Ref sig .tc := ⟨.hbm, 179, rfl⟩
abbrev main_cst_14 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_15 : Ref sig .tc := ⟨.hbm, 187, rfl⟩
abbrev main_v127 : Ref sig .tc := ⟨.hbm, 188, rfl⟩
abbrev main_cst_16 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S1x128_S8192x128_0_1 : S1x128.BroadcastsInDim S8192x128 (![0, 1] : Fin 2 → Fin S8192x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S4096x256_d1 : Shape.Concatenates [S4096x128, S4096x128] S4096x256 1
  bcast_S_S4096x128 : S_.BroadcastsInDim S4096x128 (![] : Fin 0 → Fin S4096x128.rank)
  reducesTo_S8192x128_S8192_d1 : S8192x128.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  reducesTo_S4096x128_S4096_d1 : S4096x128.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S8192x128_S1x8192x128_1_2 : S8192x128.BroadcastsInDim S1x8192x128 (![1, 2] : Fin 2 → Fin S1x8192x128.rank)
  concatenates_S1x8192x128_S1x8192x128_S1x8192x128_S3x8192x128_d0 : Shape.Concatenates [S1x8192x128, S1x8192x128, S1x8192x128] S3x8192x128 0
  reducesTo_S3x8192x128_S8192x128_d0 : S3x8192x128.ReducesTo [0] S8192x128
  bcast_S_S8192x128 : S_.BroadcastsInDim S8192x128 (![] : Fin 0 → Fin S8192x128.rank)
  bcast_S4096x128_S1x4096x128_1_2 : S4096x128.BroadcastsInDim S1x4096x128 (![1, 2] : Fin 2 → Fin S1x4096x128.rank)
  concatenates_S1x4096x128_S1x4096x128_S1x4096x128_S3x4096x128_d0 : Shape.Concatenates [S1x4096x128, S1x4096x128, S1x4096x128] S3x4096x128 0
  reducesTo_S3x4096x128_S4096x128_d0 : S3x4096x128.ReducesTo [0] S4096x128
  concatenates_S8192x128_S8192x128_S8192x128_S8192x128_S8192x128_S8192x640_d1 : Shape.Concatenates [S8192x128, S8192x128, S8192x128, S8192x128, S8192x128] S8192x640 1
  concatenates_S4096x128_S4096x128_S4096x128_S4096x128_S4096x128_S4096x640_d1 : Shape.Concatenates [S4096x128, S4096x128, S4096x128, S4096x128, S4096x128] S4096x640 1
  concatenates_S8192x640_S4096x640_S12288x640_d0 : Shape.Concatenates [S8192x640, S4096x640] S12288x640 0
  dot_S4096x4096_S4096x128_S4096x128_1_0_0_1_n_n_wf : DotDims.WF S4096x4096 S4096x128 S4096x128 [1] [0] [0] [1] [] []
  dot_S4096x768_S768x128_S4096x128_1_0_0_1_n_n_wf : DotDims.WF S4096x768 S768x128 S4096x128 [1] [0] [0] [1] [] []
  dot_S8192x768_S768x128_S8192x128_1_0_0_1_n_n_wf : DotDims.WF S8192x768 S768x128 S8192x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  dot_S4096x256_S256x128_S4096x128_1_0_0_1_n_n_wf : DotDims.WF S4096x256 S256x128 S4096x128 [1] [0] [0] [1] [] []
  dot_S4096x128_S128x128_S4096x128_1_0_0_1_n_n_wf : DotDims.WF S4096x128 S128x128 S4096x128 [1] [0] [0] [1] [] []
  dot_S8192x4096_S4096x128_S8192x128_1_0_0_1_n_n_wf : DotDims.WF S8192x4096 S4096x128 S8192x128 [1] [0] [0] [1] [] []
  dot_S4096x8192_S8192x128_S4096x128_1_0_0_1_n_n_wf : DotDims.WF S4096x8192 S8192x128 S4096x128 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x768_S768x128_S4096x128_1_0_0_1_n_n : DotDims S4096x768 S768x128 S4096x128 where
  lhsContracting := [1]
  rhsContracting := [0]
  lhsNonContracting := [0]
  rhsNonContracting := [1]
  lhsBatch := []
  rhsBatch := []
  wf := dot_S4096x768_S768x128_S4096x128_1_0_0_1_n_n_wf
def dot_S8192x768_S768x128_S8192x128_1_0_0_1_n_n : DotDims S8192x768 S768x128 S8192x128 where
  lhsContracting := [1]
  rhsContracting := [0]
  lhsNonContracting := [0]
  rhsNonContracting := [1]
  lhsBatch := []
  rhsBatch := []
  wf := dot_S8192x768_S768x128_S8192x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf

class Facts : Prop extends Facts₀ where

variable [Facts]
-- ==== Proof.K.Defs0.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def accAt0 (c : Dev nD) : (n : ℕ) → n < cfg0.N → Vec F S1024x128 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

def out0 (c : Dev nD) (t : Fin cfg0.N) : Vec F S1024x128 .f32 := k0_pay3 (accAt0 V c t.val t.isLt) (iblk0 V c 2 t)

end

end Cert.Kernel.Gen

end
-- ==== Proof.K.Reg0.lean ====
import proofs.«103213_j15710990369585_1_alg».proof.Proof.K.Defs0
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := by decide +kernel
abbrev cond0_1 (i : grid0.Coords) : Prop := k0_cond2 i = 1#1
theorem hcond0_1 : ∀ t : Fin cfg0.N, cond0_1 (grid0.coords t) ↔ t.val % 4 = 3 := by decide +kernel

theorem idleAt0_3 : ∀ t : Fin cfg0.N, ¬cond0_1 (grid0.coords t) → idle0 3 (grid0.coords t) = true ∧ (win0 3).flush t = false := by decide +kernel
theorem liveAt0_3 : ∀ t : Fin cfg0.N, cond0_1 (grid0.coords t) → idle0 3 (grid0.coords t) = false := by decide +kernel

theorem hz0 : (![0, 0] : Fin 2 → Nat) = fun _ => 0 := funext fun a => by fin_cases a <;> rfl

-- Reading back after a last write that covers every index gives what was written.
theorem stw0 (v : View sig .tc .vmem S1024x128 .f32) (f : v.ty.Contents (Elt F)) (w w' : S1024x128.Idx → Elt F .f32)
    (L : List (View.Piece (Elt F) S1024x128 .f32)) (h : w = w') :
    v.read (Elt F) (v.writes (Elt F) f (⟨Rect.unit ![0, 0] S1024x128.size inb_S1024x128_S1024x128_0_0, w⟩ :: L)) = w' := by
  rw [View.read_writes_eq_canon _ _ _ (fun y => ⟨_, List.mem_cons.mpr (Or.inl rfl), View.mem_set_unit_zero hz0 inb_S1024x128_S1024x128_0_0 y⟩),
    View.canon_cons_unit_zero hz0, h]

section
variable {c : Dev nD} {E : Set ℕ} {i : grid0.Coords} {arg2 : Memref sig .tc .vmem S1024x1024 .f32} {harg2 : arg2.IsWhole}
  {arg3 : Memref sig .tc .vmem S1024x128 .f32} {harg3 : arg3.IsWhole} {arg4 : Memref sig .tc .vmem S1x128 .f32} {harg4 : arg4.IsWhole}
  {arg5 : Memref sig .tc .vmem S1024x128 .f32} {harg5 : arg5.IsWhole} {arg6 : Memref sig .tc .vmem S1024x128 .f32} {harg6 : arg6.IsWhole}

-- Off a last K-step only the accumulator changes: this step's product is added to the zero splat at a first K-step, else to what it held.
set_option maxHeartbeats 1000000 in
theorem kernel0_AB (hc1 : ¬cond0_1 i) (xa : Vec F S1024x1024 .f32) (xb : Vec F S1024x128 .f32) (e b : Vec F S1024x128 .f32)
    (hb : b = if cond0_0 i then k0_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k0_pay2 xa xb b)) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  rw [owns_eq_rep, owns_eq_rep]; unfold owns
  iintro ⟨H2, H3, ⟨%f6, %hf6, H6⟩, Hk⟩
  subst hf6
  by_cases hc0 : cond0_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw0 _ _ _ _ _ ?_
    simp only [View.readAt_eq_ld, View.read_rep, View.ld_unit_zero (S := S1024x1024) hz0, View.ld_unit_zero (S := S1024x128) hz0,
      View.ld_unit_zero (S := S1x128) hz0, View.readCov_unit_zero (S := S1024x128) _ hz0]

-- At a last K-step the accumulator plus the bias row is stored as well.
set_option maxHeartbeats 1000000 in
theorem kernel0_C (hc0 : ¬cond0_0 i) (hc1 : cond0_1 i) (xa : Vec F S1024x1024 .f32) (xb : Vec F S1024x128 .f32) (xc : Vec F S1x128 .f32) (d e : Vec F S1024x128 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k0_pay3 (k0_pay2 xa xb e) xc)
            ∗ owns (c : Thread nD τ) arg6 fullShare (k0_pay2 xa xb e)) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw0 _ _ _ _ _ ?_ <;>
    simp only [View.readAt_eq_ld, View.read_rep, View.ld_unit_zero (S := S1024x1024) hz0, View.ld_unit_zero (S := S1024x128) hz0,
      View.ld_unit_zero (S := S1x128) hz0, View.readCov_unit_zero (S := S1024x128) _ hz0]

end

abbrev inv0 (c : Dev nD) (S : sProp 𝕄) : sProp 𝕄 :=
  iprop(iprop(S ∗ Pipeline.scopedRestBut (Ix := Unit) (Name := ℕ) (U := UR sig nD τ) (Lvl := ℕ) (Val := Elt F) spec0 c [cc0_scratch0]) ∗ (∃ r, prngReg c r))

theorem PhiA0_eq (c : Dev nD) :
    (Pipeline.ΦA spec0 c : sProp 𝕄) = inv0 c iprop(∃ d, owns (c : Thread nD τ) (Memref.whole cc0_scratch0) fullShare d) := by
  unfold Pipeline.ΦA inv0; rw [scopedRest0_split]; simp only [owns_whole]; try rfl

section
variable (V : (c : Dev nD) → (b : Ref sig .tc) → Buf (Elt F) ((c : Thread nD τ).loc b))

-- The accumulator's recursion as one equation.
theorem accAt0_eq (c : Dev nD) (t : Fin cfg0.N) : accAt0 V c t.val t.isLt = k0_pay2 (iblk0 V c 0 t) (iblk0 V c 1 t)
    (if t.val % 4 = 0 then k0_pay1 (F := F) else accAt0 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi0 (c : Dev nD) (n : ℕ) (h : n ≤ cfg0.N) : sProp 𝕄 :=
  if hz : n = 0 then Pipeline.ΦA spec0 c
  else inv0 c (owns (c : Thread nD τ) (Memref.whole cc0_scratch0) fullShare (accAt0 V c (n - 1) (by omega)))

-- Forgetting the accumulator's value gives the entry form back.
theorem Phi0_any (c : Dev nD) (n : ℕ) (h : n ≤ cfg0.N) :
    Phi0 V c n h ⊢ inv0 c iprop(∃ d, owns (c : Thread nD τ) (Memref.whole cc0_scratch0) fullShare d) := by
  unfold Phi0
  split
  · rw [← PhiA0_eq]
  · unfold inv0
    iintro ⟨⟨HS, HR⟩, Hg⟩
    iframe HR Hg
    iexists _; iexact HS

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0 V c t := rfl

theorem before0_0 (c : Dev nD) (t : Fin cfg0.N) (d) : (dat0 V c).before 0 t d = iblk0 V c 0 t := by
  rw [Dat.before_in_eq_fetched _ 0 rfl (fun _ => rfl) (fun _ _ _ => rfl) (fun _ => rfl) t d]; rfl
theorem before0_1 (c : Dev nD) (t : Fin cfg0.N) (d) : (dat0 V c).before 1 t d = iblk0 V c 1 t := by
  rw [Dat.before_in_eq_fetched _ 1 rfl (fun _ => rfl) (fun _ _ _ => rfl) (fun _ => rfl) t d]; rfl
theorem before0_2 (c : Dev nD) (t : Fin cfg0.N) (d) : (dat0 V c).before 2 t d = iblk0 V c 2 t := by
  rw [Dat.before_in_eq_fetched _ 2 rfl (fun _ => rfl) (fun _ _ _ => rfl) (fun _ => rfl) t d]; rfl

-- By the control case of the point: first, last, or neither.
theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before0_0, before0_1, before0_2]
  rw [show (dat0 V c).owesAt () t.succ = (dat0 V c).owesAt () t.castSucc from rfl,
    show (dat0 V c).Φ t.succ = inv0 c (owns (c : Thread nD τ) (Memref.whole cc0_scratch0) fullShare (accAt0 V c t.val t.isLt)) from rfl,
    show (dat0 V c).Φ t.castSucc = Phi0 V c t.val (Nat.le_of_lt t.isLt) from rfl,
    show (dat0 V c).after 0 t = iblk0 V c 0 t from rfl, show (dat0 V c).after 1 t = iblk0 V c 1 t from rfl,
    show (dat0 V c).after 2 t = iblk0 V c 2 t from rfl]
  unfold inv0
  by_cases h0 : t.val % 4 = 0
  · have hn1 : ¬cond0_1 (grid0.coords t) := fun h => by have := (hcond0_1 t).mp h; omega
    simp only [(idleAt0_3 t hn1).1, (idleAt0_3 t hn1).2]
    rw [accAt0_eq V c t, if_pos h0]
    iintro ⟨HP, Ho, ⟨%d0, H0⟩, ⟨%d1, H1⟩, ⟨%d2, H2⟩, H3⟩
    icases (Phi0_any V c t.val (Nat.le_of_lt t.isLt)) $$ HP with ⟨⟨⟨%e, HS⟩, HR⟩, Hg⟩
    iapply (kernel0_AB hn1 _ _ _ _ (if_pos ((hcond0_0 t).mpr h0)).symm _)
    iframe H0 H1 HS
    iintro ⟨H0, H1, HS⟩
    iframe
  · have hn0 : ¬cond0_0 (grid0.coords t) := fun h => h0 ((hcond0_0 t).mp h)
    rw [accAt0_eq V c t, if_neg h0, Phi0, dif_neg fun h => h0 (by rw [h])]
    unfold inv0
    by_cases h1 : t.val % 4 = 3
    · simp only [liveAt0_3 t ((hcond0_1 t).mpr h1), after0_3]
      unfold out0
      rw [accAt0_eq V c t, if_neg h0]
      iintro ⟨⟨⟨HS, HR⟩, Hg⟩, Ho, ⟨%d0, H0⟩, ⟨%d1, H1⟩, ⟨%d2, H2⟩, ⟨%d3, H3⟩⟩
      iapply (kernel0_C hn0 ((hcond0_1 t).mpr h1) _ _ _ _ _ _)
      iframe H0 H1 H2 H3 HS
      iintro ⟨H0, H1, H2, H3, HS⟩
      iframe
    · have hn1 : ¬cond0_1 (grid0.coords t) := fun h => h1 ((hcond0_1 t).mp h)
      simp only [(idleAt0_3 t hn1).1, (idleAt0_3 t hn1).2]
      iintro ⟨⟨⟨HS, HR⟩, Hg⟩, Ho, ⟨%d0, H0⟩, ⟨%d1, H1⟩, ⟨%d2, H2⟩, H3⟩
      iapply (kernel0_AB hn1 _ _ _ _ (if_neg hn0).symm _)
      iframe H0 H1 HS
      iintro ⟨H0, H1, HS⟩
      iframe

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]; exact Phi0_any V c cfg0.N (Nat.le_refl _)

end

end Cert.Kernel.Gen

end
-- ==== Proof.K.Defs1.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (xa : Vec F S1024x768 .f32) (xb : Vec F S768x128 .f32) : Vec F S1024x128 .f32 := k1_pay2 xa xb (k1_pay1 (F := F))

def out1 (xa : Vec F S1024x768 .f32) (xb : Vec F S768x128 .f32) (xc : Vec F S1x128 .f32) : Vec F S1024x128 .f32 := k1_pay3 (acc1 xa xb) xc

end

end Cert.Kernel.Gen

end
-- ==== Proof.K.Reg1.lean ====
import proofs.«103213_j15710990369585_1_alg».proof.Proof.K.Defs1
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond1 : ∀ t : Fin cfg1.N, k1_cond2 (grid1.coords t) = 1#1 :=
  (by decide +kernel : ∀ t : Fin grid1.N, _)

theorem idle1_3 : ∀ t : Fin cfg1.N, cfg1.idle 3 (cfg1.grid.coords t) = false :=
  (by decide +kernel : ∀ t : Fin grid1.N, _)

theorem zeros1 : (![0, 0] : Fin 2 → Nat) = fun _ => 0 := funext fun a => by fin_cases a <;> rfl

/-- Every access covers its whole memref, so a load reads the payload stored last and a memref ends holding it. -/
theorem sound_kernel1 {c : Dev nD} {E : Set ℕ} {i : grid1.Coords}
    {arg2 : Memref sig .tc .vmem S1024x768 .f32} {harg2 : arg2.IsWhole} {arg3 : Memref sig .tc .vmem S768x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k1_cond2 i = 1#1)
    {xa : Vec F S1024x768 .f32} {xb : Vec F S768x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out1 xa xb xc) ∗ owns c.tc arg6 fullShare (acc1 xa xb)) -∗ K ⟨⟩))
      ⊢ wp frame (wpE (defs₀ (F := F)) Variants.none c none) E (cc1__linear_kernel i arg2 harg2 arg3 harg3 arg4 harg4 arg5 harg5 arg6 harg6) K := by
  simp only [cc1__linear_kernel_eq_skeleton]; unfold cc1__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros1, View.readCov_cons_toLoadRect,
      View.readAt_eq_ld, View.read_rep, View.ld_unit_zero (S := S1024x768) zeros1, View.ld_unit_zero (S := S768x128) zeros1,
      View.ld_unit_zero (S := S1x128) zeros1]
    rfl

section
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1 (iblk1 V c 0 t) (iblk1 V c 1 t) (iblk1 V c 2 t) := rfl

/-- The body leaves its inputs in place, so what it finds in an input window at a point is what it leaves there. -/
theorem before1 (c : Dev nD) (t : Fin cfg1.N) : ∀ w : Fin cfg1.W, w ≠ 3 → ∀ d, (dat1 V c).before w t d = (dat1 V c).after w t
  | 0, _, d | 1, _, d | 2, _, d => ((dat1 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation1 (c : Dev nD) : BodyObligation (dat1 (F := F) V c) (defs₀ (F := F)) Variants.none () Set.univ := fun t => by
  rw [bigSep_W1, bigSep_W1, idle1_3 t]
  simp only [show ∀ p, (dat1 V c).Φ p = Pipeline.ΦA spec1 c from fun _ => rfl, Pipeline.ΦA, scopedRest1_split]
  iintro ⟨⟨⟨HS, HR⟩, Hg⟩, Ho, ⟨%dA, HA⟩, ⟨%dB, HB⟩, ⟨%dC, HC⟩, ⟨%dO, HO⟩⟩
  rw [before1 V c t 0 (by decide), before1 V c t 1 (by decide), before1 V c t 2 (by decide)]
  sl_whnfR [defs₀, Defs.onTc]
  iapply sound_kernel1 (cond1 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end

end Cert.Kernel.Gen

end
-- ==== Proof.K.Defs2.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (xa : Vec F S1024x768 .f32) (xb : Vec F S768x128 .f32) : Vec F S1024x128 .f32 := k2_pay2 xa xb (k2_pay1 (F := F))

def out2 (xa : Vec F S1024x768 .f32) (xb : Vec F S768x128 .f32) (xc : Vec F S1x128 .f32) : Vec F S1024x128 .f32 := k2_pay3 (acc2 xa xb) xc

end

end Cert.Kernel.Gen

end
-- ==== Proof.K.Reg2.lean ====
import proofs.«103213_j15710990369585_1_alg».proof.Proof.K.Defs2
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond2 : ∀ t : Fin cfg2.N, k2_cond2 (grid2.coords t) = 1#1 :=
  (by decide +kernel : ∀ t : Fin grid2.N, _)

theorem idle2_3 : ∀ t : Fin cfg2.N, cfg2.idle 3 (cfg2.grid.coords t) = false :=
  (by decide +kernel : ∀ t : Fin grid2.N, _)

theorem zeros2 : (![0, 0] : Fin 2 → Nat) = fun _ => 0 := funext fun a => by fin_cases a <;> rfl

/-- Every access covers its whole memref, so a load reads the payload stored last and a memref ends holding it. -/
theorem sound_kernel2 {c : Dev nD} {E : Set ℕ} {i : grid2.Coords}
    {arg2 : Memref sig .tc .vmem S1024x768 .f32} {harg2 : arg2.IsWhole} {arg3 : Memref sig .tc .vmem S768x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k2_cond2 i = 1#1)
    {xa : Vec F S1024x768 .f32} {xb : Vec F S768x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out2 xa xb xc) ∗ owns c.tc arg6 fullShare (acc2 xa xb)) -∗ K ⟨⟩))
      ⊢ wp frame (wpE (defs₀ (F := F)) Variants.none c none) E (cc2__linear_kernel i arg2 harg2 arg3 harg3 arg4 harg4 arg5 harg5 arg6 harg6) K := by
  simp only [cc2__linear_kernel_eq_skeleton]; unfold cc2__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros2, View.readCov_cons_toLoadRect,
      View.readAt_eq_ld, View.read_rep, View.ld_unit_zero (S := S1024x768) zeros2, View.ld_unit_zero (S := S768x128) zeros2,
      View.ld_unit_zero (S := S1x128) zeros2]
    rfl

section
variable (V : (c : Dev nD) → (b : Ref sig .tc) → Buf (Elt F) ((c : Thread nD τ).loc b))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) :
    (dat2 V c).after 3 t = out2 (iblk2 V c 0 t) (iblk2 V c 1 t) (iblk2 V c 2 t) := rfl

/-- The body leaves its inputs in place, so what it finds in an input window at a point is what it leaves there. -/
theorem before2 (c : Dev nD) (t : Fin cfg2.N) : ∀ w : Fin cfg2.W, w ≠ 3 → ∀ d, (dat2 V c).before w t d = (dat2 V c).after w t
  | 0, _, d | 1, _, d | 2, _, d => ((dat2 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation2 (c : Dev nD) : BodyObligation (dat2 (F := F) V c) (defs₀ (F := F)) Variants.none () Set.univ := fun t => by
  rw [bigSep_W2, bigSep_W2, idle2_3 t]
  simp only [show ∀ p, (dat2 V c).Φ p = Pipeline.ΦA spec2 c from fun _ => rfl, Pipeline.ΦA, scopedRest2_split]
  iintro ⟨⟨⟨HS, HR⟩, Hg⟩, Ho, ⟨%dA, HA⟩, ⟨%dB, HB⟩, ⟨%dC, HC⟩, ⟨%dO, HO⟩⟩
  rw [before2 V c t 0 (by decide), before2 V c t 1 (by decide), before2 V c t 2 (by decide)]
  sl_whnfR [defs₀, Defs.onTc]
  iapply sound_kernel2 (cond2 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end

end Cert.Kernel.Gen

end
-- ==== Proof.K.Defs3.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (xa : Vec F S1024x768 .f32) (xb : Vec F S768x128 .f32) : Vec F S1024x128 .f32 := k3_pay2 xa xb (k3_pay1 (F := F))

def out3 (xa : Vec F S1024x768 .f32) (xb : Vec F S768x128 .f32) (xc : Vec F S1x128 .f32) : Vec F S1024x128 .f32 := k3_pay3 (acc3 xa xb) xc

end

end Cert.Kernel.Gen

end
-- ==== Proof.K.Reg3.lean ====
import proofs.«103213_j15710990369585_1_alg».proof.Proof.K.Defs3
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond3 : ∀ t : Fin cfg3.N, k3_cond2 (grid3.coords t) = 1#1 :=
  (by decide +kernel : ∀ t : Fin grid3.N, _)

theorem idle3_3 : ∀ t : Fin cfg3.N, cfg3.idle 3 (cfg3.grid.coords t) = false :=
  (by decide +kernel : ∀ t : Fin grid3.N, _)

theorem zeros3 : (![0, 0] : Fin 2 → Nat) = fun _ => 0 := funext fun a => by fin_cases a <;> rfl

/-- Every access covers its whole memref, so a load reads the payload stored last and a memref ends holding it. -/
theorem sound_kernel3 {c : Dev nD} {E : Set ℕ} {i : grid3.Coords}
    {arg2 : Memref sig .tc .vmem S1024x768 .f32} {harg2 : arg2.IsWhole} {arg3 : Memref sig .tc .vmem S768x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k3_cond2 i = 1#1)
    {xa : Vec F S1024x768 .f32} {xb : Vec F S768x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out3 xa xb xc) ∗ owns c.tc arg6 fullShare (acc3 xa xb)) -∗ K ⟨⟩))
      ⊢ wp frame (wpE (defs₀ (F := F)) Variants.none c none) E (cc3__linear_kernel i arg2 harg2 arg3 harg3 arg4 harg4 arg5 harg5 arg6 harg6) K := by
  simp only [cc3__linear_kernel_eq_skeleton]; unfold cc3__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros3, View.readCov_cons_toLoadRect,
      View.readAt_eq_ld, View.read_rep, View.ld_unit_zero (S := S1024x768) zeros3, View.ld_unit_zero (S := S768x128) zeros3,
      View.ld_unit_zero (S := S1x128) zeros3]
    rfl

section
variable (V : (c : Dev nD) → (b : Ref sig .tc) → Buf (Elt F) ((c : Thread nD τ).loc b))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = out3 (iblk3 V c 0 t) (iblk3 V c 1 t) (iblk3 V c 2 t) := rfl

/-- The body leaves its inputs in place, so what it finds in an input window at a point is what it leaves there. -/
theorem before3 (c : Dev nD) (t : Fin cfg3.N) : ∀ w : Fin cfg3.W, w ≠ 3 → ∀ d, (dat3 V c).before w t d = (dat3 V c).after w t
  | 0, _, d | 1, _, d | 2, _, d => ((dat3 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation3 (c : Dev nD) : BodyObligation (dat3 (F := F) V c) (defs₀ (F := F)) Variants.none () Set.univ := fun t => by
  rw [bigSep_W3, bigSep_W3, idle3_3 t]
  simp only [show ∀ p, (dat3 V c).Φ p = Pipeline.ΦA spec3 c from fun _ => rfl, Pipeline.ΦA, scopedRest3_split]
  iintro ⟨⟨⟨HS, HR⟩, Hg⟩, Ho, ⟨%dA, HA⟩, ⟨%dB, HB⟩, ⟨%dC, HC⟩, ⟨%dO, HO⟩⟩
  rw [before3 V c t 0 (by decide), before3 V c t 1 (by decide), before3 V c t 2 (by decide)]
  sl_whnfR [defs₀, Defs.onTc]
  iapply sound_kernel3 (cond3 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end

end Cert.Kernel.Gen

end
-- ==== Proof.K.Defs4.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (xa : Vec F S1024x128 .f32) (xb : Vec F S128x64 .f32) : Vec F S1024x64 .f32 := k4_pay2 xa xb (k4_pay1 (F := F))

def out4 (xa : Vec F S1024x128 .f32) (xb : Vec F S128x64 .f32) (xc : Vec F S1x64 .f32) : Vec F S1024x64 .f32 := k4_pay3 (acc4 xa xb) xc

end

end Cert.Kernel.Gen

end
-- ==== Proof.K.Reg4.lean ====
import proofs.«103213_j15710990369585_1_alg».proof.Proof.K.Defs4
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond4 : ∀ t : Fin cfg4.N, k4_cond2 (grid4.coords t) = 1#1 :=
  (by decide +kernel : ∀ t : Fin grid4.N, _)

theorem idle4_3 : ∀ t : Fin cfg4.N, cfg4.idle 3 (cfg4.grid.coords t) = false :=
  (by decide +kernel : ∀ t : Fin grid4.N, _)

theorem zeros4 : (![0, 0] : Fin 2 → Nat) = fun _ => 0 := funext fun a => by fin_cases a <;> rfl

/-- Every access covers its whole memref, so a load reads the payload stored last and a memref ends holding it. -/
theorem sound_kernel4 {c : Dev nD} {E : Set ℕ} {i : grid4.Coords}
    {arg2 : Memref sig .tc .vmem S1024x128 .f32} {harg2 : arg2.IsWhole} {arg3 : Memref sig .tc .vmem S128x64 .f32} {harg3 : arg3.IsWhole}
    {arg4 : Memref sig .tc .vmem S1x64 .f32} {harg4 : arg4.IsWhole} {arg5 : Memref sig .tc .vmem S1024x64 .f32} {harg5 : arg5.IsWhole}
    {arg6 : Memref sig .tc .vmem S1024x64 .f32} {harg6 : arg6.IsWhole} (hcl : k4_cond2 i = 1#1)
    {xa : Vec F S1024x128 .f32} {xb : Vec F S128x64 .f32} {xc : Vec F S1x64 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out4 xa xb xc) ∗ owns c.tc arg6 fullShare (acc4 xa xb)) -∗ K ⟨⟩))
      ⊢ wp frame (wpE (defs₀ (F := F)) Variants.none c none) E (cc4__linear_kernel i arg2 harg2 arg3 harg3 arg4 harg4 arg5 harg5 arg6 harg6) K := by
  simp only [cc4__linear_kernel_eq_skeleton]; unfold cc4__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x64) zeros4, View.readCov_cons_toLoadRect,
      View.readAt_eq_ld, View.read_rep, View.ld_unit_zero (S := S1024x128) zeros4, View.ld_unit_zero (S := S128x64) zeros4,
      View.ld_unit_zero (S := S1x64) zeros4]
    rfl

section
variable (V : (c : Dev nD) → (b : Ref sig .tc) → Buf (Elt F) ((c : Thread nD τ).loc b))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = out4 (iblk4 V c 0 t) (iblk4 V c 1 t) (iblk4 V c 2 t) := rfl

/-- The body leaves its inputs in place, so what it finds in an input window at a point is what it leaves there. -/
theorem before4 (c : Dev nD) (t : Fin cfg4.N) : ∀ w : Fin cfg4.W, w ≠ 3 → ∀ d, (dat4 V c).before w t d = (dat4 V c).after w t
  | 0, _, d | 1, _, d | 2, _, d => ((dat4 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation4 (c : Dev nD) : BodyObligation (dat4 (F := F) V c) (defs₀ (F := F)) Variants.none () Set.univ := fun t => by
  rw [bigSep_W4, bigSep_W4, idle4_3 t]
  simp only [show ∀ p, (dat4 V c).Φ p = Pipeline.ΦA spec4 c from fun _ => rfl, Pipeline.ΦA, scopedRest4_split]
  iintro ⟨⟨⟨HS, HR⟩, Hg⟩, Ho, ⟨%dA, HA⟩, ⟨%dB, HB⟩, ⟨%dC, HC⟩, ⟨%dO, HO⟩⟩
  rw [before4 V c t 0 (by decide), before4 V c t 1 (by decide), before4 V c t 2 (by decide)]
  sl_whnfR [defs₀, Defs.onTc]
  iapply sound_kernel4 (cond4 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

end

end Cert.Kernel.Gen

end
-- ==== Proof.K.Defs5.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (xa : Vec F S1024x64 .f32) (xb : Vec F S64x1 .f32) : Vec F S1024x1 .f32 := k5_pay2 xa xb (k5_pay1 (F := F))

def out5 (xa : Vec F S1024x64 .f32) (xb : Vec F S64x1 .f32) (xc : Vec F S1x1 .f32) : Vec F S1024x1 .f32 := k5_pay3 (acc5 xa xb) xc

end

end Cert.Kernel.Gen

end
-- ==== Proof.K.Reg5.lean ====
import proofs.«103213_j15710990369585_1_alg».proof.Proof.K.Defs5
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond5 : ∀ t : Fin cfg5.N, k5_cond2 (grid5.coords t) = 1#1 :=
  (by decide +kernel : ∀ t : Fin grid5.N, _)

theorem idle5_3 : ∀ t : Fin cfg5.N, cfg5.idle 3 (cfg5.grid.coords t) = false :=
  (by decide +kernel : ∀ t : Fin grid5.N, _)

theorem zeros5 : (![0, 0] : Fin 2 → Nat) = fun _ => 0 := funext fun a => by fin_cases a <;> rfl

/-- Every access covers its whole memref, so a load reads the payload stored last and a memref ends holding it. -/
theorem sound_kernel5 {c : Dev nD} {E : Set ℕ} {i : grid5.Coords}
    {arg2 : Memref sig .tc .vmem S1024x64 .f32} {harg2 : arg2.IsWhole} {arg3 : Memref sig .tc .vmem S64x1 .f32} {harg3 : arg3.IsWhole}
    {arg4 : Memref sig .tc .vmem S1x1 .f32} {harg4 : arg4.IsWhole} {arg5 : Memref sig .tc .vmem S1024x1 .f32} {harg5 : arg5.IsWhole}
    {arg6 : Memref sig .tc .vmem S1024x1 .f32} {harg6 : arg6.IsWhole} (hcl : k5_cond2 i = 1#1)
    {xa : Vec F S1024x64 .f32} {xb : Vec F S64x1 .f32} {xc : Vec F S1x1 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out5 xa xb xc) ∗ owns c.tc arg6 fullShare (acc5 xa xb)) -∗ K ⟨⟩))
      ⊢ wp frame (wpE (defs₀ (F := F)) Variants.none c none) E (cc5__linear_kernel i arg2 harg2 arg3 harg3 arg4 harg4 arg5 harg5 arg6 harg6) K := by
  simp only [cc5__linear_kernel_eq_skeleton]; unfold cc5__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x1) zeros5, View.readCov_cons_toLoadRect,
      View.readAt_eq_ld, View.read_rep, View.ld_unit_zero (S := S1024x64) zeros5, View.ld_unit_zero (S := S64x1) zeros5,
      View.ld_unit_zero (S := S1x1) zeros5]
    rfl

section
variable (V : (c : Dev nD) → (b : Ref sig .tc) → Buf (Elt F) ((c : Thread nD τ).loc b))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl

theorem after5_3 (c : Dev nD) (t : Fin cfg5.N) :
    (dat5 V c).after 3 t = out5 (iblk5 V c 0 t) (iblk5 V c 1 t) (iblk5 V c 2 t) := rfl

/-- The body leaves its inputs in place, so what it finds in an input window at a point is what it leaves there. -/
theorem before5 (c : Dev nD) (t : Fin cfg5.N) : ∀ w : Fin cfg5.W, w ≠ 3 → ∀ d, (dat5 V c).before w t d = (dat5 V c).after w t
  | 0, _, d | 1, _, d | 2, _, d => ((dat5 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation5 (c : Dev nD) : BodyObligation (dat5 (F := F) V c) (defs₀ (F := F)) Variants.none () Set.univ := fun t => by
  rw [bigSep_W5, bigSep_W5, idle5_3 t]
  simp only [show ∀ p, (dat5 V c).Φ p = Pipeline.ΦA spec5 c from fun _ => rfl, Pipeline.ΦA, scopedRest5_split]
  iintro ⟨⟨⟨HS, HR⟩, Hg⟩, Ho, ⟨%dA, HA⟩, ⟨%dB, HB⟩, ⟨%dC, HC⟩, ⟨%dO, HO⟩⟩
  rw [before5 V c t 0 (by decide), before5 V c t 1 (by decide), before5 V c t 2 (by decide)]
  sl_whnfR [defs₀, Defs.onTc]
  iapply sound_kernel5 (cond5 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

end

end Cert.Kernel.Gen

end
-- ==== Proof.K.Defs6.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (xa : Vec F S1024x128 .f32) (xb : Vec F S128x64 .f32) : Vec F S1024x64 .f32 := k6_pay2 xa xb (k6_pay1 (F := F))

def out6 (xa : Vec F S1024x128 .f32) (xb : Vec F S128x64 .f32) (xc : Vec F S1x64 .f32) : Vec F S1024x64 .f32 := k6_pay3 (acc6 xa xb) xc

end

end Cert.Kernel.Gen

end
-- ==== Proof.K.Reg6.lean ====
import proofs.«103213_j15710990369585_1_alg».proof.Proof.K.Defs6
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond6 : ∀ t : Fin cfg6.N, k6_cond2 (grid6.coords t) = 1#1 :=
  (by decide +kernel : ∀ t : Fin grid6.N, _)

theorem idle6_3 : ∀ t : Fin cfg6.N, cfg6.idle 3 (cfg6.grid.coords t) = false :=
  (by decide +kernel : ∀ t : Fin grid6.N, _)

theorem zeros6 : (![0, 0] : Fin 2 → Nat) = fun _ => 0 := funext fun a => by fin_cases a <;> rfl

/-- Every access covers its whole memref, so a load reads the payload stored last and a memref ends holding it. -/
theorem sound_kernel6 {c : Dev nD} {E : Set ℕ} {i : grid6.Coords}
    {arg2 : Memref sig .tc .vmem S1024x128 .f32} {harg2 : arg2.IsWhole} {arg3 : Memref sig .tc .vmem S128x64 .f32} {harg3 : arg3.IsWhole}
    {arg4 : Memref sig .tc .vmem S1x64 .f32} {harg4 : arg4.IsWhole} {arg5 : Memref sig .tc .vmem S1024x64 .f32} {harg5 : arg5.IsWhole}
    {arg6 : Memref sig .tc .vmem S1024x64 .f32} {harg6 : arg6.IsWhole} (hcl : k6_cond2 i = 1#1)
    {xa : Vec F S1024x128 .f32} {xb : Vec F S128x64 .f32} {xc : Vec F S1x64 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out6 xa xb xc) ∗ owns c.tc arg6 fullShare (acc6 xa xb)) -∗ K ⟨⟩))
      ⊢ wp frame (wpE (defs₀ (F := F)) Variants.none c none) E (cc6__linear_kernel i arg2 harg2 arg3 harg3 arg4 harg4 arg5 harg5 arg6 harg6) K := by
  simp only [cc6__linear_kernel_eq_skeleton]; unfold cc6__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x64) zeros6, View.readCov_cons_toLoadRect,
      View.readAt_eq_ld, View.read_rep, View.ld_unit_zero (S := S1024x128) zeros6, View.ld_unit_zero (S := S128x64) zeros6,
      View.ld_unit_zero (S := S1x64) zeros6]
    rfl

section
variable (V : (c : Dev nD) → (b : Ref sig .tc) → Buf (Elt F) ((c : Thread nD τ).loc b))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl

theorem after6_3 (c : Dev nD) (t : Fin cfg6.N) :
    (dat6 V c).after 3 t = out6 (iblk6 V c 0 t) (iblk6 V c 1 t) (iblk6 V c 2 t) := rfl

/-- The body leaves its inputs in place, so what it finds in an input window at a point is what it leaves there. -/
theorem before6 (c : Dev nD) (t : Fin cfg6.N) : ∀ w : Fin cfg6.W, w ≠ 3 → ∀ d, (dat6 V c).before w t d = (dat6 V c).after w t
  | 0, _, d | 1, _, d | 2, _, d => ((dat6 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation6 (c : Dev nD) : BodyObligation (dat6 (F := F) V c) (defs₀ (F := F)) Variants.none () Set.univ := fun t => by
  rw [bigSep_W6, bigSep_W6, idle6_3 t]
  simp only [show ∀ p, (dat6 V c).Φ p = Pipeline.ΦA spec6 c from fun _ => rfl, Pipeline.ΦA, scopedRest6_split]
  iintro ⟨⟨⟨HS, HR⟩, Hg⟩, Ho, ⟨%dA, HA⟩, ⟨%dB, HB⟩, ⟨%dC, HC⟩, ⟨%dO, HO⟩⟩
  rw [before6 V c t 0 (by decide), before6 V c t 1 (by decide), before6 V c t 2 (by decide)]
  sl_whnfR [defs₀, Defs.onTc]
  iapply sound_kernel6 (cond6 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end

end Cert.Kernel.Gen

end
-- ==== Proof.K.Defs7.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (xa : Vec F S1024x64 .f32) (xb : Vec F S64x1 .f32) : Vec F S1024x1 .f32 := k7_pay2 xa xb (k7_pay1 (F := F))

def out7 (xa : Vec F S1024x64 .f32) (xb : Vec F S64x1 .f32) (xc : Vec F S1x1 .f32) : Vec F S1024x1 .f32 := k7_pay3 (acc7 xa xb) xc

end

end Cert.Kernel.Gen

end
-- ==== Proof.K.Reg7.lean ====
import proofs.«103213_j15710990369585_1_alg».proof.Proof.K.Defs7
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond7 : ∀ t : Fin cfg7.N, k7_cond2 (grid7.coords t) = 1#1 :=
  (by decide +kernel : ∀ t : Fin grid7.N, _)

theorem idle7_3 : ∀ t : Fin cfg7.N, cfg7.idle 3 (cfg7.grid.coords t) = false :=
  (by decide +kernel : ∀ t : Fin grid7.N, _)

theorem zeros7 : (![0, 0] : Fin 2 → Nat) = fun _ => 0 := funext fun a => by fin_cases a <;> rfl

/-- Every access covers its whole memref, so a load reads the payload stored last and a memref ends holding it. -/
theorem sound_kernel7 {c : Dev nD} {E : Set ℕ} {i : grid7.Coords}
    {arg2 : Memref sig .tc .vmem S1024x64 .f32} {harg2 : arg2.IsWhole} {arg3 : Memref sig .tc .vmem S64x1 .f32} {harg3 : arg3.IsWhole}
    {arg4 : Memref sig .tc .vmem S1x1 .f32} {harg4 : arg4.IsWhole} {arg5 : Memref sig .tc .vmem S1024x1 .f32} {harg5 : arg5.IsWhole}
    {arg6 : Memref sig .tc .vmem S1024x1 .f32} {harg6 : arg6.IsWhole} (hcl : k7_cond2 i = 1#1)
    {xa : Vec F S1024x64 .f32} {xb : Vec F S64x1 .f32} {xc : Vec F S1x1 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out7 xa xb xc) ∗ owns c.tc arg6 fullShare (acc7 xa xb)) -∗ K ⟨⟩))
      ⊢ wp frame (wpE (defs₀ (F := F)) Variants.none c none) E (cc7__linear_kernel i arg2 harg2 arg3 harg3 arg4 harg4 arg5 harg5 arg6 harg6) K := by
  simp only [cc7__linear_kernel_eq_skeleton]; unfold cc7__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x1) zeros7, View.readCov_cons_toLoadRect,
      View.readAt_eq_ld, View.read_rep, View.ld_unit_zero (S := S1024x64) zeros7, View.ld_unit_zero (S := S64x1) zeros7,
      View.ld_unit_zero (S := S1x1) zeros7]
    rfl

section
variable (V : (c : Dev nD) → (b : Ref sig .tc) → Buf (Elt F) ((c : Thread nD τ).loc b))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) :
    (dat7 V c).after 3 t = out7 (iblk7 V c 0 t) (iblk7 V c 1 t) (iblk7 V c 2 t) := rfl

/-- The body leaves its inputs in place, so what it finds in an input window at a point is what it leaves there. -/
theorem before7 (c : Dev nD) (t : Fin cfg7.N) : ∀ w : Fin cfg7.W, w ≠ 3 → ∀ d, (dat7 V c).before w t d = (dat7 V c).after w t
  | 0, _, d | 1, _, d | 2, _, d => ((dat7 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation7 (c : Dev nD) : BodyObligation (dat7 (F := F) V c) (defs₀ (F := F)) Variants.none () Set.univ := fun t => by
  rw [bigSep_W7, bigSep_W7, idle7_3 t]
  simp only [show ∀ p, (dat7 V c).Φ p = Pipeline.ΦA spec7 c from fun _ => rfl, Pipeline.ΦA, scopedRest7_split]
  iintro ⟨⟨⟨HS, HR⟩, Hg⟩, Ho, ⟨%dA, HA⟩, ⟨%dB, HB⟩, ⟨%dC, HC⟩, ⟨%dO, HO⟩⟩
  rw [before7 V c t 0 (by decide), before7 V c t 1 (by decide), before7 V c t 2 (by decide)]
  sl_whnfR [defs₀, Defs.onTc]
  iapply sound_kernel7 (cond7 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin7 (c : Dev nD) : Pipeline.ΦA spec7 c ⊢ (dat7 V c).Φ 0 := .rfl

theorem hout7 (c : Dev nD) : (dat7 V c).Φ (Fin.last cfg7.N) ⊢ Pipeline.ΦA spec7 c := .rfl

end

end Cert.Kernel.Gen

end
-- ==== Proof.K.Defs8.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (xa : Vec F S1024x256 .f32) (xb : Vec F S256x128 .f32) : Vec F S1024x128 .f32 := k8_pay2 xa xb (k8_pay1 (F := F))

def out8 (xa : Vec F S1024x256 .f32) (xb : Vec F S256x128 .f32) (xc : Vec F S1x128 .f32) : Vec F S1024x128 .f32 := k8_pay3 (acc8 xa xb) xc

end

end Cert.Kernel.Gen

end
-- ==== Proof.K.Reg8.lean ====
import proofs.«103213_j15710990369585_1_alg».proof.Proof.K.Defs8
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond8 : ∀ t : Fin cfg8.N, k8_cond2 (grid8.coords t) = 1#1 :=
  (by decide +kernel : ∀ t : Fin grid8.N, _)

theorem idle8_3 : ∀ t : Fin cfg8.N, cfg8.idle 3 (cfg8.grid.coords t) = false :=
  (by decide +kernel : ∀ t : Fin grid8.N, _)

theorem zeros8 : (![0, 0] : Fin 2 → Nat) = fun _ => 0 := funext fun a => by fin_cases a <;> rfl

/-- Every access covers its whole memref, so a load reads the payload stored last and a memref ends holding it. -/
theorem sound_kernel8 {c : Dev nD} {E : Set ℕ} {i : grid8.Coords}
    {arg2 : Memref sig .tc .vmem S1024x256 .f32} {harg2 : arg2.IsWhole} {arg3 : Memref sig .tc .vmem S256x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k8_cond2 i = 1#1)
    {xa : Vec F S1024x256 .f32} {xb : Vec F S256x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out8 xa xb xc) ∗ owns c.tc arg6 fullShare (acc8 xa xb)) -∗ K ⟨⟩))
      ⊢ wp frame (wpE (defs₀ (F := F)) Variants.none c none) E (cc8__linear_kernel i arg2 harg2 arg3 harg3 arg4 harg4 arg5 harg5 arg6 harg6) K := by
  simp only [cc8__linear_kernel_eq_skeleton]; unfold cc8__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros8, View.readCov_cons_toLoadRect,
      View.readAt_eq_ld, View.read_rep, View.ld_unit_zero (S := S1024x256) zeros8, View.ld_unit_zero (S := S256x128) zeros8,
      View.ld_unit_zero (S := S1x128) zeros8]
    rfl

section
variable (V : (c : Dev nD) → (b : Ref sig .tc) → Buf (Elt F) ((c : Thread nD τ).loc b))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl

theorem after8_3 (c : Dev nD) (t : Fin cfg8.N) :
    (dat8 V c).after 3 t = out8 (iblk8 V c 0 t) (iblk8 V c 1 t) (iblk8 V c 2 t) := rfl

/-- The body leaves its inputs in place, so what it finds in an input window at a point is what it leaves there. -/
theorem before8 (c : Dev nD) (t : Fin cfg8.N) : ∀ w : Fin cfg8.W, w ≠ 3 → ∀ d, (dat8 V c).before w t d = (dat8 V c).after w t
  | 0, _, d | 1, _, d | 2, _, d => ((dat8 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation8 (c : Dev nD) : BodyObligation (dat8 (F := F) V c) (defs₀ (F := F)) Variants.none () Set.univ := fun t => by
  rw [bigSep_W8, bigSep_W8, idle8_3 t]
  simp only [show ∀ p, (dat8 V c).Φ p = Pipeline.ΦA spec8 c from fun _ => rfl, Pipeline.ΦA, scopedRest8_split]
  iintro ⟨⟨⟨HS, HR⟩, Hg⟩, Ho, ⟨%dA, HA⟩, ⟨%dB, HB⟩, ⟨%dC, HC⟩, ⟨%dO, HO⟩⟩
  rw [before8 V c t 0 (by decide), before8 V c t 1 (by decide), before8 V c t 2 (by decide)]
  sl_whnfR [defs₀, Defs.onTc]
  iapply sound_kernel8 (cond8 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end

end Cert.Kernel.Gen

end
-- ==== Proof.K.Defs9.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def acc9 (xa : Vec F S1024x128 .f32) (xb : Vec F S128x128 .f32) : Vec F S1024x128 .f32 := k9_pay2 xa xb (k9_pay1 (F := F))

def out9 (xa : Vec F S1024x128 .f32) (xb : Vec F S128x128 .f32) (xc : Vec F S1x128 .f32) : Vec F S1024x128 .f32 := k9_pay3 (acc9 xa xb) xc

end

end Cert.Kernel.Gen

end
-- ==== Proof.K.Reg9.lean ====
import proofs.«103213_j15710990369585_1_alg».proof.Proof.K.Defs9
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond9 : ∀ t : Fin cfg9.N, k9_cond2 (grid9.coords t) = 1#1 :=
  (by decide +kernel : ∀ t : Fin grid9.N, _)

theorem idle9_3 : ∀ t : Fin cfg9.N, cfg9.idle 3 (cfg9.grid.coords t) = false :=
  (by decide +kernel : ∀ t : Fin grid9.N, _)

theorem zeros9 : (![0, 0] : Fin 2 → Nat) = fun _ => 0 := funext fun a => by fin_cases a <;> rfl

/-- Every access covers its whole memref, so a load reads the payload stored last and a memref ends holding it. -/
theorem sound_kernel9 {c : Dev nD} {E : Set ℕ} {i : grid9.Coords}
    {arg2 : Memref sig .tc .vmem S1024x128 .f32} {harg2 : arg2.IsWhole} {arg3 : Memref sig .tc .vmem S128x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k9_cond2 i = 1#1)
    {xa : Vec F S1024x128 .f32} {xb : Vec F S128x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out9 xa xb xc) ∗ owns c.tc arg6 fullShare (acc9 xa xb)) -∗ K ⟨⟩))
      ⊢ wp frame (wpE (defs₀ (F := F)) Variants.none c none) E (cc9__linear_kernel i arg2 harg2 arg3 harg3 arg4 harg4 arg5 harg5 arg6 harg6) K := by
  simp only [cc9__linear_kernel_eq_skeleton]; unfold cc9__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros9, View.readCov_cons_toLoadRect,
      View.readAt_eq_ld, View.read_rep, View.ld_unit_zero (S := S1024x128) zeros9, View.ld_unit_zero (S := S128x128) zeros9,
      View.ld_unit_zero (S := S1x128) zeros9]
    rfl

section
variable (V : (c : Dev nD) → (b : Ref sig .tc) → Buf (Elt F) ((c : Thread nD τ).loc b))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := rfl

theorem after9_3 (c : Dev nD) (t : Fin cfg9.N) :
    (dat9 V c).after 3 t = out9 (iblk9 V c 0 t) (iblk9 V c 1 t) (iblk9 V c 2 t) := rfl

/-- The body leaves its inputs in place, so what it finds in an input window at a point is what it leaves there. -/
theorem before9 (c : Dev nD) (t : Fin cfg9.N) : ∀ w : Fin cfg9.W, w ≠ 3 → ∀ d, (dat9 V c).before w t d = (dat9 V c).after w t
  | 0, _, d | 1, _, d | 2, _, d => ((dat9 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation9 (c : Dev nD) : BodyObligation (dat9 (F := F) V c) (defs₀ (F := F)) Variants.none () Set.univ := fun t => by
  rw [bigSep_W9, bigSep_W9, idle9_3 t]
  simp only [show ∀ p, (dat9 V c).Φ p = Pipeline.ΦA spec9 c from fun _ => rfl, Pipeline.ΦA, scopedRest9_split]
  iintro ⟨⟨⟨HS, HR⟩, Hg⟩, Ho, ⟨%dA, HA⟩, ⟨%dB, HB⟩, ⟨%dC, HC⟩, ⟨%dO, HO⟩⟩
  rw [before9 V c t 0 (by decide), before9 V c t 1 (by decide), before9 V c t 2 (by decide)]
  sl_whnfR [defs₀, Defs.onTc]
  iapply sound_kernel9 (cond9 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin9 (c : Dev nD) : Pipeline.ΦA spec9 c ⊢ (dat9 V c).Φ 0 := .rfl

theorem hout9 (c : Dev nD) : (dat9 V c).Φ (Fin.last cfg9.N) ⊢ Pipeline.ΦA spec9 c := .rfl

end

end Cert.Kernel.Gen

end
-- ==== Proof.K.Defs10.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def acc10 (xa : Vec F S1024x256 .f32) (xb : Vec F S256x128 .f32) : Vec F S1024x128 .f32 := k10_pay2 xa xb (k10_pay1 (F := F))

def out10 (xa : Vec F S1024x256 .f32) (xb : Vec F S256x128 .f32) (xc : Vec F S1x128 .f32) : Vec F S1024x128 .f32 := k10_pay3 (acc10 xa xb) xc

end

end Cert.Kernel.Gen

end
-- ==== Proof.K.Reg10.lean ====
import proofs.«103213_j15710990369585_1_alg».proof.Proof.K.Defs10
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond10 : ∀ t : Fin cfg10.N, k10_cond2 (grid10.coords t) = 1#1 :=
  (by decide +kernel : ∀ t : Fin grid10.N, _)

theorem idle10_3 : ∀ t : Fin cfg10.N, cfg10.idle 3 (cfg10.grid.coords t) = false :=
  (by decide +kernel : ∀ t : Fin grid10.N, _)

theorem zeros10 : (![0, 0] : Fin 2 → Nat) = fun _ => 0 := funext fun a => by fin_cases a <;> rfl

/-- Every access covers its whole memref, so a load reads the payload stored last and a memref ends holding it. -/
theorem sound_kernel10 {c : Dev nD} {E : Set ℕ} {i : grid10.Coords}
    {arg2 : Memref sig .tc .vmem S1024x256 .f32} {harg2 : arg2.IsWhole} {arg3 : Memref sig .tc .vmem S256x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k10_cond2 i = 1#1)
    {xa : Vec F S1024x256 .f32} {xb : Vec F S256x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out10 xa xb xc) ∗ owns c.tc arg6 fullShare (acc10 xa xb)) -∗ K ⟨⟩))
      ⊢ wp frame (wpE (defs₀ (F := F)) Variants.none c none) E (cc10__linear_kernel i arg2 harg2 arg3 harg3 arg4 harg4 arg5 harg5 arg6 harg6) K := by
  simp only [cc10__linear_kernel_eq_skeleton]; unfold cc10__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros10, View.readCov_cons_toLoadRect,
      View.readAt_eq_ld, View.read_rep, View.ld_unit_zero (S := S1024x256) zeros10, View.ld_unit_zero (S := S256x128) zeros10,
      View.ld_unit_zero (S := S1x128) zeros10]
    rfl

section
variable (V : (c : Dev nD) → (b : Ref sig .tc) → Buf (Elt F) ((c : Thread nD τ).loc b))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := rfl

theorem after10_3 (c : Dev nD) (t : Fin cfg10.N) :
    (dat10 V c).after 3 t = out10 (iblk10 V c 0 t) (iblk10 V c 1 t) (iblk10 V c 2 t) := rfl

/-- The body leaves its inputs in place, so what it finds in an input window at a point is what it leaves there. -/
theorem before10 (c : Dev nD) (t : Fin cfg10.N) : ∀ w : Fin cfg10.W, w ≠ 3 → ∀ d, (dat10 V c).before w t d = (dat10 V c).after w t
  | 0, _, d | 1, _, d | 2, _, d => ((dat10 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation10 (c : Dev nD) : BodyObligation (dat10 (F := F) V c) (defs₀ (F := F)) Variants.none () Set.univ := fun t => by
  rw [bigSep_W10, bigSep_W10, idle10_3 t]
  simp only [show ∀ p, (dat10 V c).Φ p = Pipeline.ΦA spec10 c from fun _ => rfl, Pipeline.ΦA, scopedRest10_split]
  iintro ⟨⟨⟨HS, HR⟩, Hg⟩, Ho, ⟨%dA, HA⟩, ⟨%dB, HB⟩, ⟨%dC, HC⟩, ⟨%dO, HO⟩⟩
  rw [before10 V c t 0 (by decide), before10 V c t 1 (by decide), before10 V c t 2 (by decide)]
  sl_whnfR [defs₀, Defs.onTc]
  iapply sound_kernel10 (cond10 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin10 (c : Dev nD) : Pipeline.ΦA spec10 c ⊢ (dat10 V c).Φ 0 := .rfl

theorem hout10 (c : Dev nD) : (dat10 V c).Φ (Fin.last cfg10.N) ⊢ Pipeline.ΦA spec10 c := .rfl

end

end Cert.Kernel.Gen

end
-- ==== Proof.K.Defs11.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def acc11 (xa : Vec F S1024x128 .f32) (xb : Vec F S128x128 .f32) : Vec F S1024x128 .f32 := k11_pay2 xa xb (k11_pay1 (F := F))

def out11 (xa : Vec F S1024x128 .f32) (xb : Vec F S128x128 .f32) (xc : Vec F S1x128 .f32) : Vec F S1024x128 .f32 := k11_pay3 (acc11 xa xb) xc

end

end Cert.Kernel.Gen

end
-- ==== Proof.K.Reg11.lean ====
import proofs.«103213_j15710990369585_1_alg».proof.Proof.K.Defs11
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond11 : ∀ t : Fin cfg11.N, k11_cond2 (grid11.coords t) = 1#1 :=
  (by decide +kernel : ∀ t : Fin grid11.N, _)

theorem idle11_3 : ∀ t : Fin cfg11.N, cfg11.idle 3 (cfg11.grid.coords t) = false :=
  (by decide +kernel : ∀ t : Fin grid11.N, _)

theorem zeros11 : (![0, 0] : Fin 2 → Nat) = fun _ => 0 := funext fun a => by fin_cases a <;> rfl

/-- Every access covers its whole memref, so a load reads the payload stored last and a memref ends holding it. -/
theorem sound_kernel11 {c : Dev nD} {E : Set ℕ} {i : grid11.Coords}
    {arg2 : Memref sig .tc .vmem S1024x128 .f32} {harg2 : arg2.IsWhole} {arg3 : Memref sig .tc .vmem S128x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k11_cond2 i = 1#1)
    {xa : Vec F S1024x128 .f32} {xb : Vec F S128x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out11 xa xb xc) ∗ owns c.tc arg6 fullShare (acc11 xa xb)) -∗ K ⟨⟩))
      ⊢ wp frame (wpE (defs₀ (F := F)) Variants.none c none) E (cc11__linear_kernel i arg2 harg2 arg3 harg3 arg4 harg4 arg5 harg5 arg6 harg6) K := by
  simp only [cc11__linear_kernel_eq_skeleton]; unfold cc11__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros11, View.readCov_cons_toLoadRect,
      View.readAt_eq_ld, View.read_rep, View.ld_unit_zero (S := S1024x128) zeros11, View.ld_unit_zero (S := S128x128) zeros11,
      View.ld_unit_zero (S := S1x128) zeros11]
    rfl

section
variable (V : (c : Dev nD) → (b : Ref sig .tc) → Buf (Elt F) ((c : Thread nD τ).loc b))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := rfl

theorem after11_3 (c : Dev nD) (t : Fin cfg11.N) :
    (dat11 V c).after 3 t = out11 (iblk11 V c 0 t) (iblk11 V c 1 t) (iblk11 V c 2 t) := rfl

/-- The body leaves its inputs in place, so what it finds in an input window at a point is what it leaves there. -/
theorem before11 (c : Dev nD) (t : Fin cfg11.N) : ∀ w : Fin cfg11.W, w ≠ 3 → ∀ d, (dat11 V c).before w t d = (dat11 V c).after w t
  | 0, _, d | 1, _, d | 2, _, d => ((dat11 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation11 (c : Dev nD) : BodyObligation (dat11 (F := F) V c) (defs₀ (F := F)) Variants.none () Set.univ := fun t => by
  rw [bigSep_W11, bigSep_W11, idle11_3 t]
  simp only [show ∀ p, (dat11 V c).Φ p = Pipeline.ΦA spec11 c from fun _ => rfl, Pipeline.ΦA, scopedRest11_split]
  iintro ⟨⟨⟨HS, HR⟩, Hg⟩, Ho, ⟨%dA, HA⟩, ⟨%dB, HB⟩, ⟨%dC, HC⟩, ⟨%dO, HO⟩⟩
  rw [before11 V c t 0 (by decide), before11 V c t 1 (by decide), before11 V c t 2 (by decide)]
  sl_whnfR [defs₀, Defs.onTc]
  iapply sound_kernel11 (cond11 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin11 (c : Dev nD) : Pipeline.ΦA spec11 c ⊢ (dat11 V c).Φ 0 := .rfl

theorem hout11 (c : Dev nD) : (dat11 V c).Φ (Fin.last cfg11.N) ⊢ Pipeline.ΦA spec11 c := .rfl

end

end Cert.Kernel.Gen

end
-- ==== Proof.K.Defs12.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

def accAt12 (c : Dev nD) : (n : ℕ) → n < cfg12.N → Vec F S1024x512 .f32
  | 0, hn => k12_pay2 (iblk12 V c 0 ⟨0, hn⟩) (iblk12 V c 1 ⟨0, hn⟩) (k12_pay1 (F := F))
  | n + 1, hn =>
    if (n + 1) % 4 = 0 then k12_pay2 (iblk12 V c 0 ⟨n + 1, hn⟩) (iblk12 V c 1 ⟨n + 1, hn⟩) (k12_pay1 (F := F))
    else k12_pay2 (iblk12 V c 0 ⟨n + 1, hn⟩) (iblk12 V c 1 ⟨n + 1, hn⟩) (accAt12 c n (Nat.lt_of_succ_lt hn))

def out12 (c : Dev nD) (t : Fin cfg12.N) : Vec F S1024x512 .f32 := k12_pay3 (accAt12 V c t.val t.isLt) (iblk12 V c 2 t)

end

end Cert.Kernel.Gen

end
-- ==== Proof.K.Reg12.lean ====
import proofs.«103213_j15710990369585_1_alg».proof.Proof.K.Defs12
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond12_0 (i : grid12.Coords) : Prop :=
  (Scalar.cmpi .ne (Scalar.extui (Scalar.cmpi .eq (BitVec.ofNat 32 (i 1).val) 0#32)) 0#32) = 1#1
theorem hcond12_0 : ∀ t : Fin cfg12.N, cond12_0 (grid12.coords t) ↔ t.val % 4 = 0 := by decide +kernel
abbrev cond12_1 (i : grid12.Coords) : Prop := k12_cond2 i = 1#1
theorem hcond12_1 : ∀ t : Fin cfg12.N, cond12_1 (grid12.coords t) ↔ t.val % 4 = 3 := by decide +kernel

theorem idleAt12_3 : ∀ t : Fin cfg12.N, ¬cond12_1 (grid12.coords t) → idle12 3 (grid12.coords t) = true ∧ (win12 3).flush t = false := by decide +kernel
theorem liveAt12_3 : ∀ t : Fin cfg12.N, cond12_1 (grid12.coords t) → idle12 3 (grid12.coords t) = false := by decide +kernel

theorem hz12 : (![0, 0] : Fin 2 → Nat) = fun _ => 0 := funext fun a => by fin_cases a <;> rfl

-- Reading back after a last write that covers every index gives what was written.
theorem stw12 (v : View sig .tc .vmem S1024x512 .f32) (f : v.ty.Contents (Elt F)) (w w' : S1024x512.Idx → Elt F .f32)
    (L : List (View.Piece (Elt F) S1024x512 .f32)) (h : w = w') :
    v.read (Elt F) (v.writes (Elt F) f (⟨Rect.unit ![0, 0] S1024x512.size inb_S1024x512_S1024x512_0_0, w⟩ :: L)) = w' := by
  rw [View.read_writes_eq_canon _ _ _ (fun y => ⟨_, List.mem_cons.mpr (Or.inl rfl), View.mem_set_unit_zero hz12 inb_S1024x512_S1024x512_0_0 y⟩),
    View.canon_cons_unit_zero hz12, h]

section
variable {c : Dev nD} {E : Set ℕ} {i : grid12.Coords} {arg2 : Memref sig .tc .vmem S1024x1024 .f32} {harg2 : arg2.IsWhole}
  {arg3 : Memref sig .tc .vmem S1024x512 .f32} {harg3 : arg3.IsWhole} {arg4 : Memref sig .tc .vmem S1x512 .f32} {harg4 : arg4.IsWhole}
  {arg5 : Memref sig .tc .vmem S1024x512 .f32} {harg5 : arg5.IsWhole} {arg6 : Memref sig .tc .vmem S1024x512 .f32} {harg6 : arg6.IsWhole}

-- Off a last K-step only the accumulator changes: this step's product is added to the zero splat at a first K-step, else to what it held.
set_option maxHeartbeats 1000000 in
theorem kernel12_AB (hc1 : ¬cond12_1 i) (xa : Vec F S1024x1024 .f32) (xb : Vec F S1024x512 .f32) (e b : Vec F S1024x512 .f32)
    (hb : b = if cond12_0 i then k12_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k12_pay2 xa xb b)) -∗ K ⟨⟩))
      ⊢ wp frame (wpE (defs₀ (F := F)) Variants.none c none) E (cc12__linear_kernel i arg2 harg2 arg3 harg3 arg4 harg4 arg5 harg5 arg6 harg6) K := by
  simp only [cc12__linear_kernel_eq_skeleton]; unfold cc12__linear_kernel_skel
  rw [owns_eq_rep, owns_eq_rep]; unfold owns
  iintro ⟨H2, H3, ⟨%f6, %hf6, H6⟩, Hk⟩
  subst hf6
  by_cases hc0 : cond12_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw12 _ _ _ _ _ ?_
    simp only [View.readAt_eq_ld, View.read_rep, View.ld_unit_zero (S := S1024x1024) hz12, View.ld_unit_zero (S := S1024x512) hz12,
      View.ld_unit_zero (S := S1x512) hz12, View.readCov_unit_zero (S := S1024x512) _ hz12]

-- At a last K-step the accumulator plus the bias row is stored as well.
set_option maxHeartbeats 1000000 in
theorem kernel12_C (hc0 : ¬cond12_0 i) (hc1 : cond12_1 i) (xa : Vec F S1024x1024 .f32) (xb : Vec F S1024x512 .f32) (xc : Vec F S1x512 .f32) (d e : Vec F S1024x512 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k12_pay3 (k12_pay2 xa xb e) xc)
            ∗ owns (c : Thread nD τ) arg6 fullShare (k12_pay2 xa xb e)) -∗ K ⟨⟩))
      ⊢ wp frame (wpE (defs₀ (F := F)) Variants.none c none) E (cc12__linear_kernel i arg2 harg2 arg3 harg3 arg4 harg4 arg5 harg5 arg6 harg6) K := by
  simp only [cc12__linear_kernel_eq_skeleton]; unfold cc12__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw12 _ _ _ _ _ ?_ <;>
    simp only [View.readAt_eq_ld, View.read_rep, View.ld_unit_zero (S := S1024x1024) hz12, View.ld_unit_zero (S := S1024x512) hz12,
      View.ld_unit_zero (S := S1x512) hz12, View.readCov_unit_zero (S := S1024x512) _ hz12]

end

abbrev inv12 (c : Dev nD) (S : sProp 𝕄) : sProp 𝕄 :=
  iprop(iprop(S ∗ Pipeline.scopedRestBut (Ix := Unit) (Name := ℕ) (U := UR sig nD τ) (Lvl := ℕ) (Val := Elt F) spec12 c [cc12_scratch0]) ∗ (∃ r, prngReg c r))

theorem PhiA12_eq (c : Dev nD) :
    (Pipeline.ΦA spec12 c : sProp 𝕄) = inv12 c iprop(∃ d, owns (c : Thread nD τ) (Memref.whole cc12_scratch0) fullShare d) := by
  unfold Pipeline.ΦA inv12; rw [scopedRest12_split]; simp only [owns_whole]; try rfl

section
variable (V : (c : Dev nD) → (b : Ref sig .tc) → Buf (Elt F) ((c : Thread nD τ).loc b))

-- The accumulator's recursion as one equation.
theorem accAt12_eq (c : Dev nD) (t : Fin cfg12.N) : accAt12 V c t.val t.isLt = k12_pay2 (iblk12 V c 0 t) (iblk12 V c 1 t)
    (if t.val % 4 = 0 then k12_pay1 (F := F) else accAt12 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi12 (c : Dev nD) (n : ℕ) (h : n ≤ cfg12.N) : sProp 𝕄 :=
  if hz : n = 0 then Pipeline.ΦA spec12 c
  else inv12 c (owns (c : Thread nD τ) (Memref.whole cc12_scratch0) fullShare (accAt12 V c (n - 1) (by omega)))

-- Forgetting the accumulator's value gives the entry form back.
theorem Phi12_any (c : Dev nD) (n : ℕ) (h : n ≤ cfg12.N) :
    Phi12 V c n h ⊢ inv12 c iprop(∃ d, owns (c : Thread nD τ) (Memref.whole cc12_scratch0) fullShare d) := by
  unfold Phi12
  split
  · rw [← PhiA12_eq]
  · unfold inv12
    iintro ⟨⟨HS, HR⟩, Hg⟩
    iframe HR Hg
    iexists _; iexact HS

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12 V c t
  Φ t := Phi12 V c t.val (Nat.le_of_lt_succ t.isLt)
  q _ := fullShare
  owed _ := 0

theorem A_eq12 (c : Dev nD) (w : Fin cfg12.W) : (dat12 V c).A w = V c (Pipeline.arrRef spec12 w) := rfl

theorem after12_3 (c : Dev nD) (t : Fin cfg12.N) : (dat12 V c).after 3 t = out12 V c t := rfl

theorem before12_0 (c : Dev nD) (t : Fin cfg12.N) (d) : (dat12 V c).before 0 t d = iblk12 V c 0 t := by
  rw [Dat.before_in_eq_fetched _ 0 rfl (fun _ => rfl) (fun _ _ _ => rfl) (fun _ => rfl) t d]; rfl
theorem before12_1 (c : Dev nD) (t : Fin cfg12.N) (d) : (dat12 V c).before 1 t d = iblk12 V c 1 t := by
  rw [Dat.before_in_eq_fetched _ 1 rfl (fun _ => rfl) (fun _ _ _ => rfl) (fun _ => rfl) t d]; rfl
theorem before12_2 (c : Dev nD) (t : Fin cfg12.N) (d) : (dat12 V c).before 2 t d = iblk12 V c 2 t := by
  rw [Dat.before_in_eq_fetched _ 2 rfl (fun _ => rfl) (fun _ _ _ => rfl) (fun _ => rfl) t d]; rfl

-- By the control case of the point: first, last, or neither.
theorem body_obligation12 (c : Dev nD) : BodyObligation (dat12 (F := F) V c) (defs₀ (F := F)) Variants.none () Set.univ := fun t => by
  rw [bigSep_W12, bigSep_W12]
  show _ ⊢ wp frame (wpE (defs₀ (F := F)) Variants.none c none) Set.univ (bodyAt12 t) _
  unfold bodyAt12
  simp only [before12_0, before12_1, before12_2]
  rw [show (dat12 V c).owesAt () t.succ = (dat12 V c).owesAt () t.castSucc from rfl,
    show (dat12 V c).Φ t.succ = inv12 c (owns (c : Thread nD τ) (Memref.whole cc12_scratch0) fullShare (accAt12 V c t.val t.isLt)) from rfl,
    show (dat12 V c).Φ t.castSucc = Phi12 V c t.val (Nat.le_of_lt t.isLt) from rfl,
    show (dat12 V c).after 0 t = iblk12 V c 0 t from rfl, show (dat12 V c).after 1 t = iblk12 V c 1 t from rfl,
    show (dat12 V c).after 2 t = iblk12 V c 2 t from rfl]
  unfold inv12
  by_cases h0 : t.val % 4 = 0
  · have hn1 : ¬cond12_1 (grid12.coords t) := fun h => by have := (hcond12_1 t).mp h; omega
    simp only [(idleAt12_3 t hn1).1, (idleAt12_3 t hn1).2]
    rw [accAt12_eq V c t, if_pos h0]
    iintro ⟨HP, Ho, ⟨%d0, H0⟩, ⟨%d1, H1⟩, ⟨%d2, H2⟩, H3⟩
    icases (Phi12_any V c t.val (Nat.le_of_lt t.isLt)) $$ HP with ⟨⟨⟨%e, HS⟩, HR⟩, Hg⟩
    iapply (kernel12_AB hn1 _ _ _ _ (if_pos ((hcond12_0 t).mpr h0)).symm _)
    iframe H0 H1 HS
    iintro ⟨H0, H1, HS⟩
    iframe
  · have hn0 : ¬cond12_0 (grid12.coords t) := fun h => h0 ((hcond12_0 t).mp h)
    rw [accAt12_eq V c t, if_neg h0, Phi12, dif_neg fun h => h0 (by rw [h])]
    unfold inv12
    by_cases h1 : t.val % 4 = 3
    · simp only [liveAt12_3 t ((hcond12_1 t).mpr h1), after12_3]
      unfold out12
      rw [accAt12_eq V c t, if_neg h0]
      iintro ⟨⟨⟨HS, HR⟩, Hg⟩, Ho, ⟨%d0, H0⟩, ⟨%d1, H1⟩, ⟨%d2, H2⟩, ⟨%d3, H3⟩⟩
      iapply (kernel12_C hn0 ((hcond12_1 t).mpr h1) _ _ _ _ _ _)
      iframe H0 H1 H2 H3 HS
      iintro ⟨H0, H1, H2, H3, HS⟩
      iframe
    · have hn1 : ¬cond12_1 (grid12.coords t) := fun h => h1 ((hcond12_1 t).mp h)
      simp only [(idleAt12_3 t hn1).1, (idleAt12_3 t hn1).2]
      iintro ⟨⟨⟨HS, HR⟩, Hg⟩, Ho, ⟨%d0, H0⟩, ⟨%d1, H1⟩, ⟨%d2, H2⟩, H3⟩
      iapply (kernel12_AB hn1 _ _ _ _ (if_neg hn0).symm _)
      iframe H0 H1 HS
      iintro ⟨H0, H1, HS⟩
      iframe

theorem hin12 (c : Dev nD) : Pipeline.ΦA spec12 c ⊢ (dat12 V c).Φ 0 := .rfl

theorem hout12 (c : Dev nD) : (dat12 V c).Φ (Fin.last cfg12.N) ⊢ Pipeline.ΦA spec12 c := by
  rw [PhiA12_eq]; exact Phi12_any V c cfg12.N (Nat.le_refl _)

end

end Cert.Kernel.Gen

end
-- ==== Proof.K.Defs13.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def accAt13 (c : Dev nD) : (n : ℕ) → n < cfg13.N → Vec F S1024x640 .f32
  | 0, hn => k13_pay2 (iblk13 V c 0 ⟨0, hn⟩) (iblk13 V c 1 ⟨0, hn⟩) (k13_pay1 (F := F))
  | n + 1, hn =>
    if (n + 1) % 8 = 0 then k13_pay2 (iblk13 V c 0 ⟨n + 1, hn⟩) (iblk13 V c 1 ⟨n + 1, hn⟩) (k13_pay1 (F := F))
    else k13_pay2 (iblk13 V c 0 ⟨n + 1, hn⟩) (iblk13 V c 1 ⟨n + 1, hn⟩) (accAt13 c n (Nat.lt_of_succ_lt hn))

def out13 (c : Dev nD) (t : Fin cfg13.N) : Vec F S1024x640 .f32 := k13_pay3 (accAt13 V c t.val t.isLt) (iblk13 V c 2 t)

end

end Cert.Kernel.Gen

end
-- ==== Proof.K.Reg13.lean ====
import proofs.«103213_j15710990369585_1_alg».proof.Proof.K.Defs13
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond13_0 (i : grid13.Coords) : Prop :=
  (Scalar.cmpi .ne (Scalar.extui (Scalar.cmpi .eq (BitVec.ofNat 32 (i 1).val) 0#32)) 0#32) = 1#1
theorem hcond13_0 : ∀ t : Fin cfg13.N, cond13_0 (grid13.coords t) ↔ t.val % 8 = 0 := by decide +kernel
abbrev cond13_1 (i : grid13.Coords) : Prop := k13_cond2 i = 1#1
theorem hcond13_1 : ∀ t : Fin cfg13.N, cond13_1 (grid13.coords t) ↔ t.val % 8 = 7 := by decide +kernel

theorem idleAt13_3 : ∀ t : Fin cfg13.N, ¬cond13_1 (grid13.coords t) → idle13 3 (grid13.coords t) = true ∧ (win13 3).flush t = false := by decide +kernel
theorem liveAt13_3 : ∀ t : Fin cfg13.N, cond13_1 (grid13.coords t) → idle13 3 (grid13.coords t) = false := by decide +kernel

theorem hz13 : (![0, 0] : Fin 2 → Nat) = fun _ => 0 := funext fun a => by fin_cases a <;> rfl

-- Reading back after a last write that covers every index gives what was written.
theorem stw13 (v : View sig .tc .vmem S1024x640 .f32) (f : v.ty.Contents (Elt F)) (w w' : S1024x640.Idx → Elt F .f32)
    (L : List (View.Piece (Elt F) S1024x640 .f32)) (h : w = w') :
    v.read (Elt F) (v.writes (Elt F) f (⟨Rect.unit ![0, 0] S1024x640.size inb_S1024x640_S1024x640_0_0, w⟩ :: L)) = w' := by
  rw [View.read_writes_eq_canon _ _ _ (fun y => ⟨_, List.mem_cons.mpr (Or.inl rfl), View.mem_set_unit_zero hz13 inb_S1024x640_S1024x640_0_0 y⟩),
    View.canon_cons_unit_zero hz13, h]

section
variable {c : Dev nD} {E : Set ℕ} {i : grid13.Coords} {arg2 : Memref sig .tc .vmem S1024x1024 .f32} {harg2 : arg2.IsWhole}
  {arg3 : Memref sig .tc .vmem S1024x640 .f32} {harg3 : arg3.IsWhole} {arg4 : Memref sig .tc .vmem S1x640 .f32} {harg4 : arg4.IsWhole}
  {arg5 : Memref sig .tc .vmem S1024x640 .f32} {harg5 : arg5.IsWhole} {arg6 : Memref sig .tc .vmem S1024x640 .f32} {harg6 : arg6.IsWhole}

-- Off a last K-step only the accumulator changes: this step's product is added to the zero splat at a first K-step, else to what it held.
set_option maxHeartbeats 1000000 in
theorem kernel13_AB (hc1 : ¬cond13_1 i) (xa : Vec F S1024x1024 .f32) (xb : Vec F S1024x640 .f32) (e b : Vec F S1024x640 .f32)
    (hb : b = if cond13_0 i then k13_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k13_pay2 xa xb b)) -∗ K ⟨⟩))
      ⊢ wp frame (wpE (defs₀ (F := F)) Variants.none c none) E (cc13__linear_kernel i arg2 harg2 arg3 harg3 arg4 harg4 arg5 harg5 arg6 harg6) K := by
  simp only [cc13__linear_kernel_eq_skeleton]; unfold cc13__linear_kernel_skel
  rw [owns_eq_rep, owns_eq_rep]; unfold owns
  iintro ⟨H2, H3, ⟨%f6, %hf6, H6⟩, Hk⟩
  subst hf6
  by_cases hc0 : cond13_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw13 _ _ _ _ _ ?_
    simp only [View.readAt_eq_ld, View.read_rep, View.ld_unit_zero (S := S1024x1024) hz13, View.ld_unit_zero (S := S1024x640) hz13,
      View.ld_unit_zero (S := S1x640) hz13, View.readCov_unit_zero (S := S1024x640) _ hz13]

-- At a last K-step the accumulator plus the bias row is stored as well.
set_option maxHeartbeats 1000000 in
theorem kernel13_C (hc0 : ¬cond13_0 i) (hc1 : cond13_1 i) (xa : Vec F S1024x1024 .f32) (xb : Vec F S1024x640 .f32) (xc : Vec F S1x640 .f32) (d e : Vec F S1024x640 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k13_pay3 (k13_pay2 xa xb e) xc)
            ∗ owns (c : Thread nD τ) arg6 fullShare (k13_pay2 xa xb e)) -∗ K ⟨⟩))
      ⊢ wp frame (wpE (defs₀ (F := F)) Variants.none c none) E (cc13__linear_kernel i arg2 harg2 arg3 harg3 arg4 harg4 arg5 harg5 arg6 harg6) K := by
  simp only [cc13__linear_kernel_eq_skeleton]; unfold cc13__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw13 _ _ _ _ _ ?_ <;>
    simp only [View.readAt_eq_ld, View.read_rep, View.ld_unit_zero (S := S1024x1024) hz13, View.ld_unit_zero (S := S1024x640) hz13,
      View.ld_unit_zero (S := S1x640) hz13, View.readCov_unit_zero (S := S1024x640) _ hz13]

end

abbrev inv13 (c : Dev nD) (S : sProp 𝕄) : sProp 𝕄 :=
  iprop(iprop(S ∗ Pipeline.scopedRestBut (Ix := Unit) (Name := ℕ) (U := UR sig nD τ) (Lvl := ℕ) (Val := Elt F) spec13 c [cc13_scratch0]) ∗ (∃ r, prngReg c r))

theorem PhiA13_eq (c : Dev nD) :
    (Pipeline.ΦA spec13 c : sProp 𝕄) = inv13 c iprop(∃ d, owns (c : Thread nD τ) (Memref.whole cc13_scratch0) fullShare d) := by
  unfold Pipeline.ΦA inv13; rw [scopedRest13_split]; simp only [owns_whole]; try rfl

section
variable (V : (c : Dev nD) → (b : Ref sig .tc) → Buf (Elt F) ((c : Thread nD τ).loc b))

-- The accumulator's recursion as one equation.
theorem accAt13_eq (c : Dev nD) (t : Fin cfg13.N) : accAt13 V c t.val t.isLt = k13_pay2 (iblk13 V c 0 t) (iblk13 V c 1 t)
    (if t.val % 8 = 0 then k13_pay1 (F := F) else accAt13 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi13 (c : Dev nD) (n : ℕ) (h : n ≤ cfg13.N) : sProp 𝕄 :=
  if hz : n = 0 then Pipeline.ΦA spec13 c
  else inv13 c (owns (c : Thread nD τ) (Memref.whole cc13_scratch0) fullShare (accAt13 V c (n - 1) (by omega)))

-- Forgetting the accumulator's value gives the entry form back.
theorem Phi13_any (c : Dev nD) (n : ℕ) (h : n ≤ cfg13.N) :
    Phi13 V c n h ⊢ inv13 c iprop(∃ d, owns (c : Thread nD τ) (Memref.whole cc13_scratch0) fullShare d) := by
  unfold Phi13
  split
  · rw [← PhiA13_eq]
  · unfold inv13
    iintro ⟨⟨HS, HR⟩, Hg⟩
    iframe HR Hg
    iexists _; iexact HS

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13 V c t
  Φ t := Phi13 V c t.val (Nat.le_of_lt_succ t.isLt)
  q _ := fullShare
  owed _ := 0

theorem A_eq13 (c : Dev nD) (w : Fin cfg13.W) : (dat13 V c).A w = V c (Pipeline.arrRef spec13 w) := rfl

theorem after13_3 (c : Dev nD) (t : Fin cfg13.N) : (dat13 V c).after 3 t = out13 V c t := rfl

theorem before13_0 (c : Dev nD) (t : Fin cfg13.N) (d) : (dat13 V c).before 0 t d = iblk13 V c 0 t := by
  rw [Dat.before_in_eq_fetched _ 0 rfl (fun _ => rfl) (fun _ _ _ => rfl) (fun _ => rfl) t d]; rfl
theorem before13_1 (c : Dev nD) (t : Fin cfg13.N) (d) : (dat13 V c).before 1 t d = iblk13 V c 1 t := by
  rw [Dat.before_in_eq_fetched _ 1 rfl (fun _ => rfl) (fun _ _ _ => rfl) (fun _ => rfl) t d]; rfl
theorem before13_2 (c : Dev nD) (t : Fin cfg13.N) (d) : (dat13 V c).before 2 t d = iblk13 V c 2 t := by
  rw [Dat.before_in_eq_fetched _ 2 rfl (fun _ => rfl) (fun _ _ _ => rfl) (fun _ => rfl) t d]; rfl

-- By the control case of the point: first, last, or neither.
theorem body_obligation13 (c : Dev nD) : BodyObligation (dat13 (F := F) V c) (defs₀ (F := F)) Variants.none () Set.univ := fun t => by
  rw [bigSep_W13, bigSep_W13]
  show _ ⊢ wp frame (wpE (defs₀ (F := F)) Variants.none c none) Set.univ (bodyAt13 t) _
  unfold bodyAt13
  simp only [before13_0, before13_1, before13_2]
  rw [show (dat13 V c).owesAt () t.succ = (dat13 V c).owesAt () t.castSucc from rfl,
    show (dat13 V c).Φ t.succ = inv13 c (owns (c : Thread nD τ) (Memref.whole cc13_scratch0) fullShare (accAt13 V c t.val t.isLt)) from rfl,
    show (dat13 V c).Φ t.castSucc = Phi13 V c t.val (Nat.le_of_lt t.isLt) from rfl,
    show (dat13 V c).after 0 t = iblk13 V c 0 t from rfl, show (dat13 V c).after 1 t = iblk13 V c 1 t from rfl,
    show (dat13 V c).after 2 t = iblk13 V c 2 t from rfl]
  unfold inv13
  by_cases h0 : t.val % 8 = 0
  · have hn1 : ¬cond13_1 (grid13.coords t) := fun h => by have := (hcond13_1 t).mp h; omega
    simp only [(idleAt13_3 t hn1).1, (idleAt13_3 t hn1).2]
    rw [accAt13_eq V c t, if_pos h0]
    iintro ⟨HP, Ho, ⟨%d0, H0⟩, ⟨%d1, H1⟩, ⟨%d2, H2⟩, H3⟩
    icases (Phi13_any V c t.val (Nat.le_of_lt t.isLt)) $$ HP with ⟨⟨⟨%e, HS⟩, HR⟩, Hg⟩
    iapply (kernel13_AB hn1 _ _ _ _ (if_pos ((hcond13_0 t).mpr h0)).symm _)
    iframe H0 H1 HS
    iintro ⟨H0, H1, HS⟩
    iframe
  · have hn0 : ¬cond13_0 (grid13.coords t) := fun h => h0 ((hcond13_0 t).mp h)
    rw [accAt13_eq V c t, if_neg h0, Phi13, dif_neg fun h => h0 (by rw [h])]
    unfold inv13
    by_cases h1 : t.val % 8 = 7
    · simp only [liveAt13_3 t ((hcond13_1 t).mpr h1), after13_3]
      unfold out13
      rw [accAt13_eq V c t, if_neg h0]
      iintro ⟨⟨⟨HS, HR⟩, Hg⟩, Ho, ⟨%d0, H0⟩, ⟨%d1, H1⟩, ⟨%d2, H2⟩, ⟨%d3, H3⟩⟩
      iapply (kernel13_C hn0 ((hcond13_1 t).mpr h1) _ _ _ _ _ _)
      iframe H0 H1 H2 H3 HS
      iintro ⟨H0, H1, H2, H3, HS⟩
      iframe
    · have hn1 : ¬cond13_1 (grid13.coords t) := fun h => h1 ((hcond13_1 t).mp h)
      simp only [(idleAt13_3 t hn1).1, (idleAt13_3 t hn1).2]
      iintro ⟨⟨⟨HS, HR⟩, Hg⟩, Ho, ⟨%d0, H0⟩, ⟨%d1, H1⟩, ⟨%d2, H2⟩, H3⟩
      iapply (kernel13_AB hn1 _ _ _ _ (if_neg hn0).symm _)
      iframe H0 H1 HS
      iintro ⟨H0, H1, HS⟩
      iframe

theorem hin13 (c : Dev nD) : Pipeline.ΦA spec13 c ⊢ (dat13 V c).Φ 0 := .rfl

theorem hout13 (c : Dev nD) : (dat13 V c).Φ (Fin.last cfg13.N) ⊢ Pipeline.ΦA spec13 c := by
  rw [PhiA13_eq]; exact Phi13_any V c cfg13.N (Nat.le_refl _)

end

end Cert.Kernel.Gen

end
-- ==== Proof.K.Defs14.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

def accAt14 (c : Dev nD) : (n : ℕ) → n < cfg14.N → Vec F S1024x256 .f32
  | 0, hn => k14_pay2 (iblk14 V c 0 ⟨0, hn⟩) (iblk14 V c 1 ⟨0, hn⟩) (k14_pay1 (F := F))
  | n + 1, hn =>
    if (n + 1) % 4 = 0 then k14_pay2 (iblk14 V c 0 ⟨n + 1, hn⟩) (iblk14 V c 1 ⟨n + 1, hn⟩) (k14_pay1 (F := F))
    else k14_pay2 (iblk14 V c 0 ⟨n + 1, hn⟩) (iblk14 V c 1 ⟨n + 1, hn⟩) (accAt14 c n (Nat.lt_of_succ_lt hn))

def out14 (c : Dev nD) (t : Fin cfg14.N) : Vec F S1024x256 .f32 := k14_pay3 (accAt14 V c t.val t.isLt) (iblk14 V c 2 t)

end

end Cert.Kernel.Gen

end
-- ==== Proof.K.Reg14.lean ====
import proofs.«103213_j15710990369585_1_alg».proof.Proof.K.Defs14
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond14_0 (i : grid14.Coords) : Prop :=
  (Scalar.cmpi .ne (Scalar.extui (Scalar.cmpi .eq (BitVec.ofNat 32 (i 1).val) 0#32)) 0#32) = 1#1
theorem hcond14_0 : ∀ t : Fin cfg14.N, cond14_0 (grid14.coords t) ↔ t.val % 4 = 0 := by decide +kernel
abbrev cond14_1 (i : grid14.Coords) : Prop := k14_cond2 i = 1#1
theorem hcond14_1 : ∀ t : Fin cfg14.N, cond14_1 (grid14.coords t) ↔ t.val % 4 = 3 := by decide +kernel

theorem idleAt14_3 : ∀ t : Fin cfg14.N, ¬cond14_1 (grid14.coords t) → idle14 3 (grid14.coords t) = true ∧ (win14 3).flush t = false := by decide +kernel
theorem liveAt14_3 : ∀ t : Fin cfg14.N, cond14_1 (grid14.coords t) → idle14 3 (grid14.coords t) = false := by decide +kernel

theorem hz14 : (![0, 0] : Fin 2 → Nat) = fun _ => 0 := funext fun a => by fin_cases a <;> rfl

-- Reading back after a last write that covers every index gives what was written.
theorem stw14 (v : View sig .tc .vmem S1024x256 .f32) (f : v.ty.Contents (Elt F)) (w w' : S1024x256.Idx → Elt F .f32)
    (L : List (View.Piece (Elt F) S1024x256 .f32)) (h : w = w') :
    v.read (Elt F) (v.writes (Elt F) f (⟨Rect.unit ![0, 0] S1024x256.size inb_S1024x256_S1024x256_0_0, w⟩ :: L)) = w' := by
  rw [View.read_writes_eq_canon _ _ _ (fun y => ⟨_, List.mem_cons.mpr (Or.inl rfl), View.mem_set_unit_zero hz14 inb_S1024x256_S1024x256_0_0 y⟩),
    View.canon_cons_unit_zero hz14, h]

section
variable {c : Dev nD} {E : Set ℕ} {i : grid14.Coords} {arg2 : Memref sig .tc .vmem S1024x1024 .f32} {harg2 : arg2.IsWhole}
  {arg3 : Memref sig .tc .vmem S1024x256 .f32} {harg3 : arg3.IsWhole} {arg4 : Memref sig .tc .vmem S1x256 .f32} {harg4 : arg4.IsWhole}
  {arg5 : Memref sig .tc .vmem S1024x256 .f32} {harg5 : arg5.IsWhole} {arg6 : Memref sig .tc .vmem S1024x256 .f32} {harg6 : arg6.IsWhole}

-- Off a last K-step only the accumulator changes: this step's product is added to the zero splat at a first K-step, else to what it held.
set_option maxHeartbeats 1000000 in
theorem kernel14_AB (hc1 : ¬cond14_1 i) (xa : Vec F S1024x1024 .f32) (xb : Vec F S1024x256 .f32) (e b : Vec F S1024x256 .f32)
    (hb : b = if cond14_0 i then k14_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k14_pay2 xa xb b)) -∗ K ⟨⟩))
      ⊢ wp frame (wpE (defs₀ (F := F)) Variants.none c none) E (cc14__linear_kernel i arg2 harg2 arg3 harg3 arg4 harg4 arg5 harg5 arg6 harg6) K := by
  simp only [cc14__linear_kernel_eq_skeleton]; unfold cc14__linear_kernel_skel
  rw [owns_eq_rep, owns_eq_rep]; unfold owns
  iintro ⟨H2, H3, ⟨%f6, %hf6, H6⟩, Hk⟩
  subst hf6
  by_cases hc0 : cond14_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw14 _ _ _ _ _ ?_
    simp only [View.readAt_eq_ld, View.read_rep, View.ld_unit_zero (S := S1024x1024) hz14, View.ld_unit_zero (S := S1024x256) hz14,
      View.ld_unit_zero (S := S1x256) hz14, View.readCov_unit_zero (S := S1024x256) _ hz14]

-- At a last K-step the accumulator plus the bias row is stored as well.
set_option maxHeartbeats 1000000 in
theorem kernel14_C (hc0 : ¬cond14_0 i) (hc1 : cond14_1 i) (xa : Vec F S1024x1024 .f32) (xb : Vec F S1024x256 .f32) (xc : Vec F S1x256 .f32) (d e : Vec F S1024x256 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k14_pay3 (k14_pay2 xa xb e) xc)
            ∗ owns (c : Thread nD τ) arg6 fullShare (k14_pay2 xa xb e)) -∗ K ⟨⟩))
      ⊢ wp frame (wpE (defs₀ (F := F)) Variants.none c none) E (cc14__linear_kernel i arg2 harg2 arg3 harg3 arg4 harg4 arg5 harg5 arg6 harg6) K := by
  simp only [cc14__linear_kernel_eq_skeleton]; unfold cc14__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw14 _ _ _ _ _ ?_ <;>
    simp only [View.readAt_eq_ld, View.read_rep, View.ld_unit_zero (S := S1024x1024) hz14, View.ld_unit_zero (S := S1024x256) hz14,
      View.ld_unit_zero (S := S1x256) hz14, View.readCov_unit_zero (S := S1024x256) _ hz14]

end

abbrev inv14 (c : Dev nD) (S : sProp 𝕄) : sProp 𝕄 :=
  iprop(iprop(S ∗ Pipeline.scopedRestBut (Ix := Unit) (Name := ℕ) (U := UR sig nD τ) (Lvl := ℕ) (Val := Elt F) spec14 c [cc14_scratch0]) ∗ (∃ r, prngReg c r))

theorem PhiA14_eq (c : Dev nD) :
    (Pipeline.ΦA spec14 c : sProp 𝕄) = inv14 c iprop(∃ d, owns (c : Thread nD τ) (Memref.whole cc14_scratch0) fullShare d) := by
  unfold Pipeline.ΦA inv14; rw [scopedRest14_split]; simp only [owns_whole]; try rfl

section
variable (V : (c : Dev nD) → (b : Ref sig .tc) → Buf (Elt F) ((c : Thread nD τ).loc b))

-- The accumulator's recursion as one equation.
theorem accAt14_eq (c : Dev nD) (t : Fin cfg14.N) : accAt14 V c t.val t.isLt = k14_pay2 (iblk14 V c 0 t) (iblk14 V c 1 t)
    (if t.val % 4 = 0 then k14_pay1 (F := F) else accAt14 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi14 (c : Dev nD) (n : ℕ) (h : n ≤ cfg14.N) : sProp 𝕄 :=
  if hz : n = 0 then Pipeline.ΦA spec14 c
  else inv14 c (owns (c : Thread nD τ) (Memref.whole cc14_scratch0) fullShare (accAt14 V c (n - 1) (by omega)))

-- Forgetting the accumulator's value gives the entry form back.
theorem Phi14_any (c : Dev nD) (n : ℕ) (h : n ≤ cfg14.N) :
    Phi14 V c n h ⊢ inv14 c iprop(∃ d, owns (c : Thread nD τ) (Memref.whole cc14_scratch0) fullShare d) := by
  unfold Phi14
  split
  · rw [← PhiA14_eq]
  · unfold inv14
    iintro ⟨⟨HS, HR⟩, Hg⟩
    iframe HR Hg
    iexists _; iexact HS

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14 V c t
  Φ t := Phi14 V c t.val (Nat.le_of_lt_succ t.isLt)
  q _ := fullShare
  owed _ := 0

theorem A_eq14 (c : Dev nD) (w : Fin cfg14.W) : (dat14 V c).A w = V c (Pipeline.arrRef spec14 w) := rfl

theorem after14_3 (c : Dev nD) (t : Fin cfg14.N) : (dat14 V c).after 3 t = out14 V c t := rfl

theorem before14_0 (c : Dev nD) (t : Fin cfg14.N) (d) : (dat14 V c).before 0 t d = iblk14 V c 0 t := by
  rw [Dat.before_in_eq_fetched _ 0 rfl (fun _ => rfl) (fun _ _ _ => rfl) (fun _ => rfl) t d]; rfl
theorem before14_1 (c : Dev nD) (t : Fin cfg14.N) (d) : (dat14 V c).before 1 t d = iblk14 V c 1 t := by
  rw [Dat.before_in_eq_fetched _ 1 rfl (fun _ => rfl) (fun _ _ _ => rfl) (fun _ => rfl) t d]; rfl
theorem before14_2 (c : Dev nD) (t : Fin cfg14.N) (d) : (dat14 V c).before 2 t d = iblk14 V c 2 t := by
  rw [Dat.before_in_eq_fetched _ 2 rfl (fun _ => rfl) (fun _ _ _ => rfl) (fun _ => rfl) t d]; rfl

-- By the control case of the point: first, last, or neither.
theorem body_obligation14 (c : Dev nD) : BodyObligation (dat14 (F := F) V c) (defs₀ (F := F)) Variants.none () Set.univ := fun t => by
  rw [bigSep_W14, bigSep_W14]
  show _ ⊢ wp frame (wpE (defs₀ (F := F)) Variants.none c none) Set.univ (bodyAt14 t) _
  unfold bodyAt14
  simp only [before14_0, before14_1, before14_2]
  rw [show (dat14 V c).owesAt () t.succ = (dat14 V c).owesAt () t.castSucc from rfl,
    show (dat14 V c).Φ t.succ = inv14 c (owns (c : Thread nD τ) (Memref.whole cc14_scratch0) fullShare (accAt14 V c t.val t.isLt)) from rfl,
    show (dat14 V c).Φ t.castSucc = Phi14 V c t.val (Nat.le_of_lt t.isLt) from rfl,
    show (dat14 V c).after 0 t = iblk14 V c 0 t from rfl, show (dat14 V c).after 1 t = iblk14 V c 1 t from rfl,
    show (dat14 V c).after 2 t = iblk14 V c 2 t from rfl]
  unfold inv14
  by_cases h0 : t.val % 4 = 0
  · have hn1 : ¬cond14_1 (grid14.coords t) := fun h => by have := (hcond14_1 t).mp h; omega
    simp only [(idleAt14_3 t hn1).1, (idleAt14_3 t hn1).2]
    rw [accAt14_eq V c t, if_pos h0]
    iintro ⟨HP, Ho, ⟨%d0, H0⟩, ⟨%d1, H1⟩, ⟨%d2, H2⟩, H3⟩
    icases (Phi14_any V c t.val (Nat.le_of_lt t.isLt)) $$ HP with ⟨⟨⟨%e, HS⟩, HR⟩, Hg⟩
    iapply (kernel14_AB hn1 _ _ _ _ (if_pos ((hcond14_0 t).mpr h0)).symm _)
    iframe H0 H1 HS
    iintro ⟨H0, H1, HS⟩
    iframe
  · have hn0 : ¬cond14_0 (grid14.coords t) := fun h => h0 ((hcond14_0 t).mp h)
    rw [accAt14_eq V c t, if_neg h0, Phi14, dif_neg fun h => h0 (by rw [h])]
    unfold inv14
    by_cases h1 : t.val % 4 = 3
    · simp only [liveAt14_3 t ((hcond14_1 t).mpr h1), after14_3]
      unfold out14
      rw [accAt14_eq V c t, if_neg h0]
      iintro ⟨⟨⟨HS, HR⟩, Hg⟩, Ho, ⟨%d0, H0⟩, ⟨%d1, H1⟩, ⟨%d2, H2⟩, ⟨%d3, H3⟩⟩
      iapply (kernel14_C hn0 ((hcond14_1 t).mpr h1) _ _ _ _ _ _)
      iframe H0 H1 H2 H3 HS
      iintro ⟨H0, H1, H2, H3, HS⟩
      iframe
    · have hn1 : ¬cond14_1 (grid14.coords t) := fun h => h1 ((hcond14_1 t).mp h)
      simp only [(idleAt14_3 t hn1).1, (idleAt14_3 t hn1).2]
      iintro ⟨⟨⟨HS, HR⟩, Hg⟩, Ho, ⟨%d0, H0⟩, ⟨%d1, H1⟩, ⟨%d2, H2⟩, H3⟩
      iapply (kernel14_AB hn1 _ _ _ _ (if_neg hn0).symm _)
      iframe H0 H1 HS
      iintro ⟨H0, H1, HS⟩
      iframe

theorem hin14 (c : Dev nD) : Pipeline.ΦA spec14 c ⊢ (dat14 V c).Φ 0 := .rfl

theorem hout14 (c : Dev nD) : (dat14 V c).Φ (Fin.last cfg14.N) ⊢ Pipeline.ΦA spec14 c := by
  rw [PhiA14_eq]; exact Phi14_any V c cfg14.N (Nat.le_refl _)

end

end Cert.Kernel.Gen

end
-- ==== Proof.K.Defs15.lean ====
import proofs.«103213_j15710990369585_1_alg».proof.Proof.Gen.Kernel.Launch
import proofs.«103213_j15710990369585_1_alg».proof.Proof.Gen.Kernel.Skeleton
import proofs.«103213_j15710990369585_1_alg».proof.Proof.Gen.Kernel.Points
import Idealize.ShloMosaic.Lib.Pipeline.FrameBody

noncomputable section

namespace Cert.Kernel.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

def accAt15 (c : Dev nD) : (n : ℕ) → n < cfg15.N → Vec F S1024x128 .f32
  | 0, hn => k15_pay2 (iblk15 V c 0 ⟨0, hn⟩) (iblk15 V c 1 ⟨0, hn⟩) (k15_pay1 (F := F))
  | n + 1, hn =>
    if (n + 1) % 8 = 0 then k15_pay2 (iblk15 V c 0 ⟨n + 1, hn⟩) (iblk15 V c 1 ⟨n + 1, hn⟩) (k15_pay1 (F := F))
    else k15_pay2 (iblk15 V c 0 ⟨n + 1, hn⟩) (iblk15 V c 1 ⟨n + 1, hn⟩) (accAt15 c n (Nat.lt_of_succ_lt hn))

def out15 (c : Dev nD) (t : Fin cfg15.N) : Vec F S1024x128 .f32 := k15_pay3 (accAt15 V c t.val t.isLt) (iblk15 V c 2 t)

end

end Cert.Kernel.Gen

end
-- ==== Proof.K.Reg15.lean ====
import proofs.«103213_j15710990369585_1_alg».proof.Proof.K.Defs15
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond15_0 (i : grid15.Coords) : Prop :=
  (Scalar.cmpi .ne (Scalar.extui (Scalar.cmpi .eq (BitVec.ofNat 32 (i 1).val) 0#32)) 0#32) = 1#1
theorem hcond15_0 : ∀ t : Fin cfg15.N, cond15_0 (grid15.coords t) ↔ t.val % 8 = 0 := by decide +kernel
abbrev cond15_1 (i : grid15.Coords) : Prop := k15_cond2 i = 1#1
theorem hcond15_1 : ∀ t : Fin cfg15.N, cond15_1 (grid15.coords t) ↔ t.val % 8 = 7 := by decide +kernel

theorem idleAt15_3 : ∀ t : Fin cfg15.N, ¬cond15_1 (grid15.coords t) → idle15 3 (grid15.coords t) = true ∧ (win15 3).flush t = false := by decide +kernel
theorem liveAt15_3 : ∀ t : Fin cfg15.N, cond15_1 (grid15.coords t) → idle15 3 (grid15.coords t) = false := by decide +kernel

theorem hz15 : (![0, 0] : Fin 2 → Nat) = fun _ => 0 := funext fun a => by fin_cases a <;> rfl

-- Reading back after a last write that covers every index gives what was written.
theorem stw15 (v : View sig .tc .vmem S1024x128 .f32) (f : v.ty.Contents (Elt F)) (w w' : S1024x128.Idx → Elt F .f32)
    (L : List (View.Piece (Elt F) S1024x128 .f32)) (h : w = w') :
    v.read (Elt F) (v.writes (Elt F) f (⟨Rect.unit ![0, 0] S1024x128.size inb_S1024x128_S1024x128_0_0, w⟩ :: L)) = w' := by
  rw [View.read_writes_eq_canon _ _ _ (fun y => ⟨_, List.mem_cons.mpr (Or.inl rfl), View.mem_set_unit_zero hz15 inb_S1024x128_S1024x128_0_0 y⟩),
    View.canon_cons_unit_zero hz15, h]

section
variable {c : Dev nD} {E : Set ℕ} {i : grid15.Coords} {arg2 : Memref sig .tc .vmem S1024x1024 .f32} {harg2 : arg2.IsWhole}
  {arg3 : Memref sig .tc .vmem S1024x128 .f32} {harg3 : arg3.IsWhole} {arg4 : Memref sig .tc .vmem S1x128 .f32} {harg4 : arg4.IsWhole}
  {arg5 : Memref sig .tc .vmem S1024x128 .f32} {harg5 : arg5.IsWhole} {arg6 : Memref sig .tc .vmem S1024x128 .f32} {harg6 : arg6.IsWhole}

-- Off a last K-step only the accumulator changes: this step's product is added to the zero splat at a first K-step, else to what it held.
set_option maxHeartbeats 1000000 in
theorem kernel15_AB (hc1 : ¬cond15_1 i) (xa : Vec F S1024x1024 .f32) (xb : Vec F S1024x128 .f32) (e b : Vec F S1024x128 .f32)
    (hb : b = if cond15_0 i then k15_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k15_pay2 xa xb b)) -∗ K ⟨⟩))
      ⊢ wp frame (wpE (defs₀ (F := F)) Variants.none c none) E (cc15__linear_kernel i arg2 harg2 arg3 harg3 arg4 harg4 arg5 harg5 arg6 harg6) K := by
  simp only [cc15__linear_kernel_eq_skeleton]; unfold cc15__linear_kernel_skel
  rw [owns_eq_rep, owns_eq_rep]; unfold owns
  iintro ⟨H2, H3, ⟨%f6, %hf6, H6⟩, Hk⟩
  subst hf6
  by_cases hc0 : cond15_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw15 _ _ _ _ _ ?_
    simp only [View.readAt_eq_ld, View.read_rep, View.ld_unit_zero (S := S1024x1024) hz15, View.ld_unit_zero (S := S1024x128) hz15,
      View.ld_unit_zero (S := S1x128) hz15, View.readCov_unit_zero (S := S1024x128) _ hz15]

-- At a last K-step the accumulator plus the bias row is stored as well.
set_option maxHeartbeats 1000000 in
theorem kernel15_C (hc0 : ¬cond15_0 i) (hc1 : cond15_1 i) (xa : Vec F S1024x1024 .f32) (xb : Vec F S1024x128 .f32) (xc : Vec F S1x128 .f32) (d e : Vec F S1024x128 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k15_pay3 (k15_pay2 xa xb e) xc)
            ∗ owns (c : Thread nD τ) arg6 fullShare (k15_pay2 xa xb e)) -∗ K ⟨⟩))
      ⊢ wp frame (wpE (defs₀ (F := F)) Variants.none c none) E (cc15__linear_kernel i arg2 harg2 arg3 harg3 arg4 harg4 arg5 harg5 arg6 harg6) K := by
  simp only [cc15__linear_kernel_eq_skeleton]; unfold cc15__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw15 _ _ _ _ _ ?_ <;>
    simp only [View.readAt_eq_ld, View.read_rep, View.ld_unit_zero (S := S1024x1024) hz15, View.ld_unit_zero (S := S1024x128) hz15,
      View.ld_unit_zero (S := S1x128) hz15, View.readCov_unit_zero (S := S1024x128) _ hz15]

end

abbrev inv15 (c : Dev nD) (S : sProp 𝕄) : sProp 𝕄 :=
  iprop(iprop(S ∗ Pipeline.scopedRestBut (Ix := Unit) (Name := ℕ) (U := UR sig nD τ) (Lvl := ℕ) (Val := Elt F) spec15 c [cc15_scratch0]) ∗ (∃ r, prngReg c r))

theorem PhiA15_eq (c : Dev nD) :
    (Pipeline.ΦA spec15 c : sProp 𝕄) = inv15 c iprop(∃ d, owns (c : Thread nD τ) (Memref.whole cc15_scratch0) fullShare d) := by
  unfold Pipeline.ΦA inv15; rw [scopedRest15_split]; simp only [owns_whole]; try rfl

section
variable (V : (c : Dev nD) → (b : Ref sig .tc) → Buf (Elt F) ((c : Thread nD τ).loc b))

-- The accumulator's recursion as one equation.
theorem accAt15_eq (c : Dev nD) (t : Fin cfg15.N) : accAt15 V c t.val t.isLt = k15_pay2 (iblk15 V c 0 t) (iblk15 V c 1 t)
    (if t.val % 8 = 0 then k15_pay1 (F := F) else accAt15 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi15 (c : Dev nD) (n : ℕ) (h : n ≤ cfg15.N) : sProp 𝕄 :=
  if hz : n = 0 then Pipeline.ΦA spec15 c
  else inv15 c (owns (c : Thread nD τ) (Memref.whole cc15_scratch0) fullShare (accAt15 V c (n - 1) (by omega)))

-- Forgetting the accumulator's value gives the entry form back.
theorem Phi15_any (c : Dev nD) (n : ℕ) (h : n ≤ cfg15.N) :
    Phi15 V c n h ⊢ inv15 c iprop(∃ d, owns (c : Thread nD τ) (Memref.whole cc15_scratch0) fullShare d) := by
  unfold Phi15
  split
  · rw [← PhiA15_eq]
  · unfold inv15
    iintro ⟨⟨HS, HR⟩, Hg⟩
    iframe HR Hg
    iexists _; iexact HS

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15 V c t
  Φ t := Phi15 V c t.val (Nat.le_of_lt_succ t.isLt)
  q _ := fullShare
  owed _ := 0

theorem A_eq15 (c : Dev nD) (w : Fin cfg15.W) : (dat15 V c).A w = V c (Pipeline.arrRef spec15 w) := rfl

theorem after15_3 (c : Dev nD) (t : Fin cfg15.N) : (dat15 V c).after 3 t = out15 V c t := rfl

theorem before15_0 (c : Dev nD) (t : Fin cfg15.N) (d) : (dat15 V c).before 0 t d = iblk15 V c 0 t := by
  rw [Dat.before_in_eq_fetched _ 0 rfl (fun _ => rfl) (fun _ _ _ => rfl) (fun _ => rfl) t d]; rfl
theorem before15_1 (c : Dev nD) (t : Fin cfg15.N) (d) : (dat15 V c).before 1 t d = iblk15 V c 1 t := by
  rw [Dat.before_in_eq_fetched _ 1 rfl (fun _ => rfl) (fun _ _ _ => rfl) (fun _ => rfl) t d]; rfl
theorem before15_2 (c : Dev nD) (t : Fin cfg15.N) (d) : (dat15 V c).before 2 t d = iblk15 V c 2 t := by
  rw [Dat.before_in_eq_fetched _ 2 rfl (fun _ => rfl) (fun _ _ _ => rfl) (fun _ => rfl) t d]; rfl

-- By the control case of the point: first, last, or neither.
theorem body_obligation15 (c : Dev nD) : BodyObligation (dat15 (F := F) V c) (defs₀ (F := F)) Variants.none () Set.univ := fun t => by
  rw [bigSep_W15, bigSep_W15]
  show _ ⊢ wp frame (wpE (defs₀ (F := F)) Variants.none c none) Set.univ (bodyAt15 t) _
  unfold bodyAt15
  simp only [before15_0, before15_1, before15_2]
  rw [show (dat15 V c).owesAt () t.succ = (dat15 V c).owesAt () t.castSucc from rfl,
    show (dat15 V c).Φ t.succ = inv15 c (owns (c : Thread nD τ) (Memref.whole cc15_scratch0) fullShare (accAt15 V c t.val t.isLt)) from rfl,
    show (dat15 V c).Φ t.castSucc = Phi15 V c t.val (Nat.le_of_lt t.isLt) from rfl,
    show (dat15 V c).after 0 t = iblk15 V c 0 t from rfl, show (dat15 V c).after 1 t = iblk15 V c 1 t from rfl,
    show (dat15 V c).after 2 t = iblk15 V c 2 t from rfl]
  unfold inv15
  by_cases h0 : t.val % 8 = 0
  · have hn1 : ¬cond15_1 (grid15.coords t) := fun h => by have := (hcond15_1 t).mp h; omega
    simp only [(idleAt15_3 t hn1).1, (idleAt15_3 t hn1).2]
    rw [accAt15_eq V c t, if_pos h0]
    iintro ⟨HP, Ho, ⟨%d0, H0⟩, ⟨%d1, H1⟩, ⟨%d2, H2⟩, H3⟩
    icases (Phi15_any V c t.val (Nat.le_of_lt t.isLt)) $$ HP with ⟨⟨⟨%e, HS⟩, HR⟩, Hg⟩
    iapply (kernel15_AB hn1 _ _ _ _ (if_pos ((hcond15_0 t).mpr h0)).symm _)
    iframe H0 H1 HS
    iintro ⟨H0, H1, HS⟩
    iframe
  · have hn0 : ¬cond15_0 (grid15.coords t) := fun h => h0 ((hcond15_0 t).mp h)
    rw [accAt15_eq V c t, if_neg h0, Phi15, dif_neg fun h => h0 (by rw [h])]
    unfold inv15
    by_cases h1 : t.val % 8 = 7
    · simp only [liveAt15_3 t ((hcond15_1 t).mpr h1), after15_3]
      unfold out15
      rw [accAt15_eq V c t, if_neg h0]
      iintro ⟨⟨⟨HS, HR⟩, Hg⟩, Ho, ⟨%d0, H0⟩, ⟨%d1, H1⟩, ⟨%d2, H2⟩, ⟨%d3, H3⟩⟩
      iapply (kernel15_C hn0 ((hcond15_1 t).mpr h1) _ _ _ _ _ _)
      iframe H0 H1 H2 H3 HS
      iintro ⟨H0, H1, H2, H3, HS⟩
      iframe
    · have hn1 : ¬cond15_1 (grid15.coords t) := fun h => h1 ((hcond15_1 t).mp h)
      simp only [(idleAt15_3 t hn1).1, (idleAt15_3 t hn1).2]
      iintro ⟨⟨⟨HS, HR⟩, Hg⟩, Ho, ⟨%d0, H0⟩, ⟨%d1, H1⟩, ⟨%d2, H2⟩, H3⟩
      iapply (kernel15_AB hn1 _ _ _ _ (if_neg hn0).symm _)
      iframe H0 H1 HS
      iintro ⟨H0, H1, HS⟩
      iframe

theorem hin15 (c : Dev nD) : Pipeline.ΦA spec15 c ⊢ (dat15 V c).Φ 0 := .rfl

theorem hout15 (c : Dev nD) : (dat15 V c).Φ (Fin.last cfg15.N) ⊢ Pipeline.ΦA spec15 c := by
  rw [PhiA15_eq]; exact Phi15_any V c cfg15.N (Nat.le_refl _)

end

end Cert.Kernel.Gen

end
-- ==== Proof.K.Regs.lean ====
import proofs.«103213_j15710990369585_1_alg».proof.Proof.K.Reg0
import proofs.«103213_j15710990369585_1_alg».proof.Proof.K.Reg1
import proofs.«103213_j15710990369585_1_alg».proof.Proof.K.Reg2
import proofs.«103213_j15710990369585_1_alg».proof.Proof.K.Reg3
import proofs.«103213_j15710990369585_1_alg».proof.Proof.K.Reg4
import proofs.«103213_j15710990369585_1_alg».proof.Proof.K.Reg5
import proofs.«103213_j15710990369585_1_alg».proof.Proof.K.Reg6
import proofs.«103213_j15710990369585_1_alg».proof.Proof.K.Reg7
import proofs.«103213_j15710990369585_1_alg».proof.Proof.K.Reg8
import proofs.«103213_j15710990369585_1_alg».proof.Proof.K.Reg9
import proofs.«103213_j15710990369585_1_alg».proof.Proof.K.Reg10
import proofs.«103213_j15710990369585_1_alg».proof.Proof.K.Reg11
import proofs.«103213_j15710990369585_1_alg».proof.Proof.K.Reg12
import proofs.«103213_j15710990369585_1_alg».proof.Proof.K.Reg13
import proofs.«103213_j15710990369585_1_alg».proof.Proof.K.Reg14
import proofs.«103213_j15710990369585_1_alg».proof.Proof.K.Reg15
-- ==== Proof.K.Chain.lean ====
import proofs.«103213_j15710990369585_1_alg».proof.Proof.KernelR.Regions
import proofs.«103213_j15710990369585_1_alg».proof.Proof.K.Regs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def putAt (r₀ : Ref sig .tc) (x : (c : Dev nD) → Buf (Elt F) ((c : Thread nD τ).loc r₀)) :
    (r : Ref sig .tc) → (c : Dev nD) → Buf (Elt F) ((c : Thread nD τ).loc r) :=
  fun r c => if h : r = r₀ then h ▸ x c else m ((c : Thread nD τ).loc r)
theorem putAt_self (r₀ : Ref sig .tc) (x : (c : Dev nD) → Buf (Elt F) ((c : Thread nD τ).loc r₀)) (c : Dev nD) :
    putAt m r₀ x r₀ c = x c := by
  unfold putAt; rw [dif_pos rfl]

abbrev W0 (c : Dev nD) : Valuation τ sig (Elt F) := fun b => m (c, b)
abbrev W1 (c : Dev nD) : Valuation τ sig (Elt F) := StableHlo.after hostOps0 (W0 m c)

def O2 (c : Dev nD) : Buf (Elt F) ((c : Thread nD τ).loc main_v1) := (dat0 (fun c b => W1 m c b) c).arrAt 3 cfg0.N

abbrev W2 (c : Dev nD) : Valuation τ sig (Elt F) := Function.update (W1 m c) main_v1 (O2 m c)
abbrev W3 (c : Dev nD) : Valuation τ sig (Elt F) := StableHlo.after hostOps1 (W2 m c)

def O4 (c : Dev nD) : Buf (Elt F) ((c : Thread nD τ).loc main_v3) := (dat1 (fun c b => W3 m c b) c).arrAt 3 cfg1.N

abbrev W4 (c : Dev nD) : Valuation τ sig (Elt F) := Function.update (W3 m c) main_v3 (O4 m c)
abbrev W5 (c : Dev nD) : Valuation τ sig (Elt F) := StableHlo.after hostOps2 (W4 m c)

def O6 (c : Dev nD) : Buf (Elt F) ((c : Thread nD τ).loc main_v5) := (dat2 (fun c b => W5 m c b) c).arrAt 3 cfg2.N

abbrev W6 (c : Dev nD) : Valuation τ sig (Elt F) := Function.update (W5 m c) main_v5 (O6 m c)
abbrev W7 (c : Dev nD) : Valuation τ sig (Elt F) := StableHlo.after hostOps3 (W6 m c)

def O8 (c : Dev nD) : Buf (Elt F) ((c : Thread nD τ).loc main_v7) := (dat3 (fun c b => W7 m c b) c).arrAt 3 cfg3.N

abbrev W8 (c : Dev nD) : Valuation τ sig (Elt F) := Function.update (W7 m c) main_v7 (O8 m c)
abbrev W9 (c : Dev nD) : Valuation τ sig (Elt F) := StableHlo.after hostOps4 (W8 m c)

def O10 (c : Dev nD) : Buf (Elt F) ((c : Thread nD τ).loc main_v9) := (dat4 (fun c b => W9 m c b) c).arrAt 3 cfg4.N

abbrev W10 (c : Dev nD) : Valuation τ sig (Elt F) := Function.update (W9 m c) main_v9 (O10 m c)
abbrev W11 (c : Dev nD) : Valuation τ sig (Elt F) := StableHlo.after hostOps5 (W10 m c)

def O12 (c : Dev nD) : Buf (Elt F) ((c : Thread nD τ).loc main_v11) := (dat5 (fun c b => W11 m c b) c).arrAt 3 cfg5.N

abbrev W12 (c : Dev nD) : Valuation τ sig (Elt F) := Function.update (W11 m c) main_v11 (O12 m c)
abbrev W13 (c : Dev nD) : Valuation τ sig (Elt F) := StableHlo.after hostOps6 (W12 m c)

def O14 (c : Dev nD) : Buf (Elt F) ((c : Thread nD τ).loc main_v15) := (dat6 (fun c b => W13 m c b) c).arrAt 3 cfg6.N

abbrev W14 (c : Dev nD) : Valuation τ sig (Elt F) := Function.update (W13 m c) main_v15 (O14 m c)
abbrev W15 (c : Dev nD) : Valuation τ sig (Elt F) := StableHlo.after hostOps7 (W14 m c)

def O16 (c : Dev nD) : Buf (Elt F) ((c : Thread nD τ).loc main_v17) := (dat7 (fun c b => W15 m c b) c).arrAt 3 cfg7.N

abbrev W16 (c : Dev nD) : Valuation τ sig (Elt F) := Function.update (W15 m c) main_v17 (O16 m c)
abbrev W17 (c : Dev nD) : Valuation τ sig (Elt F) := StableHlo.after hostOps8 (W16 m c)

def O18 (c : Dev nD) : Buf (Elt F) ((c : Thread nD τ).loc main_v22) := (dat8 (fun c b => W17 m c b) c).arrAt 3 cfg8.N

abbrev W18 (c : Dev nD) : Valuation τ sig (Elt F) := Function.update (W17 m c) main_v22 (O18 m c)
abbrev W19 (c : Dev nD) : Valuation τ sig (Elt F) := StableHlo.after hostOps9 (W18 m c)

def O20 (c : Dev nD) : Buf (Elt F) ((c : Thread nD τ).loc main_v24) := (dat9 (fun c b => W19 m c b) c).arrAt 3 cfg9.N

abbrev W20 (c : Dev nD) : Valuation τ sig (Elt F) := Function.update (W19 m c) main_v24 (O20 m c)
abbrev W21 (c : Dev nD) : Valuation τ sig (Elt F) := StableHlo.after hostOps10 (W20 m c)

def O22 (c : Dev nD) : Buf (Elt F) ((c : Thread nD τ).loc main_v33) := (dat10 (fun c b => W21 m c b) c).arrAt 3 cfg10.N

abbrev W22 (c : Dev nD) : Valuation τ sig (Elt F) := Function.update (W21 m c) main_v33 (O22 m c)
abbrev W23 (c : Dev nD) : Valuation τ sig (Elt F) := StableHlo.after hostOps11 (W22 m c)

def O24 (c : Dev nD) : Buf (Elt F) ((c : Thread nD τ).loc main_v35) := (dat11 (fun c b => W23 m c b) c).arrAt 3 cfg11.N

abbrev W24 (c : Dev nD) : Valuation τ sig (Elt F) := Function.update (W23 m c) main_v35 (O24 m c)
abbrev W25 (c : Dev nD) : Valuation τ sig (Elt F) := StableHlo.after hostOps12 (W24 m c)

def O26 (c : Dev nD) : Buf (Elt F) ((c : Thread nD τ).loc main_v45) := (dat12 (fun c b => W25 m c b) c).arrAt 3 cfg12.N

abbrev W26 (c : Dev nD) : Valuation τ sig (Elt F) := Function.update (W25 m c) main_v45 (O26 m c)
abbrev W27 (c : Dev nD) : Valuation τ sig (Elt F) := StableHlo.after hostOps13 (W26 m c)

def O28 (c : Dev nD) : Buf (Elt F) ((c : Thread nD τ).loc main_v53) := (dat13 (fun c b => W27 m c b) c).arrAt 3 cfg13.N

abbrev W28 (c : Dev nD) : Valuation τ sig (Elt F) := Function.update (W27 m c) main_v53 (O28 m c)
abbrev W29 (c : Dev nD) : Valuation τ sig (Elt F) := StableHlo.after hostOps14 (W28 m c)

def O30 (c : Dev nD) : Buf (Elt F) ((c : Thread nD τ).loc main_v62) := (dat14 (fun c b => W29 m c b) c).arrAt 3 cfg14.N

abbrev W30 (c : Dev nD) : Valuation τ sig (Elt F) := Function.update (W29 m c) main_v62 (O30 m c)
abbrev W31 (c : Dev nD) : Valuation τ sig (Elt F) := StableHlo.after hostOps15 (W30 m c)

def O32 (c : Dev nD) : Buf (Elt F) ((c : Thread nD τ).loc main_v78) := (dat15 (fun c b => W31 m c b) c).arrAt 3 cfg15.N

abbrev W32 (c : Dev nD) : Valuation τ sig (Elt F) := Function.update (W31 m c) main_v78 (O32 m c)
abbrev W33 (c : Dev nD) : Valuation τ sig (Elt F) := StableHlo.after hostOps16 (W32 m c)

def outs : Outs (F := F) := fun J => match J with
  | 2 => putAt m main_v1 (O2 m)
  | 4 => putAt m main_v3 (O4 m)
  | 6 => putAt m main_v5 (O6 m)
  | 8 => putAt m main_v7 (O8 m)
  | 10 => putAt m main_v9 (O10 m)
  | 12 => putAt m main_v11 (O12 m)
  | 14 => putAt m main_v15 (O14 m)
  | 16 => putAt m main_v17 (O16 m)
  | 18 => putAt m main_v22 (O18 m)
  | 20 => putAt m main_v24 (O20 m)
  | 22 => putAt m main_v33 (O22 m)
  | 24 => putAt m main_v35 (O24 m)
  | 26 => putAt m main_v45 (O26 m)
  | 28 => putAt m main_v53 (O28 m)
  | 30 => putAt m main_v62 (O30 m)
  | 32 => putAt m main_v78 (O32 m)
  | _ => fun r c => m ((c : Thread nD τ).loc r)
theorem outs_2 (c : Dev nD) : outs m 2 main_v1 c = O2 m c := putAt_self m main_v1 (O2 m) c
theorem outs_4 (c : Dev nD) : outs m 4 main_v3 c = O4 m c := putAt_self m main_v3 (O4 m) c
theorem outs_6 (c : Dev nD) : outs m 6 main_v5 c = O6 m c := putAt_self m main_v5 (O6 m) c
theorem outs_8 (c : Dev nD) : outs m 8 main_v7 c = O8 m c := putAt_self m main_v7 (O8 m) c
theorem outs_10 (c : Dev nD) : outs m 10 main_v9 c = O10 m c := putAt_self m main_v9 (O10 m) c
theorem outs_12 (c : Dev nD) : outs m 12 main_v11 c = O12 m c := putAt_self m main_v11 (O12 m) c
theorem outs_14 (c : Dev nD) : outs m 14 main_v15 c = O14 m c := putAt_self m main_v15 (O14 m) c
theorem outs_16 (c : Dev nD) : outs m 16 main_v17 c = O16 m c := putAt_self m main_v17 (O16 m) c
theorem outs_18 (c : Dev nD) : outs m 18 main_v22 c = O18 m c := putAt_self m main_v22 (O18 m) c
theorem outs_20 (c : Dev nD) : outs m 20 main_v24 c = O20 m c := putAt_self m main_v24 (O20 m) c
theorem outs_22 (c : Dev nD) : outs m 22 main_v33 c = O22 m c := putAt_self m main_v33 (O22 m) c
theorem outs_24 (c : Dev nD) : outs m 24 main_v35 c = O24 m c := putAt_self m main_v35 (O24 m) c
theorem outs_26 (c : Dev nD) : outs m 26 main_v45 c = O26 m c := putAt_self m main_v45 (O26 m) c
theorem outs_28 (c : Dev nD) : outs m 28 main_v53 c = O28 m c := putAt_self m main_v53 (O28 m) c
theorem outs_30 (c : Dev nD) : outs m 30 main_v62 c = O30 m c := putAt_self m main_v62 (O30 m) c
theorem outs_32 (c : Dev nD) : outs m 32 main_v78 c = O32 m c := putAt_self m main_v78 (O32 m) c

theorem V0_eq (c : Dev nD) : V0 m c = W0 m c := rfl
theorem V1_eq (c : Dev nD) : V1 m c = W1 m c := rfl
theorem V2_eq (c : Dev nD) : V2 m (outs m) c = W2 m c := by
  show Function.update (V1 m c) main_v1 (outs m 2 main_v1 c) = Function.update (W1 m c) main_v1 (O2 m c)
  rw [V1_eq, outs_2]
theorem V3_eq (c : Dev nD) : V3 m (outs m) c = W3 m c := by
  show StableHlo.after hostOps1 (V2 m (outs m) c) = StableHlo.after hostOps1 (W2 m c)
  rw [V2_eq]
theorem V4_eq (c : Dev nD) : V4 m (outs m) c = W4 m c := by
  show Function.update (V3 m (outs m) c) main_v3 (outs m 4 main_v3 c) = Function.update (W3 m c) main_v3 (O4 m c)
  rw [V3_eq, outs_4]
theorem V5_eq (c : Dev nD) : V5 m (outs m) c = W5 m c := by
  show StableHlo.after hostOps2 (V4 m (outs m) c) = StableHlo.after hostOps2 (W4 m c)
  rw [V4_eq]
theorem V6_eq (c : Dev nD) : V6 m (outs m) c = W6 m c := by
  show Function.update (V5 m (outs m) c) main_v5 (outs m 6 main_v5 c) = Function.update (W5 m c) main_v5 (O6 m c)
  rw [V5_eq, outs_6]
theorem V7_eq (c : Dev nD) : V7 m (outs m) c = W7 m c := by
  show StableHlo.after hostOps3 (V6 m (outs m) c) = StableHlo.after hostOps3 (W6 m c)
  rw [V6_eq]
theorem V8_eq (c : Dev nD) : V8 m (outs m) c = W8 m c := by
  show Function.update (V7 m (outs m) c) main_v7 (outs m 8 main_v7 c) = Function.update (W7 m c) main_v7 (O8 m c)
  rw [V7_eq, outs_8]
theorem V9_eq (c : Dev nD) : V9 m (outs m) c = W9 m c := by
  show StableHlo.after hostOps4 (V8 m (outs m) c) = StableHlo.after hostOps4 (W8 m c)
  rw [V8_eq]
theorem V10_eq (c : Dev nD) : V10 m (outs m) c = W10 m c := by
  show Function.update (V9 m (outs m) c) main_v9 (outs m 10 main_v9 c) = Function.update (W9 m c) main_v9 (O10 m c)
  rw [V9_eq, outs_10]
theorem V11_eq (c : Dev nD) : V11 m (outs m) c = W11 m c := by
  show StableHlo.after hostOps5 (V10 m (outs m) c) = StableHlo.after hostOps5 (W10 m c)
  rw [V10_eq]
theorem V12_eq (c : Dev nD) : V12 m (outs m) c = W12 m c := by
  show Function.update (V11 m (outs m) c) main_v11 (outs m 12 main_v11 c) = Function.update (W11 m c) main_v11 (O12 m c)
  rw [V11_eq, outs_12]
theorem V13_eq (c : Dev nD) : V13 m (outs m) c = W13 m c := by
  show StableHlo.after hostOps6 (V12 m (outs m) c) = StableHlo.after hostOps6 (W12 m c)
  rw [V12_eq]
theorem V14_eq (c : Dev nD) : V14 m (outs m) c = W14 m c := by
  show Function.update (V13 m (outs m) c) main_v15 (outs m 14 main_v15 c) = Function.update (W13 m c) main_v15 (O14 m c)
  rw [V13_eq, outs_14]
theorem V15_eq (c : Dev nD) : V15 m (outs m) c = W15 m c := by
  show StableHlo.after hostOps7 (V14 m (outs m) c) = StableHlo.after hostOps7 (W14 m c)
  rw [V14_eq]
theorem V16_eq (c : Dev nD) : V16 m (outs m) c = W16 m c := by
  show Function.update (V15 m (outs m) c) main_v17 (outs m 16 main_v17 c) = Function.update (W15 m c) main_v17 (O16 m c)
  rw [V15_eq, outs_16]
theorem V17_eq (c : Dev nD) : V17 m (outs m) c = W17 m c := by
  show StableHlo.after hostOps8 (V16 m (outs m) c) = StableHlo.after hostOps8 (W16 m c)
  rw [V16_eq]
theorem V18_eq (c : Dev nD) : V18 m (outs m) c = W18 m c := by
  show Function.update (V17 m (outs m) c) main_v22 (outs m 18 main_v22 c) = Function.update (W17 m c) main_v22 (O18 m c)
  rw [V17_eq, outs_18]
theorem V19_eq (c : Dev nD) : V19 m (outs m) c = W19 m c := by
  show StableHlo.after hostOps9 (V18 m (outs m) c) = StableHlo.after hostOps9 (W18 m c)
  rw [V18_eq]
theorem V20_eq (c : Dev nD) : V20 m (outs m) c = W20 m c := by
  show Function.update (V19 m (outs m) c) main_v24 (outs m 20 main_v24 c) = Function.update (W19 m c) main_v24 (O20 m c)
  rw [V19_eq, outs_20]
theorem V21_eq (c : Dev nD) : V21 m (outs m) c = W21 m c := by
  show StableHlo.after hostOps10 (V20 m (outs m) c) = StableHlo.after hostOps10 (W20 m c)
  rw [V20_eq]
theorem V22_eq (c : Dev nD) : V22 m (outs m) c = W22 m c := by
  show Function.update (V21 m (outs m) c) main_v33 (outs m 22 main_v33 c) = Function.update (W21 m c) main_v33 (O22 m c)
  rw [V21_eq, outs_22]
theorem V23_eq (c : Dev nD) : V23 m (outs m) c = W23 m c := by
  show StableHlo.after hostOps11 (V22 m (outs m) c) = StableHlo.after hostOps11 (W22 m c)
  rw [V22_eq]
theorem V24_eq (c : Dev nD) : V24 m (outs m) c = W24 m c := by
  show Function.update (V23 m (outs m) c) main_v35 (outs m 24 main_v35 c) = Function.update (W23 m c) main_v35 (O24 m c)
  rw [V23_eq, outs_24]
theorem V25_eq (c : Dev nD) : V25 m (outs m) c = W25 m c := by
  show StableHlo.after hostOps12 (V24 m (outs m) c) = StableHlo.after hostOps12 (W24 m c)
  rw [V24_eq]
theorem V26_eq (c : Dev nD) : V26 m (outs m) c = W26 m c := by
  show Function.update (V25 m (outs m) c) main_v45 (outs m 26 main_v45 c) = Function.update (W25 m c) main_v45 (O26 m c)
  rw [V25_eq, outs_26]
theorem V27_eq (c : Dev nD) : V27 m (outs m) c = W27 m c := by
  show StableHlo.after hostOps13 (V26 m (outs m) c) = StableHlo.after hostOps13 (W26 m c)
  rw [V26_eq]
theorem V28_eq (c : Dev nD) : V28 m (outs m) c = W28 m c := by
  show Function.update (V27 m (outs m) c) main_v53 (outs m 28 main_v53 c) = Function.update (W27 m c) main_v53 (O28 m c)
  rw [V27_eq, outs_28]
theorem V29_eq (c : Dev nD) : V29 m (outs m) c = W29 m c := by
  show StableHlo.after hostOps14 (V28 m (outs m) c) = StableHlo.after hostOps14 (W28 m c)
  rw [V28_eq]
theorem V30_eq (c : Dev nD) : V30 m (outs m) c = W30 m c := by
  show Function.update (V29 m (outs m) c) main_v62 (outs m 30 main_v62 c) = Function.update (W29 m c) main_v62 (O30 m c)
  rw [V29_eq, outs_30]
theorem V31_eq (c : Dev nD) : V31 m (outs m) c = W31 m c := by
  show StableHlo.after hostOps15 (V30 m (outs m) c) = StableHlo.after hostOps15 (W30 m c)
  rw [V30_eq]
theorem V32_eq (c : Dev nD) : V32 m (outs m) c = W32 m c := by
  show Function.update (V31 m (outs m) c) main_v78 (outs m 32 main_v78 c) = Function.update (W31 m c) main_v78 (O32 m c)
  rw [V31_eq, outs_32]
theorem V33_eq (c : Dev nD) : V33 m (outs m) c = W33 m c := by
  show StableHlo.after hostOps16 (V32 m (outs m) c) = StableHlo.after hostOps16 (W32 m c)
  rw [V32_eq]

theorem W2_out (c : Dev nD) : W2 m c main_v1 = (dat0 (fun c b => W1 m c b) c).arrAt 3 cfg0.N := by
  show Function.update (W1 m c) main_v1 (O2 m c) main_v1 = _
  rw [Function.update_self]; rfl
theorem W2_of_ne (c : Dev nD) (b : Ref sig .tc) (hb : b ≠ main_v1) : W2 m c b = W1 m c b := by
  show Function.update (W1 m c) main_v1 (O2 m c) b = _
  exact Function.update_of_ne (fun e => hb (Proc.devRef_injective _ e)) _ _
theorem W4_out (c : Dev nD) : W4 m c main_v3 = (dat1 (fun c b => W3 m c b) c).arrAt 3 cfg1.N := by
  show Function.update (W3 m c) main_v3 (O4 m c) main_v3 = _
  rw [Function.update_self]; rfl
theorem W4_of_ne (c : Dev nD) (b : Ref sig .tc) (hb : b ≠ main_v3) : W4 m c b = W3 m c b := by
  show Function.update (W3 m c) main_v3 (O4 m c) b = _
  exact Function.update_of_ne (fun e => hb (Proc.devRef_injective _ e)) _ _
theorem W6_out (c : Dev nD) : W6 m c main_v5 = (dat2 (fun c b => W5 m c b) c).arrAt 3 cfg2.N := by
  show Function.update (W5 m c) main_v5 (O6 m c) main_v5 = _
  rw [Function.update_self]; rfl
theorem W6_of_ne (c : Dev nD) (b : Ref sig .tc) (hb : b ≠ main_v5) : W6 m c b = W5 m c b := by
  show Function.update (W5 m c) main_v5 (O6 m c) b = _
  exact Function.update_of_ne (fun e => hb (Proc.devRef_injective _ e)) _ _
theorem W8_out (c : Dev nD) : W8 m c main_v7 = (dat3 (fun c b => W7 m c b) c).arrAt 3 cfg3.N := by
  show Function.update (W7 m c) main_v7 (O8 m c) main_v7 = _
  rw [Function.update_self]; rfl
theorem W8_of_ne (c : Dev nD) (b : Ref sig .tc) (hb : b ≠ main_v7) : W8 m c b = W7 m c b := by
  show Function.update (W7 m c) main_v7 (O8 m c) b = _
  exact Function.update_of_ne (fun e => hb (Proc.devRef_injective _ e)) _ _
theorem W10_out (c : Dev nD) : W10 m c main_v9 = (dat4 (fun c b => W9 m c b) c).arrAt 3 cfg4.N := by
  show Function.update (W9 m c) main_v9 (O10 m c) main_v9 = _
  rw [Function.update_self]; rfl
theorem W10_of_ne (c : Dev nD) (b : Ref sig .tc) (hb : b ≠ main_v9) : W10 m c b = W9 m c b := by
  show Function.update (W9 m c) main_v9 (O10 m c) b = _
  exact Function.update_of_ne (fun e => hb (Proc.devRef_injective _ e)) _ _
theorem W12_out (c : Dev nD) : W12 m c main_v11 = (dat5 (fun c b => W11 m c b) c).arrAt 3 cfg5.N := by
  show Function.update (W11 m c) main_v11 (O12 m c) main_v11 = _
  rw [Function.update_self]; rfl
theorem W12_of_ne (c : Dev nD) (b : Ref sig .tc) (hb : b ≠ main_v11) : W12 m c b = W11 m c b := by
  show Function.update (W11 m c) main_v11 (O12 m c) b = _
  exact Function.update_of_ne (fun e => hb (Proc.devRef_injective _ e)) _ _
theorem W14_out (c : Dev nD) : W14 m c main_v15 = (dat6 (fun c b => W13 m c b) c).arrAt 3 cfg6.N := by
  show Function.update (W13 m c) main_v15 (O14 m c) main_v15 = _
  rw [Function.update_self]; rfl
theorem W14_of_ne (c : Dev nD) (b : Ref sig .tc) (hb : b ≠ main_v15) : W14 m c b = W13 m c b := by
  show Function.update (W13 m c) main_v15 (O14 m c) b = _
  exact Function.update_of_ne (fun e => hb (Proc.devRef_injective _ e)) _ _
theorem W16_out (c : Dev nD) : W16 m c main_v17 = (dat7 (fun c b => W15 m c b) c).arrAt 3 cfg7.N := by
  show Function.update (W15 m c) main_v17 (O16 m c) main_v17 = _
  rw [Function.update_self]; rfl
theorem W16_of_ne (c : Dev nD) (b : Ref sig .tc) (hb : b ≠ main_v17) : W16 m c b = W15 m c b := by
  show Function.update (W15 m c) main_v17 (O16 m c) b = _
  exact Function.update_of_ne (fun e => hb (Proc.devRef_injective _ e)) _ _
theorem W18_out (c : Dev nD) : W18 m c main_v22 = (dat8 (fun c b => W17 m c b) c).arrAt 3 cfg8.N := by
  show Function.update (W17 m c) main_v22 (O18 m c) main_v22 = _
  rw [Function.update_self]; rfl
theorem W18_of_ne (c : Dev nD) (b : Ref sig .tc) (hb : b ≠ main_v22) : W18 m c b = W17 m c b := by
  show Function.update (W17 m c) main_v22 (O18 m c) b = _
  exact Function.update_of_ne (fun e => hb (Proc.devRef_injective _ e)) _ _
theorem W20_out (c : Dev nD) : W20 m c main_v24 = (dat9 (fun c b => W19 m c b) c).arrAt 3 cfg9.N := by
  show Function.update (W19 m c) main_v24 (O20 m c) main_v24 = _
  rw [Function.update_self]; rfl
theorem W20_of_ne (c : Dev nD) (b : Ref sig .tc) (hb : b ≠ main_v24) : W20 m c b = W19 m c b := by
  show Function.update (W19 m c) main_v24 (O20 m c) b = _
  exact Function.update_of_ne (fun e => hb (Proc.devRef_injective _ e)) _ _
theorem W22_out (c : Dev nD) : W22 m c main_v33 = (dat10 (fun c b => W21 m c b) c).arrAt 3 cfg10.N := by
  show Function.update (W21 m c) main_v33 (O22 m c) main_v33 = _
  rw [Function.update_self]; rfl
theorem W22_of_ne (c : Dev nD) (b : Ref sig .tc) (hb : b ≠ main_v33) : W22 m c b = W21 m c b := by
  show Function.update (W21 m c) main_v33 (O22 m c) b = _
  exact Function.update_of_ne (fun e => hb (Proc.devRef_injective _ e)) _ _
theorem W24_out (c : Dev nD) : W24 m c main_v35 = (dat11 (fun c b => W23 m c b) c).arrAt 3 cfg11.N := by
  show Function.update (W23 m c) main_v35 (O24 m c) main_v35 = _
  rw [Function.update_self]; rfl
theorem W24_of_ne (c : Dev nD) (b : Ref sig .tc) (hb : b ≠ main_v35) : W24 m c b = W23 m c b := by
  show Function.update (W23 m c) main_v35 (O24 m c) b = _
  exact Function.update_of_ne (fun e => hb (Proc.devRef_injective _ e)) _ _
theorem W26_out (c : Dev nD) : W26 m c main_v45 = (dat12 (fun c b => W25 m c b) c).arrAt 3 cfg12.N := by
  show Function.update (W25 m c) main_v45 (O26 m c) main_v45 = _
  rw [Function.update_self]; rfl
theorem W26_of_ne (c : Dev nD) (b : Ref sig .tc) (hb : b ≠ main_v45) : W26 m c b = W25 m c b := by
  show Function.update (W25 m c) main_v45 (O26 m c) b = _
  exact Function.update_of_ne (fun e => hb (Proc.devRef_injective _ e)) _ _
theorem W28_out (c : Dev nD) : W28 m c main_v53 = (dat13 (fun c b => W27 m c b) c).arrAt 3 cfg13.N := by
  show Function.update (W27 m c) main_v53 (O28 m c) main_v53 = _
  rw [Function.update_self]; rfl
theorem W28_of_ne (c : Dev nD) (b : Ref sig .tc) (hb : b ≠ main_v53) : W28 m c b = W27 m c b := by
  show Function.update (W27 m c) main_v53 (O28 m c) b = _
  exact Function.update_of_ne (fun e => hb (Proc.devRef_injective _ e)) _ _
theorem W30_out (c : Dev nD) : W30 m c main_v62 = (dat14 (fun c b => W29 m c b) c).arrAt 3 cfg14.N := by
  show Function.update (W29 m c) main_v62 (O30 m c) main_v62 = _
  rw [Function.update_self]; rfl
theorem W30_of_ne (c : Dev nD) (b : Ref sig .tc) (hb : b ≠ main_v62) : W30 m c b = W29 m c b := by
  show Function.update (W29 m c) main_v62 (O30 m c) b = _
  exact Function.update_of_ne (fun e => hb (Proc.devRef_injective _ e)) _ _
theorem W32_out (c : Dev nD) : W32 m c main_v78 = (dat15 (fun c b => W31 m c b) c).arrAt 3 cfg15.N := by
  show Function.update (W31 m c) main_v78 (O32 m c) main_v78 = _
  rw [Function.update_self]; rfl
theorem W32_of_ne (c : Dev nD) (b : Ref sig .tc) (hb : b ≠ main_v78) : W32 m c b = W31 m c b := by
  show Function.update (W31 m c) main_v78 (O32 m c) b = _
  exact Function.update_of_ne (fun e => hb (Proc.devRef_injective _ e)) _ _

theorem W1_of (c : Dev nD) (r : Ref sig .tc) (h : r ∉ hostOps0_W) : W1 m c r = W0 m c r := V1_of m c r h
theorem W3_of (c : Dev nD) (r : Ref sig .tc) (h : r ∉ hostOps1_W) : W3 m c r = W2 m c r := by
  rw [← V3_eq, ← V2_eq]; exact V3_of m (outs m) c r h
theorem W5_of (c : Dev nD) (r : Ref sig .tc) (h : r ∉ hostOps2_W) : W5 m c r = W4 m c r := by
  rw [← V5_eq, ← V4_eq]; exact V5_of m (outs m) c r h
theorem W7_of (c : Dev nD) (r : Ref sig .tc) (h : r ∉ hostOps3_W) : W7 m c r = W6 m c r := by
  rw [← V7_eq, ← V6_eq]; exact V7_of m (outs m) c r h
theorem W9_of (c : Dev nD) (r : Ref sig .tc) (h : r ∉ hostOps4_W) : W9 m c r = W8 m c r := by
  rw [← V9_eq, ← V8_eq]; exact V9_of m (outs m) c r h
theorem W11_of (c : Dev nD) (r : Ref sig .tc) (h : r ∉ hostOps5_W) : W11 m c r = W10 m c r := by
  rw [← V11_eq, ← V10_eq]; exact V11_of m (outs m) c r h
theorem W13_of (c : Dev nD) (r : Ref sig .tc) (h : r ∉ hostOps6_W) : W13 m c r = W12 m c r := by
  rw [← V13_eq, ← V12_eq]; exact V13_of m (outs m) c r h
theorem W15_of (c : Dev nD) (r : Ref sig .tc) (h : r ∉ hostOps7_W) : W15 m c r = W14 m c r := by
  rw [← V15_eq, ← V14_eq]; exact V15_of m (outs m) c r h
theorem W17_of (c : Dev nD) (r : Ref sig .tc) (h : r ∉ hostOps8_W) : W17 m c r = W16 m c r := by
  rw [← V17_eq, ← V16_eq]; exact V17_of m (outs m) c r h
theorem W19_of (c : Dev nD) (r : Ref sig .tc) (h : r ∉ hostOps9_W) : W19 m c r = W18 m c r := by
  rw [← V19_eq, ← V18_eq]; exact V19_of m (outs m) c r h
theorem W21_of (c : Dev nD) (r : Ref sig .tc) (h : r ∉ hostOps10_W) : W21 m c r = W20 m c r := by
  rw [← V21_eq, ← V20_eq]; exact V21_of m (outs m) c r h
theorem W23_of (c : Dev nD) (r : Ref sig .tc) (h : r ∉ hostOps11_W) : W23 m c r = W22 m c r := by
  rw [← V23_eq, ← V22_eq]; exact V23_of m (outs m) c r h
theorem W25_of (c : Dev nD) (r : Ref sig .tc) (h : r ∉ hostOps12_W) : W25 m c r = W24 m c r := by
  rw [← V25_eq, ← V24_eq]; exact V25_of m (outs m) c r h
theorem W27_of (c : Dev nD) (r : Ref sig .tc) (h : r ∉ hostOps13_W) : W27 m c r = W26 m c r := by
  rw [← V27_eq, ← V26_eq]; exact V27_of m (outs m) c r h
theorem W29_of (c : Dev nD) (r : Ref sig .tc) (h : r ∉ hostOps14_W) : W29 m c r = W28 m c r := by
  rw [← V29_eq, ← V28_eq]; exact V29_of m (outs m) c r h
theorem W31_of (c : Dev nD) (r : Ref sig .tc) (h : r ∉ hostOps15_W) : W31 m c r = W30 m c r := by
  rw [← V31_eq, ← V30_eq]; exact V31_of m (outs m) c r h
theorem W33_of (c : Dev nD) (r : Ref sig .tc) (h : r ∉ hostOps16_W) : W33 m c r = W32 m c r := by
  rw [← V33_eq, ← V32_eq]; exact V33_of m (outs m) c r h

end Cert.Kernel.Gen

end
-- ==== Proof.K.Run.lean ====
import proofs.«103213_j15710990369585_1_alg».proof.Proof.K.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev adm' : (p : Fin 16) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

def pdats : (p : Fin 16) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
  | ⟨6, _⟩ => fun c => dat6 (fun c b => W13 m c b) c
  | ⟨7, _⟩ => fun c => dat7 (fun c b => W15 m c b) c
  | ⟨8, _⟩ => fun c => dat8 (fun c b => W17 m c b) c
  | ⟨9, _⟩ => fun c => dat9 (fun c b => W19 m c b) c
  | ⟨10, _⟩ => fun c => dat10 (fun c b => W21 m c b) c
  | ⟨11, _⟩ => fun c => dat11 (fun c b => W23 m c b) c
  | ⟨12, _⟩ => fun c => dat12 (fun c b => W25 m c b) c
  | ⟨13, _⟩ => fun c => dat13 (fun c b => W27 m c b) c
  | ⟨14, _⟩ => fun c => dat14 (fun c b => W29 m c b) c
  | ⟨15, _⟩ => fun c => dat15 (fun c b => W31 m c b) c
  | ⟨_ + 16, h⟩ => absurd h (Nat.not_lt.2 (Nat.le_add_left _ _))

set_option backward.isDefEq.respectTransparency.types false in

def regOf (p : Fin 16) (launch : Pipeline.LaunchFacts (nD := nD) (τ := τ) cfgs p)
    (Win Wout : (c : Dev nD) → Valuation τ sig (Elt F))
    (hbody : ∀ c, BodyObligation (pdats m p c) (defs₀ (F := F)) 𝒱₀ () Set.univ)
    (hK : (pcfgs (F := F) p).pre.K = 0)
    (hq : ∀ c w, (pdats m p c).q w = fullShare)
    (howed : ∀ c t, (pdats m p c).owed t = 0)
    (hrec : ∀ c t, (pdats m p c).recorded t = Set.univ)
    (hA : ∀ c w, (pdats m p c).A w = Win c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = Wout c (Pipeline.arrRef (cfgs p).spec w))
    (hrest : ∀ c b, b ∉ Finset.univ.image (Pipeline.arrRef (cfgs p).spec) → Wout c b = Win c b) :
    RegionSeg (pcfgs (F := F)) adm' (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm' (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld
      haveI : IsEmpty (Fin (pcfgs (F := F) p).pre.K) := by rw [hK]; infer_instance
      rw [Finset.univ_eq_empty, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply (hin c)
    unfold Pipeline.ΦA
    isplitl [Hr]; · iexact Hr
    iexact Hp
  hout c := by
    rw [Pipeline.ownSems0_none]
    iintro H
    ihave H2 := (hout c) $$ H
    unfold Pipeline.ΦA
    icases H2 with ⟨Hr, Hp⟩
    isplitl [Hp]; · iexact Hp
    isplitr; · iempintro
    iexact Hr
  hexit c := by
    have hjoin := Pipeline.unscopedBufs_of_arrays (p := p) (pcfgs (F := F)) adm' (Ix := Unit) (Name := ℕ) (U := UR sig nD τ) (Lvl := ℕ)
      launch.win launch.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

theorem hF0 (c : Dev nD) (w : Fin cfg0.W) :
    (dat0 (fun c b => W1 m c b) c).arrAt w cfg0.N = W2 m c (Pipeline.arrRef spec0 w) := by
  fin_cases w <;> first
    | exact (((dat0 (fun c b => W1 m c b) c).arrAt_in _ rfl _).trans (A_eq0 _ c _)).trans (W2_of_ne m c _ (by decide)).symm
    | exact (W2_out m c).symm

theorem hrest0 (c : Dev nD) : ∀ b, b ∉ Finset.univ.image (Pipeline.arrRef spec0) → W2 m c b = W1 m c b :=
  fun b hb => W2_of_ne m c b fun e => hb (Finset.mem_image.mpr ⟨3, Finset.mem_univ _, e.symm⟩)

set_option backward.isDefEq.respectTransparency.types false in
def reg0 : RegionSeg (pcfgs (F := F)) adm' (pdats m) () defs₀ 𝒱₀ L lv 0 :=
  regOf m 0 launch0 (W1 m) (W2 m) (fun c => body_obligation0 (fun c b => W1 m c b) c) rfl (fun _ _ => rfl) (fun _ _ => rfl) (fun _ _ => rfl)
    (fun _ _ => rfl) (hin0 (fun c b => W1 m c b)) (hout0 (fun c b => W1 m c b)) (hF0 m) (hrest0 m)

theorem hF1 (c : Dev nD) (w : Fin cfg1.W) :
    (dat1 (fun c b => W3 m c b) c).arrAt w cfg1.N = W4 m c (Pipeline.arrRef spec1 w) := by
  fin_cases w <;> first
    | exact (((dat1 (fun c b => W3 m c b) c).arrAt_in _ rfl _).trans (A_eq1 _ c _)).trans (W4_of_ne m c _ (by decide)).symm
    | exact (W4_out m c).symm

theorem hrest1 (c : Dev nD) : ∀ b, b ∉ Finset.univ.image (Pipeline.arrRef spec1) → W4 m c b = W3 m c b :=
  fun b hb => W4_of_ne m c b fun e => hb (Finset.mem_image.mpr ⟨3, Finset.mem_univ _, e.symm⟩)

set_option backward.isDefEq.respectTransparency.types false in
def reg1 : RegionSeg (pcfgs (F := F)) adm' (pdats m) () defs₀ 𝒱₀ L lv 1 :=
  regOf m 1 launch1 (W3 m) (W4 m) (fun c => body_obligation1 (fun c b => W3 m c b) c) rfl (fun _ _ => rfl) (fun _ _ => rfl) (fun _ _ => rfl)
    (fun _ _ => rfl) (hin1 (fun c b => W3 m c b)) (hout1 (fun c b => W3 m c b)) (hF1 m) (hrest1 m)

theorem hF2 (c : Dev nD) (w : Fin cfg2.W) :
    (dat2 (fun c b => W5 m c b) c).arrAt w cfg2.N = W6 m c (Pipeline.arrRef spec2 w) := by
  fin_cases w <;> first
    | exact (((dat2 (fun c b => W5 m c b) c).arrAt_in _ rfl _).trans (A_eq2 _ c _)).trans (W6_of_ne m c _ (by decide)).symm
    | exact (W6_out m c).symm

theorem hrest2 (c : Dev nD) : ∀ b, b ∉ Finset.univ.image (Pipeline.arrRef spec2) → W6 m c b = W5 m c b :=
  fun b hb => W6_of_ne m c b fun e => hb (Finset.mem_image.mpr ⟨3, Finset.mem_univ _, e.symm⟩)

set_option backward.isDefEq.respectTransparency.types false in
def reg2 : RegionSeg (pcfgs (F := F)) adm' (pdats m) () defs₀ 𝒱₀ L lv 2 :=
  regOf m 2 launch2 (W5 m) (W6 m) (fun c => body_obligation2 (fun c b => W5 m c b) c) rfl (fun _ _ => rfl) (fun _ _ => rfl) (fun _ _ => rfl)
    (fun _ _ => rfl) (hin2 (fun c b => W5 m c b)) (hout2 (fun c b => W5 m c b)) (hF2 m) (hrest2 m)

theorem hF3 (c : Dev nD) (w : Fin cfg3.W) :
    (dat3 (fun c b => W7 m c b) c).arrAt w cfg3.N = W8 m c (Pipeline.arrRef spec3 w) := by
  fin_cases w <;> first
    | exact (((dat3 (fun c b => W7 m c b) c).arrAt_in _ rfl _).trans (A_eq3 _ c _)).trans (W8_of_ne m c _ (by decide)).symm
    | exact (W8_out m c).symm

theorem hrest3 (c : Dev nD) : ∀ b, b ∉ Finset.univ.image (Pipeline.arrRef spec3) → W8 m c b = W7 m c b :=
  fun b hb => W8_of_ne m c b fun e => hb (Finset.mem_image.mpr ⟨3, Finset.mem_univ _, e.symm⟩)

set_option backward.isDefEq.respectTransparency.types false in
def reg3 : RegionSeg (pcfgs (F := F)) adm' (pdats m) () defs₀ 𝒱₀ L lv 3 :=
  regOf m 3 launch3 (W7 m) (W8 m) (fun c => body_obligation3 (fun c b => W7 m c b) c) rfl (fun _ _ => rfl) (fun _ _ => rfl) (fun _ _ => rfl)
    (fun _ _ => rfl) (hin3 (fun c b => W7 m c b)) (hout3 (fun c b => W7 m c b)) (hF3 m) (hrest3 m)

theorem hF4 (c : Dev nD) (w : Fin cfg4.W) :
    (dat4 (fun c b => W9 m c b) c).arrAt w cfg4.N = W10 m c (Pipeline.arrRef spec4 w) := by
  fin_cases w <;> first
    | exact (((dat4 (fun c b => W9 m c b) c).arrAt_in _ rfl _).trans (A_eq4 _ c _)).trans (W10_of_ne m c _ (by decide)).symm
    | exact (W10_out m c).symm

theorem hrest4 (c : Dev nD) : ∀ b, b ∉ Finset.univ.image (Pipeline.arrRef spec4) → W10 m c b = W9 m c b :=
  fun b hb => W10_of_ne m c b fun e => hb (Finset.mem_image.mpr ⟨3, Finset.mem_univ _, e.symm⟩)

set_option backward.isDefEq.respectTransparency.types false in
def reg4 : RegionSeg (pcfgs (F := F)) adm' (pdats m) () defs₀ 𝒱₀ L lv 4 :=
  regOf m 4 launch4 (W9 m) (W10 m) (fun c => body_obligation4 (fun c b => W9 m c b) c) rfl (fun _ _ => rfl) (fun _ _ => rfl) (fun _ _ => rfl)
    (fun _ _ => rfl) (hin4 (fun c b => W9 m c b)) (hout4 (fun c b => W9 m c b)) (hF4 m) (hrest4 m)

theorem hF5 (c : Dev nD) (w : Fin cfg5.W) :
    (dat5 (fun c b => W11 m c b) c).arrAt w cfg5.N = W12 m c (Pipeline.arrRef spec5 w) := by
  fin_cases w <;> first
    | exact (((dat5 (fun c b => W11 m c b) c).arrAt_in _ rfl _).trans (A_eq5 _ c _)).trans (W12_of_ne m c _ (by decide)).symm
    | exact (W12_out m c).symm

theorem hrest5 (c : Dev nD) : ∀ b, b ∉ Finset.univ.image (Pipeline.arrRef spec5) → W12 m c b = W11 m c b :=
  fun b hb => W12_of_ne m c b fun e => hb (Finset.mem_image.mpr ⟨3, Finset.mem_univ _, e.symm⟩)

set_option backward.isDefEq.respectTransparency.types false in
def reg5 : RegionSeg (pcfgs (F := F)) adm' (pdats m) () defs₀ 𝒱₀ L lv 5 :=
  regOf m 5 launch5 (W11 m) (W12 m) (fun c => body_obligation5 (fun c b => W11 m c b) c) rfl (fun _ _ => rfl) (fun _ _ => rfl) (fun _ _ => rfl)
    (fun _ _ => rfl) (hin5 (fun c b => W11 m c b)) (hout5 (fun c b => W11 m c b)) (hF5 m) (hrest5 m)

theorem hF6 (c : Dev nD) (w : Fin cfg6.W) :
    (dat6 (fun c b => W13 m c b) c).arrAt w cfg6.N = W14 m c (Pipeline.arrRef spec6 w) := by
  fin_cases w <;> first
    | exact (((dat6 (fun c b => W13 m c b) c).arrAt_in _ rfl _).trans (A_eq6 _ c _)).trans (W14_of_ne m c _ (by decide)).symm
    | exact (W14_out m c).symm

theorem hrest6 (c : Dev nD) : ∀ b, b ∉ Finset.univ.image (Pipeline.arrRef spec6) → W14 m c b = W13 m c b :=
  fun b hb => W14_of_ne m c b fun e => hb (Finset.mem_image.mpr ⟨3, Finset.mem_univ _, e.symm⟩)

set_option backward.isDefEq.respectTransparency.types false in
def reg6 : RegionSeg (pcfgs (F := F)) adm' (pdats m) () defs₀ 𝒱₀ L lv 6 :=
  regOf m 6 launch6 (W13 m) (W14 m) (fun c => body_obligation6 (fun c b => W13 m c b) c) rfl (fun _ _ => rfl) (fun _ _ => rfl) (fun _ _ => rfl)
    (fun _ _ => rfl) (hin6 (fun c b => W13 m c b)) (hout6 (fun c b => W13 m c b)) (hF6 m) (hrest6 m)

theorem hF7 (c : Dev nD) (w : Fin cfg7.W) :
    (dat7 (fun c b => W15 m c b) c).arrAt w cfg7.N = W16 m c (Pipeline.arrRef spec7 w) := by
  fin_cases w <;> first
    | exact (((dat7 (fun c b => W15 m c b) c).arrAt_in _ rfl _).trans (A_eq7 _ c _)).trans (W16_of_ne m c _ (by decide)).symm
    | exact (W16_out m c).symm

theorem hrest7 (c : Dev nD) : ∀ b, b ∉ Finset.univ.image (Pipeline.arrRef spec7) → W16 m c b = W15 m c b :=
  fun b hb => W16_of_ne m c b fun e => hb (Finset.mem_image.mpr ⟨3, Finset.mem_univ _, e.symm⟩)

set_option backward.isDefEq.respectTransparency.types false in
def reg7 : RegionSeg (pcfgs (F := F)) adm' (pdats m) () defs₀ 𝒱₀ L lv 7 :=
  regOf m 7 launch7 (W15 m) (W16 m) (fun c => body_obligation7 (fun c b => W15 m c b) c) rfl (fun _ _ => rfl) (fun _ _ => rfl) (fun _ _ => rfl)
    (fun _ _ => rfl) (hin7 (fun c b => W15 m c b)) (hout7 (fun c b => W15 m c b)) (hF7 m) (hrest7 m)

theorem hF8 (c : Dev nD) (w : Fin cfg8.W) :
    (dat8 (fun c b => W17 m c b) c).arrAt w cfg8.N = W18 m c (Pipeline.arrRef spec8 w) := by
  fin_cases w <;> first
    | exact (((dat8 (fun c b => W17 m c b) c).arrAt_in _ rfl _).trans (A_eq8 _ c _)).trans (W18_of_ne m c _ (by decide)).symm
    | exact (W18_out m c).symm

theorem hrest8 (c : Dev nD) : ∀ b, b ∉ Finset.univ.image (Pipeline.arrRef spec8) → W18 m c b = W17 m c b :=
  fun b hb => W18_of_ne m c b fun e => hb (Finset.mem_image.mpr ⟨3, Finset.mem_univ _, e.symm⟩)

set_option backward.isDefEq.respectTransparency.types false in
def reg8 : RegionSeg (pcfgs (F := F)) adm' (pdats m) () defs₀ 𝒱₀ L lv 8 :=
  regOf m 8 launch8 (W17 m) (W18 m) (fun c => body_obligation8 (fun c b => W17 m c b) c) rfl (fun _ _ => rfl) (fun _ _ => rfl) (fun _ _ => rfl)
    (fun _ _ => rfl) (hin8 (fun c b => W17 m c b)) (hout8 (fun c b => W17 m c b)) (hF8 m) (hrest8 m)

theorem hF9 (c : Dev nD) (w : Fin cfg9.W) :
    (dat9 (fun c b => W19 m c b) c).arrAt w cfg9.N = W20 m c (Pipeline.arrRef spec9 w) := by
  fin_cases w <;> first
    | exact (((dat9 (fun c b => W19 m c b) c).arrAt_in _ rfl _).trans (A_eq9 _ c _)).trans (W20_of_ne m c _ (by decide)).symm
    | exact (W20_out m c).symm

theorem hrest9 (c : Dev nD) : ∀ b, b ∉ Finset.univ.image (Pipeline.arrRef spec9) → W20 m c b = W19 m c b :=
  fun b hb => W20_of_ne m c b fun e => hb (Finset.mem_image.mpr ⟨3, Finset.mem_univ _, e.symm⟩)

set_option backward.isDefEq.respectTransparency.types false in
def reg9 : RegionSeg (pcfgs (F := F)) adm' (pdats m) () defs₀ 𝒱₀ L lv 9 :=
  regOf m 9 launch9 (W19 m) (W20 m) (fun c => body_obligation9 (fun c b => W19 m c b) c) rfl (fun _ _ => rfl) (fun _ _ => rfl) (fun _ _ => rfl)
    (fun _ _ => rfl) (hin9 (fun c b => W19 m c b)) (hout9 (fun c b => W19 m c b)) (hF9 m) (hrest9 m)

theorem hF10 (c : Dev nD) (w : Fin cfg10.W) :
    (dat10 (fun c b => W21 m c b) c).arrAt w cfg10.N = W22 m c (Pipeline.arrRef spec10 w) := by
  fin_cases w <;> first
    | exact (((dat10 (fun c b => W21 m c b) c).arrAt_in _ rfl _).trans (A_eq10 _ c _)).trans (W22_of_ne m c _ (by decide)).symm
    | exact (W22_out m c).symm

theorem hrest10 (c : Dev nD) : ∀ b, b ∉ Finset.univ.image (Pipeline.arrRef spec10) → W22 m c b = W21 m c b :=
  fun b hb => W22_of_ne m c b fun e => hb (Finset.mem_image.mpr ⟨3, Finset.mem_univ _, e.symm⟩)

set_option backward.isDefEq.respectTransparency.types false in
def reg10 : RegionSeg (pcfgs (F := F)) adm' (pdats m) () defs₀ 𝒱₀ L lv 10 :=
  regOf m 10 launch10 (W21 m) (W22 m) (fun c => body_obligation10 (fun c b => W21 m c b) c) rfl (fun _ _ => rfl) (fun _ _ => rfl) (fun _ _ => rfl)
    (fun _ _ => rfl) (hin10 (fun c b => W21 m c b)) (hout10 (fun c b => W21 m c b)) (hF10 m) (hrest10 m)

theorem hF11 (c : Dev nD) (w : Fin cfg11.W) :
    (dat11 (fun c b => W23 m c b) c).arrAt w cfg11.N = W24 m c (Pipeline.arrRef spec11 w) := by
  fin_cases w <;> first
    | exact (((dat11 (fun c b => W23 m c b) c).arrAt_in _ rfl _).trans (A_eq11 _ c _)).trans (W24_of_ne m c _ (by decide)).symm
    | exact (W24_out m c).symm

theorem hrest11 (c : Dev nD) : ∀ b, b ∉ Finset.univ.image (Pipeline.arrRef spec11) → W24 m c b = W23 m c b :=
  fun b hb => W24_of_ne m c b fun e => hb (Finset.mem_image.mpr ⟨3, Finset.mem_univ _, e.symm⟩)

set_option backward.isDefEq.respectTransparency.types false in
def reg11 : RegionSeg (pcfgs (F := F)) adm' (pdats m) () defs₀ 𝒱₀ L lv 11 :=
  regOf m 11 launch11 (W23 m) (W24 m) (fun c => body_obligation11 (fun c b => W23 m c b) c) rfl (fun _ _ => rfl) (fun _ _ => rfl) (fun _ _ => rfl)
    (fun _ _ => rfl) (hin11 (fun c b => W23 m c b)) (hout11 (fun c b => W23 m c b)) (hF11 m) (hrest11 m)

theorem hF12 (c : Dev nD) (w : Fin cfg12.W) :
    (dat12 (fun c b => W25 m c b) c).arrAt w cfg12.N = W26 m c (Pipeline.arrRef spec12 w) := by
  fin_cases w <;> first
    | exact (((dat12 (fun c b => W25 m c b) c).arrAt_in _ rfl _).trans (A_eq12 _ c _)).trans (W26_of_ne m c _ (by decide)).symm
    | exact (W26_out m c).symm

theorem hrest12 (c : Dev nD) : ∀ b, b ∉ Finset.univ.image (Pipeline.arrRef spec12) → W26 m c b = W25 m c b :=
  fun b hb => W26_of_ne m c b fun e => hb (Finset.mem_image.mpr ⟨3, Finset.mem_univ _, e.symm⟩)

set_option backward.isDefEq.respectTransparency.types false in
def reg12 : RegionSeg (pcfgs (F := F)) adm' (pdats m) () defs₀ 𝒱₀ L lv 12 :=
  regOf m 12 launch12 (W25 m) (W26 m) (fun c => body_obligation12 (fun c b => W25 m c b) c) rfl (fun _ _ => rfl) (fun _ _ => rfl) (fun _ _ => rfl)
    (fun _ _ => rfl) (hin12 (fun c b => W25 m c b)) (hout12 (fun c b => W25 m c b)) (hF12 m) (hrest12 m)

theorem hF13 (c : Dev nD) (w : Fin cfg13.W) :
    (dat13 (fun c b => W27 m c b) c).arrAt w cfg13.N = W28 m c (Pipeline.arrRef spec13 w) := by
  fin_cases w <;> first
    | exact (((dat13 (fun c b => W27 m c b) c).arrAt_in _ rfl _).trans (A_eq13 _ c _)).trans (W28_of_ne m c _ (by decide)).symm
    | exact (W28_out m c).symm

theorem hrest13 (c : Dev nD) : ∀ b, b ∉ Finset.univ.image (Pipeline.arrRef spec13) → W28 m c b = W27 m c b :=
  fun b hb => W28_of_ne m c b fun e => hb (Finset.mem_image.mpr ⟨3, Finset.mem_univ _, e.symm⟩)

set_option backward.isDefEq.respectTransparency.types false in
def reg13 : RegionSeg (pcfgs (F := F)) adm' (pdats m) () defs₀ 𝒱₀ L lv 13 :=
  regOf m 13 launch13 (W27 m) (W28 m) (fun c => body_obligation13 (fun c b => W27 m c b) c) rfl (fun _ _ => rfl) (fun _ _ => rfl) (fun _ _ => rfl)
    (fun _ _ => rfl) (hin13 (fun c b => W27 m c b)) (hout13 (fun c b => W27 m c b)) (hF13 m) (hrest13 m)

theorem hF14 (c : Dev nD) (w : Fin cfg14.W) :
    (dat14 (fun c b => W29 m c b) c).arrAt w cfg14.N = W30 m c (Pipeline.arrRef spec14 w) := by
  fin_cases w <;> first
    | exact (((dat14 (fun c b => W29 m c b) c).arrAt_in _ rfl _).trans (A_eq14 _ c _)).trans (W30_of_ne m c _ (by decide)).symm
    | exact (W30_out m c).symm

theorem hrest14 (c : Dev nD) : ∀ b, b ∉ Finset.univ.image (Pipeline.arrRef spec14) → W30 m c b = W29 m c b :=
  fun b hb => W30_of_ne m c b fun e => hb (Finset.mem_image.mpr ⟨3, Finset.mem_univ _, e.symm⟩)

set_option backward.isDefEq.respectTransparency.types false in
def reg14 : RegionSeg (pcfgs (F := F)) adm' (pdats m) () defs₀ 𝒱₀ L lv 14 :=
  regOf m 14 launch14 (W29 m) (W30 m) (fun c => body_obligation14 (fun c b => W29 m c b) c) rfl (fun _ _ => rfl) (fun _ _ => rfl) (fun _ _ => rfl)
    (fun _ _ => rfl) (hin14 (fun c b => W29 m c b)) (hout14 (fun c b => W29 m c b)) (hF14 m) (hrest14 m)

theorem hF15 (c : Dev nD) (w : Fin cfg15.W) :
    (dat15 (fun c b => W31 m c b) c).arrAt w cfg15.N = W32 m c (Pipeline.arrRef spec15 w) := by
  fin_cases w <;> first
    | exact (((dat15 (fun c b => W31 m c b) c).arrAt_in _ rfl _).trans (A_eq15 _ c _)).trans (W32_of_ne m c _ (by decide)).symm
    | exact (W32_out m c).symm

theorem hrest15 (c : Dev nD) : ∀ b, b ∉ Finset.univ.image (Pipeline.arrRef spec15) → W32 m c b = W31 m c b :=
  fun b hb => W32_of_ne m c b fun e => hb (Finset.mem_image.mpr ⟨3, Finset.mem_univ _, e.symm⟩)

set_option backward.isDefEq.respectTransparency.types false in
def reg15 : RegionSeg (pcfgs (F := F)) adm' (pdats m) () defs₀ 𝒱₀ L lv 15 :=
  regOf m 15 launch15 (W31 m) (W32 m) (fun c => body_obligation15 (fun c b => W31 m c b) c) rfl (fun _ _ => rfl) (fun _ _ => rfl) (fun _ _ => rfl)
    (fun _ _ => rfl) (hin15 (fun c b => W31 m c b)) (hout15 (fun c b => W31 m c b)) (hF15 m) (hrest15 m)

set_option backward.isDefEq.respectTransparency.types false in

theorem run_main (ρ : Dev nD → PrngReg) :
    θ_run defs (onTc (τ := τ) (main (F := F))) ⟨m, fun _ => 0, ρ⟩ (fun r => ∀ c : Dev nD,
      r.2.mem ((c.tc : Thread nD τ).loc main_v100) = W33 m c main_v100
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) := by
  have h := run_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)
    (reg9 m) (fun c => by rw [V19_eq]; exact .rfl) (fun c => by rw [V20_eq]; exact .rfl)
    (reg10 m) (fun c => by rw [V21_eq]; exact .rfl) (fun c => by rw [V22_eq]; exact .rfl)
    (reg11 m) (fun c => by rw [V23_eq]; exact .rfl) (fun c => by rw [V24_eq]; exact .rfl)
    (reg12 m) (fun c => by rw [V25_eq]; exact .rfl) (fun c => by rw [V26_eq]; exact .rfl)
    (reg13 m) (fun c => by rw [V27_eq]; exact .rfl) (fun c => by rw [V28_eq]; exact .rfl)
    (reg14 m) (fun c => by rw [V29_eq]; exact .rfl) (fun c => by rw [V30_eq]; exact .rfl)
    (reg15 m) (fun c => by rw [V31_eq]; exact .rfl) (fun c => by rw [V32_eq]; exact .rfl)
  refine (θ_run defs _ _).mono (fun r hr c => ?_) h
  have := hr c
  rw [V33_eq] at this
  exact this

end Cert.Kernel.Gen

end
-- ==== Proof.KI.Defs0.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def accAt0 (c : Dev nD) : (n : ℕ) → n < cfg0.N → Vec F S1024x128 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

def out0 (c : Dev nD) (t : Fin cfg0.N) : Vec F S1024x128 .f32 := k0_pay3 (accAt0 V c t.val t.isLt) (iblk0 V c 2 t)

end

end Cert.KernelIdeal.Gen

end
-- ==== Proof.KI.Reg0.lean ====
import proofs.«103213_j15710990369585_1_alg».proof.Proof.KI.Defs0
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := by decide +kernel
abbrev cond0_1 (i : grid0.Coords) : Prop := k0_cond2 i = 1#1
theorem hcond0_1 : ∀ t : Fin cfg0.N, cond0_1 (grid0.coords t) ↔ t.val % 4 = 3 := by decide +kernel

theorem idleAt0_3 : ∀ t : Fin cfg0.N, ¬cond0_1 (grid0.coords t) → idle0 3 (grid0.coords t) = true ∧ (win0 3).flush t = false := by decide +kernel
theorem liveAt0_3 : ∀ t : Fin cfg0.N, cond0_1 (grid0.coords t) → idle0 3 (grid0.coords t) = false := by decide +kernel

theorem hz0 : (![0, 0] : Fin 2 → Nat) = fun _ => 0 := funext fun a => by fin_cases a <;> rfl

-- Reading back after a last write that covers every index gives what was written.
theorem stw0 (v : View sig .tc .vmem S1024x128 .f32) (f : v.ty.Contents (Elt F)) (w w' : S1024x128.Idx → Elt F .f32)
    (L : List (View.Piece (Elt F) S1024x128 .f32)) (h : w = w') :
    v.read (Elt F) (v.writes (Elt F) f (⟨Rect.unit ![0, 0] S1024x128.size inb_S1024x128_S1024x128_0_0, w⟩ :: L)) = w' := by
  rw [View.read_writes_eq_canon _ _ _ (fun y => ⟨_, List.mem_cons.mpr (Or.inl rfl), View.mem_set_unit_zero hz0 inb_S1024x128_S1024x128_0_0 y⟩),
    View.canon_cons_unit_zero hz0, h]

section
variable {c : Dev nD} {E : Set ℕ} {i : grid0.Coords} {arg2 : Memref sig .tc .vmem S1024x1024 .f32} {harg2 : arg2.IsWhole}
  {arg3 : Memref sig .tc .vmem S1024x128 .f32} {harg3 : arg3.IsWhole} {arg4 : Memref sig .tc .vmem S1x128 .f32} {harg4 : arg4.IsWhole}
  {arg5 : Memref sig .tc .vmem S1024x128 .f32} {harg5 : arg5.IsWhole} {arg6 : Memref sig .tc .vmem S1024x128 .f32} {harg6 : arg6.IsWhole}

-- Off a last K-step only the accumulator changes: this step's product is added to the zero splat at a first K-step, else to what it held.
set_option maxHeartbeats 1000000 in
theorem kernel0_AB (hc1 : ¬cond0_1 i) (xa : Vec F S1024x1024 .f32) (xb : Vec F S1024x128 .f32) (e b : Vec F S1024x128 .f32)
    (hb : b = if cond0_0 i then k0_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k0_pay2 xa xb b)) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  rw [owns_eq_rep, owns_eq_rep]; unfold owns
  iintro ⟨H2, H3, ⟨%f6, %hf6, H6⟩, Hk⟩
  subst hf6
  by_cases hc0 : cond0_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw0 _ _ _ _ _ ?_
    simp only [View.readAt_eq_ld, View.read_rep, View.ld_unit_zero (S := S1024x1024) hz0, View.ld_unit_zero (S := S1024x128) hz0,
      View.ld_unit_zero (S := S1x128) hz0, View.readCov_unit_zero (S := S1024x128) _ hz0]

-- At a last K-step the accumulator plus the bias row is stored as well.
set_option maxHeartbeats 1000000 in
theorem kernel0_C (hc0 : ¬cond0_0 i) (hc1 : cond0_1 i) (xa : Vec F S1024x1024 .f32) (xb : Vec F S1024x128 .f32) (xc : Vec F S1x128 .f32) (d e : Vec F S1024x128 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k0_pay3 (k0_pay2 xa xb e) xc)
            ∗ owns (c : Thread nD τ) arg6 fullShare (k0_pay2 xa xb e)) -∗ K ⟨⟩))
      ⊢ wp frame (wpE (defs₀ (F := F)) Variants.none c none) E (cc0__linear_kernel i arg2 harg2 arg3 harg3 arg4 harg4 arg5 harg5 arg6 harg6) K := by
  simp only [cc0__linear_kernel_eq_skeleton]; unfold cc0__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw0 _ _ _ _ _ ?_ <;>
    simp only [View.readAt_eq_ld, View.read_rep, View.ld_unit_zero (S := S1024x1024) hz0, View.ld_unit_zero (S := S1024x128) hz0,
      View.ld_unit_zero (S := S1x128) hz0, View.readCov_unit_zero (S := S1024x128) _ hz0]

end

abbrev inv0 (c : Dev nD) (S : sProp 𝕄) : sProp 𝕄 :=
  iprop(iprop(S ∗ Pipeline.scopedRestBut (Ix := Unit) (Name := ℕ) (U := UR sig nD τ) (Lvl := ℕ) (Val := Elt F) spec0 c [cc0_scratch0]) ∗ (∃ r, prngReg c r))

theorem PhiA0_eq (c : Dev nD) :
    (Pipeline.ΦA spec0 c : sProp 𝕄) = inv0 c iprop(∃ d, owns (c : Thread nD τ) (Memref.whole cc0_scratch0) fullShare d) := by
  unfold Pipeline.ΦA inv0; rw [scopedRest0_split]; simp only [owns_whole]; try rfl

section
variable (V : (c : Dev nD) → (b : Ref sig .tc) → Buf (Elt F) ((c : Thread nD τ).loc b))

-- The accumulator's recursion as one equation.
theorem accAt0_eq (c : Dev nD) (t : Fin cfg0.N) : accAt0 V c t.val t.isLt = k0_pay2 (iblk0 V c 0 t) (iblk0 V c 1 t)
    (if t.val % 4 = 0 then k0_pay1 (F := F) else accAt0 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi0 (c : Dev nD) (n : ℕ) (h : n ≤ cfg0.N) : sProp 𝕄 :=
  if hz : n = 0 then Pipeline.ΦA spec0 c
  else inv0 c (owns (c : Thread nD τ) (Memref.whole cc0_scratch0) fullShare (accAt0 V c (n - 1) (by omega)))

-- Forgetting the accumulator's value gives the entry form back.
theorem Phi0_any (c : Dev nD) (n : ℕ) (h : n ≤ cfg0.N) :
    Phi0 V c n h ⊢ inv0 c iprop(∃ d, owns (c : Thread nD τ) (Memref.whole cc0_scratch0) fullShare d) := by
  unfold Phi0
  split
  · rw [← PhiA0_eq]
  · unfold inv0
    iintro ⟨⟨HS, HR⟩, Hg⟩
    iframe HR Hg
    iexists _; iexact HS

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0 V c t := rfl

theorem before0_0 (c : Dev nD) (t : Fin cfg0.N) (d) : (dat0 V c).before 0 t d = iblk0 V c 0 t := by
  rw [Dat.before_in_eq_fetched _ 0 rfl (fun _ => rfl) (fun _ _ _ => rfl) (fun _ => rfl) t d]; rfl
theorem before0_1 (c : Dev nD) (t : Fin cfg0.N) (d) : (dat0 V c).before 1 t d = iblk0 V c 1 t := by
  rw [Dat.before_in_eq_fetched _ 1 rfl (fun _ => rfl) (fun _ _ _ => rfl) (fun _ => rfl) t d]; rfl
theorem before0_2 (c : Dev nD) (t : Fin cfg0.N) (d) : (dat0 V c).before 2 t d = iblk0 V c 2 t := by
  rw [Dat.before_in_eq_fetched _ 2 rfl (fun _ => rfl) (fun _ _ _ => rfl) (fun _ => rfl) t d]; rfl

-- By the control case of the point: first, last, or neither.
theorem body_obligation0 (c : Dev nD) : BodyObligation (dat0 (F := F) V c) (defs₀ (F := F)) Variants.none () Set.univ := fun t => by
  rw [bigSep_W0, bigSep_W0]
  show _ ⊢ wp frame (wpE (defs₀ (F := F)) Variants.none c none) Set.univ (bodyAt0 t) _
  unfold bodyAt0
  simp only [before0_0, before0_1, before0_2]
  rw [show (dat0 V c).owesAt () t.succ = (dat0 V c).owesAt () t.castSucc from rfl,
    show (dat0 V c).Φ t.succ = inv0 c (owns (c : Thread nD τ) (Memref.whole cc0_scratch0) fullShare (accAt0 V c t.val t.isLt)) from rfl,
    show (dat0 V c).Φ t.castSucc = Phi0 V c t.val (Nat.le_of_lt t.isLt) from rfl,
    show (dat0 V c).after 0 t = iblk0 V c 0 t from rfl, show (dat0 V c).after 1 t = iblk0 V c 1 t from rfl,
    show (dat0 V c).after 2 t = iblk0 V c 2 t from rfl]
  unfold inv0
  by_cases h0 : t.val % 4 = 0
  · have hn1 : ¬cond0_1 (grid0.coords t) := fun h => by have := (hcond0_1 t).mp h; omega
    simp only [(idleAt0_3 t hn1).1, (idleAt0_3 t hn1).2]
    rw [accAt0_eq V c t, if_pos h0]
    iintro ⟨HP, Ho, ⟨%d0, H0⟩, ⟨%d1, H1⟩, ⟨%d2, H2⟩, H3⟩
    icases (Phi0_any V c t.val (Nat.le_of_lt t.isLt)) $$ HP with ⟨⟨⟨%e, HS⟩, HR⟩, Hg⟩
    iapply (kernel0_AB hn1 _ _ _ _ (if_pos ((hcond0_0 t).mpr h0)).symm _)
    iframe H0 H1 HS
    iintro ⟨H0, H1, HS⟩
    iframe
  · have hn0 : ¬cond0_0 (grid0.coords t) := fun h => h0 ((hcond0_0 t).mp h)
    rw [accAt0_eq V c t, if_neg h0, Phi0, dif_neg fun h => h0 (by rw [h])]
    unfold inv0
    by_cases h1 : t.val % 4 = 3
    · simp only [liveAt0_3 t ((hcond0_1 t).mpr h1), after0_3]
      unfold out0
      rw [accAt0_eq V c t, if_neg h0]
      iintro ⟨⟨⟨HS, HR⟩, Hg⟩, Ho, ⟨%d0, H0⟩, ⟨%d1, H1⟩, ⟨%d2, H2⟩, ⟨%d3, H3⟩⟩
      iapply (kernel0_C hn0 ((hcond0_1 t).mpr h1) _ _ _ _ _ _)
      iframe H0 H1 H2 H3 HS
      iintro ⟨H0, H1, H2, H3, HS⟩
      iframe
    · have hn1 : ¬cond0_1 (grid0.coords t) := fun h => h1 ((hcond0_1 t).mp h)
      simp only [(idleAt0_3 t hn1).1, (idleAt0_3 t hn1).2]
      iintro ⟨⟨⟨HS, HR⟩, Hg⟩, Ho, ⟨%d0, H0⟩, ⟨%d1, H1⟩, ⟨%d2, H2⟩, H3⟩
      iapply (kernel0_AB hn1 _ _ _ _ (if_neg hn0).symm _)
      iframe H0 H1 HS
      iintro ⟨H0, H1, HS⟩
      iframe

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]; exact Phi0_any V c cfg0.N (Nat.le_refl _)

end

end Cert.KernelIdeal.Gen

end
-- ==== Proof.KI.Defs1.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (xa : Vec F S1024x768 .f32) (xb : Vec F S768x128 .f32) : Vec F S1024x128 .f32 := k1_pay2 xa xb (k1_pay1 (F := F))

def out1 (xa : Vec F S1024x768 .f32) (xb : Vec F S768x128 .f32) (xc : Vec F S1x128 .f32) : Vec F S1024x128 .f32 := k1_pay3 (acc1 xa xb) xc

end

end Cert.KernelIdeal.Gen

end
-- ==== Proof.KI.Reg1.lean ====
import proofs.«103213_j15710990369585_1_alg».proof.Proof.KI.Defs1
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond1 : ∀ t : Fin cfg1.N, k1_cond2 (grid1.coords t) = 1#1 :=
  (by decide +kernel : ∀ t : Fin grid1.N, _)

theorem idle1_3 : ∀ t : Fin cfg1.N, cfg1.idle 3 (cfg1.grid.coords t) = false :=
  (by decide +kernel : ∀ t : Fin grid1.N, _)

theorem zeros1 : (![0, 0] : Fin 2 → Nat) = fun _ => 0 := funext fun a => by fin_cases a <;> rfl

/-- Every access covers its whole memref, so a load reads the payload stored last and a memref ends holding it. -/
theorem sound_kernel1 {c : Dev nD} {E : Set ℕ} {i : grid1.Coords}
    {arg2 : Memref sig .tc .vmem S1024x768 .f32} {harg2 : arg2.IsWhole} {arg3 : Memref sig .tc .vmem S768x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k1_cond2 i = 1#1)
    {xa : Vec F S1024x768 .f32} {xb : Vec F S768x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out1 xa xb xc) ∗ owns c.tc arg6 fullShare (acc1 xa xb)) -∗ K ⟨⟩))
      ⊢ wp frame (wpE (defs₀ (F := F)) Variants.none c none) E (cc1__linear_kernel i arg2 harg2 arg3 harg3 arg4 harg4 arg5 harg5 arg6 harg6) K := by
  simp only [cc1__linear_kernel_eq_skeleton]; unfold cc1__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros1, View.readCov_cons_toLoadRect,
      View.readAt_eq_ld, View.read_rep, View.ld_unit_zero (S := S1024x768) zeros1, View.ld_unit_zero (S := S768x128) zeros1,
      View.ld_unit_zero (S := S1x128) zeros1]
    rfl

section
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1 (iblk1 V c 0 t) (iblk1 V c 1 t) (iblk1 V c 2 t) := rfl

/-- The body leaves its inputs in place, so what it finds in an input window at a point is what it leaves there. -/
theorem before1 (c : Dev nD) (t : Fin cfg1.N) : ∀ w : Fin cfg1.W, w ≠ 3 → ∀ d, (dat1 V c).before w t d = (dat1 V c).after w t
  | 0, _, d | 1, _, d | 2, _, d => ((dat1 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation1 (c : Dev nD) : BodyObligation (dat1 (F := F) V c) (defs₀ (F := F)) Variants.none () Set.univ := fun t => by
  rw [bigSep_W1, bigSep_W1, idle1_3 t]
  simp only [show ∀ p, (dat1 V c).Φ p = Pipeline.ΦA spec1 c from fun _ => rfl, Pipeline.ΦA, scopedRest1_split]
  iintro ⟨⟨⟨HS, HR⟩, Hg⟩, Ho, ⟨%dA, HA⟩, ⟨%dB, HB⟩, ⟨%dC, HC⟩, ⟨%dO, HO⟩⟩
  rw [before1 V c t 0 (by decide), before1 V c t 1 (by decide), before1 V c t 2 (by decide)]
  sl_whnfR [defs₀, Defs.onTc]
  iapply sound_kernel1 (cond1 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end

end Cert.KernelIdeal.Gen

end
-- ==== Proof.KI.Defs2.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (xa : Vec F S1024x768 .f32) (xb : Vec F S768x128 .f32) : Vec F S1024x128 .f32 := k2_pay2 xa xb (k2_pay1 (F := F))

def out2 (xa : Vec F S1024x768 .f32) (xb : Vec F S768x128 .f32) (xc : Vec F S1x128 .f32) : Vec F S1024x128 .f32 := k2_pay3 (acc2 xa xb) xc

end

end Cert.KernelIdeal.Gen

end
-- ==== Proof.KI.Reg2.lean ====
import proofs.«103213_j15710990369585_1_alg».proof.Proof.KI.Defs2
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond2 : ∀ t : Fin cfg2.N, k2_cond2 (grid2.coords t) = 1#1 :=
  (by decide +kernel : ∀ t : Fin grid2.N, _)

theorem idle2_3 : ∀ t : Fin cfg2.N, cfg2.idle 3 (cfg2.grid.coords t) = false :=
  (by decide +kernel : ∀ t : Fin grid2.N, _)

theorem zeros2 : (![0, 0] : Fin 2 → Nat) = fun _ => 0 := funext fun a => by fin_cases a <;> rfl

/-- Every access covers its whole memref, so a load reads the payload stored last and a memref ends holding it. -/
theorem sound_kernel2 {c : Dev nD} {E : Set ℕ} {i : grid2.Coords}
    {arg2 : Memref sig .tc .vmem S1024x768 .f32} {harg2 : arg2.IsWhole} {arg3 : Memref sig .tc .vmem S768x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k2_cond2 i = 1#1)
    {xa : Vec F S1024x768 .f32} {xb : Vec F S768x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out2 xa xb xc) ∗ owns c.tc arg6 fullShare (acc2 xa xb)) -∗ K ⟨⟩))
      ⊢ wp frame (wpE (defs₀ (F := F)) Variants.none c none) E (cc2__linear_kernel i arg2 harg2 arg3 harg3 arg4 harg4 arg5 harg5 arg6 harg6) K := by
  simp only [cc2__linear_kernel_eq_skeleton]; unfold cc2__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros2, View.readCov_cons_toLoadRect,
      View.readAt_eq_ld, View.read_rep, View.ld_unit_zero (S := S1024x768) zeros2, View.ld_unit_zero (S := S768x128) zeros2,
      View.ld_unit_zero (S := S1x128) zeros2]
    rfl

section
variable (V : (c : Dev nD) → (b : Ref sig .tc) → Buf (Elt F) ((c : Thread nD τ).loc b))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) :
    (dat2 V c).after 3 t = out2 (iblk2 V c 0 t) (iblk2 V c 1 t) (iblk2 V c 2 t) := rfl

/-- The body leaves its inputs in place, so what it finds in an input window at a point is what it leaves there. -/
theorem before2 (c : Dev nD) (t : Fin cfg2.N) : ∀ w : Fin cfg2.W, w ≠ 3 → ∀ d, (dat2 V c).before w t d = (dat2 V c).after w t
  | 0, _, d | 1, _, d | 2, _, d => ((dat2 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation2 (c : Dev nD) : BodyObligation (dat2 (F := F) V c) (defs₀ (F := F)) Variants.none () Set.univ := fun t => by
  rw [bigSep_W2, bigSep_W2, idle2_3 t]
  simp only [show ∀ p, (dat2 V c).Φ p = Pipeline.ΦA spec2 c from fun _ => rfl, Pipeline.ΦA, scopedRest2_split]
  iintro ⟨⟨⟨HS, HR⟩, Hg⟩, Ho, ⟨%dA, HA⟩, ⟨%dB, HB⟩, ⟨%dC, HC⟩, ⟨%dO, HO⟩⟩
  rw [before2 V c t 0 (by decide), before2 V c t 1 (by decide), before2 V c t 2 (by decide)]
  sl_whnfR [defs₀, Defs.onTc]
  iapply sound_kernel2 (cond2 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end

end Cert.KernelIdeal.Gen

end
-- ==== Proof.KI.Defs3.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (xa : Vec F S1024x768 .f32) (xb : Vec F S768x128 .f32) : Vec F S1024x128 .f32 := k3_pay2 xa xb (k3_pay1 (F := F))

def out3 (xa : Vec F S1024x768 .f32) (xb : Vec F S768x128 .f32) (xc : Vec F S1x128 .f32) : Vec F S1024x128 .f32 := k3_pay3 (acc3 xa xb) xc

end

end Cert.KernelIdeal.Gen

end
-- ==== Proof.KI.Reg3.lean ====
import proofs.«103213_j15710990369585_1_alg».proof.Proof.KI.Defs3
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond3 : ∀ t : Fin cfg3.N, k3_cond2 (grid3.coords t) = 1#1 :=
  (by decide +kernel : ∀ t : Fin grid3.N, _)

theorem idle3_3 : ∀ t : Fin cfg3.N, cfg3.idle 3 (cfg3.grid.coords t) = false :=
  (by decide +kernel : ∀ t : Fin grid3.N, _)

theorem zeros3 : (![0, 0] : Fin 2 → Nat) = fun _ => 0 := funext fun a => by fin_cases a <;> rfl

/-- Every access covers its whole memref, so a load reads the payload stored last and a memref ends holding it. -/
theorem sound_kernel3 {c : Dev nD} {E : Set ℕ} {i : grid3.Coords}
    {arg2 : Memref sig .tc .vmem S1024x768 .f32} {harg2 : arg2.IsWhole} {arg3 : Memref sig .tc .vmem S768x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k3_cond2 i = 1#1)
    {xa : Vec F S1024x768 .f32} {xb : Vec F S768x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out3 xa xb xc) ∗ owns c.tc arg6 fullShare (acc3 xa xb)) -∗ K ⟨⟩))
      ⊢ wp frame (wpE (defs₀ (F := F)) Variants.none c none) E (cc3__linear_kernel i arg2 harg2 arg3 harg3 arg4 harg4 arg5 harg5 arg6 harg6) K := by
  simp only [cc3__linear_kernel_eq_skeleton]; unfold cc3__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros3, View.readCov_cons_toLoadRect,
      View.readAt_eq_ld, View.read_rep, View.ld_unit_zero (S := S1024x768) zeros3, View.ld_unit_zero (S := S768x128) zeros3,
      View.ld_unit_zero (S := S1x128) zeros3]
    rfl

section
variable (V : (c : Dev nD) → (b : Ref sig .tc) → Buf (Elt F) ((c : Thread nD τ).loc b))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = out3 (iblk3 V c 0 t) (iblk3 V c 1 t) (iblk3 V c 2 t) := rfl

/-- The body leaves its inputs in place, so what it finds in an input window at a point is what it leaves there. -/
theorem before3 (c : Dev nD) (t : Fin cfg3.N) : ∀ w : Fin cfg3.W, w ≠ 3 → ∀ d, (dat3 V c).before w t d = (dat3 V c).after w t
  | 0, _, d | 1, _, d | 2, _, d => ((dat3 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation3 (c : Dev nD) : BodyObligation (dat3 (F := F) V c) (defs₀ (F := F)) Variants.none () Set.univ := fun t => by
  rw [bigSep_W3, bigSep_W3, idle3_3 t]
  simp only [show ∀ p, (dat3 V c).Φ p = Pipeline.ΦA spec3 c from fun _ => rfl, Pipeline.ΦA, scopedRest3_split]
  iintro ⟨⟨⟨HS, HR⟩, Hg⟩, Ho, ⟨%dA, HA⟩, ⟨%dB, HB⟩, ⟨%dC, HC⟩, ⟨%dO, HO⟩⟩
  rw [before3 V c t 0 (by decide), before3 V c t 1 (by decide), before3 V c t 2 (by decide)]
  sl_whnfR [defs₀, Defs.onTc]
  iapply sound_kernel3 (cond3 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end

end Cert.KernelIdeal.Gen

end
-- ==== Proof.KI.Defs4.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (xa : Vec F S1024x128 .f32) (xb : Vec F S128x64 .f32) : Vec F S1024x64 .f32 := k4_pay2 xa xb (k4_pay1 (F := F))

def out4 (xa : Vec F S1024x128 .f32) (xb : Vec F S128x64 .f32) (xc : Vec F S1x64 .f32) : Vec F S1024x64 .f32 := k4_pay3 (acc4 xa xb) xc

end

end Cert.KernelIdeal.Gen

end
-- ==== Proof.KI.Reg4.lean ====
import proofs.«103213_j15710990369585_1_alg».proof.Proof.KI.Defs4
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond4 : ∀ t : Fin cfg4.N, k4_cond2 (grid4.coords t) = 1#1 :=
  (by decide +kernel : ∀ t : Fin grid4.N, _)

theorem idle4_3 : ∀ t : Fin cfg4.N, cfg4.idle 3 (cfg4.grid.coords t) = false :=
  (by decide +kernel : ∀ t : Fin grid4.N, _)

theorem zeros4 : (![0, 0] : Fin 2 → Nat) = fun _ => 0 := funext fun a => by fin_cases a <;> rfl

/-- Every access covers its whole memref, so a load reads the payload stored last and a memref ends holding it. -/
theorem sound_kernel4 {c : Dev nD} {E : Set ℕ} {i : grid4.Coords}
    {arg2 : Memref sig .tc .vmem S1024x128 .f32} {harg2 : arg2.IsWhole} {arg3 : Memref sig .tc .vmem S128x64 .f32} {harg3 : arg3.IsWhole}
    {arg4 : Memref sig .tc .vmem S1x64 .f32} {harg4 : arg4.IsWhole} {arg5 : Memref sig .tc .vmem S1024x64 .f32} {harg5 : arg5.IsWhole}
    {arg6 : Memref sig .tc .vmem S1024x64 .f32} {harg6 : arg6.IsWhole} (hcl : k4_cond2 i = 1#1)
    {xa : Vec F S1024x128 .f32} {xb : Vec F S128x64 .f32} {xc : Vec F S1x64 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out4 xa xb xc) ∗ owns c.tc arg6 fullShare (acc4 xa xb)) -∗ K ⟨⟩))
      ⊢ wp frame (wpE (defs₀ (F := F)) Variants.none c none) E (cc4__linear_kernel i arg2 harg2 arg3 harg3 arg4 harg4 arg5 harg5 arg6 harg6) K := by
  simp only [cc4__linear_kernel_eq_skeleton]; unfold cc4__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x64) zeros4, View.readCov_cons_toLoadRect,
      View.readAt_eq_ld, View.read_rep, View.ld_unit_zero (S := S1024x128) zeros4, View.ld_unit_zero (S := S128x64) zeros4,
      View.ld_unit_zero (S := S1x64) zeros4]
    rfl

section
variable (V : (c : Dev nD) → (b : Ref sig .tc) → Buf (Elt F) ((c : Thread nD τ).loc b))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = out4 (iblk4 V c 0 t) (iblk4 V c 1 t) (iblk4 V c 2 t) := rfl

/-- The body leaves its inputs in place, so what it finds in an input window at a point is what it leaves there. -/
theorem before4 (c : Dev nD) (t : Fin cfg4.N) : ∀ w : Fin cfg4.W, w ≠ 3 → ∀ d, (dat4 V c).before w t d = (dat4 V c).after w t
  | 0, _, d | 1, _, d | 2, _, d => ((dat4 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation4 (c : Dev nD) : BodyObligation (dat4 (F := F) V c) (defs₀ (F := F)) Variants.none () Set.univ := fun t => by
  rw [bigSep_W4, bigSep_W4, idle4_3 t]
  simp only [show ∀ p, (dat4 V c).Φ p = Pipeline.ΦA spec4 c from fun _ => rfl, Pipeline.ΦA, scopedRest4_split]
  iintro ⟨⟨⟨HS, HR⟩, Hg⟩, Ho, ⟨%dA, HA⟩, ⟨%dB, HB⟩, ⟨%dC, HC⟩, ⟨%dO, HO⟩⟩
  rw [before4 V c t 0 (by decide), before4 V c t 1 (by decide), before4 V c t 2 (by decide)]
  sl_whnfR [defs₀, Defs.onTc]
  iapply sound_kernel4 (cond4 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin4 (c : Dev nD) : Pipeline.ΦA spec4 c ⊢ (dat4 V c).Φ 0 := .rfl

theorem hout4 (c : Dev nD) : (dat4 V c).Φ (Fin.last cfg4.N) ⊢ Pipeline.ΦA spec4 c := .rfl

end

end Cert.KernelIdeal.Gen

end
-- ==== Proof.KI.Defs5.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (xa : Vec F S1024x64 .f32) (xb : Vec F S64x1 .f32) : Vec F S1024x1 .f32 := k5_pay2 xa xb (k5_pay1 (F := F))

def out5 (xa : Vec F S1024x64 .f32) (xb : Vec F S64x1 .f32) (xc : Vec F S1x1 .f32) : Vec F S1024x1 .f32 := k5_pay3 (acc5 xa xb) xc

end

end Cert.KernelIdeal.Gen

end
-- ==== Proof.KI.Reg5.lean ====
import proofs.«103213_j15710990369585_1_alg».proof.Proof.KI.Defs5
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond5 : ∀ t : Fin cfg5.N, k5_cond2 (grid5.coords t) = 1#1 :=
  (by decide +kernel : ∀ t : Fin grid5.N, _)

theorem idle5_3 : ∀ t : Fin cfg5.N, cfg5.idle 3 (cfg5.grid.coords t) = false :=
  (by decide +kernel : ∀ t : Fin grid5.N, _)

theorem zeros5 : (![0, 0] : Fin 2 → Nat) = fun _ => 0 := funext fun a => by fin_cases a <;> rfl

/-- Every access covers its whole memref, so a load reads the payload stored last and a memref ends holding it. -/
theorem sound_kernel5 {c : Dev nD} {E : Set ℕ} {i : grid5.Coords}
    {arg2 : Memref sig .tc .vmem S1024x64 .f32} {harg2 : arg2.IsWhole} {arg3 : Memref sig .tc .vmem S64x1 .f32} {harg3 : arg3.IsWhole}
    {arg4 : Memref sig .tc .vmem S1x1 .f32} {harg4 : arg4.IsWhole} {arg5 : Memref sig .tc .vmem S1024x1 .f32} {harg5 : arg5.IsWhole}
    {arg6 : Memref sig .tc .vmem S1024x1 .f32} {harg6 : arg6.IsWhole} (hcl : k5_cond2 i = 1#1)
    {xa : Vec F S1024x64 .f32} {xb : Vec F S64x1 .f32} {xc : Vec F S1x1 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out5 xa xb xc) ∗ owns c.tc arg6 fullShare (acc5 xa xb)) -∗ K ⟨⟩))
      ⊢ wp frame (wpE (defs₀ (F := F)) Variants.none c none) E (cc5__linear_kernel i arg2 harg2 arg3 harg3 arg4 harg4 arg5 harg5 arg6 harg6) K := by
  simp only [cc5__linear_kernel_eq_skeleton]; unfold cc5__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x1) zeros5, View.readCov_cons_toLoadRect,
      View.readAt_eq_ld, View.read_rep, View.ld_unit_zero (S := S1024x64) zeros5, View.ld_unit_zero (S := S64x1) zeros5,
      View.ld_unit_zero (S := S1x1) zeros5]
    rfl

section
variable (V : (c : Dev nD) → (b : Ref sig .tc) → Buf (Elt F) ((c : Thread nD τ).loc b))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl

theorem after5_3 (c : Dev nD) (t : Fin cfg5.N) :
    (dat5 V c).after 3 t = out5 (iblk5 V c 0 t) (iblk5 V c 1 t) (iblk5 V c 2 t) := rfl

/-- The body leaves its inputs in place, so what it finds in an input window at a point is what it leaves there. -/
theorem before5 (c : Dev nD) (t : Fin cfg5.N) : ∀ w : Fin cfg5.W, w ≠ 3 → ∀ d, (dat5 V c).before w t d = (dat5 V c).after w t
  | 0, _, d | 1, _, d | 2, _, d => ((dat5 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation5 (c : Dev nD) : BodyObligation (dat5 (F := F) V c) (defs₀ (F := F)) Variants.none () Set.univ := fun t => by
  rw [bigSep_W5, bigSep_W5, idle5_3 t]
  simp only [show ∀ p, (dat5 V c).Φ p = Pipeline.ΦA spec5 c from fun _ => rfl, Pipeline.ΦA, scopedRest5_split]
  iintro ⟨⟨⟨HS, HR⟩, Hg⟩, Ho, ⟨%dA, HA⟩, ⟨%dB, HB⟩, ⟨%dC, HC⟩, ⟨%dO, HO⟩⟩
  rw [before5 V c t 0 (by decide), before5 V c t 1 (by decide), before5 V c t 2 (by decide)]
  sl_whnfR [defs₀, Defs.onTc]
  iapply sound_kernel5 (cond5 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

end

end Cert.KernelIdeal.Gen

end
-- ==== Proof.KI.Defs6.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (xa : Vec F S1024x128 .f32) (xb : Vec F S128x64 .f32) : Vec F S1024x64 .f32 := k6_pay2 xa xb (k6_pay1 (F := F))

def out6 (xa : Vec F S1024x128 .f32) (xb : Vec F S128x64 .f32) (xc : Vec F S1x64 .f32) : Vec F S1024x64 .f32 := k6_pay3 (acc6 xa xb) xc

end

end Cert.KernelIdeal.Gen

end
-- ==== Proof.KI.Reg6.lean ====
import proofs.«103213_j15710990369585_1_alg».proof.Proof.KI.Defs6
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond6 : ∀ t : Fin cfg6.N, k6_cond2 (grid6.coords t) = 1#1 :=
  (by decide +kernel : ∀ t : Fin grid6.N, _)

theorem idle6_3 : ∀ t : Fin cfg6.N, cfg6.idle 3 (cfg6.grid.coords t) = false :=
  (by decide +kernel : ∀ t : Fin grid6.N, _)

theorem zeros6 : (![0, 0] : Fin 2 → Nat) = fun _ => 0 := funext fun a => by fin_cases a <;> rfl

/-- Every access covers its whole memref, so a load reads the payload stored last and a memref ends holding it. -/
theorem sound_kernel6 {c : Dev nD} {E : Set ℕ} {i : grid6.Coords}
    {arg2 : Memref sig .tc .vmem S1024x128 .f32} {harg2 : arg2.IsWhole} {arg3 : Memref sig .tc .vmem S128x64 .f32} {harg3 : arg3.IsWhole}
    {arg4 : Memref sig .tc .vmem S1x64 .f32} {harg4 : arg4.IsWhole} {arg5 : Memref sig .tc .vmem S1024x64 .f32} {harg5 : arg5.IsWhole}
    {arg6 : Memref sig .tc .vmem S1024x64 .f32} {harg6 : arg6.IsWhole} (hcl : k6_cond2 i = 1#1)
    {xa : Vec F S1024x128 .f32} {xb : Vec F S128x64 .f32} {xc : Vec F S1x64 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out6 xa xb xc) ∗ owns c.tc arg6 fullShare (acc6 xa xb)) -∗ K ⟨⟩))
      ⊢ wp frame (wpE (defs₀ (F := F)) Variants.none c none) E (cc6__linear_kernel i arg2 harg2 arg3 harg3 arg4 harg4 arg5 harg5 arg6 harg6) K := by
  simp only [cc6__linear_kernel_eq_skeleton]; unfold cc6__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x64) zeros6, View.readCov_cons_toLoadRect,
      View.readAt_eq_ld, View.read_rep, View.ld_unit_zero (S := S1024x128) zeros6, View.ld_unit_zero (S := S128x64) zeros6,
      View.ld_unit_zero (S := S1x64) zeros6]
    rfl

section
variable (V : (c : Dev nD) → (b : Ref sig .tc) → Buf (Elt F) ((c : Thread nD τ).loc b))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl

theorem after6_3 (c : Dev nD) (t : Fin cfg6.N) :
    (dat6 V c).after 3 t = out6 (iblk6 V c 0 t) (iblk6 V c 1 t) (iblk6 V c 2 t) := rfl

/-- The body leaves its inputs in place, so what it finds in an input window at a point is what it leaves there. -/
theorem before6 (c : Dev nD) (t : Fin cfg6.N) : ∀ w : Fin cfg6.W, w ≠ 3 → ∀ d, (dat6 V c).before w t d = (dat6 V c).after w t
  | 0, _, d | 1, _, d | 2, _, d => ((dat6 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation6 (c : Dev nD) : BodyObligation (dat6 (F := F) V c) (defs₀ (F := F)) Variants.none () Set.univ := fun t => by
  rw [bigSep_W6, bigSep_W6, idle6_3 t]
  simp only [show ∀ p, (dat6 V c).Φ p = Pipeline.ΦA spec6 c from fun _ => rfl, Pipeline.ΦA, scopedRest6_split]
  iintro ⟨⟨⟨HS, HR⟩, Hg⟩, Ho, ⟨%dA, HA⟩, ⟨%dB, HB⟩, ⟨%dC, HC⟩, ⟨%dO, HO⟩⟩
  rw [before6 V c t 0 (by decide), before6 V c t 1 (by decide), before6 V c t 2 (by decide)]
  sl_whnfR [defs₀, Defs.onTc]
  iapply sound_kernel6 (cond6 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end

end Cert.KernelIdeal.Gen

end
-- ==== Proof.KI.Defs7.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def acc7 (xa : Vec F S1024x64 .f32) (xb : Vec F S64x1 .f32) : Vec F S1024x1 .f32 := k7_pay2 xa xb (k7_pay1 (F := F))

def out7 (xa : Vec F S1024x64 .f32) (xb : Vec F S64x1 .f32) (xc : Vec F S1x1 .f32) : Vec F S1024x1 .f32 := k7_pay3 (acc7 xa xb) xc

end

end Cert.KernelIdeal.Gen

end
-- ==== Proof.KI.Reg7.lean ====
import proofs.«103213_j15710990369585_1_alg».proof.Proof.KI.Defs7
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond7 : ∀ t : Fin cfg7.N, k7_cond2 (grid7.coords t) = 1#1 :=
  (by decide +kernel : ∀ t : Fin grid7.N, _)

theorem idle7_3 : ∀ t : Fin cfg7.N, cfg7.idle 3 (cfg7.grid.coords t) = false :=
  (by decide +kernel : ∀ t : Fin grid7.N, _)

theorem zeros7 : (![0, 0] : Fin 2 → Nat) = fun _ => 0 := funext fun a => by fin_cases a <;> rfl

/-- Every access covers its whole memref, so a load reads the payload stored last and a memref ends holding it. -/
theorem sound_kernel7 {c : Dev nD} {E : Set ℕ} {i : grid7.Coords}
    {arg2 : Memref sig .tc .vmem S1024x64 .f32} {harg2 : arg2.IsWhole} {arg3 : Memref sig .tc .vmem S64x1 .f32} {harg3 : arg3.IsWhole}
    {arg4 : Memref sig .tc .vmem S1x1 .f32} {harg4 : arg4.IsWhole} {arg5 : Memref sig .tc .vmem S1024x1 .f32} {harg5 : arg5.IsWhole}
    {arg6 : Memref sig .tc .vmem S1024x1 .f32} {harg6 : arg6.IsWhole} (hcl : k7_cond2 i = 1#1)
    {xa : Vec F S1024x64 .f32} {xb : Vec F S64x1 .f32} {xc : Vec F S1x1 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out7 xa xb xc) ∗ owns c.tc arg6 fullShare (acc7 xa xb)) -∗ K ⟨⟩))
      ⊢ wp frame (wpE (defs₀ (F := F)) Variants.none c none) E (cc7__linear_kernel i arg2 harg2 arg3 harg3 arg4 harg4 arg5 harg5 arg6 harg6) K := by
  simp only [cc7__linear_kernel_eq_skeleton]; unfold cc7__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x1) zeros7, View.readCov_cons_toLoadRect,
      View.readAt_eq_ld, View.read_rep, View.ld_unit_zero (S := S1024x64) zeros7, View.ld_unit_zero (S := S64x1) zeros7,
      View.ld_unit_zero (S := S1x1) zeros7]
    rfl

section
variable (V : (c : Dev nD) → (b : Ref sig .tc) → Buf (Elt F) ((c : Thread nD τ).loc b))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := rfl

theorem after7_3 (c : Dev nD) (t : Fin cfg7.N) :
    (dat7 V c).after 3 t = out7 (iblk7 V c 0 t) (iblk7 V c 1 t) (iblk7 V c 2 t) := rfl

/-- The body leaves its inputs in place, so what it finds in an input window at a point is what it leaves there. -/
theorem before7 (c : Dev nD) (t : Fin cfg7.N) : ∀ w : Fin cfg7.W, w ≠ 3 → ∀ d, (dat7 V c).before w t d = (dat7 V c).after w t
  | 0, _, d | 1, _, d | 2, _, d => ((dat7 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation7 (c : Dev nD) : BodyObligation (dat7 (F := F) V c) (defs₀ (F := F)) Variants.none () Set.univ := fun t => by
  rw [bigSep_W7, bigSep_W7, idle7_3 t]
  simp only [show ∀ p, (dat7 V c).Φ p = Pipeline.ΦA spec7 c from fun _ => rfl, Pipeline.ΦA, scopedRest7_split]
  iintro ⟨⟨⟨HS, HR⟩, Hg⟩, Ho, ⟨%dA, HA⟩, ⟨%dB, HB⟩, ⟨%dC, HC⟩, ⟨%dO, HO⟩⟩
  rw [before7 V c t 0 (by decide), before7 V c t 1 (by decide), before7 V c t 2 (by decide)]
  sl_whnfR [defs₀, Defs.onTc]
  iapply sound_kernel7 (cond7 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin7 (c : Dev nD) : Pipeline.ΦA spec7 c ⊢ (dat7 V c).Φ 0 := .rfl

theorem hout7 (c : Dev nD) : (dat7 V c).Φ (Fin.last cfg7.N) ⊢ Pipeline.ΦA spec7 c := .rfl

end

end Cert.KernelIdeal.Gen

end
-- ==== Proof.KI.Defs8.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (xa : Vec F S1024x256 .f32) (xb : Vec F S256x128 .f32) : Vec F S1024x128 .f32 := k8_pay2 xa xb (k8_pay1 (F := F))

def out8 (xa : Vec F S1024x256 .f32) (xb : Vec F S256x128 .f32) (xc : Vec F S1x128 .f32) : Vec F S1024x128 .f32 := k8_pay3 (acc8 xa xb) xc

end

end Cert.KernelIdeal.Gen

end
-- ==== Proof.KI.Reg8.lean ====
import proofs.«103213_j15710990369585_1_alg».proof.Proof.KI.Defs8
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond8 : ∀ t : Fin cfg8.N, k8_cond2 (grid8.coords t) = 1#1 :=
  (by decide +kernel : ∀ t : Fin grid8.N, _)

theorem idle8_3 : ∀ t : Fin cfg8.N, cfg8.idle 3 (cfg8.grid.coords t) = false :=
  (by decide +kernel : ∀ t : Fin grid8.N, _)

theorem zeros8 : (![0, 0] : Fin 2 → Nat) = fun _ => 0 := funext fun a => by fin_cases a <;> rfl

/-- Every access covers its whole memref, so a load reads the payload stored last and a memref ends holding it. -/
theorem sound_kernel8 {c : Dev nD} {E : Set ℕ} {i : grid8.Coords}
    {arg2 : Memref sig .tc .vmem S1024x256 .f32} {harg2 : arg2.IsWhole} {arg3 : Memref sig .tc .vmem S256x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k8_cond2 i = 1#1)
    {xa : Vec F S1024x256 .f32} {xb : Vec F S256x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out8 xa xb xc) ∗ owns c.tc arg6 fullShare (acc8 xa xb)) -∗ K ⟨⟩))
      ⊢ wp frame (wpE (defs₀ (F := F)) Variants.none c none) E (cc8__linear_kernel i arg2 harg2 arg3 harg3 arg4 harg4 arg5 harg5 arg6 harg6) K := by
  simp only [cc8__linear_kernel_eq_skeleton]; unfold cc8__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros8, View.readCov_cons_toLoadRect,
      View.readAt_eq_ld, View.read_rep, View.ld_unit_zero (S := S1024x256) zeros8, View.ld_unit_zero (S := S256x128) zeros8,
      View.ld_unit_zero (S := S1x128) zeros8]
    rfl

section
variable (V : (c : Dev nD) → (b : Ref sig .tc) → Buf (Elt F) ((c : Thread nD τ).loc b))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl

theorem after8_3 (c : Dev nD) (t : Fin cfg8.N) :
    (dat8 V c).after 3 t = out8 (iblk8 V c 0 t) (iblk8 V c 1 t) (iblk8 V c 2 t) := rfl

/-- The body leaves its inputs in place, so what it finds in an input window at a point is what it leaves there. -/
theorem before8 (c : Dev nD) (t : Fin cfg8.N) : ∀ w : Fin cfg8.W, w ≠ 3 → ∀ d, (dat8 V c).before w t d = (dat8 V c).after w t
  | 0, _, d | 1, _, d | 2, _, d => ((dat8 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation8 (c : Dev nD) : BodyObligation (dat8 (F := F) V c) (defs₀ (F := F)) Variants.none () Set.univ := fun t => by
  rw [bigSep_W8, bigSep_W8, idle8_3 t]
  simp only [show ∀ p, (dat8 V c).Φ p = Pipeline.ΦA spec8 c from fun _ => rfl, Pipeline.ΦA, scopedRest8_split]
  iintro ⟨⟨⟨HS, HR⟩, Hg⟩, Ho, ⟨%dA, HA⟩, ⟨%dB, HB⟩, ⟨%dC, HC⟩, ⟨%dO, HO⟩⟩
  rw [before8 V c t 0 (by decide), before8 V c t 1 (by decide), before8 V c t 2 (by decide)]
  sl_whnfR [defs₀, Defs.onTc]
  iapply sound_kernel8 (cond8 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end

end Cert.KernelIdeal.Gen

end
-- ==== Proof.KI.Defs9.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def acc9 (xa : Vec F S1024x128 .f32) (xb : Vec F S128x128 .f32) : Vec F S1024x128 .f32 := k9_pay2 xa xb (k9_pay1 (F := F))

def out9 (xa : Vec F S1024x128 .f32) (xb : Vec F S128x128 .f32) (xc : Vec F S1x128 .f32) : Vec F S1024x128 .f32 := k9_pay3 (acc9 xa xb) xc

end

end Cert.KernelIdeal.Gen

end
-- ==== Proof.KI.Reg9.lean ====
import proofs.«103213_j15710990369585_1_alg».proof.Proof.KI.Defs9
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond9 : ∀ t : Fin cfg9.N, k9_cond2 (grid9.coords t) = 1#1 :=
  (by decide +kernel : ∀ t : Fin grid9.N, _)

theorem idle9_3 : ∀ t : Fin cfg9.N, cfg9.idle 3 (cfg9.grid.coords t) = false :=
  (by decide +kernel : ∀ t : Fin grid9.N, _)

theorem zeros9 : (![0, 0] : Fin 2 → Nat) = fun _ => 0 := funext fun a => by fin_cases a <;> rfl

/-- Every access covers its whole memref, so a load reads the payload stored last and a memref ends holding it. -/
theorem sound_kernel9 {c : Dev nD} {E : Set ℕ} {i : grid9.Coords}
    {arg2 : Memref sig .tc .vmem S1024x128 .f32} {harg2 : arg2.IsWhole} {arg3 : Memref sig .tc .vmem S128x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k9_cond2 i = 1#1)
    {xa : Vec F S1024x128 .f32} {xb : Vec F S128x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out9 xa xb xc) ∗ owns c.tc arg6 fullShare (acc9 xa xb)) -∗ K ⟨⟩))
      ⊢ wp frame (wpE (defs₀ (F := F)) Variants.none c none) E (cc9__linear_kernel i arg2 harg2 arg3 harg3 arg4 harg4 arg5 harg5 arg6 harg6) K := by
  simp only [cc9__linear_kernel_eq_skeleton]; unfold cc9__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros9, View.readCov_cons_toLoadRect,
      View.readAt_eq_ld, View.read_rep, View.ld_unit_zero (S := S1024x128) zeros9, View.ld_unit_zero (S := S128x128) zeros9,
      View.ld_unit_zero (S := S1x128) zeros9]
    rfl

section
variable (V : (c : Dev nD) → (b : Ref sig .tc) → Buf (Elt F) ((c : Thread nD τ).loc b))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := rfl

theorem after9_3 (c : Dev nD) (t : Fin cfg9.N) :
    (dat9 V c).after 3 t = out9 (iblk9 V c 0 t) (iblk9 V c 1 t) (iblk9 V c 2 t) := rfl

/-- The body leaves its inputs in place, so what it finds in an input window at a point is what it leaves there. -/
theorem before9 (c : Dev nD) (t : Fin cfg9.N) : ∀ w : Fin cfg9.W, w ≠ 3 → ∀ d, (dat9 V c).before w t d = (dat9 V c).after w t
  | 0, _, d | 1, _, d | 2, _, d => ((dat9 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation9 (c : Dev nD) : BodyObligation (dat9 (F := F) V c) (defs₀ (F := F)) Variants.none () Set.univ := fun t => by
  rw [bigSep_W9, bigSep_W9, idle9_3 t]
  simp only [show ∀ p, (dat9 V c).Φ p = Pipeline.ΦA spec9 c from fun _ => rfl, Pipeline.ΦA, scopedRest9_split]
  iintro ⟨⟨⟨HS, HR⟩, Hg⟩, Ho, ⟨%dA, HA⟩, ⟨%dB, HB⟩, ⟨%dC, HC⟩, ⟨%dO, HO⟩⟩
  rw [before9 V c t 0 (by decide), before9 V c t 1 (by decide), before9 V c t 2 (by decide)]
  sl_whnfR [defs₀, Defs.onTc]
  iapply sound_kernel9 (cond9 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin9 (c : Dev nD) : Pipeline.ΦA spec9 c ⊢ (dat9 V c).Φ 0 := .rfl

theorem hout9 (c : Dev nD) : (dat9 V c).Φ (Fin.last cfg9.N) ⊢ Pipeline.ΦA spec9 c := .rfl

end

end Cert.KernelIdeal.Gen

end
-- ==== Proof.KI.Defs10.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def acc10 (xa : Vec F S1024x256 .f32) (xb : Vec F S256x128 .f32) : Vec F S1024x128 .f32 := k10_pay2 xa xb (k10_pay1 (F := F))

def out10 (xa : Vec F S1024x256 .f32) (xb : Vec F S256x128 .f32) (xc : Vec F S1x128 .f32) : Vec F S1024x128 .f32 := k10_pay3 (acc10 xa xb) xc

end

end Cert.KernelIdeal.Gen

end
-- ==== Proof.KI.Reg10.lean ====
import proofs.«103213_j15710990369585_1_alg».proof.Proof.KI.Defs10
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond10 : ∀ t : Fin cfg10.N, k10_cond2 (grid10.coords t) = 1#1 :=
  (by decide +kernel : ∀ t : Fin grid10.N, _)

theorem idle10_3 : ∀ t : Fin cfg10.N, cfg10.idle 3 (cfg10.grid.coords t) = false :=
  (by decide +kernel : ∀ t : Fin grid10.N, _)

theorem zeros10 : (![0, 0] : Fin 2 → Nat) = fun _ => 0 := funext fun a => by fin_cases a <;> rfl

/-- Every access covers its whole memref, so a load reads the payload stored last and a memref ends holding it. -/
theorem sound_kernel10 {c : Dev nD} {E : Set ℕ} {i : grid10.Coords}
    {arg2 : Memref sig .tc .vmem S1024x256 .f32} {harg2 : arg2.IsWhole} {arg3 : Memref sig .tc .vmem S256x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k10_cond2 i = 1#1)
    {xa : Vec F S1024x256 .f32} {xb : Vec F S256x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out10 xa xb xc) ∗ owns c.tc arg6 fullShare (acc10 xa xb)) -∗ K ⟨⟩))
      ⊢ wp frame (wpE (defs₀ (F := F)) Variants.none c none) E (cc10__linear_kernel i arg2 harg2 arg3 harg3 arg4 harg4 arg5 harg5 arg6 harg6) K := by
  simp only [cc10__linear_kernel_eq_skeleton]; unfold cc10__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros10, View.readCov_cons_toLoadRect,
      View.readAt_eq_ld, View.read_rep, View.ld_unit_zero (S := S1024x256) zeros10, View.ld_unit_zero (S := S256x128) zeros10,
      View.ld_unit_zero (S := S1x128) zeros10]
    rfl

section
variable (V : (c : Dev nD) → (b : Ref sig .tc) → Buf (Elt F) ((c : Thread nD τ).loc b))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := rfl

theorem after10_3 (c : Dev nD) (t : Fin cfg10.N) :
    (dat10 V c).after 3 t = out10 (iblk10 V c 0 t) (iblk10 V c 1 t) (iblk10 V c 2 t) := rfl

/-- The body leaves its inputs in place, so what it finds in an input window at a point is what it leaves there. -/
theorem before10 (c : Dev nD) (t : Fin cfg10.N) : ∀ w : Fin cfg10.W, w ≠ 3 → ∀ d, (dat10 V c).before w t d = (dat10 V c).after w t
  | 0, _, d | 1, _, d | 2, _, d => ((dat10 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation10 (c : Dev nD) : BodyObligation (dat10 (F := F) V c) (defs₀ (F := F)) Variants.none () Set.univ := fun t => by
  rw [bigSep_W10, bigSep_W10, idle10_3 t]
  simp only [show ∀ p, (dat10 V c).Φ p = Pipeline.ΦA spec10 c from fun _ => rfl, Pipeline.ΦA, scopedRest10_split]
  iintro ⟨⟨⟨HS, HR⟩, Hg⟩, Ho, ⟨%dA, HA⟩, ⟨%dB, HB⟩, ⟨%dC, HC⟩, ⟨%dO, HO⟩⟩
  rw [before10 V c t 0 (by decide), before10 V c t 1 (by decide), before10 V c t 2 (by decide)]
  sl_whnfR [defs₀, Defs.onTc]
  iapply sound_kernel10 (cond10 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin10 (c : Dev nD) : Pipeline.ΦA spec10 c ⊢ (dat10 V c).Φ 0 := .rfl

theorem hout10 (c : Dev nD) : (dat10 V c).Φ (Fin.last cfg10.N) ⊢ Pipeline.ΦA spec10 c := .rfl

end

end Cert.KernelIdeal.Gen

end
-- ==== Proof.KI.Defs11.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def acc11 (xa : Vec F S1024x128 .f32) (xb : Vec F S128x128 .f32) : Vec F S1024x128 .f32 := k11_pay2 xa xb (k11_pay1 (F := F))

def out11 (xa : Vec F S1024x128 .f32) (xb : Vec F S128x128 .f32) (xc : Vec F S1x128 .f32) : Vec F S1024x128 .f32 := k11_pay3 (acc11 xa xb) xc

end

end Cert.KernelIdeal.Gen

end
-- ==== Proof.KI.Reg11.lean ====
import proofs.«103213_j15710990369585_1_alg».proof.Proof.KI.Defs11
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.SL Idealize.SL.RA Idealize.SL.BI Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

/-- The grid's second axis has one point, so the last-step condition holds at every point. -/
theorem cond11 : ∀ t : Fin cfg11.N, k11_cond2 (grid11.coords t) = 1#1 :=
  (by decide +kernel : ∀ t : Fin grid11.N, _)

theorem idle11_3 : ∀ t : Fin cfg11.N, cfg11.idle 3 (cfg11.grid.coords t) = false :=
  (by decide +kernel : ∀ t : Fin grid11.N, _)

theorem zeros11 : (![0, 0] : Fin 2 → Nat) = fun _ => 0 := funext fun a => by fin_cases a <;> rfl

/-- Every access covers its whole memref, so a load reads the payload stored last and a memref ends holding it. -/
theorem sound_kernel11 {c : Dev nD} {E : Set ℕ} {i : grid11.Coords}
    {arg2 : Memref sig .tc .vmem S1024x128 .f32} {harg2 : arg2.IsWhole} {arg3 : Memref sig .tc .vmem S128x128 .f32} {harg3 : arg3.IsWhole}
    {arg4 : Memref sig .tc .vmem S1x128 .f32} {harg4 : arg4.IsWhole} {arg5 : Memref sig .tc .vmem S1024x128 .f32} {harg5 : arg5.IsWhole}
    {arg6 : Memref sig .tc .vmem S1024x128 .f32} {harg6 : arg6.IsWhole} (hcl : k11_cond2 i = 1#1)
    {xa : Vec F S1024x128 .f32} {xb : Vec F S128x128 .f32} {xc : Vec F S1x128 .f32} {K : PUnit → sProp 𝕄} :
    iprop(owns c.tc arg2 fullShare xa ∗ owns c.tc arg3 fullShare xb ∗ owns c.tc arg4 fullShare xc
        ∗ (∃ d, owns c.tc arg5 fullShare d) ∗ (∃ e, owns c.tc arg6 fullShare e)
        ∗ (iprop(owns c.tc arg2 fullShare xa ∗ owns c.tc arg3 fullShare xb ∗ owns c.tc arg4 fullShare xc
            ∗ owns c.tc arg5 fullShare (out11 xa xb xc) ∗ owns c.tc arg6 fullShare (acc11 xa xb)) -∗ K ⟨⟩))
      ⊢ wp frame (wpE (defs₀ (F := F)) Variants.none c none) E (cc11__linear_kernel i arg2 harg2 arg3 harg3 arg4 harg4 arg5 harg5 arg6 harg6) K := by
  simp only [cc11__linear_kernel_eq_skeleton]; unfold cc11__linear_kernel_skel
  rw [owns_eq_rep, owns_eq_rep, owns_eq_rep]; unfold owns
  iintro ⟨Ha, Hb, Hc, ⟨%d, %fd, -, Hd⟩, ⟨%e, %fe, -, He⟩, Hk⟩
  sl_exec! (disch := exact hcl)
  sl_step
  iapply Hk
  iframe Ha Hb Hc
  isplitl [Hd]
  all_goals
    iexists _; isplitr; swap; iassumption; ipureintro; sl_unfold_words
    simp only [View.read_writes_junk_eq_canon, View.canon_cons_unit_zero (S := S1024x128) zeros11, View.readCov_cons_toLoadRect,
      View.readAt_eq_ld, View.read_rep, View.ld_unit_zero (S := S1024x128) zeros11, View.ld_unit_zero (S := S128x128) zeros11,
      View.ld_unit_zero (S := S1x128) zeros11]
    rfl

section
variable (V : (c : Dev nD) → (b : Ref sig .tc) → Buf (Elt F) ((c : Thread nD τ).loc b))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := rfl

theorem after11_3 (c : Dev nD) (t : Fin cfg11.N) :
    (dat11 V c).after 3 t = out11 (iblk11 V c 0 t) (iblk11 V c 1 t) (iblk11 V c 2 t) := rfl

/-- The body leaves its inputs in place, so what it finds in an input window at a point is what it leaves there. -/
theorem before11 (c : Dev nD) (t : Fin cfg11.N) : ∀ w : Fin cfg11.W, w ≠ 3 → ∀ d, (dat11 V c).before w t d = (dat11 V c).after w t
  | 0, _, d | 1, _, d | 2, _, d => ((dat11 V c).before_in_eq_fetched _ rfl (fun _ => rfl) (fun _ _ _ => rfl) (fun _ => rfl) t d).trans rfl
  | 3, h, _ => absurd rfl h

/-- The invariant lends the scratch accumulator to the body and takes it back; the rest passes through unread. -/
theorem body_obligation11 (c : Dev nD) : BodyObligation (dat11 (F := F) V c) (defs₀ (F := F)) Variants.none () Set.univ := fun t => by
  rw [bigSep_W11, bigSep_W11, idle11_3 t]
  simp only [show ∀ p, (dat11 V c).Φ p = Pipeline.ΦA spec11 c from fun _ => rfl, Pipeline.ΦA, scopedRest11_split]
  iintro ⟨⟨⟨HS, HR⟩, Hg⟩, Ho, ⟨%dA, HA⟩, ⟨%dB, HB⟩, ⟨%dC, HC⟩, ⟨%dO, HO⟩⟩
  rw [before11 V c t 0 (by decide), before11 V c t 1 (by decide), before11 V c t 2 (by decide)]
  sl_whnfR [defs₀, Defs.onTc]
  iapply sound_kernel11 (cond11 t)
  simp only [owns_whole]
  iframe HA HB HC HS
  isplitl [HO]; · iexists _; iexact HO
  iintro ⟨HA, HB, HC, HO, HS⟩
  iframe HR Hg HA HB HC
  isplitl [HS]; · iexists _; iexact HS
  isplitl [Ho]; · iexact Ho
  iexact HO

theorem hin11 (c : Dev nD) : Pipeline.ΦA spec11 c ⊢ (dat11 V c).Φ 0 := .rfl

theorem hout11 (c : Dev nD) : (dat11 V c).Φ (Fin.last cfg11.N) ⊢ Pipeline.ΦA spec11 c := .rfl

end

end Cert.KernelIdeal.Gen

end
-- ==== Proof.KI.Defs12.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

def accAt12 (c : Dev nD) : (n : ℕ) → n < cfg12.N → Vec F S1024x512 .f32
  | 0, hn => k12_pay2 (iblk12 V c 0 ⟨0, hn⟩) (iblk12 V c 1 ⟨0, hn⟩) (k12_pay1 (F := F))
  | n + 1, hn =>
    if (n + 1) % 4 = 0 then k12_pay2 (iblk12 V c 0 ⟨n + 1, hn⟩) (iblk12 V c 1 ⟨n + 1, hn⟩) (k12_pay1 (F := F))
    else k12_pay2 (iblk12 V c 0 ⟨n + 1, hn⟩) (iblk12 V c 1 ⟨n + 1, hn⟩) (accAt12 c n (Nat.lt_of_succ_lt hn))

def out12 (c : Dev nD) (t : Fin cfg12.N) : Vec F S1024x512 .f32 := k12_pay3 (accAt12 V c t.val t.isLt) (iblk12 V c 2 t)

end

end Cert.KernelIdeal.Gen

end
-- ==== Proof.KI.Reg12.lean ====
import proofs.«103213_j15710990369585_1_alg».proof.Proof.KI.Defs12
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond12_0 (i : grid12.Coords) : Prop :=
  (Scalar.cmpi .ne (Scalar.extui (Scalar.cmpi .eq (BitVec.ofNat 32 (i 1).val) 0#32)) 0#32) = 1#1
theorem hcond12_0 : ∀ t : Fin cfg12.N, cond12_0 (grid12.coords t) ↔ t.val % 4 = 0 := by decide +kernel
abbrev cond12_1 (i : grid12.Coords) : Prop := k12_cond2 i = 1#1
theorem hcond12_1 : ∀ t : Fin cfg12.N, cond12_1 (grid12.coords t) ↔ t.val % 4 = 3 := by decide +kernel

theorem idleAt12_3 : ∀ t : Fin cfg12.N, ¬cond12_1 (grid12.coords t) → idle12 3 (grid12.coords t) = true ∧ (win12 3).flush t = false := by decide +kernel
theorem liveAt12_3 : ∀ t : Fin cfg12.N, cond12_1 (grid12.coords t) → idle12 3 (grid12.coords t) = false := by decide +kernel

theorem hz12 : (![0, 0] : Fin 2 → Nat) = fun _ => 0 := funext fun a => by fin_cases a <;> rfl

-- Reading back after a last write that covers every index gives what was written.
theorem stw12 (v : View sig .tc .vmem S1024x512 .f32) (f : v.ty.Contents (Elt F)) (w w' : S1024x512.Idx → Elt F .f32)
    (L : List (View.Piece (Elt F) S1024x512 .f32)) (h : w = w') :
    v.read (Elt F) (v.writes (Elt F) f (⟨Rect.unit ![0, 0] S1024x512.size inb_S1024x512_S1024x512_0_0, w⟩ :: L)) = w' := by
  rw [View.read_writes_eq_canon _ _ _ (fun y => ⟨_, List.mem_cons.mpr (Or.inl rfl), View.mem_set_unit_zero hz12 inb_S1024x512_S1024x512_0_0 y⟩),
    View.canon_cons_unit_zero hz12, h]

section
variable {c : Dev nD} {E : Set ℕ} {i : grid12.Coords} {arg2 : Memref sig .tc .vmem S1024x1024 .f32} {harg2 : arg2.IsWhole}
  {arg3 : Memref sig .tc .vmem S1024x512 .f32} {harg3 : arg3.IsWhole} {arg4 : Memref sig .tc .vmem S1x512 .f32} {harg4 : arg4.IsWhole}
  {arg5 : Memref sig .tc .vmem S1024x512 .f32} {harg5 : arg5.IsWhole} {arg6 : Memref sig .tc .vmem S1024x512 .f32} {harg6 : arg6.IsWhole}

-- Off a last K-step only the accumulator changes: this step's product is added to the zero splat at a first K-step, else to what it held.
set_option maxHeartbeats 1000000 in
theorem kernel12_AB (hc1 : ¬cond12_1 i) (xa : Vec F S1024x1024 .f32) (xb : Vec F S1024x512 .f32) (e b : Vec F S1024x512 .f32)
    (hb : b = if cond12_0 i then k12_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k12_pay2 xa xb b)) -∗ K ⟨⟩))
      ⊢ wp frame (wpE (defs₀ (F := F)) Variants.none c none) E (cc12__linear_kernel i arg2 harg2 arg3 harg3 arg4 harg4 arg5 harg5 arg6 harg6) K := by
  simp only [cc12__linear_kernel_eq_skeleton]; unfold cc12__linear_kernel_skel
  rw [owns_eq_rep, owns_eq_rep]; unfold owns
  iintro ⟨H2, H3, ⟨%f6, %hf6, H6⟩, Hk⟩
  subst hf6
  by_cases hc0 : cond12_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw12 _ _ _ _ _ ?_
    simp only [View.readAt_eq_ld, View.read_rep, View.ld_unit_zero (S := S1024x1024) hz12, View.ld_unit_zero (S := S1024x512) hz12,
      View.ld_unit_zero (S := S1x512) hz12, View.readCov_unit_zero (S := S1024x512) _ hz12]

-- At a last K-step the accumulator plus the bias row is stored as well.
set_option maxHeartbeats 1000000 in
theorem kernel12_C (hc0 : ¬cond12_0 i) (hc1 : cond12_1 i) (xa : Vec F S1024x1024 .f32) (xb : Vec F S1024x512 .f32) (xc : Vec F S1x512 .f32) (d e : Vec F S1024x512 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k12_pay3 (k12_pay2 xa xb e) xc)
            ∗ owns (c : Thread nD τ) arg6 fullShare (k12_pay2 xa xb e)) -∗ K ⟨⟩))
      ⊢ wp frame (wpE (defs₀ (F := F)) Variants.none c none) E (cc12__linear_kernel i arg2 harg2 arg3 harg3 arg4 harg4 arg5 harg5 arg6 harg6) K := by
  simp only [cc12__linear_kernel_eq_skeleton]; unfold cc12__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw12 _ _ _ _ _ ?_ <;>
    simp only [View.readAt_eq_ld, View.read_rep, View.ld_unit_zero (S := S1024x1024) hz12, View.ld_unit_zero (S := S1024x512) hz12,
      View.ld_unit_zero (S := S1x512) hz12, View.readCov_unit_zero (S := S1024x512) _ hz12]

end

abbrev inv12 (c : Dev nD) (S : sProp 𝕄) : sProp 𝕄 :=
  iprop(iprop(S ∗ Pipeline.scopedRestBut (Ix := Unit) (Name := ℕ) (U := UR sig nD τ) (Lvl := ℕ) (Val := Elt F) spec12 c [cc12_scratch0]) ∗ (∃ r, prngReg c r))

theorem PhiA12_eq (c : Dev nD) :
    (Pipeline.ΦA spec12 c : sProp 𝕄) = inv12 c iprop(∃ d, owns (c : Thread nD τ) (Memref.whole cc12_scratch0) fullShare d) := by
  unfold Pipeline.ΦA inv12; rw [scopedRest12_split]; simp only [owns_whole]; try rfl

section
variable (V : (c : Dev nD) → (b : Ref sig .tc) → Buf (Elt F) ((c : Thread nD τ).loc b))

-- The accumulator's recursion as one equation.
theorem accAt12_eq (c : Dev nD) (t : Fin cfg12.N) : accAt12 V c t.val t.isLt = k12_pay2 (iblk12 V c 0 t) (iblk12 V c 1 t)
    (if t.val % 4 = 0 then k12_pay1 (F := F) else accAt12 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi12 (c : Dev nD) (n : ℕ) (h : n ≤ cfg12.N) : sProp 𝕄 :=
  if hz : n = 0 then Pipeline.ΦA spec12 c
  else inv12 c (owns (c : Thread nD τ) (Memref.whole cc12_scratch0) fullShare (accAt12 V c (n - 1) (by omega)))

-- Forgetting the accumulator's value gives the entry form back.
theorem Phi12_any (c : Dev nD) (n : ℕ) (h : n ≤ cfg12.N) :
    Phi12 V c n h ⊢ inv12 c iprop(∃ d, owns (c : Thread nD τ) (Memref.whole cc12_scratch0) fullShare d) := by
  unfold Phi12
  split
  · rw [← PhiA12_eq]
  · unfold inv12
    iintro ⟨⟨HS, HR⟩, Hg⟩
    iframe HR Hg
    iexists _; iexact HS

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12 V c t
  Φ t := Phi12 V c t.val (Nat.le_of_lt_succ t.isLt)
  q _ := fullShare
  owed _ := 0

theorem A_eq12 (c : Dev nD) (w : Fin cfg12.W) : (dat12 V c).A w = V c (Pipeline.arrRef spec12 w) := rfl

theorem after12_3 (c : Dev nD) (t : Fin cfg12.N) : (dat12 V c).after 3 t = out12 V c t := rfl

theorem before12_0 (c : Dev nD) (t : Fin cfg12.N) (d) : (dat12 V c).before 0 t d = iblk12 V c 0 t := by
  rw [Dat.before_in_eq_fetched _ 0 rfl (fun _ => rfl) (fun _ _ _ => rfl) (fun _ => rfl) t d]; rfl
theorem before12_1 (c : Dev nD) (t : Fin cfg12.N) (d) : (dat12 V c).before 1 t d = iblk12 V c 1 t := by
  rw [Dat.before_in_eq_fetched _ 1 rfl (fun _ => rfl) (fun _ _ _ => rfl) (fun _ => rfl) t d]; rfl
theorem before12_2 (c : Dev nD) (t : Fin cfg12.N) (d) : (dat12 V c).before 2 t d = iblk12 V c 2 t := by
  rw [Dat.before_in_eq_fetched _ 2 rfl (fun _ => rfl) (fun _ _ _ => rfl) (fun _ => rfl) t d]; rfl

-- By the control case of the point: first, last, or neither.
theorem body_obligation12 (c : Dev nD) : BodyObligation (dat12 (F := F) V c) (defs₀ (F := F)) Variants.none () Set.univ := fun t => by
  rw [bigSep_W12, bigSep_W12]
  show _ ⊢ wp frame (wpE (defs₀ (F := F)) Variants.none c none) Set.univ (bodyAt12 t) _
  unfold bodyAt12
  simp only [before12_0, before12_1, before12_2]
  rw [show (dat12 V c).owesAt () t.succ = (dat12 V c).owesAt () t.castSucc from rfl,
    show (dat12 V c).Φ t.succ = inv12 c (owns (c : Thread nD τ) (Memref.whole cc12_scratch0) fullShare (accAt12 V c t.val t.isLt)) from rfl,
    show (dat12 V c).Φ t.castSucc = Phi12 V c t.val (Nat.le_of_lt t.isLt) from rfl,
    show (dat12 V c).after 0 t = iblk12 V c 0 t from rfl, show (dat12 V c).after 1 t = iblk12 V c 1 t from rfl,
    show (dat12 V c).after 2 t = iblk12 V c 2 t from rfl]
  unfold inv12
  by_cases h0 : t.val % 4 = 0
  · have hn1 : ¬cond12_1 (grid12.coords t) := fun h => by have := (hcond12_1 t).mp h; omega
    simp only [(idleAt12_3 t hn1).1, (idleAt12_3 t hn1).2]
    rw [accAt12_eq V c t, if_pos h0]
    iintro ⟨HP, Ho, ⟨%d0, H0⟩, ⟨%d1, H1⟩, ⟨%d2, H2⟩, H3⟩
    icases (Phi12_any V c t.val (Nat.le_of_lt t.isLt)) $$ HP with ⟨⟨⟨%e, HS⟩, HR⟩, Hg⟩
    iapply (kernel12_AB hn1 _ _ _ _ (if_pos ((hcond12_0 t).mpr h0)).symm _)
    iframe H0 H1 HS
    iintro ⟨H0, H1, HS⟩
    iframe
  · have hn0 : ¬cond12_0 (grid12.coords t) := fun h => h0 ((hcond12_0 t).mp h)
    rw [accAt12_eq V c t, if_neg h0, Phi12, dif_neg fun h => h0 (by rw [h])]
    unfold inv12
    by_cases h1 : t.val % 4 = 3
    · simp only [liveAt12_3 t ((hcond12_1 t).mpr h1), after12_3]
      unfold out12
      rw [accAt12_eq V c t, if_neg h0]
      iintro ⟨⟨⟨HS, HR⟩, Hg⟩, Ho, ⟨%d0, H0⟩, ⟨%d1, H1⟩, ⟨%d2, H2⟩, ⟨%d3, H3⟩⟩
      iapply (kernel12_C hn0 ((hcond12_1 t).mpr h1) _ _ _ _ _ _)
      iframe H0 H1 H2 H3 HS
      iintro ⟨H0, H1, H2, H3, HS⟩
      iframe
    · have hn1 : ¬cond12_1 (grid12.coords t) := fun h => h1 ((hcond12_1 t).mp h)
      simp only [(idleAt12_3 t hn1).1, (idleAt12_3 t hn1).2]
      iintro ⟨⟨⟨HS, HR⟩, Hg⟩, Ho, ⟨%d0, H0⟩, ⟨%d1, H1⟩, ⟨%d2, H2⟩, H3⟩
      iapply (kernel12_AB hn1 _ _ _ _ (if_neg hn0).symm _)
      iframe H0 H1 HS
      iintro ⟨H0, H1, HS⟩
      iframe

theorem hin12 (c : Dev nD) : Pipeline.ΦA spec12 c ⊢ (dat12 V c).Φ 0 := .rfl

theorem hout12 (c : Dev nD) : (dat12 V c).Φ (Fin.last cfg12.N) ⊢ Pipeline.ΦA spec12 c := by
  rw [PhiA12_eq]; exact Phi12_any V c cfg12.N (Nat.le_refl _)

end

end Cert.KernelIdeal.Gen

end
-- ==== Proof.KI.Defs13.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def accAt13 (c : Dev nD) : (n : ℕ) → n < cfg13.N → Vec F S1024x640 .f32
  | 0, hn => k13_pay2 (iblk13 V c 0 ⟨0, hn⟩) (iblk13 V c 1 ⟨0, hn⟩) (k13_pay1 (F := F))
  | n + 1, hn =>
    if (n + 1) % 8 = 0 then k13_pay2 (iblk13 V c 0 ⟨n + 1, hn⟩) (iblk13 V c 1 ⟨n + 1, hn⟩) (k13_pay1 (F := F))
    else k13_pay2 (iblk13 V c 0 ⟨n + 1, hn⟩) (iblk13 V c 1 ⟨n + 1, hn⟩) (accAt13 c n (Nat.lt_of_succ_lt hn))

def out13 (c : Dev nD) (t : Fin cfg13.N) : Vec F S1024x640 .f32 := k13_pay3 (accAt13 V c t.val t.isLt) (iblk13 V c 2 t)

end

end Cert.KernelIdeal.Gen

end
-- ==== Proof.KI.Reg13.lean ====
import proofs.«103213_j15710990369585_1_alg».proof.Proof.KI.Defs13
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond13_0 (i : grid13.Coords) : Prop :=
  (Scalar.cmpi .ne (Scalar.extui (Scalar.cmpi .eq (BitVec.ofNat 32 (i 1).val) 0#32)) 0#32) = 1#1
theorem hcond13_0 : ∀ t : Fin cfg13.N, cond13_0 (grid13.coords t) ↔ t.val % 8 = 0 := by decide +kernel
abbrev cond13_1 (i : grid13.Coords) : Prop := k13_cond2 i = 1#1
theorem hcond13_1 : ∀ t : Fin cfg13.N, cond13_1 (grid13.coords t) ↔ t.val % 8 = 7 := by decide +kernel

theorem idleAt13_3 : ∀ t : Fin cfg13.N, ¬cond13_1 (grid13.coords t) → idle13 3 (grid13.coords t) = true ∧ (win13 3).flush t = false := by decide +kernel
theorem liveAt13_3 : ∀ t : Fin cfg13.N, cond13_1 (grid13.coords t) → idle13 3 (grid13.coords t) = false := by decide +kernel

theorem hz13 : (![0, 0] : Fin 2 → Nat) = fun _ => 0 := funext fun a => by fin_cases a <;> rfl

-- Reading back after a last write that covers every index gives what was written.
theorem stw13 (v : View sig .tc .vmem S1024x640 .f32) (f : v.ty.Contents (Elt F)) (w w' : S1024x640.Idx → Elt F .f32)
    (L : List (View.Piece (Elt F) S1024x640 .f32)) (h : w = w') :
    v.read (Elt F) (v.writes (Elt F) f (⟨Rect.unit ![0, 0] S1024x640.size inb_S1024x640_S1024x640_0_0, w⟩ :: L)) = w' := by
  rw [View.read_writes_eq_canon _ _ _ (fun y => ⟨_, List.mem_cons.mpr (Or.inl rfl), View.mem_set_unit_zero hz13 inb_S1024x640_S1024x640_0_0 y⟩),
    View.canon_cons_unit_zero hz13, h]

section
variable {c : Dev nD} {E : Set ℕ} {i : grid13.Coords} {arg2 : Memref sig .tc .vmem S1024x1024 .f32} {harg2 : arg2.IsWhole}
  {arg3 : Memref sig .tc .vmem S1024x640 .f32} {harg3 : arg3.IsWhole} {arg4 : Memref sig .tc .vmem S1x640 .f32} {harg4 : arg4.IsWhole}
  {arg5 : Memref sig .tc .vmem S1024x640 .f32} {harg5 : arg5.IsWhole} {arg6 : Memref sig .tc .vmem S1024x640 .f32} {harg6 : arg6.IsWhole}

-- Off a last K-step only the accumulator changes: this step's product is added to the zero splat at a first K-step, else to what it held.
set_option maxHeartbeats 1000000 in
theorem kernel13_AB (hc1 : ¬cond13_1 i) (xa : Vec F S1024x1024 .f32) (xb : Vec F S1024x640 .f32) (e b : Vec F S1024x640 .f32)
    (hb : b = if cond13_0 i then k13_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k13_pay2 xa xb b)) -∗ K ⟨⟩))
      ⊢ wp frame (wpE (defs₀ (F := F)) Variants.none c none) E (cc13__linear_kernel i arg2 harg2 arg3 harg3 arg4 harg4 arg5 harg5 arg6 harg6) K := by
  simp only [cc13__linear_kernel_eq_skeleton]; unfold cc13__linear_kernel_skel
  rw [owns_eq_rep, owns_eq_rep]; unfold owns
  iintro ⟨H2, H3, ⟨%f6, %hf6, H6⟩, Hk⟩
  subst hf6
  by_cases hc0 : cond13_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw13 _ _ _ _ _ ?_
    simp only [View.readAt_eq_ld, View.read_rep, View.ld_unit_zero (S := S1024x1024) hz13, View.ld_unit_zero (S := S1024x640) hz13,
      View.ld_unit_zero (S := S1x640) hz13, View.readCov_unit_zero (S := S1024x640) _ hz13]

-- At a last K-step the accumulator plus the bias row is stored as well.
set_option maxHeartbeats 1000000 in
theorem kernel13_C (hc0 : ¬cond13_0 i) (hc1 : cond13_1 i) (xa : Vec F S1024x1024 .f32) (xb : Vec F S1024x640 .f32) (xc : Vec F S1x640 .f32) (d e : Vec F S1024x640 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k13_pay3 (k13_pay2 xa xb e) xc)
            ∗ owns (c : Thread nD τ) arg6 fullShare (k13_pay2 xa xb e)) -∗ K ⟨⟩))
      ⊢ wp frame (wpE (defs₀ (F := F)) Variants.none c none) E (cc13__linear_kernel i arg2 harg2 arg3 harg3 arg4 harg4 arg5 harg5 arg6 harg6) K := by
  simp only [cc13__linear_kernel_eq_skeleton]; unfold cc13__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw13 _ _ _ _ _ ?_ <;>
    simp only [View.readAt_eq_ld, View.read_rep, View.ld_unit_zero (S := S1024x1024) hz13, View.ld_unit_zero (S := S1024x640) hz13,
      View.ld_unit_zero (S := S1x640) hz13, View.readCov_unit_zero (S := S1024x640) _ hz13]

end

abbrev inv13 (c : Dev nD) (S : sProp 𝕄) : sProp 𝕄 :=
  iprop(iprop(S ∗ Pipeline.scopedRestBut (Ix := Unit) (Name := ℕ) (U := UR sig nD τ) (Lvl := ℕ) (Val := Elt F) spec13 c [cc13_scratch0]) ∗ (∃ r, prngReg c r))

theorem PhiA13_eq (c : Dev nD) :
    (Pipeline.ΦA spec13 c : sProp 𝕄) = inv13 c iprop(∃ d, owns (c : Thread nD τ) (Memref.whole cc13_scratch0) fullShare d) := by
  unfold Pipeline.ΦA inv13; rw [scopedRest13_split]; simp only [owns_whole]; try rfl

section
variable (V : (c : Dev nD) → (b : Ref sig .tc) → Buf (Elt F) ((c : Thread nD τ).loc b))

-- The accumulator's recursion as one equation.
theorem accAt13_eq (c : Dev nD) (t : Fin cfg13.N) : accAt13 V c t.val t.isLt = k13_pay2 (iblk13 V c 0 t) (iblk13 V c 1 t)
    (if t.val % 8 = 0 then k13_pay1 (F := F) else accAt13 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi13 (c : Dev nD) (n : ℕ) (h : n ≤ cfg13.N) : sProp 𝕄 :=
  if hz : n = 0 then Pipeline.ΦA spec13 c
  else inv13 c (owns (c : Thread nD τ) (Memref.whole cc13_scratch0) fullShare (accAt13 V c (n - 1) (by omega)))

-- Forgetting the accumulator's value gives the entry form back.
theorem Phi13_any (c : Dev nD) (n : ℕ) (h : n ≤ cfg13.N) :
    Phi13 V c n h ⊢ inv13 c iprop(∃ d, owns (c : Thread nD τ) (Memref.whole cc13_scratch0) fullShare d) := by
  unfold Phi13
  split
  · rw [← PhiA13_eq]
  · unfold inv13
    iintro ⟨⟨HS, HR⟩, Hg⟩
    iframe HR Hg
    iexists _; iexact HS

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13 V c t
  Φ t := Phi13 V c t.val (Nat.le_of_lt_succ t.isLt)
  q _ := fullShare
  owed _ := 0

theorem A_eq13 (c : Dev nD) (w : Fin cfg13.W) : (dat13 V c).A w = V c (Pipeline.arrRef spec13 w) := rfl

theorem after13_3 (c : Dev nD) (t : Fin cfg13.N) : (dat13 V c).after 3 t = out13 V c t := rfl

theorem before13_0 (c : Dev nD) (t : Fin cfg13.N) (d) : (dat13 V c).before 0 t d = iblk13 V c 0 t := by
  rw [Dat.before_in_eq_fetched _ 0 rfl (fun _ => rfl) (fun _ _ _ => rfl) (fun _ => rfl) t d]; rfl
theorem before13_1 (c : Dev nD) (t : Fin cfg13.N) (d) : (dat13 V c).before 1 t d = iblk13 V c 1 t := by
  rw [Dat.before_in_eq_fetched _ 1 rfl (fun _ => rfl) (fun _ _ _ => rfl) (fun _ => rfl) t d]; rfl
theorem before13_2 (c : Dev nD) (t : Fin cfg13.N) (d) : (dat13 V c).before 2 t d = iblk13 V c 2 t := by
  rw [Dat.before_in_eq_fetched _ 2 rfl (fun _ => rfl) (fun _ _ _ => rfl) (fun _ => rfl) t d]; rfl

-- By the control case of the point: first, last, or neither.
theorem body_obligation13 (c : Dev nD) : BodyObligation (dat13 (F := F) V c) (defs₀ (F := F)) Variants.none () Set.univ := fun t => by
  rw [bigSep_W13, bigSep_W13]
  show _ ⊢ wp frame (wpE (defs₀ (F := F)) Variants.none c none) Set.univ (bodyAt13 t) _
  unfold bodyAt13
  simp only [before13_0, before13_1, before13_2]
  rw [show (dat13 V c).owesAt () t.succ = (dat13 V c).owesAt () t.castSucc from rfl,
    show (dat13 V c).Φ t.succ = inv13 c (owns (c : Thread nD τ) (Memref.whole cc13_scratch0) fullShare (accAt13 V c t.val t.isLt)) from rfl,
    show (dat13 V c).Φ t.castSucc = Phi13 V c t.val (Nat.le_of_lt t.isLt) from rfl,
    show (dat13 V c).after 0 t = iblk13 V c 0 t from rfl, show (dat13 V c).after 1 t = iblk13 V c 1 t from rfl,
    show (dat13 V c).after 2 t = iblk13 V c 2 t from rfl]
  unfold inv13
  by_cases h0 : t.val % 8 = 0
  · have hn1 : ¬cond13_1 (grid13.coords t) := fun h => by have := (hcond13_1 t).mp h; omega
    simp only [(idleAt13_3 t hn1).1, (idleAt13_3 t hn1).2]
    rw [accAt13_eq V c t, if_pos h0]
    iintro ⟨HP, Ho, ⟨%d0, H0⟩, ⟨%d1, H1⟩, ⟨%d2, H2⟩, H3⟩
    icases (Phi13_any V c t.val (Nat.le_of_lt t.isLt)) $$ HP with ⟨⟨⟨%e, HS⟩, HR⟩, Hg⟩
    iapply (kernel13_AB hn1 _ _ _ _ (if_pos ((hcond13_0 t).mpr h0)).symm _)
    iframe H0 H1 HS
    iintro ⟨H0, H1, HS⟩
    iframe
  · have hn0 : ¬cond13_0 (grid13.coords t) := fun h => h0 ((hcond13_0 t).mp h)
    rw [accAt13_eq V c t, if_neg h0, Phi13, dif_neg fun h => h0 (by rw [h])]
    unfold inv13
    by_cases h1 : t.val % 8 = 7
    · simp only [liveAt13_3 t ((hcond13_1 t).mpr h1), after13_3]
      unfold out13
      rw [accAt13_eq V c t, if_neg h0]
      iintro ⟨⟨⟨HS, HR⟩, Hg⟩, Ho, ⟨%d0, H0⟩, ⟨%d1, H1⟩, ⟨%d2, H2⟩, ⟨%d3, H3⟩⟩
      iapply (kernel13_C hn0 ((hcond13_1 t).mpr h1) _ _ _ _ _ _)
      iframe H0 H1 H2 H3 HS
      iintro ⟨H0, H1, H2, H3, HS⟩
      iframe
    · have hn1 : ¬cond13_1 (grid13.coords t) := fun h => h1 ((hcond13_1 t).mp h)
      simp only [(idleAt13_3 t hn1).1, (idleAt13_3 t hn1).2]
      iintro ⟨⟨⟨HS, HR⟩, Hg⟩, Ho, ⟨%d0, H0⟩, ⟨%d1, H1⟩, ⟨%d2, H2⟩, H3⟩
      iapply (kernel13_AB hn1 _ _ _ _ (if_neg hn0).symm _)
      iframe H0 H1 HS
      iintro ⟨H0, H1, HS⟩
      iframe

theorem hin13 (c : Dev nD) : Pipeline.ΦA spec13 c ⊢ (dat13 V c).Φ 0 := .rfl

theorem hout13 (c : Dev nD) : (dat13 V c).Φ (Fin.last cfg13.N) ⊢ Pipeline.ΦA spec13 c := by
  rw [PhiA13_eq]; exact Phi13_any V c cfg13.N (Nat.le_refl _)

end

end Cert.KernelIdeal.Gen

end
-- ==== Proof.KI.Defs14.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

def accAt14 (c : Dev nD) : (n : ℕ) → n < cfg14.N → Vec F S1024x256 .f32
  | 0, hn => k14_pay2 (iblk14 V c 0 ⟨0, hn⟩) (iblk14 V c 1 ⟨0, hn⟩) (k14_pay1 (F := F))
  | n + 1, hn =>
    if (n + 1) % 4 = 0 then k14_pay2 (iblk14 V c 0 ⟨n + 1, hn⟩) (iblk14 V c 1 ⟨n + 1, hn⟩) (k14_pay1 (F := F))
    else k14_pay2 (iblk14 V c 0 ⟨n + 1, hn⟩) (iblk14 V c 1 ⟨n + 1, hn⟩) (accAt14 c n (Nat.lt_of_succ_lt hn))

def out14 (c : Dev nD) (t : Fin cfg14.N) : Vec F S1024x256 .f32 := k14_pay3 (accAt14 V c t.val t.isLt) (iblk14 V c 2 t)

end

end Cert.KernelIdeal.Gen

end
-- ==== Proof.KI.Reg14.lean ====
import proofs.«103213_j15710990369585_1_alg».proof.Proof.KI.Defs14
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond14_0 (i : grid14.Coords) : Prop :=
  (Scalar.cmpi .ne (Scalar.extui (Scalar.cmpi .eq (BitVec.ofNat 32 (i 1).val) 0#32)) 0#32) = 1#1
theorem hcond14_0 : ∀ t : Fin cfg14.N, cond14_0 (grid14.coords t) ↔ t.val % 4 = 0 := by decide +kernel
abbrev cond14_1 (i : grid14.Coords) : Prop := k14_cond2 i = 1#1
theorem hcond14_1 : ∀ t : Fin cfg14.N, cond14_1 (grid14.coords t) ↔ t.val % 4 = 3 := by decide +kernel

theorem idleAt14_3 : ∀ t : Fin cfg14.N, ¬cond14_1 (grid14.coords t) → idle14 3 (grid14.coords t) = true ∧ (win14 3).flush t = false := by decide +kernel
theorem liveAt14_3 : ∀ t : Fin cfg14.N, cond14_1 (grid14.coords t) → idle14 3 (grid14.coords t) = false := by decide +kernel

theorem hz14 : (![0, 0] : Fin 2 → Nat) = fun _ => 0 := funext fun a => by fin_cases a <;> rfl

-- Reading back after a last write that covers every index gives what was written.
theorem stw14 (v : View sig .tc .vmem S1024x256 .f32) (f : v.ty.Contents (Elt F)) (w w' : S1024x256.Idx → Elt F .f32)
    (L : List (View.Piece (Elt F) S1024x256 .f32)) (h : w = w') :
    v.read (Elt F) (v.writes (Elt F) f (⟨Rect.unit ![0, 0] S1024x256.size inb_S1024x256_S1024x256_0_0, w⟩ :: L)) = w' := by
  rw [View.read_writes_eq_canon _ _ _ (fun y => ⟨_, List.mem_cons.mpr (Or.inl rfl), View.mem_set_unit_zero hz14 inb_S1024x256_S1024x256_0_0 y⟩),
    View.canon_cons_unit_zero hz14, h]

section
variable {c : Dev nD} {E : Set ℕ} {i : grid14.Coords} {arg2 : Memref sig .tc .vmem S1024x1024 .f32} {harg2 : arg2.IsWhole}
  {arg3 : Memref sig .tc .vmem S1024x256 .f32} {harg3 : arg3.IsWhole} {arg4 : Memref sig .tc .vmem S1x256 .f32} {harg4 : arg4.IsWhole}
  {arg5 : Memref sig .tc .vmem S1024x256 .f32} {harg5 : arg5.IsWhole} {arg6 : Memref sig .tc .vmem S1024x256 .f32} {harg6 : arg6.IsWhole}

-- Off a last K-step only the accumulator changes: this step's product is added to the zero splat at a first K-step, else to what it held.
set_option maxHeartbeats 1000000 in
theorem kernel14_AB (hc1 : ¬cond14_1 i) (xa : Vec F S1024x1024 .f32) (xb : Vec F S1024x256 .f32) (e b : Vec F S1024x256 .f32)
    (hb : b = if cond14_0 i then k14_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k14_pay2 xa xb b)) -∗ K ⟨⟩))
      ⊢ wp frame (wpE (defs₀ (F := F)) Variants.none c none) E (cc14__linear_kernel i arg2 harg2 arg3 harg3 arg4 harg4 arg5 harg5 arg6 harg6) K := by
  simp only [cc14__linear_kernel_eq_skeleton]; unfold cc14__linear_kernel_skel
  rw [owns_eq_rep, owns_eq_rep]; unfold owns
  iintro ⟨H2, H3, ⟨%f6, %hf6, H6⟩, Hk⟩
  subst hf6
  by_cases hc0 : cond14_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw14 _ _ _ _ _ ?_
    simp only [View.readAt_eq_ld, View.read_rep, View.ld_unit_zero (S := S1024x1024) hz14, View.ld_unit_zero (S := S1024x256) hz14,
      View.ld_unit_zero (S := S1x256) hz14, View.readCov_unit_zero (S := S1024x256) _ hz14]

-- At a last K-step the accumulator plus the bias row is stored as well.
set_option maxHeartbeats 1000000 in
theorem kernel14_C (hc0 : ¬cond14_0 i) (hc1 : cond14_1 i) (xa : Vec F S1024x1024 .f32) (xb : Vec F S1024x256 .f32) (xc : Vec F S1x256 .f32) (d e : Vec F S1024x256 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k14_pay3 (k14_pay2 xa xb e) xc)
            ∗ owns (c : Thread nD τ) arg6 fullShare (k14_pay2 xa xb e)) -∗ K ⟨⟩))
      ⊢ wp frame (wpE (defs₀ (F := F)) Variants.none c none) E (cc14__linear_kernel i arg2 harg2 arg3 harg3 arg4 harg4 arg5 harg5 arg6 harg6) K := by
  simp only [cc14__linear_kernel_eq_skeleton]; unfold cc14__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw14 _ _ _ _ _ ?_ <;>
    simp only [View.readAt_eq_ld, View.read_rep, View.ld_unit_zero (S := S1024x1024) hz14, View.ld_unit_zero (S := S1024x256) hz14,
      View.ld_unit_zero (S := S1x256) hz14, View.readCov_unit_zero (S := S1024x256) _ hz14]

end

abbrev inv14 (c : Dev nD) (S : sProp 𝕄) : sProp 𝕄 :=
  iprop(iprop(S ∗ Pipeline.scopedRestBut (Ix := Unit) (Name := ℕ) (U := UR sig nD τ) (Lvl := ℕ) (Val := Elt F) spec14 c [cc14_scratch0]) ∗ (∃ r, prngReg c r))

theorem PhiA14_eq (c : Dev nD) :
    (Pipeline.ΦA spec14 c : sProp 𝕄) = inv14 c iprop(∃ d, owns (c : Thread nD τ) (Memref.whole cc14_scratch0) fullShare d) := by
  unfold Pipeline.ΦA inv14; rw [scopedRest14_split]; simp only [owns_whole]; try rfl

section
variable (V : (c : Dev nD) → (b : Ref sig .tc) → Buf (Elt F) ((c : Thread nD τ).loc b))

-- The accumulator's recursion as one equation.
theorem accAt14_eq (c : Dev nD) (t : Fin cfg14.N) : accAt14 V c t.val t.isLt = k14_pay2 (iblk14 V c 0 t) (iblk14 V c 1 t)
    (if t.val % 4 = 0 then k14_pay1 (F := F) else accAt14 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi14 (c : Dev nD) (n : ℕ) (h : n ≤ cfg14.N) : sProp 𝕄 :=
  if hz : n = 0 then Pipeline.ΦA spec14 c
  else inv14 c (owns (c : Thread nD τ) (Memref.whole cc14_scratch0) fullShare (accAt14 V c (n - 1) (by omega)))

-- Forgetting the accumulator's value gives the entry form back.
theorem Phi14_any (c : Dev nD) (n : ℕ) (h : n ≤ cfg14.N) :
    Phi14 V c n h ⊢ inv14 c iprop(∃ d, owns (c : Thread nD τ) (Memref.whole cc14_scratch0) fullShare d) := by
  unfold Phi14
  split
  · rw [← PhiA14_eq]
  · unfold inv14
    iintro ⟨⟨HS, HR⟩, Hg⟩
    iframe HR Hg
    iexists _; iexact HS

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14 V c t
  Φ t := Phi14 V c t.val (Nat.le_of_lt_succ t.isLt)
  q _ := fullShare
  owed _ := 0

theorem A_eq14 (c : Dev nD) (w : Fin cfg14.W) : (dat14 V c).A w = V c (Pipeline.arrRef spec14 w) := rfl

theorem after14_3 (c : Dev nD) (t : Fin cfg14.N) : (dat14 V c).after 3 t = out14 V c t := rfl

theorem before14_0 (c : Dev nD) (t : Fin cfg14.N) (d) : (dat14 V c).before 0 t d = iblk14 V c 0 t := by
  rw [Dat.before_in_eq_fetched _ 0 rfl (fun _ => rfl) (fun _ _ _ => rfl) (fun _ => rfl) t d]; rfl
theorem before14_1 (c : Dev nD) (t : Fin cfg14.N) (d) : (dat14 V c).before 1 t d = iblk14 V c 1 t := by
  rw [Dat.before_in_eq_fetched _ 1 rfl (fun _ => rfl) (fun _ _ _ => rfl) (fun _ => rfl) t d]; rfl
theorem before14_2 (c : Dev nD) (t : Fin cfg14.N) (d) : (dat14 V c).before 2 t d = iblk14 V c 2 t := by
  rw [Dat.before_in_eq_fetched _ 2 rfl (fun _ => rfl) (fun _ _ _ => rfl) (fun _ => rfl) t d]; rfl

-- By the control case of the point: first, last, or neither.
theorem body_obligation14 (c : Dev nD) : BodyObligation (dat14 (F := F) V c) (defs₀ (F := F)) Variants.none () Set.univ := fun t => by
  rw [bigSep_W14, bigSep_W14]
  show _ ⊢ wp frame (wpE (defs₀ (F := F)) Variants.none c none) Set.univ (bodyAt14 t) _
  unfold bodyAt14
  simp only [before14_0, before14_1, before14_2]
  rw [show (dat14 V c).owesAt () t.succ = (dat14 V c).owesAt () t.castSucc from rfl,
    show (dat14 V c).Φ t.succ = inv14 c (owns (c : Thread nD τ) (Memref.whole cc14_scratch0) fullShare (accAt14 V c t.val t.isLt)) from rfl,
    show (dat14 V c).Φ t.castSucc = Phi14 V c t.val (Nat.le_of_lt t.isLt) from rfl,
    show (dat14 V c).after 0 t = iblk14 V c 0 t from rfl, show (dat14 V c).after 1 t = iblk14 V c 1 t from rfl,
    show (dat14 V c).after 2 t = iblk14 V c 2 t from rfl]
  unfold inv14
  by_cases h0 : t.val % 4 = 0
  · have hn1 : ¬cond14_1 (grid14.coords t) := fun h => by have := (hcond14_1 t).mp h; omega
    simp only [(idleAt14_3 t hn1).1, (idleAt14_3 t hn1).2]
    rw [accAt14_eq V c t, if_pos h0]
    iintro ⟨HP, Ho, ⟨%d0, H0⟩, ⟨%d1, H1⟩, ⟨%d2, H2⟩, H3⟩
    icases (Phi14_any V c t.val (Nat.le_of_lt t.isLt)) $$ HP with ⟨⟨⟨%e, HS⟩, HR⟩, Hg⟩
    iapply (kernel14_AB hn1 _ _ _ _ (if_pos ((hcond14_0 t).mpr h0)).symm _)
    iframe H0 H1 HS
    iintro ⟨H0, H1, HS⟩
    iframe
  · have hn0 : ¬cond14_0 (grid14.coords t) := fun h => h0 ((hcond14_0 t).mp h)
    rw [accAt14_eq V c t, if_neg h0, Phi14, dif_neg fun h => h0 (by rw [h])]
    unfold inv14
    by_cases h1 : t.val % 4 = 3
    · simp only [liveAt14_3 t ((hcond14_1 t).mpr h1), after14_3]
      unfold out14
      rw [accAt14_eq V c t, if_neg h0]
      iintro ⟨⟨⟨HS, HR⟩, Hg⟩, Ho, ⟨%d0, H0⟩, ⟨%d1, H1⟩, ⟨%d2, H2⟩, ⟨%d3, H3⟩⟩
      iapply (kernel14_C hn0 ((hcond14_1 t).mpr h1) _ _ _ _ _ _)
      iframe H0 H1 H2 H3 HS
      iintro ⟨H0, H1, H2, H3, HS⟩
      iframe
    · have hn1 : ¬cond14_1 (grid14.coords t) := fun h => h1 ((hcond14_1 t).mp h)
      simp only [(idleAt14_3 t hn1).1, (idleAt14_3 t hn1).2]
      iintro ⟨⟨⟨HS, HR⟩, Hg⟩, Ho, ⟨%d0, H0⟩, ⟨%d1, H1⟩, ⟨%d2, H2⟩, H3⟩
      iapply (kernel14_AB hn1 _ _ _ _ (if_neg hn0).symm _)
      iframe H0 H1 HS
      iintro ⟨H0, H1, HS⟩
      iframe

theorem hin14 (c : Dev nD) : Pipeline.ΦA spec14 c ⊢ (dat14 V c).Φ 0 := .rfl

theorem hout14 (c : Dev nD) : (dat14 V c).Φ (Fin.last cfg14.N) ⊢ Pipeline.ΦA spec14 c := by
  rw [PhiA14_eq]; exact Phi14_any V c cfg14.N (Nat.le_refl _)

end

end Cert.KernelIdeal.Gen

end
-- ==== Proof.KI.Defs15.lean ====
import proofs.«103213_j15710990369585_1_alg».proof.Proof.Gen.KernelIdeal.Launch
import proofs.«103213_j15710990369585_1_alg».proof.Proof.Gen.KernelIdeal.Skeleton
import proofs.«103213_j15710990369585_1_alg».proof.Proof.Gen.KernelIdeal.Points
import Idealize.ShloMosaic.Lib.Pipeline.FrameBody

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

def accAt15 (c : Dev nD) : (n : ℕ) → n < cfg15.N → Vec F S1024x128 .f32
  | 0, hn => k15_pay2 (iblk15 V c 0 ⟨0, hn⟩) (iblk15 V c 1 ⟨0, hn⟩) (k15_pay1 (F := F))
  | n + 1, hn =>
    if (n + 1) % 8 = 0 then k15_pay2 (iblk15 V c 0 ⟨n + 1, hn⟩) (iblk15 V c 1 ⟨n + 1, hn⟩) (k15_pay1 (F := F))
    else k15_pay2 (iblk15 V c 0 ⟨n + 1, hn⟩) (iblk15 V c 1 ⟨n + 1, hn⟩) (accAt15 c n (Nat.lt_of_succ_lt hn))

def out15 (c : Dev nD) (t : Fin cfg15.N) : Vec F S1024x128 .f32 := k15_pay3 (accAt15 V c t.val t.isLt) (iblk15 V c 2 t)

end

end Cert.KernelIdeal.Gen

end
-- ==== Proof.KI.Reg15.lean ====
import proofs.«103213_j15710990369585_1_alg».proof.Proof.KI.Defs15
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Pipeline.TableIdle

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond15_0 (i : grid15.Coords) : Prop :=
  (Scalar.cmpi .ne (Scalar.extui (Scalar.cmpi .eq (BitVec.ofNat 32 (i 1).val) 0#32)) 0#32) = 1#1
theorem hcond15_0 : ∀ t : Fin cfg15.N, cond15_0 (grid15.coords t) ↔ t.val % 8 = 0 := by decide +kernel
abbrev cond15_1 (i : grid15.Coords) : Prop := k15_cond2 i = 1#1
theorem hcond15_1 : ∀ t : Fin cfg15.N, cond15_1 (grid15.coords t) ↔ t.val % 8 = 7 := by decide +kernel

theorem idleAt15_3 : ∀ t : Fin cfg15.N, ¬cond15_1 (grid15.coords t) → idle15 3 (grid15.coords t) = true ∧ (win15 3).flush t = false := by decide +kernel
theorem liveAt15_3 : ∀ t : Fin cfg15.N, cond15_1 (grid15.coords t) → idle15 3 (grid15.coords t) = false := by decide +kernel

theorem hz15 : (![0, 0] : Fin 2 → Nat) = fun _ => 0 := funext fun a => by fin_cases a <;> rfl

-- Reading back after a last write that covers every index gives what was written.
theorem stw15 (v : View sig .tc .vmem S1024x128 .f32) (f : v.ty.Contents (Elt F)) (w w' : S1024x128.Idx → Elt F .f32)
    (L : List (View.Piece (Elt F) S1024x128 .f32)) (h : w = w') :
    v.read (Elt F) (v.writes (Elt F) f (⟨Rect.unit ![0, 0] S1024x128.size inb_S1024x128_S1024x128_0_0, w⟩ :: L)) = w' := by
  rw [View.read_writes_eq_canon _ _ _ (fun y => ⟨_, List.mem_cons.mpr (Or.inl rfl), View.mem_set_unit_zero hz15 inb_S1024x128_S1024x128_0_0 y⟩),
    View.canon_cons_unit_zero hz15, h]

section
variable {c : Dev nD} {E : Set ℕ} {i : grid15.Coords} {arg2 : Memref sig .tc .vmem S1024x1024 .f32} {harg2 : arg2.IsWhole}
  {arg3 : Memref sig .tc .vmem S1024x128 .f32} {harg3 : arg3.IsWhole} {arg4 : Memref sig .tc .vmem S1x128 .f32} {harg4 : arg4.IsWhole}
  {arg5 : Memref sig .tc .vmem S1024x128 .f32} {harg5 : arg5.IsWhole} {arg6 : Memref sig .tc .vmem S1024x128 .f32} {harg6 : arg6.IsWhole}

-- Off a last K-step only the accumulator changes: this step's product is added to the zero splat at a first K-step, else to what it held.
set_option maxHeartbeats 1000000 in
theorem kernel15_AB (hc1 : ¬cond15_1 i) (xa : Vec F S1024x1024 .f32) (xb : Vec F S1024x128 .f32) (e b : Vec F S1024x128 .f32)
    (hb : b = if cond15_0 i then k15_pay1 (F := F) else e) (K : PUnit → sProp 𝕄) :
    iprop(owns (c : Thread nD τ) arg2 fullShare xa ∗ owns (c : Thread nD τ) arg3 fullShare xb ∗ owns (c : Thread nD τ) arg6 fullShare e
        ∗ (iprop(owns (c : Thread nD τ) arg2 fullShare xa ∗ owns (c : Thread nD τ) arg3 fullShare xb
            ∗ owns (c : Thread nD τ) arg6 fullShare (k15_pay2 xa xb b)) -∗ K ⟨⟩))
      ⊢ wp frame (wpE (defs₀ (F := F)) Variants.none c none) E (cc15__linear_kernel i arg2 harg2 arg3 harg3 arg4 harg4 arg5 harg5 arg6 harg6) K := by
  simp only [cc15__linear_kernel_eq_skeleton]; unfold cc15__linear_kernel_skel
  rw [owns_eq_rep, owns_eq_rep]; unfold owns
  iintro ⟨H2, H3, ⟨%f6, %hf6, H6⟩, Hk⟩
  subst hf6
  by_cases hc0 : cond15_0 i
  all_goals
    first | rw [if_pos hc0] at hb | rw [if_neg hc0] at hb
    subst hb
    sl_exec (disch := first | exact hc0 | exact hc1)
    sl_step
    iapply Hk
    iframe H2 H3
    iexists _; iframe H6; ipureintro
    sl_unfold_words
    refine stw15 _ _ _ _ _ ?_
    simp only [View.readAt_eq_ld, View.read_rep, View.ld_unit_zero (S := S1024x1024) hz15, View.ld_unit_zero (S := S1024x128) hz15,
      View.ld_unit_zero (S := S1x128) hz15, View.readCov_unit_zero (S := S1024x128) _ hz15]

-- At a last K-step the accumulator plus the bias row is stored as well.
set_option maxHeartbeats 1000000 in
theorem kernel15_C (hc0 : ¬cond15_0 i) (hc1 : cond15_1 i) (xa : Vec F S1024x1024 .f32) (xb : Vec F S1024x128 .f32) (xc : Vec F S1x128 .f32) (d e : Vec F S1024x128 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare d ∗ owns (c : Thread nD τ) arg6 fullShare e
        ∗ (iprop(owns (c : Thread nD τ) arg2 fullShare xa ∗ owns (c : Thread nD τ) arg3 fullShare xb ∗ owns (c : Thread nD τ) arg4 fullShare xc
            ∗ owns (c : Thread nD τ) arg5 fullShare (k15_pay3 (k15_pay2 xa xb e) xc)
            ∗ owns (c : Thread nD τ) arg6 fullShare (k15_pay2 xa xb e)) -∗ K ⟨⟩))
      ⊢ wp frame (wpE (defs₀ (F := F)) Variants.none c none) E (cc15__linear_kernel i arg2 harg2 arg3 harg3 arg4 harg4 arg5 harg5 arg6 harg6) K := by
  simp only [cc15__linear_kernel_eq_skeleton]; unfold cc15__linear_kernel_skel
  rw [owns_eq_rep, owns_eq_rep, owns_eq_rep]; unfold owns
  iintro ⟨H2, H3, H4, ⟨%f5, -, H5⟩, ⟨%f6, %hf6, H6⟩, Hk⟩
  subst hf6
  sl_exec (disch := first | exact hc0 | exact hc1)
  sl_step
  iapply Hk
  iframe H2 H3 H4
  isplitl [H5] <;> iexists _ <;> iframe <;> ipureintro <;> sl_unfold_words <;> refine stw15 _ _ _ _ _ ?_ <;>
    simp only [View.readAt_eq_ld, View.read_rep, View.ld_unit_zero (S := S1024x1024) hz15, View.ld_unit_zero (S := S1024x128) hz15,
      View.ld_unit_zero (S := S1x128) hz15, View.readCov_unit_zero (S := S1024x128) _ hz15]

end

abbrev inv15 (c : Dev nD) (S : sProp 𝕄) : sProp 𝕄 :=
  iprop(iprop(S ∗ Pipeline.scopedRestBut (Ix := Unit) (Name := ℕ) (U := UR sig nD τ) (Lvl := ℕ) (Val := Elt F) spec15 c [cc15_scratch0]) ∗ (∃ r, prngReg c r))

theorem PhiA15_eq (c : Dev nD) :
    (Pipeline.ΦA spec15 c : sProp 𝕄) = inv15 c iprop(∃ d, owns (c : Thread nD τ) (Memref.whole cc15_scratch0) fullShare d) := by
  unfold Pipeline.ΦA inv15; rw [scopedRest15_split]; simp only [owns_whole]; try rfl

section
variable (V : (c : Dev nD) → (b : Ref sig .tc) → Buf (Elt F) ((c : Thread nD τ).loc b))

-- The accumulator's recursion as one equation.
theorem accAt15_eq (c : Dev nD) (t : Fin cfg15.N) : accAt15 V c t.val t.isLt = k15_pay2 (iblk15 V c 0 t) (iblk15 V c 1 t)
    (if t.val % 8 = 0 then k15_pay1 (F := F) else accAt15 V c (t.val - 1) (Nat.lt_of_le_of_lt (Nat.sub_le _ _) t.isLt)) := by
  obtain ⟨_ | n, hn⟩ := t
  · rfl
  · exact (apply_ite _ _ _ _).symm

-- Before point n the scratch holds what point n - 1 left; before the first point nothing is said of it.
def Phi15 (c : Dev nD) (n : ℕ) (h : n ≤ cfg15.N) : sProp 𝕄 :=
  if hz : n = 0 then Pipeline.ΦA spec15 c
  else inv15 c (owns (c : Thread nD τ) (Memref.whole cc15_scratch0) fullShare (accAt15 V c (n - 1) (by omega)))

-- Forgetting the accumulator's value gives the entry form back.
theorem Phi15_any (c : Dev nD) (n : ℕ) (h : n ≤ cfg15.N) :
    Phi15 V c n h ⊢ inv15 c iprop(∃ d, owns (c : Thread nD τ) (Memref.whole cc15_scratch0) fullShare d) := by
  unfold Phi15
  split
  · rw [← PhiA15_eq]
  · unfold inv15
    iintro ⟨⟨HS, HR⟩, Hg⟩
    iframe HR Hg
    iexists _; iexact HS

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15 V c t
  Φ t := Phi15 V c t.val (Nat.le_of_lt_succ t.isLt)
  q _ := fullShare
  owed _ := 0

theorem A_eq15 (c : Dev nD) (w : Fin cfg15.W) : (dat15 V c).A w = V c (Pipeline.arrRef spec15 w) := rfl

theorem after15_3 (c : Dev nD) (t : Fin cfg15.N) : (dat15 V c).after 3 t = out15 V c t := rfl

theorem before15_0 (c : Dev nD) (t : Fin cfg15.N) (d) : (dat15 V c).before 0 t d = iblk15 V c 0 t := by
  rw [Dat.before_in_eq_fetched _ 0 rfl (fun _ => rfl) (fun _ _ _ => rfl) (fun _ => rfl) t d]; rfl
theorem before15_1 (c : Dev nD) (t : Fin cfg15.N) (d) : (dat15 V c).before 1 t d = iblk15 V c 1 t := by
  rw [Dat.before_in_eq_fetched _ 1 rfl (fun _ => rfl) (fun _ _ _ => rfl) (fun _ => rfl) t d]; rfl
theorem before15_2 (c : Dev nD) (t : Fin cfg15.N) (d) : (dat15 V c).before 2 t d = iblk15 V c 2 t := by
  rw [Dat.before_in_eq_fetched _ 2 rfl (fun _ => rfl) (fun _ _ _ => rfl) (fun _ => rfl) t d]; rfl

-- By the control case of the point: first, last, or neither.
theorem body_obligation15 (c : Dev nD) : BodyObligation (dat15 (F := F) V c) (defs₀ (F := F)) Variants.none () Set.univ := fun t => by
  rw [bigSep_W15, bigSep_W15]
  show _ ⊢ wp frame (wpE (defs₀ (F := F)) Variants.none c none) Set.univ (bodyAt15 t) _
  unfold bodyAt15
  simp only [before15_0, before15_1, before15_2]
  rw [show (dat15 V c).owesAt () t.succ = (dat15 V c).owesAt () t.castSucc from rfl,
    show (dat15 V c).Φ t.succ = inv15 c (owns (c : Thread nD τ) (Memref.whole cc15_scratch0) fullShare (accAt15 V c t.val t.isLt)) from rfl,
    show (dat15 V c).Φ t.castSucc = Phi15 V c t.val (Nat.le_of_lt t.isLt) from rfl,
    show (dat15 V c).after 0 t = iblk15 V c 0 t from rfl, show (dat15 V c).after 1 t = iblk15 V c 1 t from rfl,
    show (dat15 V c).after 2 t = iblk15 V c 2 t from rfl]
  unfold inv15
  by_cases h0 : t.val % 8 = 0
  · have hn1 : ¬cond15_1 (grid15.coords t) := fun h => by have := (hcond15_1 t).mp h; omega
    simp only [(idleAt15_3 t hn1).1, (idleAt15_3 t hn1).2]
    rw [accAt15_eq V c t, if_pos h0]
    iintro ⟨HP, Ho, ⟨%d0, H0⟩, ⟨%d1, H1⟩, ⟨%d2, H2⟩, H3⟩
    icases (Phi15_any V c t.val (Nat.le_of_lt t.isLt)) $$ HP with ⟨⟨⟨%e, HS⟩, HR⟩, Hg⟩
    iapply (kernel15_AB hn1 _ _ _ _ (if_pos ((hcond15_0 t).mpr h0)).symm _)
    iframe H0 H1 HS
    iintro ⟨H0, H1, HS⟩
    iframe
  · have hn0 : ¬cond15_0 (grid15.coords t) := fun h => h0 ((hcond15_0 t).mp h)
    rw [accAt15_eq V c t, if_neg h0, Phi15, dif_neg fun h => h0 (by rw [h])]
    unfold inv15
    by_cases h1 : t.val % 8 = 7
    · simp only [liveAt15_3 t ((hcond15_1 t).mpr h1), after15_3]
      unfold out15
      rw [accAt15_eq V c t, if_neg h0]
      iintro ⟨⟨⟨HS, HR⟩, Hg⟩, Ho, ⟨%d0, H0⟩, ⟨%d1, H1⟩, ⟨%d2, H2⟩, ⟨%d3, H3⟩⟩
      iapply (kernel15_C hn0 ((hcond15_1 t).mpr h1) _ _ _ _ _ _)
      iframe H0 H1 H2 H3 HS
      iintro ⟨H0, H1, H2, H3, HS⟩
      iframe
    · have hn1 : ¬cond15_1 (grid15.coords t) := fun h => h1 ((hcond15_1 t).mp h)
      simp only [(idleAt15_3 t hn1).1, (idleAt15_3 t hn1).2]
      iintro ⟨⟨⟨HS, HR⟩, Hg⟩, Ho, ⟨%d0, H0⟩, ⟨%d1, H1⟩, ⟨%d2, H2⟩, H3⟩
      iapply (kernel15_AB hn1 _ _ _ _ (if_neg hn0).symm _)
      iframe H0 H1 HS
      iintro ⟨H0, H1, HS⟩
      iframe

theorem hin15 (c : Dev nD) : Pipeline.ΦA spec15 c ⊢ (dat15 V c).Φ 0 := .rfl

theorem hout15 (c : Dev nD) : (dat15 V c).Φ (Fin.last cfg15.N) ⊢ Pipeline.ΦA spec15 c := by
  rw [PhiA15_eq]; exact Phi15_any V c cfg15.N (Nat.le_refl _)

end

end Cert.KernelIdeal.Gen

end
-- ==== Proof.KI.Regs.lean ====
import proofs.«103213_j15710990369585_1_alg».proof.Proof.KI.Reg0
import proofs.«103213_j15710990369585_1_alg».proof.Proof.KI.Reg1
import proofs.«103213_j15710990369585_1_alg».proof.Proof.KI.Reg2
import proofs.«103213_j15710990369585_1_alg».proof.Proof.KI.Reg3
import proofs.«103213_j15710990369585_1_alg».proof.Proof.KI.Reg4
import proofs.«103213_j15710990369585_1_alg».proof.Proof.KI.Reg5
import proofs.«103213_j15710990369585_1_alg».proof.Proof.KI.Reg6
import proofs.«103213_j15710990369585_1_alg».proof.Proof.KI.Reg7
import proofs.«103213_j15710990369585_1_alg».proof.Proof.KI.Reg8
import proofs.«103213_j15710990369585_1_alg».proof.Proof.KI.Reg9
import proofs.«103213_j15710990369585_1_alg».proof.Proof.KI.Reg10
import proofs.«103213_j15710990369585_1_alg».proof.Proof.KI.Reg11
import proofs.«103213_j15710990369585_1_alg».proof.Proof.KI.Reg12
import proofs.«103213_j15710990369585_1_alg».proof.Proof.KI.Reg13
import proofs.«103213_j15710990369585_1_alg».proof.Proof.KI.Reg14
import proofs.«103213_j15710990369585_1_alg».proof.Proof.KI.Reg15
-- ==== Proof.KI.Chain.lean ====
import proofs.«103213_j15710990369585_1_alg».proof.Proof.KernelIdealR.Regions
import proofs.«103213_j15710990369585_1_alg».proof.Proof.KI.Regs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def putAt (r₀ : Ref sig .tc) (x : (c : Dev nD) → Buf (Elt F) ((c : Thread nD τ).loc r₀)) :
    (r : Ref sig .tc) → (c : Dev nD) → Buf (Elt F) ((c : Thread nD τ).loc r) :=
  fun r c => if h : r = r₀ then h ▸ x c else m ((c : Thread nD τ).loc r)
theorem putAt_self (r₀ : Ref sig .tc) (x : (c : Dev nD) → Buf (Elt F) ((c : Thread nD τ).loc r₀)) (c : Dev nD) :
    putAt m r₀ x r₀ c = x c := by
  unfold putAt; rw [dif_pos rfl]

abbrev W0 (c : Dev nD) : Valuation τ sig (Elt F) := fun b => m (c, b)
abbrev W1 (c : Dev nD) : Valuation τ sig (Elt F) := StableHlo.after hostOps0 (W0 m c)

def O2 (c : Dev nD) : Buf (Elt F) ((c : Thread nD τ).loc main_v1) := (dat0 (fun c b => W1 m c b) c).arrAt 3 cfg0.N

abbrev W2 (c : Dev nD) : Valuation τ sig (Elt F) := Function.update (W1 m c) main_v1 (O2 m c)
abbrev W3 (c : Dev nD) : Valuation τ sig (Elt F) := StableHlo.after hostOps1 (W2 m c)

def O4 (c : Dev nD) : Buf (Elt F) ((c : Thread nD τ).loc main_v3) := (dat1 (fun c b => W3 m c b) c).arrAt 3 cfg1.N

abbrev W4 (c : Dev nD) : Valuation τ sig (Elt F) := Function.update (W3 m c) main_v3 (O4 m c)
abbrev W5 (c : Dev nD) : Valuation τ sig (Elt F) := StableHlo.after hostOps2 (W4 m c)

def O6 (c : Dev nD) : Buf (Elt F) ((c : Thread nD τ).loc main_v5) := (dat2 (fun c b => W5 m c b) c).arrAt 3 cfg2.N

abbrev W6 (c : Dev nD) : Valuation τ sig (Elt F) := Function.update (W5 m c) main_v5 (O6 m c)
abbrev W7 (c : Dev nD) : Valuation τ sig (Elt F) := StableHlo.after hostOps3 (W6 m c)

def O8 (c : Dev nD) : Buf (Elt F) ((c : Thread nD τ).loc main_v7) := (dat3 (fun c b => W7 m c b) c).arrAt 3 cfg3.N

abbrev W8 (c : Dev nD) : Valuation τ sig (Elt F) := Function.update (W7 m c) main_v7 (O8 m c)
abbrev W9 (c : Dev nD) : Valuation τ sig (Elt F) := StableHlo.after hostOps4 (W8 m c)

def O10 (c : Dev nD) : Buf (Elt F) ((c : Thread nD τ).loc main_v9) := (dat4 (fun c b => W9 m c b) c).arrAt 3 cfg4.N

abbrev W10 (c : Dev nD) : Valuation τ sig (Elt F) := Function.update (W9 m c) main_v9 (O10 m c)
abbrev W11 (c : Dev nD) : Valuation τ sig (Elt F) := StableHlo.after hostOps5 (W10 m c)

def O12 (c : Dev nD) : Buf (Elt F) ((c : Thread nD τ).loc main_v11) := (dat5 (fun c b => W11 m c b) c).arrAt 3 cfg5.N

abbrev W12 (c : Dev nD) : Valuation τ sig (Elt F) := Function.update (W11 m c) main_v11 (O12 m c)
abbrev W13 (c : Dev nD) : Valuation τ sig (Elt F) := StableHlo.after hostOps6 (W12 m c)

def O14 (c : Dev nD) : Buf (Elt F) ((c : Thread nD τ).loc main_v15) := (dat6 (fun c b => W13 m c b) c).arrAt 3 cfg6.N

abbrev W14 (c : Dev nD) : Valuation τ sig (Elt F) := Function.update (W13 m c) main_v15 (O14 m c)
abbrev W15 (c : Dev nD) : Valuation τ sig (Elt F) := StableHlo.after hostOps7 (W14 m c)

def O16 (c : Dev nD) : Buf (Elt F) ((c : Thread nD τ).loc main_v17) := (dat7 (fun c b => W15 m c b) c).arrAt 3 cfg7.N

abbrev W16 (c : Dev nD) : Valuation τ sig (Elt F) := Function.update (W15 m c) main_v17 (O16 m c)
abbrev W17 (c : Dev nD) : Valuation τ sig (Elt F) := StableHlo.after hostOps8 (W16 m c)

def O18 (c : Dev nD) : Buf (Elt F) ((c : Thread nD τ).loc main_v22) := (dat8 (fun c b => W17 m c b) c).arrAt 3 cfg8.N

abbrev W18 (c : Dev nD) : Valuation τ sig (Elt F) := Function.update (W17 m c) main_v22 (O18 m c)
abbrev W19 (c : Dev nD) : Valuation τ sig (Elt F) := StableHlo.after hostOps9 (W18 m c)

def O20 (c : Dev nD) : Buf (Elt F) ((c : Thread nD τ).loc main_v24) := (dat9 (fun c b => W19 m c b) c).arrAt 3 cfg9.N

abbrev W20 (c : Dev nD) : Valuation τ sig (Elt F) := Function.update (W19 m c) main_v24 (O20 m c)
abbrev W21 (c : Dev nD) : Valuation τ sig (Elt F) := StableHlo.after hostOps10 (W20 m c)

def O22 (c : Dev nD) : Buf (Elt F) ((c : Thread nD τ).loc main_v33) := (dat10 (fun c b => W21 m c b) c).arrAt 3 cfg10.N

abbrev W22 (c : Dev nD) : Valuation τ sig (Elt F) := Function.update (W21 m c) main_v33 (O22 m c)
abbrev W23 (c : Dev nD) : Valuation τ sig (Elt F) := StableHlo.after hostOps11 (W22 m c)

def O24 (c : Dev nD) : Buf (Elt F) ((c : Thread nD τ).loc main_v35) := (dat11 (fun c b => W23 m c b) c).arrAt 3 cfg11.N

abbrev W24 (c : Dev nD) : Valuation τ sig (Elt F) := Function.update (W23 m c) main_v35 (O24 m c)
abbrev W25 (c : Dev nD) : Valuation τ sig (Elt F) := StableHlo.after hostOps12 (W24 m c)

def O26 (c : Dev nD) : Buf (Elt F) ((c : Thread nD τ).loc main_v45) := (dat12 (fun c b => W25 m c b) c).arrAt 3 cfg12.N

abbrev W26 (c : Dev nD) : Valuation τ sig (Elt F) := Function.update (W25 m c) main_v45 (O26 m c)
abbrev W27 (c : Dev nD) : Valuation τ sig (Elt F) := StableHlo.after hostOps13 (W26 m c)

def O28 (c : Dev nD) : Buf (Elt F) ((c : Thread nD τ).loc main_v53) := (dat13 (fun c b => W27 m c b) c).arrAt 3 cfg13.N

abbrev W28 (c : Dev nD) : Valuation τ sig (Elt F) := Function.update (W27 m c) main_v53 (O28 m c)
abbrev W29 (c : Dev nD) : Valuation τ sig (Elt F) := StableHlo.after hostOps14 (W28 m c)

def O30 (c : Dev nD) : Buf (Elt F) ((c : Thread nD τ).loc main_v62) := (dat14 (fun c b => W29 m c b) c).arrAt 3 cfg14.N

abbrev W30 (c : Dev nD) : Valuation τ sig (Elt F) := Function.update (W29 m c) main_v62 (O30 m c)
abbrev W31 (c : Dev nD) : Valuation τ sig (Elt F) := StableHlo.after hostOps15 (W30 m c)

def O32 (c : Dev nD) : Buf (Elt F) ((c : Thread nD τ).loc main_v78) := (dat15 (fun c b => W31 m c b) c).arrAt 3 cfg15.N

abbrev W32 (c : Dev nD) : Valuation τ sig (Elt F) := Function.update (W31 m c) main_v78 (O32 m c)
abbrev W33 (c : Dev nD) : Valuation τ sig (Elt F) := StableHlo.after hostOps16 (W32 m c)

def outs : Outs (F := F) := fun J => match J with
  | 2 => putAt m main_v1 (O2 m)
  | 4 => putAt m main_v3 (O4 m)
  | 6 => putAt m main_v5 (O6 m)
  | 8 => putAt m main_v7 (O8 m)
  | 10 => putAt m main_v9 (O10 m)
  | 12 => putAt m main_v11 (O12 m)
  | 14 => putAt m main_v15 (O14 m)
  | 16 => putAt m main_v17 (O16 m)
  | 18 => putAt m main_v22 (O18 m)
  | 20 => putAt m main_v24 (O20 m)
  | 22 => putAt m main_v33 (O22 m)
  | 24 => putAt m main_v35 (O24 m)
  | 26 => putAt m main_v45 (O26 m)
  | 28 => putAt m main_v53 (O28 m)
  | 30 => putAt m main_v62 (O30 m)
  | 32 => putAt m main_v78 (O32 m)
  | _ => fun r c => m ((c : Thread nD τ).loc r)
theorem outs_2 (c : Dev nD) : outs m 2 main_v1 c = O2 m c := putAt_self m main_v1 (O2 m) c
theorem outs_4 (c : Dev nD) : outs m 4 main_v3 c = O4 m c := putAt_self m main_v3 (O4 m) c
theorem outs_6 (c : Dev nD) : outs m 6 main_v5 c = O6 m c := putAt_self m main_v5 (O6 m) c
theorem outs_8 (c : Dev nD) : outs m 8 main_v7 c = O8 m c := putAt_self m main_v7 (O8 m) c
theorem outs_10 (c : Dev nD) : outs m 10 main_v9 c = O10 m c := putAt_self m main_v9 (O10 m) c
theorem outs_12 (c : Dev nD) : outs m 12 main_v11 c = O12 m c := putAt_self m main_v11 (O12 m) c
theorem outs_14 (c : Dev nD) : outs m 14 main_v15 c = O14 m c := putAt_self m main_v15 (O14 m) c
theorem outs_16 (c : Dev nD) : outs m 16 main_v17 c = O16 m c := putAt_self m main_v17 (O16 m) c
theorem outs_18 (c : Dev nD) : outs m 18 main_v22 c = O18 m c := putAt_self m main_v22 (O18 m) c
theorem outs_20 (c : Dev nD) : outs m 20 main_v24 c = O20 m c := putAt_self m main_v24 (O20 m) c
theorem outs_22 (c : Dev nD) : outs m 22 main_v33 c = O22 m c := putAt_self m main_v33 (O22 m) c
theorem outs_24 (c : Dev nD) : outs m 24 main_v35 c = O24 m c := putAt_self m main_v35 (O24 m) c
theorem outs_26 (c : Dev nD) : outs m 26 main_v45 c = O26 m c := putAt_self m main_v45 (O26 m) c
theorem outs_28 (c : Dev nD) : outs m 28 main_v53 c = O28 m c := putAt_self m main_v53 (O28 m) c
theorem outs_30 (c : Dev nD) : outs m 30 main_v62 c = O30 m c := putAt_self m main_v62 (O30 m) c
theorem outs_32 (c : Dev nD) : outs m 32 main_v78 c = O32 m c := putAt_self m main_v78 (O32 m) c

theorem V0_eq (c : Dev nD) : V0 m c = W0 m c := rfl
theorem V1_eq (c : Dev nD) : V1 m c = W1 m c := rfl
theorem V2_eq (c : Dev nD) : V2 m (outs m) c = W2 m c := by
  show Function.update (V1 m c) main_v1 (outs m 2 main_v1 c) = Function.update (W1 m c) main_v1 (O2 m c)
  rw [V1_eq, outs_2]
theorem V3_eq (c : Dev nD) : V3 m (outs m) c = W3 m c := by
  show StableHlo.after hostOps1 (V2 m (outs m) c) = StableHlo.after hostOps1 (W2 m c)
  rw [V2_eq]
theorem V4_eq (c : Dev nD) : V4 m (outs m) c = W4 m c := by
  show Function.update (V3 m (outs m) c) main_v3 (outs m 4 main_v3 c) = Function.update (W3 m c) main_v3 (O4 m c)
  rw [V3_eq, outs_4]
theorem V5_eq (c : Dev nD) : V5 m (outs m) c = W5 m c := by
  show StableHlo.after hostOps2 (V4 m (outs m) c) = StableHlo.after hostOps2 (W4 m c)
  rw [V4_eq]
theorem V6_eq (c : Dev nD) : V6 m (outs m) c = W6 m c := by
  show Function.update (V5 m (outs m) c) main_v5 (outs m 6 main_v5 c) = Function.update (W5 m c) main_v5 (O6 m c)
  rw [V5_eq, outs_6]
theorem V7_eq (c : Dev nD) : V7 m (outs m) c = W7 m c := by
  show StableHlo.after hostOps3 (V6 m (outs m) c) = StableHlo.after hostOps3 (W6 m c)
  rw [V6_eq]
theorem V8_eq (c : Dev nD) : V8 m (outs m) c = W8 m c := by
  show Function.update (V7 m (outs m) c) main_v7 (outs m 8 main_v7 c) = Function.update (W7 m c) main_v7 (O8 m c)
  rw [V7_eq, outs_8]
theorem V9_eq (c : Dev nD) : V9 m (outs m) c = W9 m c := by
  show StableHlo.after hostOps4 (V8 m (outs m) c) = StableHlo.after hostOps4 (W8 m c)
  rw [V8_eq]
theorem V10_eq (c : Dev nD) : V10 m (outs m) c = W10 m c := by
  show Function.update (V9 m (outs m) c) main_v9 (outs m 10 main_v9 c) = Function.update (W9 m c) main_v9 (O10 m c)
  rw [V9_eq, outs_10]
theorem V11_eq (c : Dev nD) : V11 m (outs m) c = W11 m c := by
  show StableHlo.after hostOps5 (V10 m (outs m) c) = StableHlo.after hostOps5 (W10 m c)
  rw [V10_eq]
theorem V12_eq (c : Dev nD) : V12 m (outs m) c = W12 m c := by
  show Function.update (V11 m (outs m) c) main_v11 (outs m 12 main_v11 c) = Function.update (W11 m c) main_v11 (O12 m c)
  rw [V11_eq, outs_12]
theorem V13_eq (c : Dev nD) : V13 m (outs m) c = W13 m c := by
  show StableHlo.after hostOps6 (V12 m (outs m) c) = StableHlo.after hostOps6 (W12 m c)
  rw [V12_eq]
theorem V14_eq (c : Dev nD) : V14 m (outs m) c = W14 m c := by
  show Function.update (V13 m (outs m) c) main_v15 (outs m 14 main_v15 c) = Function.update (W13 m c) main_v15 (O14 m c)
  rw [V13_eq, outs_14]
theorem V15_eq (c : Dev nD) : V15 m (outs m) c = W15 m c := by
  show StableHlo.after hostOps7 (V14 m (outs m) c) = StableHlo.after hostOps7 (W14 m c)
  rw [V14_eq]
theorem V16_eq (c : Dev nD) : V16 m (outs m) c = W16 m c := by
  show Function.update (V15 m (outs m) c) main_v17 (outs m 16 main_v17 c) = Function.update (W15 m c) main_v17 (O16 m c)
  rw [V15_eq, outs_16]
theorem V17_eq (c : Dev nD) : V17 m (outs m) c = W17 m c := by
  show StableHlo.after hostOps8 (V16 m (outs m) c) = StableHlo.after hostOps8 (W16 m c)
  rw [V16_eq]
theorem V18_eq (c : Dev nD) : V18 m (outs m) c = W18 m c := by
  show Function.update (V17 m (outs m) c) main_v22 (outs m 18 main_v22 c) = Function.update (W17 m c) main_v22 (O18 m c)
  rw [V17_eq, outs_18]
theorem V19_eq (c : Dev nD) : V19 m (outs m) c = W19 m c := by
  show StableHlo.after hostOps9 (V18 m (outs m) c) = StableHlo.after hostOps9 (W18 m c)
  rw [V18_eq]
theorem V20_eq (c : Dev nD) : V20 m (outs m) c = W20 m c := by
  show Function.update (V19 m (outs m) c) main_v24 (outs m 20 main_v24 c) = Function.update (W19 m c) main_v24 (O20 m c)
  rw [V19_eq, outs_20]
theorem V21_eq (c : Dev nD) : V21 m (outs m) c = W21 m c := by
  show StableHlo.after hostOps10 (V20 m (outs m) c) = StableHlo.after hostOps10 (W20 m c)
  rw [V20_eq]
theorem V22_eq (c : Dev nD) : V22 m (outs m) c = W22 m c := by
  show Function.update (V21 m (outs m) c) main_v33 (outs m 22 main_v33 c) = Function.update (W21 m c) main_v33 (O22 m c)
  rw [V21_eq, outs_22]
theorem V23_eq (c : Dev nD) : V23 m (outs m) c = W23 m c := by
  show StableHlo.after hostOps11 (V22 m (outs m) c) = StableHlo.after hostOps11 (W22 m c)
  rw [V22_eq]
theorem V24_eq (c : Dev nD) : V24 m (outs m) c = W24 m c := by
  show Function.update (V23 m (outs m) c) main_v35 (outs m 24 main_v35 c) = Function.update (W23 m c) main_v35 (O24 m c)
  rw [V23_eq, outs_24]
theorem V25_eq (c : Dev nD) : V25 m (outs m) c = W25 m c := by
  show StableHlo.after hostOps12 (V24 m (outs m) c) = StableHlo.after hostOps12 (W24 m c)
  rw [V24_eq]
theorem V26_eq (c : Dev nD) : V26 m (outs m) c = W26 m c := by
  show Function.update (V25 m (outs m) c) main_v45 (outs m 26 main_v45 c) = Function.update (W25 m c) main_v45 (O26 m c)
  rw [V25_eq, outs_26]
theorem V27_eq (c : Dev nD) : V27 m (outs m) c = W27 m c := by
  show StableHlo.after hostOps13 (V26 m (outs m) c) = StableHlo.after hostOps13 (W26 m c)
  rw [V26_eq]
theorem V28_eq (c : Dev nD) : V28 m (outs m) c = W28 m c := by
  show Function.update (V27 m (outs m) c) main_v53 (outs m 28 main_v53 c) = Function.update (W27 m c) main_v53 (O28 m c)
  rw [V27_eq, outs_28]
theorem V29_eq (c : Dev nD) : V29 m (outs m) c = W29 m c := by
  show StableHlo.after hostOps14 (V28 m (outs m) c) = StableHlo.after hostOps14 (W28 m c)
  rw [V28_eq]
theorem V30_eq (c : Dev nD) : V30 m (outs m) c = W30 m c := by
  show Function.update (V29 m (outs m) c) main_v62 (outs m 30 main_v62 c) = Function.update (W29 m c) main_v62 (O30 m c)
  rw [V29_eq, outs_30]
theorem V31_eq (c : Dev nD) : V31 m (outs m) c = W31 m c := by
  show StableHlo.after hostOps15 (V30 m (outs m) c) = StableHlo.after hostOps15 (W30 m c)
  rw [V30_eq]
theorem V32_eq (c : Dev nD) : V32 m (outs m) c = W32 m c := by
  show Function.update (V31 m (outs m) c) main_v78 (outs m 32 main_v78 c) = Function.update (W31 m c) main_v78 (O32 m c)
  rw [V31_eq, outs_32]
theorem V33_eq (c : Dev nD) : V33 m (outs m) c = W33 m c := by
  show StableHlo.after hostOps16 (V32 m (outs m) c) = StableHlo.after hostOps16 (W32 m c)
  rw [V32_eq]

theorem W2_out (c : Dev nD) : W2 m c main_v1 = (dat0 (fun c b => W1 m c b) c).arrAt 3 cfg0.N := by
  show Function.update (W1 m c) main_v1 (O2 m c) main_v1 = _
  rw [Function.update_self]; rfl
theorem W2_of_ne (c : Dev nD) (b : Ref sig .tc) (hb : b ≠ main_v1) : W2 m c b = W1 m c b := by
  show Function.update (W1 m c) main_v1 (O2 m c) b = _
  exact Function.update_of_ne (fun e => hb (Proc.devRef_injective _ e)) _ _
theorem W4_out (c : Dev nD) : W4 m c main_v3 = (dat1 (fun c b => W3 m c b) c).arrAt 3 cfg1.N := by
  show Function.update (W3 m c) main_v3 (O4 m c) main_v3 = _
  rw [Function.update_self]; rfl
theorem W4_of_ne (c : Dev nD) (b : Ref sig .tc) (hb : b ≠ main_v3) : W4 m c b = W3 m c b := by
  show Function.update (W3 m c) main_v3 (O4 m c) b = _
  exact Function.update_of_ne (fun e => hb (Proc.devRef_injective _ e)) _ _
theorem W6_out (c : Dev nD) : W6 m c main_v5 = (dat2 (fun c b => W5 m c b) c).arrAt 3 cfg2.N := by
  show Function.update (W5 m c) main_v5 (O6 m c) main_v5 = _
  rw [Function.update_self]; rfl
theorem W6_of_ne (c : Dev nD) (b : Ref sig .tc) (hb : b ≠ main_v5) : W6 m c b = W5 m c b := by
  show Function.update (W5 m c) main_v5 (O6 m c) b = _
  exact Function.update_of_ne (fun e => hb (Proc.devRef_injective _ e)) _ _
theorem W8_out (c : Dev nD) : W8 m c main_v7 = (dat3 (fun c b => W7 m c b) c).arrAt 3 cfg3.N := by
  show Function.update (W7 m c) main_v7 (O8 m c) main_v7 = _
  rw [Function.update_self]; rfl
theorem W8_of_ne (c : Dev nD) (b : Ref sig .tc) (hb : b ≠ main_v7) : W8 m c b = W7 m c b := by
  show Function.update (W7 m c) main_v7 (O8 m c) b = _
  exact Function.update_of_ne (fun e => hb (Proc.devRef_injective _ e)) _ _
theorem W10_out (c : Dev nD) : W10 m c main_v9 = (dat4 (fun c b => W9 m c b) c).arrAt 3 cfg4.N := by
  show Function.update (W9 m c) main_v9 (O10 m c) main_v9 = _
  rw [Function.update_self]; rfl
theorem W10_of_ne (c : Dev nD) (b : Ref sig .tc) (hb : b ≠ main_v9) : W10 m c b = W9 m c b := by
  show Function.update (W9 m c) main_v9 (O10 m c) b = _
  exact Function.update_of_ne (fun e => hb (Proc.devRef_injective _ e)) _ _
theorem W12_out (c : Dev nD) : W12 m c main_v11 = (dat5 (fun c b => W11 m c b) c).arrAt 3 cfg5.N := by
  show Function.update (W11 m c) main_v11 (O12 m c) main_v11 = _
  rw [Function.update_self]; rfl
theorem W12_of_ne (c : Dev nD) (b : Ref sig .tc) (hb : b ≠ main_v11) : W12 m c b = W11 m c b := by
  show Function.update (W11 m c) main_v11 (O12 m c) b = _
  exact Function.update_of_ne (fun e => hb (Proc.devRef_injective _ e)) _ _
theorem W14_out (c : Dev nD) : W14 m c main_v15 = (dat6 (fun c b => W13 m c b) c).arrAt 3 cfg6.N := by
  show Function.update (W13 m c) main_v15 (O14 m c) main_v15 = _
  rw [Function.update_self]; rfl
theorem W14_of_ne (c : Dev nD) (b : Ref sig .tc) (hb : b ≠ main_v15) : W14 m c b = W13 m c b := by
  show Function.update (W13 m c) main_v15 (O14 m c) b = _
  exact Function.update_of_ne (fun e => hb (Proc.devRef_injective _ e)) _ _
theorem W16_out (c : Dev nD) : W16 m c main_v17 = (dat7 (fun c b => W15 m c b) c).arrAt 3 cfg7.N := by
  show Function.update (W15 m c) main_v17 (O16 m c) main_v17 = _
  rw [Function.update_self]; rfl
theorem W16_of_ne (c : Dev nD) (b : Ref sig .tc) (hb : b ≠ main_v17) : W16 m c b = W15 m c b := by
  show Function.update (W15 m c) main_v17 (O16 m c) b = _
  exact Function.update_of_ne (fun e => hb (Proc.devRef_injective _ e)) _ _
theorem W18_out (c : Dev nD) : W18 m c main_v22 = (dat8 (fun c b => W17 m c b) c).arrAt 3 cfg8.N := by
  show Function.update (W17 m c) main_v22 (O18 m c) main_v22 = _
  rw [Function.update_self]; rfl
theorem W18_of_ne (c : Dev nD) (b : Ref sig .tc) (hb : b ≠ main_v22) : W18 m c b = W17 m c b := by
  show Function.update (W17 m c) main_v22 (O18 m c) b = _
  exact Function.update_of_ne (fun e => hb (Proc.devRef_injective _ e)) _ _
theorem W20_out (c : Dev nD) : W20 m c main_v24 = (dat9 (fun c b => W19 m c b) c).arrAt 3 cfg9.N := by
  show Function.update (W19 m c) main_v24 (O20 m c) main_v24 = _
  rw [Function.update_self]; rfl
theorem W20_of_ne (c : Dev nD) (b : Ref sig .tc) (hb : b ≠ main_v24) : W20 m c b = W19 m c b := by
  show Function.update (W19 m c) main_v24 (O20 m c) b = _
  exact Function.update_of_ne (fun e => hb (Proc.devRef_injective _ e)) _ _
theorem W22_out (c : Dev nD) : W22 m c main_v33 = (dat10 (fun c b => W21 m c b) c).arrAt 3 cfg10.N := by
  show Function.update (W21 m c) main_v33 (O22 m c) main_v33 = _
  rw [Function.update_self]; rfl
theorem W22_of_ne (c : Dev nD) (b : Ref sig .tc) (hb : b ≠ main_v33) : W22 m c b = W21 m c b := by
  show Function.update (W21 m c) main_v33 (O22 m c) b = _
  exact Function.update_of_ne (fun e => hb (Proc.devRef_injective _ e)) _ _
theorem W24_out (c : Dev nD) : W24 m c main_v35 = (dat11 (fun c b => W23 m c b) c).arrAt 3 cfg11.N := by
  show Function.update (W23 m c) main_v35 (O24 m c) main_v35 = _
  rw [Function.update_self]; rfl
theorem W24_of_ne (c : Dev nD) (b : Ref sig .tc) (hb : b ≠ main_v35) : W24 m c b = W23 m c b := by
  show Function.update (W23 m c) main_v35 (O24 m c) b = _
  exact Function.update_of_ne (fun e => hb (Proc.devRef_injective _ e)) _ _
theorem W26_out (c : Dev nD) : W26 m c main_v45 = (dat12 (fun c b => W25 m c b) c).arrAt 3 cfg12.N := by
  show Function.update (W25 m c) main_v45 (O26 m c) main_v45 = _
  rw [Function.update_self]; rfl
theorem W26_of_ne (c : Dev nD) (b : Ref sig .tc) (hb : b ≠ main_v45) : W26 m c b = W25 m c b := by
  show Function.update (W25 m c) main_v45 (O26 m c) b = _
  exact Function.update_of_ne (fun e => hb (Proc.devRef_injective _ e)) _ _
theorem W28_out (c : Dev nD) : W28 m c main_v53 = (dat13 (fun c b => W27 m c b) c).arrAt 3 cfg13.N := by
  show Function.update (W27 m c) main_v53 (O28 m c) main_v53 = _
  rw [Function.update_self]; rfl
theorem W28_of_ne (c : Dev nD) (b : Ref sig .tc) (hb : b ≠ main_v53) : W28 m c b = W27 m c b := by
  show Function.update (W27 m c) main_v53 (O28 m c) b = _
  exact Function.update_of_ne (fun e => hb (Proc.devRef_injective _ e)) _ _
theorem W30_out (c : Dev nD) : W30 m c main_v62 = (dat14 (fun c b => W29 m c b) c).arrAt 3 cfg14.N := by
  show Function.update (W29 m c) main_v62 (O30 m c) main_v62 = _
  rw [Function.update_self]; rfl
theorem W30_of_ne (c : Dev nD) (b : Ref sig .tc) (hb : b ≠ main_v62) : W30 m c b = W29 m c b := by
  show Function.update (W29 m c) main_v62 (O30 m c) b = _
  exact Function.update_of_ne (fun e => hb (Proc.devRef_injective _ e)) _ _
theorem W32_out (c : Dev nD) : W32 m c main_v78 = (dat15 (fun c b => W31 m c b) c).arrAt 3 cfg15.N := by
  show Function.update (W31 m c) main_v78 (O32 m c) main_v78 = _
  rw [Function.update_self]; rfl
theorem W32_of_ne (c : Dev nD) (b : Ref sig .tc) (hb : b ≠ main_v78) : W32 m c b = W31 m c b := by
  show Function.update (W31 m c) main_v78 (O32 m c) b = _
  exact Function.update_of_ne (fun e => hb (Proc.devRef_injective _ e)) _ _

theorem W1_of (c : Dev nD) (r : Ref sig .tc) (h : r ∉ hostOps0_W) : W1 m c r = W0 m c r := V1_of m c r h
theorem W3_of (c : Dev nD) (r : Ref sig .tc) (h : r ∉ hostOps1_W) : W3 m c r = W2 m c r := by
  rw [← V3_eq, ← V2_eq]; exact V3_of m (outs m) c r h
theorem W5_of (c : Dev nD) (r : Ref sig .tc) (h : r ∉ hostOps2_W) : W5 m c r = W4 m c r := by
  rw [← V5_eq, ← V4_eq]; exact V5_of m (outs m) c r h
theorem W7_of (c : Dev nD) (r : Ref sig .tc) (h : r ∉ hostOps3_W) : W7 m c r = W6 m c r := by
  rw [← V7_eq, ← V6_eq]; exact V7_of m (outs m) c r h
theorem W9_of (c : Dev nD) (r : Ref sig .tc) (h : r ∉ hostOps4_W) : W9 m c r = W8 m c r := by
  rw [← V9_eq, ← V8_eq]; exact V9_of m (outs m) c r h
theorem W11_of (c : Dev nD) (r : Ref sig .tc) (h : r ∉ hostOps5_W) : W11 m c r = W10 m c r := by
  rw [← V11_eq, ← V10_eq]; exact V11_of m (outs m) c r h
theorem W13_of (c : Dev nD) (r : Ref sig .tc) (h : r ∉ hostOps6_W) : W13 m c r = W12 m c r := by
  rw [← V13_eq, ← V12_eq]; exact V13_of m (outs m) c r h
theorem W15_of (c : Dev nD) (r : Ref sig .tc) (h : r ∉ hostOps7_W) : W15 m c r = W14 m c r := by
  rw [← V15_eq, ← V14_eq]; exact V15_of m (outs m) c r h
theorem W17_of (c : Dev nD) (r : Ref sig .tc) (h : r ∉ hostOps8_W) : W17 m c r = W16 m c r := by
  rw [← V17_eq, ← V16_eq]; exact V17_of m (outs m) c r h
theorem W19_of (c : Dev nD) (r : Ref sig .tc) (h : r ∉ hostOps9_W) : W19 m c r = W18 m c r := by
  rw [← V19_eq, ← V18_eq]; exact V19_of m (outs m) c r h
theorem W21_of (c : Dev nD) (r : Ref sig .tc) (h : r ∉ hostOps10_W) : W21 m c r = W20 m c r := by
  rw [← V21_eq, ← V20_eq]; exact V21_of m (outs m) c r h
theorem W23_of (c : Dev nD) (r : Ref sig .tc) (h : r ∉ hostOps11_W) : W23 m c r = W22 m c r := by
  rw [← V23_eq, ← V22_eq]; exact V23_of m (outs m) c r h
theorem W25_of (c : Dev nD) (r : Ref sig .tc) (h : r ∉ hostOps12_W) : W25 m c r = W24 m c r := by
  rw [← V25_eq, ← V24_eq]; exact V25_of m (outs m) c r h
theorem W27_of (c : Dev nD) (r : Ref sig .tc) (h : r ∉ hostOps13_W) : W27 m c r = W26 m c r := by
  rw [← V27_eq, ← V26_eq]; exact V27_of m (outs m) c r h
theorem W29_of (c : Dev nD) (r : Ref sig .tc) (h : r ∉ hostOps14_W) : W29 m c r = W28 m c r := by
  rw [← V29_eq, ← V28_eq]; exact V29_of m (outs m) c r h
theorem W31_of (c : Dev nD) (r : Ref sig .tc) (h : r ∉ hostOps15_W) : W31 m c r = W30 m c r := by
  rw [← V31_eq, ← V30_eq]; exact V31_of m (outs m) c r h
theorem W33_of (c : Dev nD) (r : Ref sig .tc) (h : r ∉ hostOps16_W) : W33 m c r = W32 m c r := by
  rw [← V33_eq, ← V32_eq]; exact V33_of m (outs m) c r h

end Cert.KernelIdeal.Gen

end
-- ==== Proof.KI.Run.lean ====
import proofs.«103213_j15710990369585_1_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev adm' : (p : Fin 16) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

def pdats : (p : Fin 16) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
  | ⟨6, _⟩ => fun c => dat6 (fun c b => W13 m c b) c
  | ⟨7, _⟩ => fun c => dat7 (fun c b => W15 m c b) c
  | ⟨8, _⟩ => fun c => dat8 (fun c b => W17 m c b) c
  | ⟨9, _⟩ => fun c => dat9 (fun c b => W19 m c b) c
  | ⟨10, _⟩ => fun c => dat10 (fun c b => W21 m c b) c
  | ⟨11, _⟩ => fun c => dat11 (fun c b => W23 m c b) c
  | ⟨12, _⟩ => fun c => dat12 (fun c b => W25 m c b) c
  | ⟨13, _⟩ => fun c => dat13 (fun c b => W27 m c b) c
  | ⟨14, _⟩ => fun c => dat14 (fun c b => W29 m c b) c
  | ⟨15, _⟩ => fun c => dat15 (fun c b => W31 m c b) c
  | ⟨_ + 16, h⟩ => absurd h (Nat.not_lt.2 (Nat.le_add_left _ _))

set_option backward.isDefEq.respectTransparency.types false in

def regOf (p : Fin 16) (launch : Pipeline.LaunchFacts (nD := nD) (τ := τ) cfgs p)
    (Win Wout : (c : Dev nD) → Valuation τ sig (Elt F))
    (hbody : ∀ c, BodyObligation (pdats m p c) (defs₀ (F := F)) 𝒱₀ () Set.univ)
    (hK : (pcfgs (F := F) p).pre.K = 0)
    (hq : ∀ c w, (pdats m p c).q w = fullShare)
    (howed : ∀ c t, (pdats m p c).owed t = 0)
    (hrec : ∀ c t, (pdats m p c).recorded t = Set.univ)
    (hA : ∀ c w, (pdats m p c).A w = Win c (Pipeline.arrRef (cfgs p).spec w))
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, (pdats m p c).arrAt w (cfgs p).N = Wout c (Pipeline.arrRef (cfgs p).spec w))
    (hrest : ∀ c b, b ∉ Finset.univ.image (Pipeline.arrRef (cfgs p).spec) → Wout c b = Win c b) :
    RegionSeg (pcfgs (F := F)) adm' (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm' (pdats m) launch.win launch.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld
      haveI : IsEmpty (Fin (pcfgs (F := F) p).pre.K) := by rw [hK]; infer_instance
      rw [Finset.univ_eq_empty, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    iexact Hrest
  hin c := by
    iintro ⟨Hp, -, Hr⟩
    iapply (hin c)
    unfold Pipeline.ΦA
    isplitl [Hr]; · iexact Hr
    iexact Hp
  hout c := by
    rw [Pipeline.ownSems0_none]
    iintro H
    ihave H2 := (hout c) $$ H
    unfold Pipeline.ΦA
    icases H2 with ⟨Hr, Hp⟩
    isplitl [Hp]; · iexact Hp
    isplitr; · iempintro
    iexact Hr
  hexit c := by
    have hjoin := Pipeline.unscopedBufs_of_arrays (p := p) (pcfgs (F := F)) adm' (Ix := Unit) (Name := ℕ) (U := UR sig nD τ) (Lvl := ℕ)
      launch.win launch.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

theorem hF0 (c : Dev nD) (w : Fin cfg0.W) :
    (dat0 (fun c b => W1 m c b) c).arrAt w cfg0.N = W2 m c (Pipeline.arrRef spec0 w) := by
  fin_cases w <;> first
    | exact (((dat0 (fun c b => W1 m c b) c).arrAt_in _ rfl _).trans (A_eq0 _ c _)).trans (W2_of_ne m c _ (by decide)).symm
    | exact (W2_out m c).symm

theorem hrest0 (c : Dev nD) : ∀ b, b ∉ Finset.univ.image (Pipeline.arrRef spec0) → W2 m c b = W1 m c b :=
  fun b hb => W2_of_ne m c b fun e => hb (Finset.mem_image.mpr ⟨3, Finset.mem_univ _, e.symm⟩)

set_option backward.isDefEq.respectTransparency.types false in
def reg0 : RegionSeg (pcfgs (F := F)) adm' (pdats m) () defs₀ 𝒱₀ L lv 0 :=
  regOf m 0 launch0 (W1 m) (W2 m) (fun c => body_obligation0 (fun c b => W1 m c b) c) rfl (fun _ _ => rfl) (fun _ _ => rfl) (fun _ _ => rfl)
    (fun _ _ => rfl) (hin0 (fun c b => W1 m c b)) (hout0 (fun c b => W1 m c b)) (hF0 m) (hrest0 m)

theorem hF1 (c : Dev nD) (w : Fin cfg1.W) :
    (dat1 (fun c b => W3 m c b) c).arrAt w cfg1.N = W4 m c (Pipeline.arrRef spec1 w) := by
  fin_cases w <;> first
    | exact (((dat1 (fun c b => W3 m c b) c).arrAt_in _ rfl _).trans (A_eq1 _ c _)).trans (W4_of_ne m c _ (by decide)).symm
    | exact (W4_out m c).symm

theorem hrest1 (c : Dev nD) : ∀ b, b ∉ Finset.univ.image (Pipeline.arrRef spec1) → W4 m c b = W3 m c b :=
  fun b hb => W4_of_ne m c b fun e => hb (Finset.mem_image.mpr ⟨3, Finset.mem_univ _, e.symm⟩)

set_option backward.isDefEq.respectTransparency.types false in
def reg1 : RegionSeg (pcfgs (F := F)) adm' (pdats m) () defs₀ 𝒱₀ L lv 1 :=
  regOf m 1 launch1 (W3 m) (W4 m) (fun c => body_obligation1 (fun c b => W3 m c b) c) rfl (fun _ _ => rfl) (fun _ _ => rfl) (fun _ _ => rfl)
    (fun _ _ => rfl) (hin1 (fun c b => W3 m c b)) (hout1 (fun c b => W3 m c b)) (hF1 m) (hrest1 m)

theorem hF2 (c : Dev nD) (w : Fin cfg2.W) :
    (dat2 (fun c b => W5 m c b) c).arrAt w cfg2.N = W6 m c (Pipeline.arrRef spec2 w) := by
  fin_cases w <;> first
    | exact (((dat2 (fun c b => W5 m c b) c).arrAt_in _ rfl _).trans (A_eq2 _ c _)).trans (W6_of_ne m c _ (by decide)).symm
    | exact (W6_out m c).symm

theorem hrest2 (c : Dev nD) : ∀ b, b ∉ Finset.univ.image (Pipeline.arrRef spec2) → W6 m c b = W5 m c b :=
  fun b hb => W6_of_ne m c b fun e => hb (Finset.mem_image.mpr ⟨3, Finset.mem_univ _, e.symm⟩)

set_option backward.isDefEq.respectTransparency.types false in
def reg2 : RegionSeg (pcfgs (F := F)) adm' (pdats m) () defs₀ 𝒱₀ L lv 2 :=
  regOf m 2 launch2 (W5 m) (W6 m) (fun c => body_obligation2 (fun c b => W5 m c b) c) rfl (fun _ _ => rfl) (fun _ _ => rfl) (fun _ _ => rfl)
    (fun _ _ => rfl) (hin2 (fun c b => W5 m c b)) (hout2 (fun c b => W5 m c b)) (hF2 m) (hrest2 m)

theorem hF3 (c : Dev nD) (w : Fin cfg3.W) :
    (dat3 (fun c b => W7 m c b) c).arrAt w cfg3.N = W8 m c (Pipeline.arrRef spec3 w) := by
  fin_cases w <;> first
    | exact (((dat3 (fun c b => W7 m c b) c).arrAt_in _ rfl _).trans (A_eq3 _ c _)).trans (W8_of_ne m c _ (by decide)).symm
    | exact (W8_out m c).symm

theorem hrest3 (c : Dev nD) : ∀ b, b ∉ Finset.univ.image (Pipeline.arrRef spec3) → W8 m c b = W7 m c b :=
  fun b hb => W8_of_ne m c b fun e => hb (Finset.mem_image.mpr ⟨3, Finset.mem_univ _, e.symm⟩)

set_option backward.isDefEq.respectTransparency.types false in
def reg3 : RegionSeg (pcfgs (F := F)) adm' (pdats m) () defs₀ 𝒱₀ L lv 3 :=
  regOf m 3 launch3 (W7 m) (W8 m) (fun c => body_obligation3 (fun c b => W7 m c b) c) rfl (fun _ _ => rfl) (fun _ _ => rfl) (fun _ _ => rfl)
    (fun _ _ => rfl) (hin3 (fun c b => W7 m c b)) (hout3 (fun c b => W7 m c b)) (hF3 m) (hrest3 m)

theorem hF4 (c : Dev nD) (w : Fin cfg4.W) :
    (dat4 (fun c b => W9 m c b) c).arrAt w cfg4.N = W10 m c (Pipeline.arrRef spec4 w) := by
  fin_cases w <;> first
    | exact (((dat4 (fun c b => W9 m c b) c).arrAt_in _ rfl _).trans (A_eq4 _ c _)).trans (W10_of_ne m c _ (by decide)).symm
    | exact (W10_out m c).symm

theorem hrest4 (c : Dev nD) : ∀ b, b ∉ Finset.univ.image (Pipeline.arrRef spec4) → W10 m c b = W9 m c b :=
  fun b hb => W10_of_ne m c b fun e => hb (Finset.mem_image.mpr ⟨3, Finset.mem_univ _, e.symm⟩)

set_option backward.isDefEq.respectTransparency.types false in
def reg4 : RegionSeg (pcfgs (F := F)) adm' (pdats m) () defs₀ 𝒱₀ L lv 4 :=
  regOf m 4 launch4 (W9 m) (W10 m) (fun c => body_obligation4 (fun c b => W9 m c b) c) rfl (fun _ _ => rfl) (fun _ _ => rfl) (fun _ _ => rfl)
    (fun _ _ => rfl) (hin4 (fun c b => W9 m c b)) (hout4 (fun c b => W9 m c b)) (hF4 m) (hrest4 m)

theorem hF5 (c : Dev nD) (w : Fin cfg5.W) :
    (dat5 (fun c b => W11 m c b) c).arrAt w cfg5.N = W12 m c (Pipeline.arrRef spec5 w) := by
  fin_cases w <;> first
    | exact (((dat5 (fun c b => W11 m c b) c).arrAt_in _ rfl _).trans (A_eq5 _ c _)).trans (W12_of_ne m c _ (by decide)).symm
    | exact (W12_out m c).symm

theorem hrest5 (c : Dev nD) : ∀ b, b ∉ Finset.univ.image (Pipeline.arrRef spec5) → W12 m c b = W11 m c b :=
  fun b hb => W12_of_ne m c b fun e => hb (Finset.mem_image.mpr ⟨3, Finset.mem_univ _, e.symm⟩)

set_option backward.isDefEq.respectTransparency.types false in
def reg5 : RegionSeg (pcfgs (F := F)) adm' (pdats m) () defs₀ 𝒱₀ L lv 5 :=
  regOf m 5 launch5 (W11 m) (W12 m) (fun c => body_obligation5 (fun c b => W11 m c b) c) rfl (fun _ _ => rfl) (fun _ _ => rfl) (fun _ _ => rfl)
    (fun _ _ => rfl) (hin5 (fun c b => W11 m c b)) (hout5 (fun c b => W11 m c b)) (hF5 m) (hrest5 m)

theorem hF6 (c : Dev nD) (w : Fin cfg6.W) :
    (dat6 (fun c b => W13 m c b) c).arrAt w cfg6.N = W14 m c (Pipeline.arrRef spec6 w) := by
  fin_cases w <;> first
    | exact (((dat6 (fun c b => W13 m c b) c).arrAt_in _ rfl _).trans (A_eq6 _ c _)).trans (W14_of_ne m c _ (by decide)).symm
    | exact (W14_out m c).symm

theorem hrest6 (c : Dev nD) : ∀ b, b ∉ Finset.univ.image (Pipeline.arrRef spec6) → W14 m c b = W13 m c b :=
  fun b hb => W14_of_ne m c b fun e => hb (Finset.mem_image.mpr ⟨3, Finset.mem_univ _, e.symm⟩)

set_option backward.isDefEq.respectTransparency.types false in
def reg6 : RegionSeg (pcfgs (F := F)) adm' (pdats m) () defs₀ 𝒱₀ L lv 6 :=
  regOf m 6 launch6 (W13 m) (W14 m) (fun c => body_obligation6 (fun c b => W13 m c b) c) rfl (fun _ _ => rfl) (fun _ _ => rfl) (fun _ _ => rfl)
    (fun _ _ => rfl) (hin6 (fun c b => W13 m c b)) (hout6 (fun c b => W13 m c b)) (hF6 m) (hrest6 m)

theorem hF7 (c : Dev nD) (w : Fin cfg7.W) :
    (dat7 (fun c b => W15 m c b) c).arrAt w cfg7.N = W16 m c (Pipeline.arrRef spec7 w) := by
  fin_cases w <;> first
    | exact (((dat7 (fun c b => W15 m c b) c).arrAt_in _ rfl _).trans (A_eq7 _ c _)).trans (W16_of_ne m c _ (by decide)).symm
    | exact (W16_out m c).symm

theorem hrest7 (c : Dev nD) : ∀ b, b ∉ Finset.univ.image (Pipeline.arrRef spec7) → W16 m c b = W15 m c b :=
  fun b hb => W16_of_ne m c b fun e => hb (Finset.mem_image.mpr ⟨3, Finset.mem_univ _, e.symm⟩)

set_option backward.isDefEq.respectTransparency.types false in
def reg7 : RegionSeg (pcfgs (F := F)) adm' (pdats m) () defs₀ 𝒱₀ L lv 7 :=
  regOf m 7 launch7 (W15 m) (W16 m) (fun c => body_obligation7 (fun c b => W15 m c b) c) rfl (fun _ _ => rfl) (fun _ _ => rfl) (fun _ _ => rfl)
    (fun _ _ => rfl) (hin7 (fun c b => W15 m c b)) (hout7 (fun c b => W15 m c b)) (hF7 m) (hrest7 m)

theorem hF8 (c : Dev nD) (w : Fin cfg8.W) :
    (dat8 (fun c b => W17 m c b) c).arrAt w cfg8.N = W18 m c (Pipeline.arrRef spec8 w) := by
  fin_cases w <;> first
    | exact (((dat8 (fun c b => W17 m c b) c).arrAt_in _ rfl _).trans (A_eq8 _ c _)).trans (W18_of_ne m c _ (by decide)).symm
    | exact (W18_out m c).symm

theorem hrest8 (c : Dev nD) : ∀ b, b ∉ Finset.univ.image (Pipeline.arrRef spec8) → W18 m c b = W17 m c b :=
  fun b hb => W18_of_ne m c b fun e => hb (Finset.mem_image.mpr ⟨3, Finset.mem_univ _, e.symm⟩)

set_option backward.isDefEq.respectTransparency.types false in
def reg8 : RegionSeg (pcfgs (F := F)) adm' (pdats m) () defs₀ 𝒱₀ L lv 8 :=
  regOf m 8 launch8 (W17 m) (W18 m) (fun c => body_obligation8 (fun c b => W17 m c b) c) rfl (fun _ _ => rfl) (fun _ _ => rfl) (fun _ _ => rfl)
    (fun _ _ => rfl) (hin8 (fun c b => W17 m c b)) (hout8 (fun c b => W17 m c b)) (hF8 m) (hrest8 m)

theorem hF9 (c : Dev nD) (w : Fin cfg9.W) :
    (dat9 (fun c b => W19 m c b) c).arrAt w cfg9.N = W20 m c (Pipeline.arrRef spec9 w) := by
  fin_cases w <;> first
    | exact (((dat9 (fun c b => W19 m c b) c).arrAt_in _ rfl _).trans (A_eq9 _ c _)).trans (W20_of_ne m c _ (by decide)).symm
    | exact (W20_out m c).symm

theorem hrest9 (c : Dev nD) : ∀ b, b ∉ Finset.univ.image (Pipeline.arrRef spec9) → W20 m c b = W19 m c b :=
  fun b hb => W20_of_ne m c b fun e => hb (Finset.mem_image.mpr ⟨3, Finset.mem_univ _, e.symm⟩)

set_option backward.isDefEq.respectTransparency.types false in
def reg9 : RegionSeg (pcfgs (F := F)) adm' (pdats m) () defs₀ 𝒱₀ L lv 9 :=
  regOf m 9 launch9 (W19 m) (W20 m) (fun c => body_obligation9 (fun c b => W19 m c b) c) rfl (fun _ _ => rfl) (fun _ _ => rfl) (fun _ _ => rfl)
    (fun _ _ => rfl) (hin9 (fun c b => W19 m c b)) (hout9 (fun c b => W19 m c b)) (hF9 m) (hrest9 m)

theorem hF10 (c : Dev nD) (w : Fin cfg10.W) :
    (dat10 (fun c b => W21 m c b) c).arrAt w cfg10.N = W22 m c (Pipeline.arrRef spec10 w) := by
  fin_cases w <;> first
    | exact (((dat10 (fun c b => W21 m c b) c).arrAt_in _ rfl _).trans (A_eq10 _ c _)).trans (W22_of_ne m c _ (by decide)).symm
    | exact (W22_out m c).symm

theorem hrest10 (c : Dev nD) : ∀ b, b ∉ Finset.univ.image (Pipeline.arrRef spec10) → W22 m c b = W21 m c b :=
  fun b hb => W22_of_ne m c b fun e => hb (Finset.mem_image.mpr ⟨3, Finset.mem_univ _, e.symm⟩)

set_option backward.isDefEq.respectTransparency.types false in
def reg10 : RegionSeg (pcfgs (F := F)) adm' (pdats m) () defs₀ 𝒱₀ L lv 10 :=
  regOf m 10 launch10 (W21 m) (W22 m) (fun c => body_obligation10 (fun c b => W21 m c b) c) rfl (fun _ _ => rfl) (fun _ _ => rfl) (fun _ _ => rfl)
    (fun _ _ => rfl) (hin10 (fun c b => W21 m c b)) (hout10 (fun c b => W21 m c b)) (hF10 m) (hrest10 m)

theorem hF11 (c : Dev nD) (w : Fin cfg11.W) :
    (dat11 (fun c b => W23 m c b) c).arrAt w cfg11.N = W24 m c (Pipeline.arrRef spec11 w) := by
  fin_cases w <;> first
    | exact (((dat11 (fun c b => W23 m c b) c).arrAt_in _ rfl _).trans (A_eq11 _ c _)).trans (W24_of_ne m c _ (by decide)).symm
    | exact (W24_out m c).symm

theorem hrest11 (c : Dev nD) : ∀ b, b ∉ Finset.univ.image (Pipeline.arrRef spec11) → W24 m c b = W23 m c b :=
  fun b hb => W24_of_ne m c b fun e => hb (Finset.mem_image.mpr ⟨3, Finset.mem_univ _, e.symm⟩)

set_option backward.isDefEq.respectTransparency.types false in
def reg11 : RegionSeg (pcfgs (F := F)) adm' (pdats m) () defs₀ 𝒱₀ L lv 11 :=
  regOf m 11 launch11 (W23 m) (W24 m) (fun c => body_obligation11 (fun c b => W23 m c b) c) rfl (fun _ _ => rfl) (fun _ _ => rfl) (fun _ _ => rfl)
    (fun _ _ => rfl) (hin11 (fun c b => W23 m c b)) (hout11 (fun c b => W23 m c b)) (hF11 m) (hrest11 m)

theorem hF12 (c : Dev nD) (w : Fin cfg12.W) :
    (dat12 (fun c b => W25 m c b) c).arrAt w cfg12.N = W26 m c (Pipeline.arrRef spec12 w) := by
  fin_cases w <;> first
    | exact (((dat12 (fun c b => W25 m c b) c).arrAt_in _ rfl _).trans (A_eq12 _ c _)).trans (W26_of_ne m c _ (by decide)).symm
    | exact (W26_out m c).symm

theorem hrest12 (c : Dev nD) : ∀ b, b ∉ Finset.univ.image (Pipeline.arrRef spec12) → W26 m c b = W25 m c b :=
  fun b hb => W26_of_ne m c b fun e => hb (Finset.mem_image.mpr ⟨3, Finset.mem_univ _, e.symm⟩)

set_option backward.isDefEq.respectTransparency.types false in
def reg12 : RegionSeg (pcfgs (F := F)) adm' (pdats m) () defs₀ 𝒱₀ L lv 12 :=
  regOf m 12 launch12 (W25 m) (W26 m) (fun c => body_obligation12 (fun c b => W25 m c b) c) rfl (fun _ _ => rfl) (fun _ _ => rfl) (fun _ _ => rfl)
    (fun _ _ => rfl) (hin12 (fun c b => W25 m c b)) (hout12 (fun c b => W25 m c b)) (hF12 m) (hrest12 m)

theorem hF13 (c : Dev nD) (w : Fin cfg13.W) :
    (dat13 (fun c b => W27 m c b) c).arrAt w cfg13.N = W28 m c (Pipeline.arrRef spec13 w) := by
  fin_cases w <;> first
    | exact (((dat13 (fun c b => W27 m c b) c).arrAt_in _ rfl _).trans (A_eq13 _ c _)).trans (W28_of_ne m c _ (by decide)).symm
    | exact (W28_out m c).symm

theorem hrest13 (c : Dev nD) : ∀ b, b ∉ Finset.univ.image (Pipeline.arrRef spec13) → W28 m c b = W27 m c b :=
  fun b hb => W28_of_ne m c b fun e => hb (Finset.mem_image.mpr ⟨3, Finset.mem_univ _, e.symm⟩)

set_option backward.isDefEq.respectTransparency.types false in
def reg13 : RegionSeg (pcfgs (F := F)) adm' (pdats m) () defs₀ 𝒱₀ L lv 13 :=
  regOf m 13 launch13 (W27 m) (W28 m) (fun c => body_obligation13 (fun c b => W27 m c b) c) rfl (fun _ _ => rfl) (fun _ _ => rfl) (fun _ _ => rfl)
    (fun _ _ => rfl) (hin13 (fun c b => W27 m c b)) (hout13 (fun c b => W27 m c b)) (hF13 m) (hrest13 m)

theorem hF14 (c : Dev nD) (w : Fin cfg14.W) :
    (dat14 (fun c b => W29 m c b) c).arrAt w cfg14.N = W30 m c (Pipeline.arrRef spec14 w) := by
  fin_cases w <;> first
    | exact (((dat14 (fun c b => W29 m c b) c).arrAt_in _ rfl _).trans (A_eq14 _ c _)).trans (W30_of_ne m c _ (by decide)).symm
    | exact (W30_out m c).symm

theorem hrest14 (c : Dev nD) : ∀ b, b ∉ Finset.univ.image (Pipeline.arrRef spec14) → W30 m c b = W29 m c b :=
  fun b hb => W30_of_ne m c b fun e => hb (Finset.mem_image.mpr ⟨3, Finset.mem_univ _, e.symm⟩)

set_option backward.isDefEq.respectTransparency.types false in
def reg14 : RegionSeg (pcfgs (F := F)) adm' (pdats m) () defs₀ 𝒱₀ L lv 14 :=
  regOf m 14 launch14 (W29 m) (W30 m) (fun c => body_obligation14 (fun c b => W29 m c b) c) rfl (fun _ _ => rfl) (fun _ _ => rfl) (fun _ _ => rfl)
    (fun _ _ => rfl) (hin14 (fun c b => W29 m c b)) (hout14 (fun c b => W29 m c b)) (hF14 m) (hrest14 m)

theorem hF15 (c : Dev nD) (w : Fin cfg15.W) :
    (dat15 (fun c b => W31 m c b) c).arrAt w cfg15.N = W32 m c (Pipeline.arrRef spec15 w) := by
  fin_cases w <;> first
    | exact (((dat15 (fun c b => W31 m c b) c).arrAt_in _ rfl _).trans (A_eq15 _ c _)).trans (W32_of_ne m c _ (by decide)).symm
    | exact (W32_out m c).symm

theorem hrest15 (c : Dev nD) : ∀ b, b ∉ Finset.univ.image (Pipeline.arrRef spec15) → W32 m c b = W31 m c b :=
  fun b hb => W32_of_ne m c b fun e => hb (Finset.mem_image.mpr ⟨3, Finset.mem_univ _, e.symm⟩)

set_option backward.isDefEq.respectTransparency.types false in
def reg15 : RegionSeg (pcfgs (F := F)) adm' (pdats m) () defs₀ 𝒱₀ L lv 15 :=
  regOf m 15 launch15 (W31 m) (W32 m) (fun c => body_obligation15 (fun c b => W31 m c b) c) rfl (fun _ _ => rfl) (fun _ _ => rfl) (fun _ _ => rfl)
    (fun _ _ => rfl) (hin15 (fun c b => W31 m c b)) (hout15 (fun c b => W31 m c b)) (hF15 m) (hrest15 m)

set_option backward.isDefEq.respectTransparency.types false in

theorem run_main (ρ : Dev nD → PrngReg) :
    θ_run defs (onTc (τ := τ) (main (F := F))) ⟨m, fun _ => 0, ρ⟩ (fun r => ∀ c : Dev nD,
      r.2.mem ((c.tc : Thread nD τ).loc main_v100) = W33 m c main_v100
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) := by
  have h := run_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)
    (reg9 m) (fun c => by rw [V19_eq]; exact .rfl) (fun c => by rw [V20_eq]; exact .rfl)
    (reg10 m) (fun c => by rw [V21_eq]; exact .rfl) (fun c => by rw [V22_eq]; exact .rfl)
    (reg11 m) (fun c => by rw [V23_eq]; exact .rfl) (fun c => by rw [V24_eq]; exact .rfl)
    (reg12 m) (fun c => by rw [V25_eq]; exact .rfl) (fun c => by rw [V26_eq]; exact .rfl)
    (reg13 m) (fun c => by rw [V27_eq]; exact .rfl) (fun c => by rw [V28_eq]; exact .rfl)
    (reg14 m) (fun c => by rw [V29_eq]; exact .rfl) (fun c => by rw [V30_eq]; exact .rfl)
    (reg15 m) (fun c => by rw [V31_eq]; exact .rfl) (fun c => by rw [V32_eq]; exact .rfl)
  refine (θ_run defs _ _).mono (fun r hr c => ?_) h
  have := hr c
  rw [V33_eq] at this
  exact this

end Cert.KernelIdeal.Gen

end
-- ==== Proof.Spec.lean ====
import Idealize.ShloMosaic.PureOps.Ideal
import Idealize.ShloMosaic.Lib.ValueIdx

noncomputable section

namespace Cert.Spec

open Idealize.ShloMosaic

abbrev Mat (R C : Nat) := Fin R → Fin C → EReal

abbrev Row (C : Nat) := Fin C → EReal

def toMat {R C : Nat} (x : (⟨2, ![R, C]⟩ : Shape).Idx → EReal) : Mat R C := fun r c => x (ValueIdx.ix2 r c)

def toRow {C : Nat} (x : (⟨1, ![C]⟩ : Shape).Idx → EReal) : Row C := fun c => x (ValueIdx.ix1 c)

def mm {R K C : Nat} (A : Mat R K) (B : Mat K C) : Mat R C := fun r c => ∑ k : Fin K, A r k * B k c

def lin {R K C : Nat} (A : Mat R K) (B : Mat K C) (b : Row C) : Mat R C := fun r c => mm A B r c + b c

def relu {R C : Nat} (X : Mat R C) : Mat R C := fun r c => max (X r c) 0

def sigm {R C : Nat} (X : Mat R C) : Mat R C := fun r c => Ideal.logistic (X r c)

def gate {R C : Nat} (X : Mat R C) (a : Mat R 1) : Mat R C := fun r c => X r c * a r 0

def tenth : EReal := Ideal.ofBits .f32 0x3DCCCCCD#32

def three : EReal := Ideal.ofBits .f32 0x40400000#32

def negInf : EReal := Ideal.ofBits .f32 0xFF800000#32

def zero32 : EReal := Ideal.ofBits .f32 0x00000000#32

def bump {R C : Nat} (X Y : Mat R C) : Mat R C := fun r c => X r c + tenth * Y r c

def cat2 {R : Nat} (X Y : Mat R 128) : Mat R 256 := fun r c =>
  if h : c.val < 128 then X r ⟨c.val, h⟩ else Y r ⟨c.val - 128, by omega⟩

def cat5 {R : Nat} (X0 X1 X2 X3 X4 : Mat R 128) : Mat R 640 := fun r c =>
  if h0 : c.val < 128 then X0 r ⟨c.val, h0⟩
  else if h1 : c.val < 256 then X1 r ⟨c.val - 128, by omega⟩
  else if h2 : c.val < 384 then X2 r ⟨c.val - 256, by omega⟩
  else if h3 : c.val < 512 then X3 r ⟨c.val - 384, by omega⟩
  else X4 r ⟨c.val - 512, by omega⟩

def rowMax {R : Nat} (X : Mat R 128) (r : Fin R) : EReal :=
  max negInf ((Finset.univ : Finset (Fin 128)).fold max negInf (fun k => X r k))

def smax {R : Nat} (X : Mat R 128) : Mat R 128 := fun r c =>
  Ideal.div (Ideal.exp (X r c - rowMax X r)) (zero32 + ∑ k : Fin 128, Ideal.exp (X r k - rowMax X r))

def avg3 {R C : Nat} (X Y Z : Mat R C) : Mat R C := fun r c => Ideal.div (X r c + Y r c + Z r c) three

structure Args where
  ui : Mat 8192 4096
  iu : Mat 4096 8192
  imf : Mat 4096 4096
  txf : Mat 4096 768
  usf : Mat 8192 768
  ttf : Mat 4096 768
  wImg : Mat 4096 128
  bImg : Row 128
  wTxt : Mat 768 128
  bTxt : Row 128
  wUsr : Mat 768 128
  bUsr : Row 128
  wTtl : Mat 768 128
  bTtl : Row 128
  uEmb : Mat 8192 128
  iEmb : Mat 4096 128
  aiw1 : Mat 128 64
  aib1 : Row 64
  aiw2 : Mat 64 1
  aib2 : Row 1
  atw1 : Mat 128 64
  atb1 : Row 64
  atw2 : Mat 64 1
  atb2 : Row 1
  fiw1 : Mat 256 128
  fib1 : Row 128
  fiw2 : Mat 128 128
  fib2 : Row 128
  efw1 : Mat 256 128
  efb1 : Row 128
  efw2 : Mat 128 128
  efb2 : Row 128

namespace Args

variable (a : Args)

def img : Mat 4096 128 := lin a.imf a.wImg a.bImg
def txt : Mat 4096 128 := lin a.txf a.wTxt a.bTxt
def usr : Mat 8192 128 := lin a.usf a.wUsr a.bUsr
def ttl : Mat 4096 128 := lin a.ttf a.wTtl a.bTtl

def hImg : Mat 4096 64 := relu (lin a.img a.aiw1 a.aib1)
def aImg : Mat 4096 1 := sigm (lin a.hImg a.aiw2 a.aib2)
def eImg : Mat 4096 128 := gate a.img a.aImg
def hTxt : Mat 4096 64 := relu (lin a.txt a.atw1 a.atb1)
def aTxt : Mat 4096 1 := sigm (lin a.hTxt a.atw2 a.atb2)
def eTxt : Mat 4096 128 := gate a.txt a.aTxt

def h1 : Mat 4096 128 := relu (lin (cat2 a.eImg a.eTxt) a.fiw1 a.fib1)
def inter : Mat 4096 128 := lin a.h1 a.fiw2 a.fib2
def eImg2 : Mat 4096 128 := bump a.eImg a.inter
def eTxt2 : Mat 4096 128 := bump a.eTxt a.inter
def h2 : Mat 4096 128 := relu (lin (cat2 a.eImg2 a.eTxt2) a.efw1 a.efb1)
def fus : Mat 4096 128 := lin a.h2 a.efw2 a.efb2
def imgF : Mat 4096 128 := bump a.eImg2 a.fus
def txtF : Mat 4096 128 := bump a.eTxt2 a.fus

def imageUser : Mat 8192 128 := mm a.ui a.imgF
def imageItem : Mat 4096 128 := mm a.iu a.imageUser
def textUser : Mat 8192 128 := mm a.ui a.txtF
def textItem : Mat 4096 128 := mm a.iu a.textUser
def titleUser : Mat 8192 128 := mm a.ui a.ttl
def titleItem : Mat 4096 128 := mm a.iu a.titleUser
def itemProf : Mat 4096 128 := mm a.iu a.usr
def userProf : Mat 8192 128 := mm a.ui a.itemProf
def u1 : Mat 8192 128 := mm a.ui a.iEmb
def i1 : Mat 4096 128 := mm a.iu a.u1
def u2 : Mat 8192 128 := smax (mm a.ui a.i1)
def i2 : Mat 4096 128 := smax (mm a.iu a.u2)
def uFinal : Mat 8192 128 := avg3 a.uEmb a.u1 a.u2
def iFinal : Mat 4096 128 := avg3 a.iEmb a.i1 a.i2

def outU : Mat 8192 640 := cat5 a.uFinal a.userProf a.imageUser a.textUser a.titleUser
def outI : Mat 4096 640 := cat5 a.iFinal a.itemProf a.imageItem a.textItem a.titleItem

def result : Mat 12288 640 := fun r c =>
  if h : r.val < 8192 then a.outU ⟨r.val, h⟩ c else a.outI ⟨r.val - 8192, by omega⟩ c

end Args

end Cert.Spec

end
-- ==== Proof.KI.Args.lean ====
import proofs.«103213_j15710990369585_1_alg».proof.KernelIdeal
import proofs.«103213_j15710990369585_1_alg».proof.Proof.Spec

noncomputable section

namespace Cert.KernelIdeal

open Idealize.ShloMosaic Idealize.ShloMosaic.TcCoe Idealize.SL.Sem

def specArgs (m : (ℓ : Loc nD τ sig) → Buf (Elt Ideal) ℓ) (c : Dev nD) : Cert.Spec.Args where
  ui := Cert.Spec.toMat (m ((c.tc : Thread nD τ).loc main_arg0))
  iu := Cert.Spec.toMat (m ((c.tc : Thread nD τ).loc main_arg1))
  imf := Cert.Spec.toMat (m ((c.tc : Thread nD τ).loc main_arg6))
  txf := Cert.Spec.toMat (m ((c.tc : Thread nD τ).loc main_arg7))
  usf := Cert.Spec.toMat (m ((c.tc : Thread nD τ).loc main_arg8))
  ttf := Cert.Spec.toMat (m ((c.tc : Thread nD τ).loc main_arg9))
  wImg := Cert.Spec.toMat (m ((c.tc : Thread nD τ).loc main_arg10))
  bImg := Cert.Spec.toRow (m ((c.tc : Thread nD τ).loc main_arg11))
  wTxt := Cert.Spec.toMat (m ((c.tc : Thread nD τ).loc main_arg12))
  bTxt := Cert.Spec.toRow (m ((c.tc : Thread nD τ).loc main_arg13))
  wUsr := Cert.Spec.toMat (m ((c.tc : Thread nD τ).loc main_arg14))
  bUsr := Cert.Spec.toRow (m ((c.tc : Thread nD τ).loc main_arg15))
  wTtl := Cert.Spec.toMat (m ((c.tc : Thread nD τ).loc main_arg16))
  bTtl := Cert.Spec.toRow (m ((c.tc : Thread nD τ).loc main_arg17))
  uEmb := Cert.Spec.toMat (m ((c.tc : Thread nD τ).loc main_arg18))
  iEmb := Cert.Spec.toMat (m ((c.tc : Thread nD τ).loc main_arg19))
  aiw1 := Cert.Spec.toMat (m ((c.tc : Thread nD τ).loc main_arg20))
  aib1 := Cert.Spec.toRow (m ((c.tc : Thread nD τ).loc main_arg21))
  aiw2 := Cert.Spec.toMat (m ((c.tc : Thread nD τ).loc main_arg22))
  aib2 := Cert.Spec.toRow (m ((c.tc : Thread nD τ).loc main_arg23))
  atw1 := Cert.Spec.toMat (m ((c.tc : Thread nD τ).loc main_arg24))
  atb1 := Cert.Spec.toRow (m ((c.tc : Thread nD τ).loc main_arg25))
  atw2 := Cert.Spec.toMat (m ((c.tc : Thread nD τ).loc main_arg26))
  atb2 := Cert.Spec.toRow (m ((c.tc : Thread nD τ).loc main_arg27))
  fiw1 := Cert.Spec.toMat (m ((c.tc : Thread nD τ).loc main_arg28))
  fib1 := Cert.Spec.toRow (m ((c.tc : Thread nD τ).loc main_arg29))
  fiw2 := Cert.Spec.toMat (m ((c.tc : Thread nD τ).loc main_arg30))
  fib2 := Cert.Spec.toRow (m ((c.tc : Thread nD τ).loc main_arg31))
  efw1 := Cert.Spec.toMat (m ((c.tc : Thread nD τ).loc main_arg32))
  efb1 := Cert.Spec.toRow (m ((c.tc : Thread nD τ).loc main_arg33))
  efw2 := Cert.Spec.toMat (m ((c.tc : Thread nD τ).loc main_arg34))
  efb2 := Cert.Spec.toRow (m ((c.tc : Thread nD τ).loc main_arg35))

end Cert.KernelIdeal

end
-- ==== Proof.KI.ValLib.lean ====
import Idealize.ShloMosaic.Lib.StackMember
import Idealize.ShloMosaic.Lib.ValueLayout
import Idealize.ShloMosaic.PureOps.Ideal.Laws

noncomputable section

namespace Cert.KernelIdeal.Gen

open Idealize.ShloMosaic Idealize.ShloMosaic.ValueIdx
open scoped BigOperators

/-- Every index of a matrix is a pair of coordinates. -/
theorem funext_ix2 {n0 n1 : Nat} {α : Type} {X Y : (⟨2, ![n0, n1]⟩ : Shape).Idx → α}
    (h : ∀ (p : Fin n0) (q : Fin n1), X (ix2 p q) = Y (ix2 p q)) : X = Y :=
  funext fun j => by rw [eq_ix2 j]; exact h _ _

/-- Into a zero accumulator the product of an m×k by a k×n matrix is, at (p, q), the sum over the contracted coordinate. -/
theorem mm_apply {m k n : Nat} {φ₁ φ₂ : FTy} (xa : FVec Ideal ⟨2, ![m, k]⟩ φ₁) (xb : FVec Ideal ⟨2, ![k, n]⟩ φ₂)
    (p : Fin m) (q : Fin n) :
    matmul (DotDims.plain m k n) none xa xb (constant ⟨2, ![m, n]⟩ .f32 0#32) (ix2 p q)
      = ∑ c : Fin k, xa (ix2 p c) * xb (ix2 c q) :=
  (Ideal.matmul_constant_zero_apply _ none xa xb _).trans
    ((Ideal.dotGeneral_apply _ none default xa xb _).symm.trans (StackMember.dotGeneral_plain_apply none xa xb p q))

/-- A linear layer's block at (p, q): zero, plus the product, plus the bias row, is the sum over the contracted coordinate plus the bias at q. -/
theorem linear_apply {m k n : Nat} (xa : FVec Ideal ⟨2, ![m, k]⟩ .f32) (xb : FVec Ideal ⟨2, ![k, n]⟩ .f32)
    (xc : FVec Ideal ⟨2, ![1, n]⟩ .f32) (h : FTy.bits .bf16 < FTy.bits .f32)
    (hb : (⟨2, ![1, n]⟩ : Shape).Broadcasts ⟨2, ![m, n]⟩) (p : Fin m) (q : Fin n) :
    addf (addf (broadcast ⟨2, ![m, n]⟩ (FloatOps.ofBits .f32 0#32))
        (matmul (DotDims.plain m k n) none (truncf .bf16 xa h) (truncf .bf16 xb h) (constant ⟨2, ![m, n]⟩ .f32 0#32)))
      (broadcastTo ⟨2, ![m, n]⟩ xc hb) (ix2 p q)
      = (∑ c : Fin k, xa (ix2 p c) * xb (ix2 c q)) + xc (ix2 (0 : Fin 1) q) :=
  congrArg₂ (· + ·) ((congrArg₂ (· + ·) Ideal.ofBits_zero_f32 (mm_apply _ _ p q)).trans (zero_add _))
    (broadcastTo_1b_ab_apply xc hb p q)

end Cert.KernelIdeal.Gen

end
-- ==== Proof.KI.Val0.lean ====
import proofs.«103213_j15710990369585_1_alg».proof.Proof.KI.Defs0
import proofs.«103213_j15710990369585_1_alg».proof.Proof.KI.ValLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx

theorem pay1_0_apply (p : Fin 1024) (q : Fin 128) : (k0_pay1 (F := Ideal)) (ix2 p q) = 0 := by
  unfold k0_pay1
  simp only [shapeCast_self]
  exact Ideal.ofBits_zero_f32

theorem pay2_0_apply (xa : Vec Ideal S1024x1024 .f32) (xb e : Vec Ideal S1024x128 .f32) (p : Fin 1024) (q : Fin 128) :
    k0_pay2 xa xb e (ix2 p q) = e (ix2 p q) + ∑ k : Fin 1024, xa (ix2 p k) * xb (ix2 k q) := by
  unfold k0_pay2
  simp only [shapeCast_self]
  exact congrArg (e (ix2 p q) + ·) (mm_apply _ _ p q)

theorem pay3_0_apply (e : Vec Ideal S1024x128 .f32) (xc : Vec Ideal S1x128 .f32) (p : Fin 1024) (q : Fin 128) :
    k0_pay3 e xc (ix2 p q) = e (ix2 p q) + xc (ix2 0 q) := by
  unfold k0_pay3
  simp only [shapeCast_self]
  exact congrArg (e (ix2 p q) + ·) (broadcastTo_1b_ab_apply xc _ p q)

theorem idx0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

section
variable (V : (c : Dev nD) → (b : Ref sig .tc) → Buf (Elt Ideal) ((c : Thread nD τ).loc b))

abbrev lhs0 (c : Dev nD) : S4096x4096.Idx → EReal := V c (Pipeline.arrRef spec0 0)
abbrev rhs0 (c : Dev nD) : S4096x128.Idx → EReal := V c (Pipeline.arrRef spec0 1)
abbrev bias0 (c : Dev nD) : S1x128.Idx → EReal := V c (Pipeline.arrRef spec0 2)

def term0 (c : Dev nD) (r : Fin 4096) (q : Fin 128) (k : ℕ) : EReal :=
  if h : k < 4096 then lhs0 V c (ix2 r ⟨k, h⟩) * rhs0 V c (ix2 ⟨k, h⟩ q) else 0

/-- One K-step adds the block's 1024 terms of entry (r, q) of the whole product to what was accumulated. -/
theorem kstep0 (c : Dev nD) (t : Fin cfg0.N) (s : ℕ) (hs : t.val % 4 = s) (e : Vec Ideal S1024x128 .f32) (p : Fin 1024) (q : Fin 128)
    (r : Fin 4096) (hr : r.val = 1024 * (t.val / 4) + p.val) (he : e (ix2 p q) = ∑ k ∈ Finset.range (1024 * s), term0 V c r q k) :
    k0_pay2 (iblk0 V c 0 t) (iblk0 V c 1 t) e (ix2 p q) = ∑ k ∈ Finset.range (1024 * (s + 1)), term0 V c r q k := by
  subst hs
  obtain ⟨e0, e1, e2, e3, -⟩ := idx0 t
  rw [pay2_0_apply, he, Nat.mul_succ, Finset.sum_range_add]
  refine congrArg (_ + ·) ?_
  rw [Finset.sum_range]
  refine Finset.sum_congr rfl fun k _ => ?_
  have hk : 1024 * (t.val % 4) + k.val < 4096 := by have := k.isLt; omega
  unfold term0 iblk0
  rw [dif_pos hk, View.read_apply, View.read_apply]
  show lhs0 V c _ * rhs0 V c _ = lhs0 V c _ * rhs0 V c _
  exact congrArg₂ (fun x y => lhs0 V c x * rhs0 V c y)
    (Shape.idx_ext₂ (by show win0_0.index t (0 : Fin 2) * 1024 + 1 * p.val = r.val; omega)
      (by show win0_0.index t (1 : Fin 2) * 1024 + 1 * k.val = 1024 * (t.val % 4) + k.val; omega))
    (Shape.idx_ext₂ (by show win0_1.index t (0 : Fin 2) * 1024 + 1 * k.val = 1024 * (t.val % 4) + k.val; omega)
      (by show win0_1.index t (1 : Fin 2) * 128 + 1 * q.val = q.val; omega))

/-- After the body at position n the accumulator holds the first 1024·(n % 4 + 1) terms of its row block's entries: by induction on the position. -/
theorem accAt0_apply (c : Dev nD) : ∀ (n : ℕ) (hn : n < cfg0.N) (p : Fin 1024) (q : Fin 128) (r : Fin 4096),
    r.val = 1024 * (n / 4) + p.val →
    accAt0 V c n hn (ix2 p q) = ∑ k ∈ Finset.range (1024 * (n % 4 + 1)), term0 V c r q k
  | 0, hn, p, q, r, hr => by
    rw [accAt0]
    exact kstep0 V c ⟨0, hn⟩ 0 rfl _ p q r hr ((pay1_0_apply p q).trans (Finset.sum_range_zero _).symm)
  | n + 1, hn, p, q, r, hr => by
    rw [accAt0]
    by_cases h0 : (n + 1) % 4 = 0
    · rw [if_pos h0]
      exact kstep0 V c ⟨n + 1, hn⟩ ((n + 1) % 4) rfl _ p q r hr (by
        rw [h0]
        exact (pay1_0_apply p q).trans (Finset.sum_range_zero _).symm)
    · rw [if_neg h0]
      exact kstep0 V c ⟨n + 1, hn⟩ ((n + 1) % 4) rfl _ p q r hr (by
        rw [show (n + 1) % 4 = n % 4 + 1 by omega]
        exact accAt0_apply c n _ p q r (by omega))

def whole0 (c : Dev nD) : S4096x128.Idx → EReal := fun i =>
  (∑ k : Fin 4096, lhs0 V c (ix2 (i 0) k) * rhs0 V c (ix2 k (i 1))) + bias0 V c (ix2 0 (i 1))

theorem out0_apply (c : Dev nD) (t : Fin cfg0.N) (h3 : t.val % 4 = 3) (y : S1024x128.Idx) (i : S4096x128.Idx)
    (h0 : (i 0).val = 1024 * (t.val / 4) + (y 0).val) (h1 : (i 1).val = (y 1).val) :
    out0 V c t y = whole0 V c i := by
  obtain ⟨p, q, rfl⟩ : ∃ (p : Fin 1024) (q : Fin 128), y = ix2 p q := ⟨y 0, y 1, eq_ix2 y⟩
  obtain ⟨-, -, -, -, e0, e1, -⟩ := idx0 t
  have hq : i 1 = q := Fin.ext h1
  unfold out0 whole0
  rw [pay3_0_apply, accAt0_apply V c t.val t.isLt p q (i 0) h0, h3, Finset.sum_range, hq]
  refine congrArg₂ (· + ·) (Finset.sum_congr rfl fun k _ => ?_) ?_
  · unfold term0
    rw [dif_pos k.isLt]
  · unfold iblk0
    rw [View.read_apply]
    show V c (Pipeline.arrRef spec0 2) _ = V c (Pipeline.arrRef spec0 2) _
    exact congrArg _ (Shape.idx_ext₂ (by show win0_2.index t (0 : Fin 2) * 1 + 1 * 0 = 0; omega)
      (by show win0_2.index t (1 : Fin 2) * 128 + 1 * q.val = q.val; omega))

/-- Row r of the output array lies in the block of the last K-step of row block r / 1024. -/
theorem cover0 (i : S4096x128.Idx) :
    ∃ t : Fin cfg0.N, (cfg0.win 3).flush t = true ∧ i ∈ ((cfg0.win 3).blk t).view.set := by
  have hi0 : (i 0).val < 4096 := idx2_lt0 i
  have hi1 : (i 1).val < 128 := idx2_lt1 i
  obtain ⟨t, h3, hd⟩ : ∃ t : Fin cfg0.N, t.val % 4 = 3 ∧ t.val / 4 = (i 0).val / 1024 :=
    ⟨⟨4 * ((i 0).val / 1024) + 3, by show _ < grid0.N; rw [N_0]; omega⟩,
      by show (4 * ((i 0).val / 1024) + 3) % 4 = 3; omega,
      by show (4 * ((i 0).val / 1024) + 3) / 4 = _; omega⟩
  obtain ⟨-, -, -, -, -, -, e0, e1⟩ := idx0 t
  refine ⟨t, (flush0_3 t).mpr h3, ?_⟩
  show i ∈ ((View.whole (Pipeline.arrRef spec0 3)).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- At the last K-steps the output blocks are blocks of the whole product plus the bias row, and they tile the output array. -/
theorem final0_of (c : Dev nD) (dat : Dat τ (Elt Ideal) Unit ℕ (UR sig nD τ) ℕ cfg0 c)
    (hA : ∀ w, dat.A w = V c (Pipeline.arrRef spec0 w))
    (hafter : ∀ t : Fin cfg0.N, dat.after 3 t = out0 V c t)
    (r : Fin 4096) (q : Fin 128) :
    (dat.arrAt 3 cfg0.N : S4096x128.Idx → EReal) (ValueIdx.ix2 r q)
      = (∑ k : Fin 4096, lhs0 V c (ValueIdx.ix2 r k) * rhs0 V c (ValueIdx.ix2 k q)) + bias0 V c (ValueIdx.ix2 0 q) :=
  congrFun (dat.arrAt_eq_of_cover 3 (whole0 V c) (fun t hf => by
    obtain ⟨-, -, -, -, -, -, e0, e1⟩ := idx0 t
    show (cfg0.win 3).cut (grid0.coords t) (dat.after 3 t) = _
    rw [hafter]
    funext j
    rw [View.read_apply]
    exact out0_apply V c t ((flush0_3 t).mp hf) j _
      (by show win0_3.index t (0 : Fin 2) * 1024 + 1 * (j 0).val = 1024 * (t.val / 4) + (j 0).val; omega)
      (by show win0_3.index t (1 : Fin 2) * 128 + 1 * (j 1).val = (j 1).val; omega)) cover0) _

end

end Cert.KernelIdeal.Gen

end
-- ==== Proof.KI.Val1.lean ====
import proofs.«103213_j15710990369585_1_alg».proof.Proof.KI.Defs1
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block of the layer is row p of the first block against column q of the second, plus the bias at q. -/
theorem out1_apply (xa : Vec Ideal S1024x768 .f32) (xb : Vec Ideal S768x128 .f32) (xc : Vec Ideal S1x128 .f32) (p : Fin 1024) (q : Fin 128) :
    out1 xa xb xc (ix2 p q) = (∑ k : Fin 768, xa (ix2 p k) * xb (ix2 k q)) + xc (ix2 (0 : Fin 1) q) := by
  unfold out1 acc1 k1_pay3 k1_pay2 k1_pay1
  simp only [shapeCast_self]
  exact linear_apply xa xb xc _ _ p q

section Region
variable (V : (c : Dev nD) → (b : Ref sig .tc) → Buf (Elt Ideal) ((c : Thread nD τ).loc b))

abbrev aArr1 (c : Dev nD) : Vec Ideal S4096x768 .f32 := V c (Pipeline.arrRef spec1 0)
abbrev bArr1 (c : Dev nD) : Vec Ideal S768x128 .f32 := V c (Pipeline.arrRef spec1 1)
abbrev cArr1 (c : Dev nD) : Vec Ideal S1x128 .f32 := V c (Pipeline.arrRef spec1 2)

theorem idx_facts1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (c : Dev nD) (dat : Dat τ (Elt Ideal) Unit ℕ (UR sig nD τ) ℕ cfg1 c)

abbrev oArr1 : Vec Ideal S4096x128 .f32 := dat.arrAt 3 cfg1.N

/-- Row r is row r % 1024 of block r / 1024, and that block is the layer on the same rows of A. -/
theorem final1_of
    (hA : ∀ w, dat.A w = V c (Pipeline.arrRef spec1 w))
    (hafter : ∀ t, dat.after 3 t = out1 (iblk1 V c 0 t) (iblk1 V c 1 t) (iblk1 V c 2 t))
    (r : Fin 4096) (q : Fin 128) :
    oArr1 c dat (ix2 r q)
      = (∑ k : Fin 768, aArr1 V c (ix2 r k) * bArr1 V c (ix2 k q)) + cArr1 V c (ix2 (0 : Fin 1) q) := by
  obtain ⟨s, hs⟩ : ∃ s : Fin grid1.N, s.val = r.val / 1024 := ⟨⟨_, by have := N_1; omega⟩, rfl⟩
  obtain ⟨-, -, -, -, -, -, e0, e1⟩ := idx_facts1 s
  refine dat.arrAt_apply_of_mem 3 (fun i => ((∑ k : Fin 768, aArr1 V c (ix2 (i 0) k) * bArr1 V c (ix2 k (i 1))) + cArr1 V c (ix2 (0 : Fin 1) (i 1)) : EReal))
    (fun t _ => funext_ix2 (n0 := 1024) (n1 := 128) fun p q => ?_) _ s (ix2 r q) s.isLt (flush1_3 s) ?_
  · obtain ⟨a0, a1, b0, b1, c0, c1, o0, o1⟩ := idx_facts1 t
    show dat.after 3 t (ix2 p q) = _
    rw [hafter t, out1_apply]
    exact congrArg₂ (· + ·) (Finset.sum_congr rfl fun k _ => congrArg₂ (· * ·)
        (congrArg (V c _) (Shape.idx_ext₂ (congrArg (· * 1024 + 1 * p.val) (a0.trans o0.symm)) (win1_0.rect_emb_val_of_index_zero t 1 a1 _)))
        (congrArg (V c _) (Shape.idx_ext₂ (win1_1.rect_emb_val_of_index_zero t 0 b0 _) (congrArg (· * 128 + 1 * q.val) (b1.trans o1.symm)))))
      (congrArg (V c _) (Shape.idx_ext₂ (win1_2.rect_emb_val_of_index_zero t 0 c0 _) (congrArg (· * 128 + 1 * q.val) (c1.trans o1.symm))))
  · refine Finset.mem_map.mpr ⟨ix2 (⟨r.val % 1024, Nat.mod_lt _ (by decide)⟩ : Fin 1024) q, Finset.mem_univ _,
      Shape.idx_ext₂ ?_ (win1_3.rect_emb_val_of_index_zero s 1 e1 _)⟩
    show win1_3.index s 0 * 1024 + 1 * (r.val % 1024) = r.val
    rw [e0]
    omega

end Region

end Cert.KernelIdeal.Gen

end
-- ==== Proof.KI.Val2.lean ====
import proofs.«103213_j15710990369585_1_alg».proof.Proof.KI.Defs2
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block of the layer is row p of the first block against column q of the second, plus the bias at q. -/
theorem out2_apply (xa : Vec Ideal S1024x768 .f32) (xb : Vec Ideal S768x128 .f32) (xc : Vec Ideal S1x128 .f32) (p : Fin 1024) (q : Fin 128) :
    out2 xa xb xc (ix2 p q) = (∑ k : Fin 768, xa (ix2 p k) * xb (ix2 k q)) + xc (ix2 (0 : Fin 1) q) := by
  unfold out2 acc2 k2_pay3 k2_pay2 k2_pay1
  simp only [shapeCast_self]
  exact linear_apply xa xb xc _ _ p q

section Region
variable (V : (c : Dev nD) → (b : Ref sig .tc) → Buf (Elt Ideal) ((c : Thread nD τ).loc b))

abbrev aArr2 (c : Dev nD) : Vec Ideal S8192x768 .f32 := V c (Pipeline.arrRef spec2 0)
abbrev bArr2 (c : Dev nD) : Vec Ideal S768x128 .f32 := V c (Pipeline.arrRef spec2 1)
abbrev cArr2 (c : Dev nD) : Vec Ideal S1x128 .f32 := V c (Pipeline.arrRef spec2 2)

theorem idx_facts2 : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (c : Dev nD) (dat : Dat τ (Elt Ideal) Unit ℕ (UR sig nD τ) ℕ cfg2 c)

abbrev oArr2 : Vec Ideal S8192x128 .f32 := dat.arrAt 3 cfg2.N

/-- Row r is row r % 1024 of block r / 1024, and that block is the layer on the same rows of A. -/
theorem final2_of
    (hA : ∀ w, dat.A w = V c (Pipeline.arrRef spec2 w))
    (hafter : ∀ t, dat.after 3 t = out2 (iblk2 V c 0 t) (iblk2 V c 1 t) (iblk2 V c 2 t))
    (r : Fin 8192) (q : Fin 128) :
    oArr2 c dat (ix2 r q)
      = (∑ k : Fin 768, aArr2 V c (ix2 r k) * bArr2 V c (ix2 k q)) + cArr2 V c (ix2 (0 : Fin 1) q) := by
  obtain ⟨s, hs⟩ : ∃ s : Fin grid2.N, s.val = r.val / 1024 := ⟨⟨_, by have := N_2; omega⟩, rfl⟩
  obtain ⟨-, -, -, -, -, -, e0, e1⟩ := idx_facts2 s
  refine dat.arrAt_apply_of_mem 3 (fun i => ((∑ k : Fin 768, aArr2 V c (ix2 (i 0) k) * bArr2 V c (ix2 k (i 1))) + cArr2 V c (ix2 (0 : Fin 1) (i 1)) : EReal))
    (fun t _ => funext_ix2 (n0 := 1024) (n1 := 128) fun p q => ?_) _ s (ix2 r q) s.isLt (flush2_3 s) ?_
  · obtain ⟨a0, a1, b0, b1, c0, c1, o0, o1⟩ := idx_facts2 t
    show dat.after 3 t (ix2 p q) = _
    rw [hafter t, out2_apply]
    exact congrArg₂ (· + ·) (Finset.sum_congr rfl fun k _ => congrArg₂ (· * ·)
        (congrArg (V c _) (Shape.idx_ext₂ (congrArg (· * 1024 + 1 * p.val) (a0.trans o0.symm)) (win2_0.rect_emb_val_of_index_zero t 1 a1 _)))
        (congrArg (V c _) (Shape.idx_ext₂ (win2_1.rect_emb_val_of_index_zero t 0 b0 _) (congrArg (· * 128 + 1 * q.val) (b1.trans o1.symm)))))
      (congrArg (V c _) (Shape.idx_ext₂ (win2_2.rect_emb_val_of_index_zero t 0 c0 _) (congrArg (· * 128 + 1 * q.val) (c1.trans o1.symm))))
  · refine Finset.mem_map.mpr ⟨ix2 (⟨r.val % 1024, Nat.mod_lt _ (by decide)⟩ : Fin 1024) q, Finset.mem_univ _,
      Shape.idx_ext₂ ?_ (win2_3.rect_emb_val_of_index_zero s 1 e1 _)⟩
    show win2_3.index s 0 * 1024 + 1 * (r.val % 1024) = r.val
    rw [e0]
    omega

end Region

end Cert.KernelIdeal.Gen

end
-- ==== Proof.KI.Val3.lean ====
import proofs.«103213_j15710990369585_1_alg».proof.Proof.KI.Defs3
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block of the layer is row p of the first block against column q of the second, plus the bias at q. -/
theorem out3_apply (xa : Vec Ideal S1024x768 .f32) (xb : Vec Ideal S768x128 .f32) (xc : Vec Ideal S1x128 .f32) (p : Fin 1024) (q : Fin 128) :
    out3 xa xb xc (ix2 p q) = (∑ k : Fin 768, xa (ix2 p k) * xb (ix2 k q)) + xc (ix2 (0 : Fin 1) q) := by
  unfold out3 acc3 k3_pay3 k3_pay2 k3_pay1
  simp only [shapeCast_self]
  exact linear_apply xa xb xc _ _ p q

section Region
variable (V : (c : Dev nD) → (b : Ref sig .tc) → Buf (Elt Ideal) ((c : Thread nD τ).loc b))

abbrev aArr3 (c : Dev nD) : Vec Ideal S4096x768 .f32 := V c (Pipeline.arrRef spec3 0)
abbrev bArr3 (c : Dev nD) : Vec Ideal S768x128 .f32 := V c (Pipeline.arrRef spec3 1)
abbrev cArr3 (c : Dev nD) : Vec Ideal S1x128 .f32 := V c (Pipeline.arrRef spec3 2)

theorem idx_facts3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (c : Dev nD) (dat : Dat τ (Elt Ideal) Unit ℕ (UR sig nD τ) ℕ cfg3 c)

abbrev oArr3 : Vec Ideal S4096x128 .f32 := dat.arrAt 3 cfg3.N

/-- Row r is row r % 1024 of block r / 1024, and that block is the layer on the same rows of A. -/
theorem final3_of
    (hA : ∀ w, dat.A w = V c (Pipeline.arrRef spec3 w))
    (hafter : ∀ t, dat.after 3 t = out3 (iblk3 V c 0 t) (iblk3 V c 1 t) (iblk3 V c 2 t))
    (r : Fin 4096) (q : Fin 128) :
    oArr3 c dat (ix2 r q)
      = (∑ k : Fin 768, aArr3 V c (ix2 r k) * bArr3 V c (ix2 k q)) + cArr3 V c (ix2 (0 : Fin 1) q) := by
  obtain ⟨s, hs⟩ : ∃ s : Fin grid3.N, s.val = r.val / 1024 := ⟨⟨_, by have := N_3; omega⟩, rfl⟩
  obtain ⟨-, -, -, -, -, -, e0, e1⟩ := idx_facts3 s
  refine dat.arrAt_apply_of_mem 3 (fun i => ((∑ k : Fin 768, aArr3 V c (ix2 (i 0) k) * bArr3 V c (ix2 k (i 1))) + cArr3 V c (ix2 (0 : Fin 1) (i 1)) : EReal))
    (fun t _ => funext_ix2 (n0 := 1024) (n1 := 128) fun p q => ?_) _ s (ix2 r q) s.isLt (flush3_3 s) ?_
  · obtain ⟨a0, a1, b0, b1, c0, c1, o0, o1⟩ := idx_facts3 t
    show dat.after 3 t (ix2 p q) = _
    rw [hafter t, out3_apply]
    exact congrArg₂ (· + ·) (Finset.sum_congr rfl fun k _ => congrArg₂ (· * ·)
        (congrArg (V c _) (Shape.idx_ext₂ (congrArg (· * 1024 + 1 * p.val) (a0.trans o0.symm)) (win3_0.rect_emb_val_of_index_zero t 1 a1 _)))
        (congrArg (V c _) (Shape.idx_ext₂ (win3_1.rect_emb_val_of_index_zero t 0 b0 _) (congrArg (· * 128 + 1 * q.val) (b1.trans o1.symm)))))
      (congrArg (V c _) (Shape.idx_ext₂ (win3_2.rect_emb_val_of_index_zero t 0 c0 _) (congrArg (· * 128 + 1 * q.val) (c1.trans o1.symm))))
  · refine Finset.mem_map.mpr ⟨ix2 (⟨r.val % 1024, Nat.mod_lt _ (by decide)⟩ : Fin 1024) q, Finset.mem_univ _,
      Shape.idx_ext₂ ?_ (win3_3.rect_emb_val_of_index_zero s 1 e1 _)⟩
    show win3_3.index s 0 * 1024 + 1 * (r.val % 1024) = r.val
    rw [e0]
    omega

end Region

end Cert.KernelIdeal.Gen

end
-- ==== Proof.KI.Val4.lean ====
import proofs.«103213_j15710990369585_1_alg».proof.Proof.KI.Defs4
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block is the larger of zero and row p of the first block against column q of the second plus the bias at q. -/
theorem out4_apply (xa : Vec Ideal S1024x128 .f32) (xb : Vec Ideal S128x64 .f32) (xc : Vec Ideal S1x64 .f32) (p : Fin 1024) (q : Fin 64) :
    out4 xa xb xc (ix2 p q) = max ((∑ k : Fin 128, xa (ix2 p k) * xb (ix2 k q)) + xc (ix2 (0 : Fin 1) q)) 0 := by
  unfold out4 acc4 k4_pay3 k4_pay2 k4_pay1
  simp only [shapeCast_self]
  exact congrArg₂ max (linear_apply xa xb xc _ _ p q) Ideal.ofBits_zero_f32

section Region
variable (V : (c : Dev nD) → (b : Ref sig .tc) → Buf (Elt Ideal) ((c : Thread nD τ).loc b))

abbrev aArr4 (c : Dev nD) : Vec Ideal S4096x128 .f32 := V c (Pipeline.arrRef spec4 0)
abbrev bArr4 (c : Dev nD) : Vec Ideal S128x64 .f32 := V c (Pipeline.arrRef spec4 1)
abbrev cArr4 (c : Dev nD) : Vec Ideal S1x64 .f32 := V c (Pipeline.arrRef spec4 2)

theorem idx_facts4 : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (c : Dev nD) (dat : Dat τ (Elt Ideal) Unit ℕ (UR sig nD τ) ℕ cfg4 c)

abbrev oArr4 : Vec Ideal S4096x64 .f32 := dat.arrAt 3 cfg4.N

/-- Row r is row r % 1024 of block r / 1024, and that block is the layer on the same rows of A. -/
theorem final4_of
    (hA : ∀ w, dat.A w = V c (Pipeline.arrRef spec4 w))
    (hafter : ∀ t, dat.after 3 t = out4 (iblk4 V c 0 t) (iblk4 V c 1 t) (iblk4 V c 2 t))
    (r : Fin 4096) (q : Fin 64) :
    oArr4 c dat (ix2 r q)
      = max ((∑ k : Fin 128, aArr4 V c (ix2 r k) * bArr4 V c (ix2 k q)) + cArr4 V c (ix2 (0 : Fin 1) q)) 0 := by
  obtain ⟨s, hs⟩ : ∃ s : Fin grid4.N, s.val = r.val / 1024 := ⟨⟨_, by have := N_4; omega⟩, rfl⟩
  obtain ⟨-, -, -, -, -, -, e0, e1⟩ := idx_facts4 s
  refine dat.arrAt_apply_of_mem 3 (fun i => (max ((∑ k : Fin 128, aArr4 V c (ix2 (i 0) k) * bArr4 V c (ix2 k (i 1))) + cArr4 V c (ix2 (0 : Fin 1) (i 1))) 0 : EReal))
    (fun t _ => funext_ix2 (n0 := 1024) (n1 := 64) fun p q => ?_) _ s (ix2 r q) s.isLt (flush4_3 s) ?_
  · obtain ⟨a0, a1, b0, b1, c0, c1, o0, o1⟩ := idx_facts4 t
    show dat.after 3 t (ix2 p q) = _
    rw [hafter t, out4_apply]
    exact congrArg (max · (0 : EReal)) (congrArg₂ (· + ·) (Finset.sum_congr rfl fun k _ => congrArg₂ (· * ·)
        (congrArg (V c _) (Shape.idx_ext₂ (congrArg (· * 1024 + 1 * p.val) (a0.trans o0.symm)) (win4_0.rect_emb_val_of_index_zero t 1 a1 _)))
        (congrArg (V c _) (Shape.idx_ext₂ (win4_1.rect_emb_val_of_index_zero t 0 b0 _) (congrArg (· * 64 + 1 * q.val) (b1.trans o1.symm)))))
      (congrArg (V c _) (Shape.idx_ext₂ (win4_2.rect_emb_val_of_index_zero t 0 c0 _) (congrArg (· * 64 + 1 * q.val) (c1.trans o1.symm)))))
  · refine Finset.mem_map.mpr ⟨ix2 (⟨r.val % 1024, Nat.mod_lt _ (by decide)⟩ : Fin 1024) q, Finset.mem_univ _,
      Shape.idx_ext₂ ?_ (win4_3.rect_emb_val_of_index_zero s 1 e1 _)⟩
    show win4_3.index s 0 * 1024 + 1 * (r.val % 1024) = r.val
    rw [e0]
    omega

end Region

end Cert.KernelIdeal.Gen

end
-- ==== Proof.KI.Val5.lean ====
import proofs.«103213_j15710990369585_1_alg».proof.Proof.KI.Defs5
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block is the logistic function of row p of the first block against column q of the second plus the bias at q. -/
theorem out5_apply (xa : Vec Ideal S1024x64 .f32) (xb : Vec Ideal S64x1 .f32) (xc : Vec Ideal S1x1 .f32) (p : Fin 1024) (q : Fin 1) :
    out5 xa xb xc (ix2 p q) = Ideal.logistic ((∑ k : Fin 64, xa (ix2 p k) * xb (ix2 k q)) + xc (ix2 (0 : Fin 1) q)) := by
  unfold out5 acc5 k5_pay3 k5_pay2 k5_pay1
  simp only [shapeCast_self]
  exact congrArg Ideal.logistic (linear_apply xa xb xc _ _ p q)

section Region
variable (V : (c : Dev nD) → (b : Ref sig .tc) → Buf (Elt Ideal) ((c : Thread nD τ).loc b))

abbrev aArr5 (c : Dev nD) : Vec Ideal S4096x64 .f32 := V c (Pipeline.arrRef spec5 0)
abbrev bArr5 (c : Dev nD) : Vec Ideal S64x1 .f32 := V c (Pipeline.arrRef spec5 1)
abbrev cArr5 (c : Dev nD) : Vec Ideal S1x1 .f32 := V c (Pipeline.arrRef spec5 2)

theorem idx_facts5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (c : Dev nD) (dat : Dat τ (Elt Ideal) Unit ℕ (UR sig nD τ) ℕ cfg5 c)

abbrev oArr5 : Vec Ideal S4096x1 .f32 := dat.arrAt 3 cfg5.N

/-- Row r is row r % 1024 of block r / 1024, and that block is the layer on the same rows of A. -/
theorem final5_of
    (hA : ∀ w, dat.A w = V c (Pipeline.arrRef spec5 w))
    (hafter : ∀ t, dat.after 3 t = out5 (iblk5 V c 0 t) (iblk5 V c 1 t) (iblk5 V c 2 t))
    (r : Fin 4096) (q : Fin 1) :
    oArr5 c dat (ix2 r q)
      = Ideal.logistic ((∑ k : Fin 64, aArr5 V c (ix2 r k) * bArr5 V c (ix2 k q)) + cArr5 V c (ix2 (0 : Fin 1) q)) := by
  obtain ⟨s, hs⟩ : ∃ s : Fin grid5.N, s.val = r.val / 1024 := ⟨⟨_, by have := N_5; omega⟩, rfl⟩
  obtain ⟨-, -, -, -, -, -, e0, e1⟩ := idx_facts5 s
  refine dat.arrAt_apply_of_mem 3 (fun i => (Ideal.logistic ((∑ k : Fin 64, aArr5 V c (ix2 (i 0) k) * bArr5 V c (ix2 k (i 1))) + cArr5 V c (ix2 (0 : Fin 1) (i 1))) : EReal))
    (fun t _ => funext_ix2 (n0 := 1024) (n1 := 1) fun p q => ?_) _ s (ix2 r q) s.isLt (flush5_3 s) ?_
  · obtain ⟨a0, a1, b0, b1, c0, c1, o0, o1⟩ := idx_facts5 t
    show dat.after 3 t (ix2 p q) = _
    rw [hafter t, out5_apply]
    exact congrArg Ideal.logistic (congrArg₂ (· + ·) (Finset.sum_congr rfl fun k _ => congrArg₂ (· * ·)
        (congrArg (V c _) (Shape.idx_ext₂ (congrArg (· * 1024 + 1 * p.val) (a0.trans o0.symm)) (win5_0.rect_emb_val_of_index_zero t 1 a1 _)))
        (congrArg (V c _) (Shape.idx_ext₂ (win5_1.rect_emb_val_of_index_zero t 0 b0 _) (congrArg (· * 1 + 1 * q.val) (b1.trans o1.symm)))))
      (congrArg (V c _) (Shape.idx_ext₂ (win5_2.rect_emb_val_of_index_zero t 0 c0 _) (congrArg (· * 1 + 1 * q.val) (c1.trans o1.symm)))))
  · refine Finset.mem_map.mpr ⟨ix2 (⟨r.val % 1024, Nat.mod_lt _ (by decide)⟩ : Fin 1024) q, Finset.mem_univ _,
      Shape.idx_ext₂ ?_ (win5_3.rect_emb_val_of_index_zero s 1 e1 _)⟩
    show win5_3.index s 0 * 1024 + 1 * (r.val % 1024) = r.val
    rw [e0]
    omega

end Region

end Cert.KernelIdeal.Gen

end
-- ==== Proof.KI.Val6.lean ====
import proofs.«103213_j15710990369585_1_alg».proof.Proof.KI.Defs6
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block is the larger of zero and row p of the first block against column q of the second plus the bias at q. -/
theorem out6_apply (xa : Vec Ideal S1024x128 .f32) (xb : Vec Ideal S128x64 .f32) (xc : Vec Ideal S1x64 .f32) (p : Fin 1024) (q : Fin 64) :
    out6 xa xb xc (ix2 p q) = max ((∑ k : Fin 128, xa (ix2 p k) * xb (ix2 k q)) + xc (ix2 (0 : Fin 1) q)) 0 := by
  unfold out6 acc6 k6_pay3 k6_pay2 k6_pay1
  simp only [shapeCast_self]
  exact congrArg₂ max (linear_apply xa xb xc _ _ p q) Ideal.ofBits_zero_f32

section Region
variable (V : (c : Dev nD) → (b : Ref sig .tc) → Buf (Elt Ideal) ((c : Thread nD τ).loc b))

abbrev aArr6 (c : Dev nD) : Vec Ideal S4096x128 .f32 := V c (Pipeline.arrRef spec6 0)
abbrev bArr6 (c : Dev nD) : Vec Ideal S128x64 .f32 := V c (Pipeline.arrRef spec6 1)
abbrev cArr6 (c : Dev nD) : Vec Ideal S1x64 .f32 := V c (Pipeline.arrRef spec6 2)

theorem idx_facts6 : ∀ t : Fin cfg6.N,
      win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (c : Dev nD) (dat : Dat τ (Elt Ideal) Unit ℕ (UR sig nD τ) ℕ cfg6 c)

abbrev oArr6 : Vec Ideal S4096x64 .f32 := dat.arrAt 3 cfg6.N

/-- Row r is row r % 1024 of block r / 1024, and that block is the layer on the same rows of A. -/
theorem final6_of
    (hA : ∀ w, dat.A w = V c (Pipeline.arrRef spec6 w))
    (hafter : ∀ t, dat.after 3 t = out6 (iblk6 V c 0 t) (iblk6 V c 1 t) (iblk6 V c 2 t))
    (r : Fin 4096) (q : Fin 64) :
    oArr6 c dat (ix2 r q)
      = max ((∑ k : Fin 128, aArr6 V c (ix2 r k) * bArr6 V c (ix2 k q)) + cArr6 V c (ix2 (0 : Fin 1) q)) 0 := by
  obtain ⟨s, hs⟩ : ∃ s : Fin grid6.N, s.val = r.val / 1024 := ⟨⟨_, by have := N_6; omega⟩, rfl⟩
  obtain ⟨-, -, -, -, -, -, e0, e1⟩ := idx_facts6 s
  refine dat.arrAt_apply_of_mem 3 (fun i => (max ((∑ k : Fin 128, aArr6 V c (ix2 (i 0) k) * bArr6 V c (ix2 k (i 1))) + cArr6 V c (ix2 (0 : Fin 1) (i 1))) 0 : EReal))
    (fun t _ => funext_ix2 (n0 := 1024) (n1 := 64) fun p q => ?_) _ s (ix2 r q) s.isLt (flush6_3 s) ?_
  · obtain ⟨a0, a1, b0, b1, c0, c1, o0, o1⟩ := idx_facts6 t
    show dat.after 3 t (ix2 p q) = _
    rw [hafter t, out6_apply]
    exact congrArg (max · (0 : EReal)) (congrArg₂ (· + ·) (Finset.sum_congr rfl fun k _ => congrArg₂ (· * ·)
        (congrArg (V c _) (Shape.idx_ext₂ (congrArg (· * 1024 + 1 * p.val) (a0.trans o0.symm)) (win6_0.rect_emb_val_of_index_zero t 1 a1 _)))
        (congrArg (V c _) (Shape.idx_ext₂ (win6_1.rect_emb_val_of_index_zero t 0 b0 _) (congrArg (· * 64 + 1 * q.val) (b1.trans o1.symm)))))
      (congrArg (V c _) (Shape.idx_ext₂ (win6_2.rect_emb_val_of_index_zero t 0 c0 _) (congrArg (· * 64 + 1 * q.val) (c1.trans o1.symm)))))
  · refine Finset.mem_map.mpr ⟨ix2 (⟨r.val % 1024, Nat.mod_lt _ (by decide)⟩ : Fin 1024) q, Finset.mem_univ _,
      Shape.idx_ext₂ ?_ (win6_3.rect_emb_val_of_index_zero s 1 e1 _)⟩
    show win6_3.index s 0 * 1024 + 1 * (r.val % 1024) = r.val
    rw [e0]
    omega

end Region

end Cert.KernelIdeal.Gen

end
-- ==== Proof.KI.Val7.lean ====
import proofs.«103213_j15710990369585_1_alg».proof.Proof.KI.Defs7
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block is the logistic function of row p of the first block against column q of the second plus the bias at q. -/
theorem out7_apply (xa : Vec Ideal S1024x64 .f32) (xb : Vec Ideal S64x1 .f32) (xc : Vec Ideal S1x1 .f32) (p : Fin 1024) (q : Fin 1) :
    out7 xa xb xc (ix2 p q) = Ideal.logistic ((∑ k : Fin 64, xa (ix2 p k) * xb (ix2 k q)) + xc (ix2 (0 : Fin 1) q)) := by
  unfold out7 acc7 k7_pay3 k7_pay2 k7_pay1
  simp only [shapeCast_self]
  exact congrArg Ideal.logistic (linear_apply xa xb xc _ _ p q)

section Region
variable (V : (c : Dev nD) → (b : Ref sig .tc) → Buf (Elt Ideal) ((c : Thread nD τ).loc b))

abbrev aArr7 (c : Dev nD) : Vec Ideal S4096x64 .f32 := V c (Pipeline.arrRef spec7 0)
abbrev bArr7 (c : Dev nD) : Vec Ideal S64x1 .f32 := V c (Pipeline.arrRef spec7 1)
abbrev cArr7 (c : Dev nD) : Vec Ideal S1x1 .f32 := V c (Pipeline.arrRef spec7 2)

theorem idx_facts7 : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

variable (c : Dev nD) (dat : Dat τ (Elt Ideal) Unit ℕ (UR sig nD τ) ℕ cfg7 c)

abbrev oArr7 : Vec Ideal S4096x1 .f32 := dat.arrAt 3 cfg7.N

/-- Row r is row r % 1024 of block r / 1024, and that block is the layer on the same rows of A. -/
theorem final7_of
    (hA : ∀ w, dat.A w = V c (Pipeline.arrRef spec7 w))
    (hafter : ∀ t, dat.after 3 t = out7 (iblk7 V c 0 t) (iblk7 V c 1 t) (iblk7 V c 2 t))
    (r : Fin 4096) (q : Fin 1) :
    oArr7 c dat (ix2 r q)
      = Ideal.logistic ((∑ k : Fin 64, aArr7 V c (ix2 r k) * bArr7 V c (ix2 k q)) + cArr7 V c (ix2 (0 : Fin 1) q)) := by
  obtain ⟨s, hs⟩ : ∃ s : Fin grid7.N, s.val = r.val / 1024 := ⟨⟨_, by have := N_7; omega⟩, rfl⟩
  obtain ⟨-, -, -, -, -, -, e0, e1⟩ := idx_facts7 s
  refine dat.arrAt_apply_of_mem 3 (fun i => (Ideal.logistic ((∑ k : Fin 64, aArr7 V c (ix2 (i 0) k) * bArr7 V c (ix2 k (i 1))) + cArr7 V c (ix2 (0 : Fin 1) (i 1))) : EReal))
    (fun t _ => funext_ix2 (n0 := 1024) (n1 := 1) fun p q => ?_) _ s (ix2 r q) s.isLt (flush7_3 s) ?_
  · obtain ⟨a0, a1, b0, b1, c0, c1, o0, o1⟩ := idx_facts7 t
    show dat.after 3 t (ix2 p q) = _
    rw [hafter t, out7_apply]
    exact congrArg Ideal.logistic (congrArg₂ (· + ·) (Finset.sum_congr rfl fun k _ => congrArg₂ (· * ·)
        (congrArg (V c _) (Shape.idx_ext₂ (congrArg (· * 1024 + 1 * p.val) (a0.trans o0.symm)) (win7_0.rect_emb_val_of_index_zero t 1 a1 _)))
        (congrArg (V c _) (Shape.idx_ext₂ (win7_1.rect_emb_val_of_index_zero t 0 b0 _) (congrArg (· * 1 + 1 * q.val) (b1.trans o1.symm)))))
      (congrArg (V c _) (Shape.idx_ext₂ (win7_2.rect_emb_val_of_index_zero t 0 c0 _) (congrArg (· * 1 + 1 * q.val) (c1.trans o1.symm)))))
  · refine Finset.mem_map.mpr ⟨ix2 (⟨r.val % 1024, Nat.mod_lt _ (by decide)⟩ : Fin 1024) q, Finset.mem_univ _,
      Shape.idx_ext₂ ?_ (win7_3.rect_emb_val_of_index_zero s 1 e1 _)⟩
    show win7_3.index s 0 * 1024 + 1 * (r.val % 1024) = r.val
    rw [e0]
    omega

end Region

end Cert.KernelIdeal.Gen

end
-- ==== Proof.KI.Val8.lean ====
import proofs.«103213_j15710990369585_1_alg».proof.Proof.KI.Defs8
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block is the larger of zero and row p of the first block against column q of the second plus the bias at q. -/
theorem out8_apply (xa : Vec Ideal S1024x256 .f32) (xb : Vec Ideal S256x128 .f32) (xc : Vec Ideal S1x128 .f32) (p : Fin 1024) (q : Fin 128) :
    out8 xa xb xc (ix2 p q) = max ((∑ k : Fin 256, xa (ix2 p k) * xb (ix2 k q)) + xc (ix2 (0 : Fin 1) q)) 0 := by
  unfold out8 acc8 k8_pay3 k8_pay2 k8_pay1
  simp only [shapeCast_self]
  exact congrArg₂ max (linear_apply xa xb xc _ _ p q) Ideal.ofBits_zero_f32

section Region
variable (V : (c : Dev nD) → (b : Ref sig .tc) → Buf (Elt Ideal) ((c : Thread nD τ).loc b))

abbrev aArr8 (c : Dev nD) : Vec Ideal S4096x256 .f32 := V c (Pipeline.arrRef spec8 0)
abbrev bArr8 (c : Dev nD) : Vec Ideal S256x128 .f32 := V c (Pipeline.arrRef spec8 1)
abbrev cArr8 (c : Dev nD) : Vec Ideal S1x128 .f32 := V c (Pipeline.arrRef spec8 2)

theorem idx_facts8 : ∀ t : Fin cfg8.N,
      win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

variable (c : Dev nD) (dat : Dat τ (Elt Ideal) Unit ℕ (UR sig nD τ) ℕ cfg8 c)

abbrev oArr8 : Vec Ideal S4096x128 .f32 := dat.arrAt 3 cfg8.N

/-- Row r is row r % 1024 of block r / 1024, and that block is the layer on the same rows of A. -/
theorem final8_of
    (hA : ∀ w, dat.A w = V c (Pipeline.arrRef spec8 w))
    (hafter : ∀ t, dat.after 3 t = out8 (iblk8 V c 0 t) (iblk8 V c 1 t) (iblk8 V c 2 t))
    (r : Fin 4096) (q : Fin 128) :
    oArr8 c dat (ix2 r q)
      = max ((∑ k : Fin 256, aArr8 V c (ix2 r k) * bArr8 V c (ix2 k q)) + cArr8 V c (ix2 (0 : Fin 1) q)) 0 := by
  obtain ⟨s, hs⟩ : ∃ s : Fin grid8.N, s.val = r.val / 1024 := ⟨⟨_, by have := N_8; omega⟩, rfl⟩
  obtain ⟨-, -, -, -, -, -, e0, e1⟩ := idx_facts8 s
  refine dat.arrAt_apply_of_mem 3 (fun i => (max ((∑ k : Fin 256, aArr8 V c (ix2 (i 0) k) * bArr8 V c (ix2 k (i 1))) + cArr8 V c (ix2 (0 : Fin 1) (i 1))) 0 : EReal))
    (fun t _ => funext_ix2 (n0 := 1024) (n1 := 128) fun p q => ?_) _ s (ix2 r q) s.isLt (flush8_3 s) ?_
  · obtain ⟨a0, a1, b0, b1, c0, c1, o0, o1⟩ := idx_facts8 t
    show dat.after 3 t (ix2 p q) = _
    rw [hafter t, out8_apply]
    exact congrArg (max · (0 : EReal)) (congrArg₂ (· + ·) (Finset.sum_congr rfl fun k _ => congrArg₂ (· * ·)
        (congrArg (V c _) (Shape.idx_ext₂ (congrArg (· * 1024 + 1 * p.val) (a0.trans o0.symm)) (win8_0.rect_emb_val_of_index_zero t 1 a1 _)))
        (congrArg (V c _) (Shape.idx_ext₂ (win8_1.rect_emb_val_of_index_zero t 0 b0 _) (congrArg (· * 128 + 1 * q.val) (b1.trans o1.symm)))))
      (congrArg (V c _) (Shape.idx_ext₂ (win8_2.rect_emb_val_of_index_zero t 0 c0 _) (congrArg (· * 128 + 1 * q.val) (c1.trans o1.symm)))))
  · refine Finset.mem_map.mpr ⟨ix2 (⟨r.val % 1024, Nat.mod_lt _ (by decide)⟩ : Fin 1024) q, Finset.mem_univ _,
      Shape.idx_ext₂ ?_ (win8_3.rect_emb_val_of_index_zero s 1 e1 _)⟩
    show win8_3.index s 0 * 1024 + 1 * (r.val % 1024) = r.val
    rw [e0]
    omega

end Region

end Cert.KernelIdeal.Gen

end
-- ==== Proof.KI.Val9.lean ====
import proofs.«103213_j15710990369585_1_alg».proof.Proof.KI.Defs9
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block of the layer is row p of the first block against column q of the second, plus the bias at q. -/
theorem out9_apply (xa : Vec Ideal S1024x128 .f32) (xb : Vec Ideal S128x128 .f32) (xc : Vec Ideal S1x128 .f32) (p : Fin 1024) (q : Fin 128) :
    out9 xa xb xc (ix2 p q) = (∑ k : Fin 128, xa (ix2 p k) * xb (ix2 k q)) + xc (ix2 (0 : Fin 1) q) := by
  unfold out9 acc9 k9_pay3 k9_pay2 k9_pay1
  simp only [shapeCast_self]
  exact linear_apply xa xb xc _ _ p q

section Region
variable (V : (c : Dev nD) → (b : Ref sig .tc) → Buf (Elt Ideal) ((c : Thread nD τ).loc b))

abbrev aArr9 (c : Dev nD) : Vec Ideal S4096x128 .f32 := V c (Pipeline.arrRef spec9 0)
abbrev bArr9 (c : Dev nD) : Vec Ideal S128x128 .f32 := V c (Pipeline.arrRef spec9 1)
abbrev cArr9 (c : Dev nD) : Vec Ideal S1x128 .f32 := V c (Pipeline.arrRef spec9 2)

theorem idx_facts9 : ∀ t : Fin cfg9.N,
      win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

variable (c : Dev nD) (dat : Dat τ (Elt Ideal) Unit ℕ (UR sig nD τ) ℕ cfg9 c)

abbrev oArr9 : Vec Ideal S4096x128 .f32 := dat.arrAt 3 cfg9.N

/-- Row r is row r % 1024 of block r / 1024, and that block is the layer on the same rows of A. -/
theorem final9_of
    (hA : ∀ w, dat.A w = V c (Pipeline.arrRef spec9 w))
    (hafter : ∀ t, dat.after 3 t = out9 (iblk9 V c 0 t) (iblk9 V c 1 t) (iblk9 V c 2 t))
    (r : Fin 4096) (q : Fin 128) :
    oArr9 c dat (ix2 r q)
      = (∑ k : Fin 128, aArr9 V c (ix2 r k) * bArr9 V c (ix2 k q)) + cArr9 V c (ix2 (0 : Fin 1) q) := by
  obtain ⟨s, hs⟩ : ∃ s : Fin grid9.N, s.val = r.val / 1024 := ⟨⟨_, by have := N_9; omega⟩, rfl⟩
  obtain ⟨-, -, -, -, -, -, e0, e1⟩ := idx_facts9 s
  refine dat.arrAt_apply_of_mem 3 (fun i => ((∑ k : Fin 128, aArr9 V c (ix2 (i 0) k) * bArr9 V c (ix2 k (i 1))) + cArr9 V c (ix2 (0 : Fin 1) (i 1)) : EReal))
    (fun t _ => funext_ix2 (n0 := 1024) (n1 := 128) fun p q => ?_) _ s (ix2 r q) s.isLt (flush9_3 s) ?_
  · obtain ⟨a0, a1, b0, b1, c0, c1, o0, o1⟩ := idx_facts9 t
    show dat.after 3 t (ix2 p q) = _
    rw [hafter t, out9_apply]
    exact congrArg₂ (· + ·) (Finset.sum_congr rfl fun k _ => congrArg₂ (· * ·)
        (congrArg (V c _) (Shape.idx_ext₂ (congrArg (· * 1024 + 1 * p.val) (a0.trans o0.symm)) (win9_0.rect_emb_val_of_index_zero t 1 a1 _)))
        (congrArg (V c _) (Shape.idx_ext₂ (win9_1.rect_emb_val_of_index_zero t 0 b0 _) (congrArg (· * 128 + 1 * q.val) (b1.trans o1.symm)))))
      (congrArg (V c _) (Shape.idx_ext₂ (win9_2.rect_emb_val_of_index_zero t 0 c0 _) (congrArg (· * 128 + 1 * q.val) (c1.trans o1.symm))))
  · refine Finset.mem_map.mpr ⟨ix2 (⟨r.val % 1024, Nat.mod_lt _ (by decide)⟩ : Fin 1024) q, Finset.mem_univ _,
      Shape.idx_ext₂ ?_ (win9_3.rect_emb_val_of_index_zero s 1 e1 _)⟩
    show win9_3.index s 0 * 1024 + 1 * (r.val % 1024) = r.val
    rw [e0]
    omega

end Region

end Cert.KernelIdeal.Gen

end
-- ==== Proof.KI.Val10.lean ====
import proofs.«103213_j15710990369585_1_alg».proof.Proof.KI.Defs10
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block is the larger of zero and row p of the first block against column q of the second plus the bias at q. -/
theorem out10_apply (xa : Vec Ideal S1024x256 .f32) (xb : Vec Ideal S256x128 .f32) (xc : Vec Ideal S1x128 .f32) (p : Fin 1024) (q : Fin 128) :
    out10 xa xb xc (ix2 p q) = max ((∑ k : Fin 256, xa (ix2 p k) * xb (ix2 k q)) + xc (ix2 (0 : Fin 1) q)) 0 := by
  unfold out10 acc10 k10_pay3 k10_pay2 k10_pay1
  simp only [shapeCast_self]
  exact congrArg₂ max (linear_apply xa xb xc _ _ p q) Ideal.ofBits_zero_f32

section Region
variable (V : (c : Dev nD) → (b : Ref sig .tc) → Buf (Elt Ideal) ((c : Thread nD τ).loc b))

abbrev aArr10 (c : Dev nD) : Vec Ideal S4096x256 .f32 := V c (Pipeline.arrRef spec10 0)
abbrev bArr10 (c : Dev nD) : Vec Ideal S256x128 .f32 := V c (Pipeline.arrRef spec10 1)
abbrev cArr10 (c : Dev nD) : Vec Ideal S1x128 .f32 := V c (Pipeline.arrRef spec10 2)

theorem idx_facts10 : ∀ t : Fin cfg10.N,
      win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

variable (c : Dev nD) (dat : Dat τ (Elt Ideal) Unit ℕ (UR sig nD τ) ℕ cfg10 c)

abbrev oArr10 : Vec Ideal S4096x128 .f32 := dat.arrAt 3 cfg10.N

/-- Row r is row r % 1024 of block r / 1024, and that block is the layer on the same rows of A. -/
theorem final10_of
    (hA : ∀ w, dat.A w = V c (Pipeline.arrRef spec10 w))
    (hafter : ∀ t, dat.after 3 t = out10 (iblk10 V c 0 t) (iblk10 V c 1 t) (iblk10 V c 2 t))
    (r : Fin 4096) (q : Fin 128) :
    oArr10 c dat (ix2 r q)
      = max ((∑ k : Fin 256, aArr10 V c (ix2 r k) * bArr10 V c (ix2 k q)) + cArr10 V c (ix2 (0 : Fin 1) q)) 0 := by
  obtain ⟨s, hs⟩ : ∃ s : Fin grid10.N, s.val = r.val / 1024 := ⟨⟨_, by have := N_10; omega⟩, rfl⟩
  obtain ⟨-, -, -, -, -, -, e0, e1⟩ := idx_facts10 s
  refine dat.arrAt_apply_of_mem 3 (fun i => (max ((∑ k : Fin 256, aArr10 V c (ix2 (i 0) k) * bArr10 V c (ix2 k (i 1))) + cArr10 V c (ix2 (0 : Fin 1) (i 1))) 0 : EReal))
    (fun t _ => funext_ix2 (n0 := 1024) (n1 := 128) fun p q => ?_) _ s (ix2 r q) s.isLt (flush10_3 s) ?_
  · obtain ⟨a0, a1, b0, b1, c0, c1, o0, o1⟩ := idx_facts10 t
    show dat.after 3 t (ix2 p q) = _
    rw [hafter t, out10_apply]
    exact congrArg (max · (0 : EReal)) (congrArg₂ (· + ·) (Finset.sum_congr rfl fun k _ => congrArg₂ (· * ·)
        (congrArg (V c _) (Shape.idx_ext₂ (congrArg (· * 1024 + 1 * p.val) (a0.trans o0.symm)) (win10_0.rect_emb_val_of_index_zero t 1 a1 _)))
        (congrArg (V c _) (Shape.idx_ext₂ (win10_1.rect_emb_val_of_index_zero t 0 b0 _) (congrArg (· * 128 + 1 * q.val) (b1.trans o1.symm)))))
      (congrArg (V c _) (Shape.idx_ext₂ (win10_2.rect_emb_val_of_index_zero t 0 c0 _) (congrArg (· * 128 + 1 * q.val) (c1.trans o1.symm)))))
  · refine Finset.mem_map.mpr ⟨ix2 (⟨r.val % 1024, Nat.mod_lt _ (by decide)⟩ : Fin 1024) q, Finset.mem_univ _,
      Shape.idx_ext₂ ?_ (win10_3.rect_emb_val_of_index_zero s 1 e1 _)⟩
    show win10_3.index s 0 * 1024 + 1 * (r.val % 1024) = r.val
    rw [e0]
    omega

end Region

end Cert.KernelIdeal.Gen

end
-- ==== Proof.KI.Val11.lean ====
import proofs.«103213_j15710990369585_1_alg».proof.Proof.KI.Defs11
import proofs.«103213_j15710990369585_1_alg».proof.Proof.KI.ValLib

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

/-- At (p, q) the block of the layer is row p of the first block against column q of the second, plus the bias at q. -/
theorem out11_apply (xa : Vec Ideal S1024x128 .f32) (xb : Vec Ideal S128x128 .f32) (xc : Vec Ideal S1x128 .f32) (p : Fin 1024) (q : Fin 128) :
    out11 xa xb xc (ix2 p q) = (∑ k : Fin 128, xa (ix2 p k) * xb (ix2 k q)) + xc (ix2 (0 : Fin 1) q) := by
  unfold out11 acc11 k11_pay3 k11_pay2 k11_pay1
  simp only [shapeCast_self]
  exact linear_apply xa xb xc _ _ p q

section Region
variable (V : (c : Dev nD) → (b : Ref sig .tc) → Buf (Elt Ideal) ((c : Thread nD τ).loc b))

abbrev aArr11 (c : Dev nD) : Vec Ideal S4096x128 .f32 := V c (Pipeline.arrRef spec11 0)
abbrev bArr11 (c : Dev nD) : Vec Ideal S128x128 .f32 := V c (Pipeline.arrRef spec11 1)
abbrev cArr11 (c : Dev nD) : Vec Ideal S1x128 .f32 := V c (Pipeline.arrRef spec11 2)

theorem idx_facts11 : ∀ t : Fin cfg11.N,
      win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

variable (c : Dev nD) (dat : Dat τ (Elt Ideal) Unit ℕ (UR sig nD τ) ℕ cfg11 c)

abbrev oArr11 : Vec Ideal S4096x128 .f32 := dat.arrAt 3 cfg11.N

/-- Row r is row r % 1024 of block r / 1024, and that block is the layer on the same rows of A. -/
theorem final11_of
    (hA : ∀ w, dat.A w = V c (Pipeline.arrRef spec11 w))
    (hafter : ∀ t, dat.after 3 t = out11 (iblk11 V c 0 t) (iblk11 V c 1 t) (iblk11 V c 2 t))
    (r : Fin 4096) (q : Fin 128) :
    oArr11 c dat (ix2 r q)
      = (∑ k : Fin 128, aArr11 V c (ix2 r k) * bArr11 V c (ix2 k q)) + cArr11 V c (ix2 (0 : Fin 1) q) := by
  obtain ⟨s, hs⟩ : ∃ s : Fin grid11.N, s.val = r.val / 1024 := ⟨⟨_, by have := N_11; omega⟩, rfl⟩
  obtain ⟨-, -, -, -, -, -, e0, e1⟩ := idx_facts11 s
  refine dat.arrAt_apply_of_mem 3 (fun i => ((∑ k : Fin 128, aArr11 V c (ix2 (i 0) k) * bArr11 V c (ix2 k (i 1))) + cArr11 V c (ix2 (0 : Fin 1) (i 1)) : EReal))
    (fun t _ => funext_ix2 (n0 := 1024) (n1 := 128) fun p q => ?_) _ s (ix2 r q) s.isLt (flush11_3 s) ?_
  · obtain ⟨a0, a1, b0, b1, c0, c1, o0, o1⟩ := idx_facts11 t
    show dat.after 3 t (ix2 p q) = _
    rw [hafter t, out11_apply]
    exact congrArg₂ (· + ·) (Finset.sum_congr rfl fun k _ => congrArg₂ (· * ·)
        (congrArg (V c _) (Shape.idx_ext₂ (congrArg (· * 1024 + 1 * p.val) (a0.trans o0.symm)) (win11_0.rect_emb_val_of_index_zero t 1 a1 _)))
        (congrArg (V c _) (Shape.idx_ext₂ (win11_1.rect_emb_val_of_index_zero t 0 b0 _) (congrArg (· * 128 + 1 * q.val) (b1.trans o1.symm)))))
      (congrArg (V c _) (Shape.idx_ext₂ (win11_2.rect_emb_val_of_index_zero t 0 c0 _) (congrArg (· * 128 + 1 * q.val) (c1.trans o1.symm))))
  · refine Finset.mem_map.mpr ⟨ix2 (⟨r.val % 1024, Nat.mod_lt _ (by decide)⟩ : Fin 1024) q, Finset.mem_univ _,
      Shape.idx_ext₂ ?_ (win11_3.rect_emb_val_of_index_zero s 1 e1 _)⟩
    show win11_3.index s 0 * 1024 + 1 * (r.val % 1024) = r.val
    rw [e0]
    omega

end Region

end Cert.KernelIdeal.Gen

end
-- ==== Proof.KI.Val12.lean ====
import proofs.«103213_j15710990369585_1_alg».proof.Proof.KI.Defs12
import proofs.«103213_j15710990369585_1_alg».proof.Proof.KI.ValLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx

theorem pay1_12_apply (p : Fin 1024) (q : Fin 512) : (k12_pay1 (F := Ideal)) (ix2 p q) = 0 := by
  unfold k12_pay1
  simp only [shapeCast_self]
  exact Ideal.ofBits_zero_f32

theorem pay2_12_apply (xa : Vec Ideal S1024x1024 .f32) (xb e : Vec Ideal S1024x512 .f32) (p : Fin 1024) (q : Fin 512) :
    k12_pay2 xa xb e (ix2 p q) = e (ix2 p q) + ∑ k : Fin 1024, xa (ix2 p k) * xb (ix2 k q) := by
  unfold k12_pay2
  simp only [shapeCast_self]
  exact congrArg (e (ix2 p q) + ·) (mm_apply _ _ p q)

theorem pay3_12_apply (e : Vec Ideal S1024x512 .f32) (xc : Vec Ideal S1x512 .f32) (p : Fin 1024) (q : Fin 512) :
    k12_pay3 e xc (ix2 p q) = e (ix2 p q) + xc (ix2 0 q) := by
  unfold k12_pay3
  simp only [shapeCast_self]
  exact congrArg (e (ix2 p q) + ·) (broadcastTo_1b_ab_apply xc _ p q)

theorem idx12 : ∀ t : Fin cfg12.N,
    win12_0.index t (0 : Fin 2) = t.val / 4 ∧ win12_0.index t (1 : Fin 2) = t.val % 4
    ∧ win12_1.index t (0 : Fin 2) = t.val % 4 ∧ win12_1.index t (1 : Fin 2) = 0
    ∧ win12_2.index t (0 : Fin 2) = 0 ∧ win12_2.index t (1 : Fin 2) = 0
    ∧ win12_3.index t (0 : Fin 2) = t.val / 4 ∧ win12_3.index t (1 : Fin 2) = 0 :=
  (by decide +kernel : ∀ t : Fin grid12.N, _)

section
variable (V : (c : Dev nD) → (b : Ref sig .tc) → Buf (Elt Ideal) ((c : Thread nD τ).loc b))

abbrev lhs12 (c : Dev nD) : S8192x4096.Idx → EReal := V c (Pipeline.arrRef spec12 0)
abbrev rhs12 (c : Dev nD) : S4096x512.Idx → EReal := V c (Pipeline.arrRef spec12 1)
abbrev bias12 (c : Dev nD) : S1x512.Idx → EReal := V c (Pipeline.arrRef spec12 2)

def term12 (c : Dev nD) (r : Fin 8192) (q : Fin 512) (k : ℕ) : EReal :=
  if h : k < 4096 then lhs12 V c (ix2 r ⟨k, h⟩) * rhs12 V c (ix2 ⟨k, h⟩ q) else 0

/-- One K-step adds the block's 1024 terms of entry (r, q) of the whole product to what was accumulated. -/
theorem kstep12 (c : Dev nD) (t : Fin cfg12.N) (s : ℕ) (hs : t.val % 4 = s) (e : Vec Ideal S1024x512 .f32) (p : Fin 1024) (q : Fin 512)
    (r : Fin 8192) (hr : r.val = 1024 * (t.val / 4) + p.val) (he : e (ix2 p q) = ∑ k ∈ Finset.range (1024 * s), term12 V c r q k) :
    k12_pay2 (iblk12 V c 0 t) (iblk12 V c 1 t) e (ix2 p q) = ∑ k ∈ Finset.range (1024 * (s + 1)), term12 V c r q k := by
  subst hs
  obtain ⟨e0, e1, e2, e3, -⟩ := idx12 t
  rw [pay2_12_apply, he, Nat.mul_succ, Finset.sum_range_add]
  refine congrArg (_ + ·) ?_
  rw [Finset.sum_range]
  refine Finset.sum_congr rfl fun k _ => ?_
  have hk : 1024 * (t.val % 4) + k.val < 4096 := by have := k.isLt; omega
  unfold term12 iblk12
  rw [dif_pos hk, View.read_apply, View.read_apply]
  show lhs12 V c _ * rhs12 V c _ = lhs12 V c _ * rhs12 V c _
  exact congrArg₂ (fun x y => lhs12 V c x * rhs12 V c y)
    (Shape.idx_ext₂ (by show win12_0.index t (0 : Fin 2) * 1024 + 1 * p.val = r.val; omega)
      (by show win12_0.index t (1 : Fin 2) * 1024 + 1 * k.val = 1024 * (t.val % 4) + k.val; omega))
    (Shape.idx_ext₂ (by show win12_1.index t (0 : Fin 2) * 1024 + 1 * k.val = 1024 * (t.val % 4) + k.val; omega)
      (by show win12_1.index t (1 : Fin 2) * 512 + 1 * q.val = q.val; omega))

/-- After the body at position n the accumulator holds the first 1024·(n % 4 + 1) terms of its row block's entries: by induction on the position. -/
theorem accAt12_apply (c : Dev nD) : ∀ (n : ℕ) (hn : n < cfg12.N) (p : Fin 1024) (q : Fin 512) (r : Fin 8192),
    r.val = 1024 * (n / 4) + p.val →
    accAt12 V c n hn (ix2 p q) = ∑ k ∈ Finset.range (1024 * (n % 4 + 1)), term12 V c r q k
  | 0, hn, p, q, r, hr => by
    rw [accAt12]
    exact kstep12 V c ⟨0, hn⟩ 0 rfl _ p q r hr ((pay1_12_apply p q).trans (Finset.sum_range_zero _).symm)
  | n + 1, hn, p, q, r, hr => by
    rw [accAt12]
    by_cases h0 : (n + 1) % 4 = 0
    · rw [if_pos h0]
      exact kstep12 V c ⟨n + 1, hn⟩ ((n + 1) % 4) rfl _ p q r hr (by
        rw [h0]
        exact (pay1_12_apply p q).trans (Finset.sum_range_zero _).symm)
    · rw [if_neg h0]
      exact kstep12 V c ⟨n + 1, hn⟩ ((n + 1) % 4) rfl _ p q r hr (by
        rw [show (n + 1) % 4 = n % 4 + 1 by omega]
        exact accAt12_apply c n _ p q r (by omega))

def whole12 (c : Dev nD) : S8192x512.Idx → EReal := fun i =>
  (∑ k : Fin 4096, lhs12 V c (ix2 (i 0) k) * rhs12 V c (ix2 k (i 1))) + bias12 V c (ix2 0 (i 1))

theorem out12_apply (c : Dev nD) (t : Fin cfg12.N) (h3 : t.val % 4 = 3) (y : S1024x512.Idx) (i : S8192x512.Idx)
    (h0 : (i 0).val = 1024 * (t.val / 4) + (y 0).val) (h1 : (i 1).val = (y 1).val) :
    out12 V c t y = whole12 V c i := by
  obtain ⟨p, q, rfl⟩ : ∃ (p : Fin 1024) (q : Fin 512), y = ix2 p q := ⟨y 0, y 1, eq_ix2 y⟩
  obtain ⟨-, -, -, -, e0, e1, -⟩ := idx12 t
  have hq : i 1 = q := Fin.ext h1
  unfold out12 whole12
  rw [pay3_12_apply, accAt12_apply V c t.val t.isLt p q (i 0) h0, h3, Finset.sum_range, hq]
  refine congrArg₂ (· + ·) (Finset.sum_congr rfl fun k _ => ?_) ?_
  · unfold term12
    rw [dif_pos k.isLt]
  · unfold iblk12
    rw [View.read_apply]
    show V c (Pipeline.arrRef spec12 2) _ = V c (Pipeline.arrRef spec12 2) _
    exact congrArg _ (Shape.idx_ext₂ (by show win12_2.index t (0 : Fin 2) * 1 + 1 * 0 = 0; omega)
      (by show win12_2.index t (1 : Fin 2) * 512 + 1 * q.val = q.val; omega))

/-- Row r of the output array lies in the block of the last K-step of row block r / 1024. -/
theorem cover12 (i : S8192x512.Idx) :
    ∃ t : Fin cfg12.N, (cfg12.win 3).flush t = true ∧ i ∈ ((cfg12.win 3).blk t).view.set := by
  have hi0 : (i 0).val < 8192 := idx2_lt0 i
  have hi1 : (i 1).val < 512 := idx2_lt1 i
  obtain ⟨t, h3, hd⟩ : ∃ t : Fin cfg12.N, t.val % 4 = 3 ∧ t.val / 4 = (i 0).val / 1024 :=
    ⟨⟨4 * ((i 0).val / 1024) + 3, by show _ < grid12.N; rw [N_12]; omega⟩,
      by show (4 * ((i 0).val / 1024) + 3) % 4 = 3; omega,
      by show (4 * ((i 0).val / 1024) + 3) / 4 = _; omega⟩
  obtain ⟨-, -, -, -, -, -, e0, e1⟩ := idx12 t
  refine ⟨t, (flush12_3 t).mpr h3, ?_⟩
  show i ∈ ((View.whole (Pipeline.arrRef spec12 3)).slice (win12_3.rect t)).set
  rw [View.set_slice_whole, Rect.mem_set_unit]
  intro a
  match a with
  | ⟨0, _⟩ => show win12_3.index t (0 : Fin 2) * 1024 ≤ (i 0).val ∧ (i 0).val < win12_3.index t (0 : Fin 2) * 1024 + 1024; omega
  | ⟨1, _⟩ => show win12_3.index t (1 : Fin 2) * 512 ≤ (i 1).val ∧ (i 1).val < win12_3.index t (1 : Fin 2) * 512 + 512; omega

/-- At the last K-steps the output blocks are blocks of the whole product plus the bias row, and they tile the output array. -/
theorem final12_of (c : Dev nD) (dat : Dat τ (Elt Ideal) Unit ℕ (UR sig nD τ) ℕ cfg12 c)
    (hA : ∀ w, dat.A w = V c (Pipeline.arrRef spec12 w))
    (hafter : ∀ t : Fin cfg12.N, dat.after 3 t = out12 V c t)
    (r : Fin 8192) (q : Fin 512) :
    (dat.arrAt 3 cfg12.N : S8192x512.Idx → EReal) (ValueIdx.ix2 r q)
      = (∑ k : Fin 4096, lhs12 V c (ValueIdx.ix2 r k) * rhs12 V c (ValueIdx.ix2 k q)) + bias12 V c (ValueIdx.ix2 0 q) :=
  congrFun (dat.arrAt_eq_of_cover 3 (whole12 V c) (fun t hf => by
    obtain ⟨-, -, -, -, -, -, e0, e1⟩ := idx12 t
    show (cfg12.win 3).cut (grid12.coords t) (dat.after 3 t) = _
    rw [hafter]
    funext j
    rw [View.read_apply]
    exact out12_apply V c t ((flush12_3 t).mp hf) j _
      (by show win12_3.index t (0 : Fin 2) * 1024 + 1 * (j 0).val = 1024 * (t.val / 4) + (j 0).val; omega)
      (by show win12_3.index t (1 : Fin 2) * 512 + 1 * (j 1).val = (j 1).val; omega)) cover12) _

end

end Cert.KernelIdeal.Gen

end
-- ==== Proof.KI.Val13.lean ====
import proofs.«103213_j15710990369585_1_alg».proof.Proof.KI.Defs13
import proofs.«103213_j15710990369585_1_alg».proof.Proof.KI.ValLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx

theorem pay1_13_apply (p : Fin 1024) (q : Fin 640) : (k13_pay1 (F := Ideal)) (ix2 p q) = 0 := by
  unfold k13_pay1
  simp only [shapeCast_self]
  exact Ideal.ofBits_zero_f32

theorem pay2_13_apply (xa : Vec Ideal S1024x1024 .f32) (xb e : Vec Ideal S1024x640 .f32) (p : Fin 1024) (q : Fin 640) :
    k13_pay2 xa xb e (ix2 p q) = e (ix2 p q) + ∑ k : Fin 1024, xa (ix2 p k) * xb (ix2 k q) := by
  unfold k13_pay2
  simp only [shapeCast_self]
  exact congrArg (e (ix2 p q) + ·) (mm_apply _ _ p q)

theorem pay3_13_apply (e : Vec Ideal S1024x640 .f32) (xc : Vec Ideal S1x640 .f32) (p : Fin 1024) (q : Fin 640) :
    k13_pay3 e xc (ix2 p q) = e (ix2 p q) + xc (ix2 0 q) := by
  unfold k13_pay3
  simp only [shapeCast_self]
  exact congrArg (e (ix2 p q) + ·) (broadcastTo_1b_ab_apply xc _ p q)

theorem idx13 : ∀ t : Fin cfg13.N,
    win13_0.index t (0 : Fin 2) = t.val / 8 ∧ win13_0.index t (1 : Fin 2) = t.val % 8
    ∧ win13_1.index t (0 : Fin 2) = t.val % 8 ∧ win13_1.index t (1 : Fin 2) = 0
    ∧ win13_2.index t (0 : Fin 2) = 0 ∧ win13_2.index t (1 : Fin 2) = 0
    ∧ win13_3.index t (0 : Fin 2) = t.val / 8 ∧ win13_3.index t (1 : Fin 2) = 0 :=
  (by decide +kernel : ∀ t : Fin grid13.N, _)

section
variable (V : (c : Dev nD) → (b : Ref sig .tc) → Buf (Elt Ideal) ((c : Thread nD τ).loc b))

abbrev lhs13 (c : Dev nD) : S4096x8192.Idx → EReal := V c (Pipeline.arrRef spec13 0)
abbrev rhs13 (c : Dev nD) : S8192x640.Idx → EReal := V c (Pipeline.arrRef spec13 1)
abbrev bias13 (c : Dev nD) : S1x640.Idx → EReal := V c (Pipeline.arrRef spec13 2)

def term13 (c : Dev nD) (r : Fin 4096) (q : Fin 640) (k : ℕ) : EReal :=
  if h : k < 8192 then lhs13 V c (ix2 r ⟨k, h⟩) * rhs13 V c (ix2 ⟨k, h⟩ q) else 0

/-- One K-step adds the block's 1024 terms of entry (r, q) of the whole product to what was accumulated. -/
theorem kstep13 (c : Dev nD) (t : Fin cfg13.N) (s : ℕ) (hs : t.val % 8 = s) (e : Vec Ideal S1024x640 .f32) (p : Fin 1024) (q : Fin 640)
    (r : Fin 4096) (hr : r.val = 1024 * (t.val / 8) + p.val) (he : e (ix2 p q) = ∑ k ∈ Finset.range (1024 * s), term13 V c r q k) :
    k13_pay2 (iblk13 V c 0 t) (iblk13 V c 1 t) e (ix2 p q) = ∑ k ∈ Finset.range (1024 * (s + 1)), term13 V c r q k := by
  subst hs
  obtain ⟨e0, e1, e2, e3, -⟩ := idx13 t
  rw [pay2_13_apply, he, Nat.mul_succ, Finset.sum_range_add]
  refine congrArg (_ + ·) ?_
  rw [Finset.sum_range]
  refine Finset.sum_congr rfl fun k _ => ?_
  have hk : 1024 * (t.val % 8) + k.val < 8192 := by have := k.isLt; omega
  unfold term13 iblk13
  rw [dif_pos hk, View.read_apply, View.read_apply]
  show lhs13 V c _ * rhs13 V c _ = lhs13 V c _ * rhs13 V c _
  exact congrArg₂ (fun x y => lhs13 V c x * rhs13 V c y)
    (Shape.idx_ext₂ (by show win13_0.index t (0 : Fin 2) * 1024 + 1 * p.val = r.val; omega)
      (by show win13_0.index t (1 : Fin 2) * 1024 + 1 * k.val = 1024 * (t.val % 8) + k.val; omega))
    (Shape.idx_ext₂ (by show win13_1.index t (0 : Fin 2) * 1024 + 1 * k.val = 1024 * (t.val % 8) + k.val; omega)
      (by show win13_1.index t (1 : Fin 2) * 640 + 1 * q.val = q.val; omega))

/-- After the body at position n the accumulator holds the first 1024·(n % 8 + 1) terms of its row block's entries: by induction on the position. -/
theorem accAt13_apply (c : Dev nD) : ∀ (n : ℕ) (hn : n < cfg13.N) (p : Fin 1024) (q : Fin 640) (r : Fin 4096),
    r.val = 1024 * (n / 8) + p.val →
    accAt13 V c n hn (ix2 p q) = ∑ k ∈ Finset.range (1024 * (n % 8 + 1)), term13 V c r q k
  | 0, hn, p, q, r, hr => by
    rw [accAt13]
    exact kstep13 V c ⟨0, hn⟩ 0 rfl _ p q r hr ((pay1_13_apply p q).trans (Finset.sum_range_zero _).symm)
  | n + 1, hn, p, q, r, hr => by
    rw [accAt13]
    by_cases h0 : (n + 1) % 8 = 0
    · rw [if_pos h0]
      exact kstep13 V c ⟨n + 1, hn⟩ ((n + 1) % 8) rfl _ p q r hr (by
        rw [h0]
        exact (pay1_13_apply p q).trans (Finset.sum_range_zero _).symm)
    · rw [if_neg h0]
      exact kstep13 V c ⟨n + 1, hn⟩ ((n + 1) % 8) rfl _ p q r hr (by
        rw [show (n + 1) % 8 = n % 8 + 1 by omega]
        exact accAt13_apply c n _ p q r (by omega))

def whole13 (c : Dev nD) : S4096x640.Idx → EReal := fun i =>
  (∑ k : Fin 8192, lhs13 V c (ix2 (i 0) k) * rhs13 V c (ix2 k (i 1))) + bias13 V c (ix2 0 (i 1))

theorem out13_apply (c : Dev nD) (t : Fin cfg13.N) (h3 : t.val % 8 = 7) (y : S1024x640.Idx) (i : S4096x640.Idx)
    (h0 : (i 0).val = 1024 * (t.val / 8) + (y 0).val) (h1 : (i 1).val = (y 1).val) :
    out13 V c t y = whole13 V c i := by
  obtain ⟨p, q, rfl⟩ : ∃ (p : Fin 1024) (q : Fin 640), y = ix2 p q := ⟨y 0, y 1, eq_ix2 y⟩
  obtain ⟨-, -, -, -, e0, e1, -⟩ := idx13 t
  have hq : i 1 = q := Fin.ext h1
  unfold out13 whole13
  rw [pay3_13_apply, accAt13_apply V c t.val t.isLt p q (i 0) h0, h3, Finset.sum_range, hq]
  refine congrArg₂ (· + ·) (Finset.sum_congr rfl fun k _ => ?_) ?_
  · unfold term13
    rw [dif_pos k.isLt]
  · unfold iblk13
    rw [View.read_apply]
    show V c (Pipeline.arrRef spec13 2) _ = V c (Pipeline.arrRef spec13 2) _
    exact congrArg _ (Shape.idx_ext₂ (by show win13_2.index t (0 : Fin 2) * 1 + 1 * 0 = 0; omega)
      (by show win13_2.index t (1 : Fin 2) * 640 + 1 * q.val = q.val; omega))

/-- Row r of the output array lies in the block of the last K-step of row block r / 1024. -/
theorem cover13 (i : S4096x640.Idx) :
    ∃ t : Fin cfg13.N, (cfg13.win 3).flush t = true ∧ i ∈ ((cfg13.win 3).blk t).view.set := by
  have hi0 : (i 0).val < 4096 := idx2_lt0 i
  have hi1 : (i 1).val < 640 := idx2_lt1 i
  obtain ⟨t, h3, hd⟩ : ∃ t : Fin cfg13.N, t.val % 8 = 7 ∧ t.val / 8 = (i 0).val / 1024 :=
    ⟨⟨8 * ((i 0).val / 1024) + 7, by show _ < grid13.N; rw [N_13]; omega⟩,
      by show (8 * ((i 0).val / 1024) + 7) % 8 = 7; omega,
      by show (8 * ((i 0).val / 1024) + 7) / 8 = _; omega⟩
  obtain ⟨-, -, -, -, -, -, e0, e1⟩ := idx13 t
  refine ⟨t, (flush13_3 t).mpr h3, ?_⟩
  show i ∈ ((View.whole (Pipeline.arrRef spec13 3)).slice (win13_3.rect t)).set
  rw [View.set_slice_whole, Rect.mem_set_unit]
  intro a
  match a with
  | ⟨0, _⟩ => show win13_3.index t (0 : Fin 2) * 1024 ≤ (i 0).val ∧ (i 0).val < win13_3.index t (0 : Fin 2) * 1024 + 1024; omega
  | ⟨1, _⟩ => show win13_3.index t (1 : Fin 2) * 640 ≤ (i 1).val ∧ (i 1).val < win13_3.index t (1 : Fin 2) * 640 + 640; omega

/-- At the last K-steps the output blocks are blocks of the whole product plus the bias row, and they tile the output array. -/
theorem final13_of (c : Dev nD) (dat : Dat τ (Elt Ideal) Unit ℕ (UR sig nD τ) ℕ cfg13 c)
    (hA : ∀ w, dat.A w = V c (Pipeline.arrRef spec13 w))
    (hafter : ∀ t : Fin cfg13.N, dat.after 3 t = out13 V c t)
    (r : Fin 4096) (q : Fin 640) :
    (dat.arrAt 3 cfg13.N : S4096x640.Idx → EReal) (ValueIdx.ix2 r q)
      = (∑ k : Fin 8192, lhs13 V c (ValueIdx.ix2 r k) * rhs13 V c (ValueIdx.ix2 k q)) + bias13 V c (ValueIdx.ix2 0 q) :=
  congrFun (dat.arrAt_eq_of_cover 3 (whole13 V c) (fun t hf => by
    obtain ⟨-, -, -, -, -, -, e0, e1⟩ := idx13 t
    show (cfg13.win 3).cut (grid13.coords t) (dat.after 3 t) = _
    rw [hafter]
    funext j
    rw [View.read_apply]
    exact out13_apply V c t ((flush13_3 t).mp hf) j _
      (by show win13_3.index t (0 : Fin 2) * 1024 + 1 * (j 0).val = 1024 * (t.val / 8) + (j 0).val; omega)
      (by show win13_3.index t (1 : Fin 2) * 640 + 1 * (j 1).val = (j 1).val; omega)) cover13) _

end

end Cert.KernelIdeal.Gen

end
-- ==== Proof.KI.Val14.lean ====
import proofs.«103213_j15710990369585_1_alg».proof.Proof.KI.Defs14
import proofs.«103213_j15710990369585_1_alg».proof.Proof.KI.ValLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx

theorem pay1_14_apply (p : Fin 1024) (q : Fin 256) : (k14_pay1 (F := Ideal)) (ix2 p q) = 0 := by
  unfold k14_pay1
  simp only [shapeCast_self]
  exact Ideal.ofBits_zero_f32

theorem pay2_14_apply (xa : Vec Ideal S1024x1024 .f32) (xb e : Vec Ideal S1024x256 .f32) (p : Fin 1024) (q : Fin 256) :
    k14_pay2 xa xb e (ix2 p q) = e (ix2 p q) + ∑ k : Fin 1024, xa (ix2 p k) * xb (ix2 k q) := by
  unfold k14_pay2
  simp only [shapeCast_self]
  exact congrArg (e (ix2 p q) + ·) (mm_apply _ _ p q)

theorem pay3_14_apply (e : Vec Ideal S1024x256 .f32) (xc : Vec Ideal S1x256 .f32) (p : Fin 1024) (q : Fin 256) :
    k14_pay3 e xc (ix2 p q) = e (ix2 p q) + xc (ix2 0 q) := by
  unfold k14_pay3
  simp only [shapeCast_self]
  exact congrArg (e (ix2 p q) + ·) (broadcastTo_1b_ab_apply xc _ p q)

theorem idx14 : ∀ t : Fin cfg14.N,
    win14_0.index t (0 : Fin 2) = t.val / 4 ∧ win14_0.index t (1 : Fin 2) = t.val % 4
    ∧ win14_1.index t (0 : Fin 2) = t.val % 4 ∧ win14_1.index t (1 : Fin 2) = 0
    ∧ win14_2.index t (0 : Fin 2) = 0 ∧ win14_2.index t (1 : Fin 2) = 0
    ∧ win14_3.index t (0 : Fin 2) = t.val / 4 ∧ win14_3.index t (1 : Fin 2) = 0 :=
  (by decide +kernel : ∀ t : Fin grid14.N, _)

section
variable (V : (c : Dev nD) → (b : Ref sig .tc) → Buf (Elt Ideal) ((c : Thread nD τ).loc b))

abbrev lhs14 (c : Dev nD) : S8192x4096.Idx → EReal := V c (Pipeline.arrRef spec14 0)
abbrev rhs14 (c : Dev nD) : S4096x256.Idx → EReal := V c (Pipeline.arrRef spec14 1)
abbrev bias14 (c : Dev nD) : S1x256.Idx → EReal := V c (Pipeline.arrRef spec14 2)

def term14 (c : Dev nD) (r : Fin 8192) (q : Fin 256) (k : ℕ) : EReal :=
  if h : k < 4096 then lhs14 V c (ix2 r ⟨k, h⟩) * rhs14 V c (ix2 ⟨k, h⟩ q) else 0

/-- One K-step adds the block's 1024 terms of entry (r, q) of the whole product to what was accumulated. -/
theorem kstep14 (c : Dev nD) (t : Fin cfg14.N) (s : ℕ) (hs : t.val % 4 = s) (e : Vec Ideal S1024x256 .f32) (p : Fin 1024) (q : Fin 256)
    (r : Fin 8192) (hr : r.val = 1024 * (t.val / 4) + p.val) (he : e (ix2 p q) = ∑ k ∈ Finset.range (1024 * s), term14 V c r q k) :
    k14_pay2 (iblk14 V c 0 t) (iblk14 V c 1 t) e (ix2 p q) = ∑ k ∈ Finset.range (1024 * (s + 1)), term14 V c r q k := by
  subst hs
  obtain ⟨e0, e1, e2, e3, -⟩ := idx14 t
  rw [pay2_14_apply, he, Nat.mul_succ, Finset.sum_range_add]
  refine congrArg (_ + ·) ?_
  rw [Finset.sum_range]
  refine Finset.sum_congr rfl fun k _ => ?_
  have hk : 1024 * (t.val % 4) + k.val < 4096 := by have := k.isLt; omega
  unfold term14 iblk14
  rw [dif_pos hk, View.read_apply, View.read_apply]
  show lhs14 V c _ * rhs14 V c _ = lhs14 V c _ * rhs14 V c _
  exact congrArg₂ (fun x y => lhs14 V c x * rhs14 V c y)
    (Shape.idx_ext₂ (by show win14_0.index t (0 : Fin 2) * 1024 + 1 * p.val = r.val; omega)
      (by show win14_0.index t (1 : Fin 2) * 1024 + 1 * k.val = 1024 * (t.val % 4) + k.val; omega))
    (Shape.idx_ext₂ (by show win14_1.index t (0 : Fin 2) * 1024 + 1 * k.val = 1024 * (t.val % 4) + k.val; omega)
      (by show win14_1.index t (1 : Fin 2) * 256 + 1 * q.val = q.val; omega))

/-- After the body at position n the accumulator holds the first 1024·(n % 4 + 1) terms of its row block's entries: by induction on the position. -/
theorem accAt14_apply (c : Dev nD) : ∀ (n : ℕ) (hn : n < cfg14.N) (p : Fin 1024) (q : Fin 256) (r : Fin 8192),
    r.val = 1024 * (n / 4) + p.val →
    accAt14 V c n hn (ix2 p q) = ∑ k ∈ Finset.range (1024 * (n % 4 + 1)), term14 V c r q k
  | 0, hn, p, q, r, hr => by
    rw [accAt14]
    exact kstep14 V c ⟨0, hn⟩ 0 rfl _ p q r hr ((pay1_14_apply p q).trans (Finset.sum_range_zero _).symm)
  | n + 1, hn, p, q, r, hr => by
    rw [accAt14]
    by_cases h0 : (n + 1) % 4 = 0
    · rw [if_pos h0]
      exact kstep14 V c ⟨n + 1, hn⟩ ((n + 1) % 4) rfl _ p q r hr (by
        rw [h0]
        exact (pay1_14_apply p q).trans (Finset.sum_range_zero _).symm)
    · rw [if_neg h0]
      exact kstep14 V c ⟨n + 1, hn⟩ ((n + 1) % 4) rfl _ p q r hr (by
        rw [show (n + 1) % 4 = n % 4 + 1 by omega]
        exact accAt14_apply c n _ p q r (by omega))

def whole14 (c : Dev nD) : S8192x256.Idx → EReal := fun i =>
  (∑ k : Fin 4096, lhs14 V c (ix2 (i 0) k) * rhs14 V c (ix2 k (i 1))) + bias14 V c (ix2 0 (i 1))

theorem out14_apply (c : Dev nD) (t : Fin cfg14.N) (h3 : t.val % 4 = 3) (y : S1024x256.Idx) (i : S8192x256.Idx)
    (h0 : (i 0).val = 1024 * (t.val / 4) + (y 0).val) (h1 : (i 1).val = (y 1).val) :
    out14 V c t y = whole14 V c i := by
  obtain ⟨p, q, rfl⟩ : ∃ (p : Fin 1024) (q : Fin 256), y = ix2 p q := ⟨y 0, y 1, eq_ix2 y⟩
  obtain ⟨-, -, -, -, e0, e1, -⟩ := idx14 t
  have hq : i 1 = q := Fin.ext h1
  unfold out14 whole14
  rw [pay3_14_apply, accAt14_apply V c t.val t.isLt p q (i 0) h0, h3, Finset.sum_range, hq]
  refine congrArg₂ (· + ·) (Finset.sum_congr rfl fun k _ => ?_) ?_
  · unfold term14
    rw [dif_pos k.isLt]
  · unfold iblk14
    rw [View.read_apply]
    show V c (Pipeline.arrRef spec14 2) _ = V c (Pipeline.arrRef spec14 2) _
    exact congrArg _ (Shape.idx_ext₂ (by show win14_2.index t (0 : Fin 2) * 1 + 1 * 0 = 0; omega)
      (by show win14_2.index t (1 : Fin 2) * 256 + 1 * q.val = q.val; omega))

/-- Row r of the output array lies in the block of the last K-step of row block r / 1024. -/
theorem cover14 (i : S8192x256.Idx) :
    ∃ t : Fin cfg14.N, (cfg14.win 3).flush t = true ∧ i ∈ ((cfg14.win 3).blk t).view.set := by
  have hi0 : (i 0).val < 8192 := idx2_lt0 i
  have hi1 : (i 1).val < 256 := idx2_lt1 i
  obtain ⟨t, h3, hd⟩ : ∃ t : Fin cfg14.N, t.val % 4 = 3 ∧ t.val / 4 = (i 0).val / 1024 :=
    ⟨⟨4 * ((i 0).val / 1024) + 3, by show _ < grid14.N; rw [N_14]; omega⟩,
      by show (4 * ((i 0).val / 1024) + 3) % 4 = 3; omega,
      by show (4 * ((i 0).val / 1024) + 3) / 4 = _; omega⟩
  obtain ⟨-, -, -, -, -, -, e0, e1⟩ := idx14 t
  refine ⟨t, (flush14_3 t).mpr h3, ?_⟩
  show i ∈ ((View.whole (Pipeline.arrRef spec14 3)).slice (win14_3.rect t)).set
  rw [View.set_slice_whole, Rect.mem_set_unit]
  intro a
  match a with
  | ⟨0, _⟩ => show win14_3.index t (0 : Fin 2) * 1024 ≤ (i 0).val ∧ (i 0).val < win14_3.index t (0 : Fin 2) * 1024 + 1024; omega
  | ⟨1, _⟩ => show win14_3.index t (1 : Fin 2) * 256 ≤ (i 1).val ∧ (i 1).val < win14_3.index t (1 : Fin 2) * 256 + 256; omega

/-- At the last K-steps the output blocks are blocks of the whole product plus the bias row, and they tile the output array. -/
theorem final14_of (c : Dev nD) (dat : Dat τ (Elt Ideal) Unit ℕ (UR sig nD τ) ℕ cfg14 c)
    (hA : ∀ w, dat.A w = V c (Pipeline.arrRef spec14 w))
    (hafter : ∀ t : Fin cfg14.N, dat.after 3 t = out14 V c t)
    (r : Fin 8192) (q : Fin 256) :
    (dat.arrAt 3 cfg14.N : S8192x256.Idx → EReal) (ValueIdx.ix2 r q)
      = (∑ k : Fin 4096, lhs14 V c (ValueIdx.ix2 r k) * rhs14 V c (ValueIdx.ix2 k q)) + bias14 V c (ValueIdx.ix2 0 q) :=
  congrFun (dat.arrAt_eq_of_cover 3 (whole14 V c) (fun t hf => by
    obtain ⟨-, -, -, -, -, -, e0, e1⟩ := idx14 t
    show (cfg14.win 3).cut (grid14.coords t) (dat.after 3 t) = _
    rw [hafter]
    funext j
    rw [View.read_apply]
    exact out14_apply V c t ((flush14_3 t).mp hf) j _
      (by show win14_3.index t (0 : Fin 2) * 1024 + 1 * (j 0).val = 1024 * (t.val / 4) + (j 0).val; omega)
      (by show win14_3.index t (1 : Fin 2) * 256 + 1 * (j 1).val = (j 1).val; omega)) cover14) _

end

end Cert.KernelIdeal.Gen

end
-- ==== Proof.KI.Val15.lean ====
import proofs.«103213_j15710990369585_1_alg».proof.Proof.KI.Defs15
import proofs.«103213_j15710990369585_1_alg».proof.Proof.KI.ValLib
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx

theorem pay1_15_apply (p : Fin 1024) (q : Fin 128) : (k15_pay1 (F := Ideal)) (ix2 p q) = 0 := by
  unfold k15_pay1
  simp only [shapeCast_self]
  exact Ideal.ofBits_zero_f32

theorem pay2_15_apply (xa : Vec Ideal S1024x1024 .f32) (xb e : Vec Ideal S1024x128 .f32) (p : Fin 1024) (q : Fin 128) :
    k15_pay2 xa xb e (ix2 p q) = e (ix2 p q) + ∑ k : Fin 1024, xa (ix2 p k) * xb (ix2 k q) := by
  unfold k15_pay2
  simp only [shapeCast_self]
  exact congrArg (e (ix2 p q) + ·) (mm_apply _ _ p q)

theorem pay3_15_apply (e : Vec Ideal S1024x128 .f32) (xc : Vec Ideal S1x128 .f32) (p : Fin 1024) (q : Fin 128) :
    k15_pay3 e xc (ix2 p q) = e (ix2 p q) + xc (ix2 0 q) := by
  unfold k15_pay3
  simp only [shapeCast_self]
  exact congrArg (e (ix2 p q) + ·) (broadcastTo_1b_ab_apply xc _ p q)

theorem idx15 : ∀ t : Fin cfg15.N,
    win15_0.index t (0 : Fin 2) = t.val / 8 ∧ win15_0.index t (1 : Fin 2) = t.val % 8
    ∧ win15_1.index t (0 : Fin 2) = t.val % 8 ∧ win15_1.index t (1 : Fin 2) = 0
    ∧ win15_2.index t (0 : Fin 2) = 0 ∧ win15_2.index t (1 : Fin 2) = 0
    ∧ win15_3.index t (0 : Fin 2) = t.val / 8 ∧ win15_3.index t (1 : Fin 2) = 0 :=
  (by decide +kernel : ∀ t : Fin grid15.N, _)

section
variable (V : (c : Dev nD) → (b : Ref sig .tc) → Buf (Elt Ideal) ((c : Thread nD τ).loc b))

abbrev lhs15 (c : Dev nD) : S4096x8192.Idx → EReal := V c (Pipeline.arrRef spec15 0)
abbrev rhs15 (c : Dev nD) : S8192x128.Idx → EReal := V c (Pipeline.arrRef spec15 1)
abbrev bias15 (c : Dev nD) : S1x128.Idx → EReal := V c (Pipeline.arrRef spec15 2)

def term15 (c : Dev nD) (r : Fin 4096) (q : Fin 128) (k : ℕ) : EReal :=
  if h : k < 8192 then lhs15 V c (ix2 r ⟨k, h⟩) * rhs15 V c (ix2 ⟨k, h⟩ q) else 0

/-- One K-step adds the block's 1024 terms of entry (r, q) of the whole product to what was accumulated. -/
theorem kstep15 (c : Dev nD) (t : Fin cfg15.N) (s : ℕ) (hs : t.val % 8 = s) (e : Vec Ideal S1024x128 .f32) (p : Fin 1024) (q : Fin 128)
    (r : Fin 4096) (hr : r.val = 1024 * (t.val / 8) + p.val) (he : e (ix2 p q) = ∑ k ∈ Finset.range (1024 * s), term15 V c r q k) :
    k15_pay2 (iblk15 V c 0 t) (iblk15 V c 1 t) e (ix2 p q) = ∑ k ∈ Finset.range (1024 * (s + 1)), term15 V c r q k := by
  subst hs
  obtain ⟨e0, e1, e2, e3, -⟩ := idx15 t
  rw [pay2_15_apply, he, Nat.mul_succ, Finset.sum_range_add]
  refine congrArg (_ + ·) ?_
  rw [Finset.sum_range]
  refine Finset.sum_congr rfl fun k _ => ?_
  have hk : 1024 * (t.val % 8) + k.val < 8192 := by have := k.isLt; omega
  unfold term15 iblk15
  rw [dif_pos hk, View.read_apply, View.read_apply]
  show lhs15 V c _ * rhs15 V c _ = lhs15 V c _ * rhs15 V c _
  exact congrArg₂ (fun x y => lhs15 V c x * rhs15 V c y)
    (Shape.idx_ext₂ (by show win15_0.index t (0 : Fin 2) * 1024 + 1 * p.val = r.val; omega)
      (by show win15_0.index t (1 : Fin 2) * 1024 + 1 * k.val = 1024 * (t.val % 8) + k.val; omega))
    (Shape.idx_ext₂ (by show win15_1.index t (0 : Fin 2) * 1024 + 1 * k.val = 1024 * (t.val % 8) + k.val; omega)
      (by show win15_1.index t (1 : Fin 2) * 128 + 1 * q.val = q.val; omega))

/-- After the body at position n the accumulator holds the first 1024·(n % 8 + 1) terms of its row block's entries: by induction on the position. -/
theorem accAt15_apply (c : Dev nD) : ∀ (n : ℕ) (hn : n < cfg15.N) (p : Fin 1024) (q : Fin 128) (r : Fin 4096),
    r.val = 1024 * (n / 8) + p.val →
    accAt15 V c n hn (ix2 p q) = ∑ k ∈ Finset.range (1024 * (n % 8 + 1)), term15 V c r q k
  | 0, hn, p, q, r, hr => by
    rw [accAt15]
    exact kstep15 V c ⟨0, hn⟩ 0 rfl _ p q r hr ((pay1_15_apply p q).trans (Finset.sum_range_zero _).symm)
  | n + 1, hn, p, q, r, hr => by
    rw [accAt15]
    by_cases h0 : (n + 1) % 8 = 0
    · rw [if_pos h0]
      exact kstep15 V c ⟨n + 1, hn⟩ ((n + 1) % 8) rfl _ p q r hr (by
        rw [h0]
        exact (pay1_15_apply p q).trans (Finset.sum_range_zero _).symm)
    · rw [if_neg h0]
      exact kstep15 V c ⟨n + 1, hn⟩ ((n + 1) % 8) rfl _ p q r hr (by
        rw [show (n + 1) % 8 = n % 8 + 1 by omega]
        exact accAt15_apply c n _ p q r (by omega))

def whole15 (c : Dev nD) : S4096x128.Idx → EReal := fun i =>
  (∑ k : Fin 8192, lhs15 V c (ix2 (i 0) k) * rhs15 V c (ix2 k (i 1))) + bias15 V c (ix2 0 (i 1))

theorem out15_apply (c : Dev nD) (t : Fin cfg15.N) (h3 : t.val % 8 = 7) (y : S1024x128.Idx) (i : S4096x128.Idx)
    (h0 : (i 0).val = 1024 * (t.val / 8) + (y 0).val) (h1 : (i 1).val = (y 1).val) :
    out15 V c t y = whole15 V c i := by
  obtain ⟨p, q, rfl⟩ : ∃ (p : Fin 1024) (q : Fin 128), y = ix2 p q := ⟨y 0, y 1, eq_ix2 y⟩
  obtain ⟨-, -, -, -, e0, e1, -⟩ := idx15 t
  have hq : i 1 = q := Fin.ext h1
  unfold out15 whole15
  rw [pay3_15_apply, accAt15_apply V c t.val t.isLt p q (i 0) h0, h3, Finset.sum_range, hq]
  refine congrArg₂ (· + ·) (Finset.sum_congr rfl fun k _ => ?_) ?_
  · unfold term15
    rw [dif_pos k.isLt]
  · unfold iblk15
    rw [View.read_apply]
    show V c (Pipeline.arrRef spec15 2) _ = V c (Pipeline.arrRef spec15 2) _
    exact congrArg _ (Shape.idx_ext₂ (by show win15_2.index t (0 : Fin 2) * 1 + 1 * 0 = 0; omega)
      (by show win15_2.index t (1 : Fin 2) * 128 + 1 * q.val = q.val; omega))

/-- Row r of the output array lies in the block of the last K-step of row block r / 1024. -/
theorem cover15 (i : S4096x128.Idx) :
    ∃ t : Fin cfg15.N, (cfg15.win 3).flush t = true ∧ i ∈ ((cfg15.win 3).blk t).view.set := by
  have hi0 : (i 0).val < 4096 := idx2_lt0 i
  have hi1 : (i 1).val < 128 := idx2_lt1 i
  obtain ⟨t, h3, hd⟩ : ∃ t : Fin cfg15.N, t.val % 8 = 7 ∧ t.val / 8 = (i 0).val / 1024 :=
    ⟨⟨8 * ((i 0).val / 1024) + 7, by show _ < grid15.N; rw [N_15]; omega⟩,
      by show (8 * ((i 0).val / 1024) + 7) % 8 = 7; omega,
      by show (8 * ((i 0).val / 1024) + 7) / 8 = _; omega⟩
  obtain ⟨-, -, -, -, -, -, e0, e1⟩ := idx15 t
  refine ⟨t, (flush15_3 t).mpr h3, ?_⟩
  show i ∈ ((View.whole (Pipeline.arrRef spec15 3)).slice (win15_3.rect t)).set
  rw [View.set_slice_whole, Rect.mem_set_unit]
  intro a
  match a with
  | ⟨0, _⟩ => show win15_3.index t (0 : Fin 2) * 1024 ≤ (i 0).val ∧ (i 0).val < win15_3.index t (0 : Fin 2) * 1024 + 1024; omega
  | ⟨1, _⟩ => show win15_3.index t (1 : Fin 2) * 128 ≤ (i 1).val ∧ (i 1).val < win15_3.index t (1 : Fin 2) * 128 + 128; omega

/-- At the last K-steps the output blocks are blocks of the whole product plus the bias row, and they tile the output array. -/
theorem final15_of (c : Dev nD) (dat : Dat τ (Elt Ideal) Unit ℕ (UR sig nD τ) ℕ cfg15 c)
    (hA : ∀ w, dat.A w = V c (Pipeline.arrRef spec15 w))
    (hafter : ∀ t : Fin cfg15.N, dat.after 3 t = out15 V c t)
    (r : Fin 4096) (q : Fin 128) :
    (dat.arrAt 3 cfg15.N : S4096x128.Idx → EReal) (ValueIdx.ix2 r q)
      = (∑ k : Fin 8192, lhs15 V c (ValueIdx.ix2 r k) * rhs15 V c (ValueIdx.ix2 k q)) + bias15 V c (ValueIdx.ix2 0 q) :=
  congrFun (dat.arrAt_eq_of_cover 3 (whole15 V c) (fun t hf => by
    obtain ⟨-, -, -, -, -, -, e0, e1⟩ := idx15 t
    show (cfg15.win 3).cut (grid15.coords t) (dat.after 3 t) = _
    rw [hafter]
    funext j
    rw [View.read_apply]
    exact out15_apply V c t ((flush15_3 t).mp hf) j _
      (by show win15_3.index t (0 : Fin 2) * 1024 + 1 * (j 0).val = 1024 * (t.val / 8) + (j 0).val; omega)
      (by show win15_3.index t (1 : Fin 2) * 128 + 1 * (j 1).val = (j 1).val; omega)) cover15) _

end

end Cert.KernelIdeal.Gen

end
-- ==== Proof.KI.RegVals.lean ====
/-
  The sixteen regions' values on the chain of buffer contents. Between the items of the program the TensorCore's buffers are a
  chain: a host stretch applied to what was there, or a region's output array replaced by what the region's write-backs leave.
  Each region is a linear layer on three arrays it finds when it is entered (the left operand, the right operand, the bias
  row): here its value theorem is applied at that point of the chain, so that the output array the region leaves is read, entry
  by entry, as the layer's formula of the three arrays the region was entered with.
-/
import proofs.«103213_j15710990369585_1_alg».proof.Proof.KI.Val0
import proofs.«103213_j15710990369585_1_alg».proof.Proof.KI.Val1
import proofs.«103213_j15710990369585_1_alg».proof.Proof.KI.Val2
import proofs.«103213_j15710990369585_1_alg».proof.Proof.KI.Val3
import proofs.«103213_j15710990369585_1_alg».proof.Proof.KI.Val4
import proofs.«103213_j15710990369585_1_alg».proof.Proof.KI.Val5
import proofs.«103213_j15710990369585_1_alg».proof.Proof.KI.Val6
import proofs.«103213_j15710990369585_1_alg».proof.Proof.KI.Val7
import proofs.«103213_j15710990369585_1_alg».proof.Proof.KI.Val8
import proofs.«103213_j15710990369585_1_alg».proof.Proof.KI.Val9
import proofs.«103213_j15710990369585_1_alg».proof.Proof.KI.Val10
import proofs.«103213_j15710990369585_1_alg».proof.Proof.KI.Val11
import proofs.«103213_j15710990369585_1_alg».proof.Proof.KI.Val12
import proofs.«103213_j15710990369585_1_alg».proof.Proof.KI.Val13
import proofs.«103213_j15710990369585_1_alg».proof.Proof.KI.Val14
import proofs.«103213_j15710990369585_1_alg».proof.Proof.KI.Val15
import proofs.«103213_j15710990369585_1_alg».proof.Proof.KI.Chain
import Idealize.ShloMosaic.Lib.ValueIdx

noncomputable section

namespace Cert.KernelIdeal.Gen

open Idealize.ShloMosaic Idealize.ShloMosaic.TcCoe
open Idealize.SL Idealize.SL.Sem
open Idealize.ShloMosaic.Pipeline (Dat Cfg Window)
open Idealize.ShloMosaic.ValueIdx
open scoped BigOperators

variable (m : (ℓ : Loc nD τ sig) → Buf (Elt Ideal) ℓ) (c : Dev nD)

/-- Region 0's three input arrays as the region is entered, and its output array as the region leaves it. -/
abbrev rvA_0 : Vec Ideal S4096x4096 .f32 := W1 m c main_arg6
abbrev rvB_0 : Vec Ideal S4096x128 .f32 := W1 m c main_arg10
abbrev rvC_0 : Vec Ideal S1x128 .f32 := W1 m c main_v0
abbrev rvO_0 : Vec Ideal S4096x128 .f32 := W2 m c main_v1

/-- Region 0 on the chain: its output array at (r, q) is, of its three input arrays as it is entered,
    row r of the first against column q of the second, plus the bias at q. -/
theorem regval0 (r : Fin 4096) (q : Fin 128) :
    rvO_0 m c (ix2 r q) = (∑ k : Fin 4096, rvA_0 m c (ix2 r k) * rvB_0 m c (ix2 k q)) + rvC_0 m c (ix2 (0 : Fin 1) q) := by
  have h := final0_of (fun c b => W1 m c b) c (dat0 (fun c b => W1 m c b) c) (A_eq0 _ c) (after0_3 _ c) r q
  show W2 m c main_v1 (ix2 r q) = _
  rw [W2_out]
  exact h

/-- Region 1's three input arrays as the region is entered, and its output array as the region leaves it. -/
abbrev rvA_1 : Vec Ideal S4096x768 .f32 := W3 m c main_arg7
abbrev rvB_1 : Vec Ideal S768x128 .f32 := W3 m c main_arg12
abbrev rvC_1 : Vec Ideal S1x128 .f32 := W3 m c main_v2
abbrev rvO_1 : Vec Ideal S4096x128 .f32 := W4 m c main_v3

/-- Region 1 on the chain: its output array at (r, q) is, of its three input arrays as it is entered,
    row r of the first against column q of the second, plus the bias at q. -/
theorem regval1 (r : Fin 4096) (q : Fin 128) :
    rvO_1 m c (ix2 r q) = (∑ k : Fin 768, rvA_1 m c (ix2 r k) * rvB_1 m c (ix2 k q)) + rvC_1 m c (ix2 (0 : Fin 1) q) := by
  have h := final1_of (fun c b => W3 m c b) c (dat1 (fun c b => W3 m c b) c) (A_eq1 _ c) (after1_3 _ c) r q
  show W4 m c main_v3 (ix2 r q) = _
  rw [W4_out]
  exact h

/-- Region 2's three input arrays as the region is entered, and its output array as the region leaves it. -/
abbrev rvA_2 : Vec Ideal S8192x768 .f32 := W5 m c main_arg8
abbrev rvB_2 : Vec Ideal S768x128 .f32 := W5 m c main_arg14
abbrev rvC_2 : Vec Ideal S1x128 .f32 := W5 m c main_v4
abbrev rvO_2 : Vec Ideal S8192x128 .f32 := W6 m c main_v5

/-- Region 2 on the chain: its output array at (r, q) is, of its three input arrays as it is entered,
    row r of the first against column q of the second, plus the bias at q. -/
theorem regval2 (r : Fin 8192) (q : Fin 128) :
    rvO_2 m c (ix2 r q) = (∑ k : Fin 768, rvA_2 m c (ix2 r k) * rvB_2 m c (ix2 k q)) + rvC_2 m c (ix2 (0 : Fin 1) q) := by
  have h := final2_of (fun c b => W5 m c b) c (dat2 (fun c b => W5 m c b) c) (A_eq2 _ c) (after2_3 _ c) r q
  show W6 m c main_v5 (ix2 r q) = _
  rw [W6_out]
  exact h

/-- Region 3's three input arrays as the region is entered, and its output array as the region leaves it. -/
abbrev rvA_3 : Vec Ideal S4096x768 .f32 := W7 m c main_arg9
abbrev rvB_3 : Vec Ideal S768x128 .f32 := W7 m c main_arg16
abbrev rvC_3 : Vec Ideal S1x128 .f32 := W7 m c main_v6
abbrev rvO_3 : Vec Ideal S4096x128 .f32 := W8 m c main_v7

/-- Region 3 on the chain: its output array at (r, q) is, of its three input arrays as it is entered,
    row r of the first against column q of the second, plus the bias at q. -/
theorem regval3 (r : Fin 4096) (q : Fin 128) :
    rvO_3 m c (ix2 r q) = (∑ k : Fin 768, rvA_3 m c (ix2 r k) * rvB_3 m c (ix2 k q)) + rvC_3 m c (ix2 (0 : Fin 1) q) := by
  have h := final3_of (fun c b => W7 m c b) c (dat3 (fun c b => W7 m c b) c) (A_eq3 _ c) (after3_3 _ c) r q
  show W8 m c main_v7 (ix2 r q) = _
  rw [W8_out]
  exact h

/-- Region 4's three input arrays as the region is entered, and its output array as the region leaves it. -/
abbrev rvA_4 : Vec Ideal S4096x128 .f32 := W9 m c main_v1
abbrev rvB_4 : Vec Ideal S128x64 .f32 := W9 m c main_arg20
abbrev rvC_4 : Vec Ideal S1x64 .f32 := W9 m c main_v8
abbrev rvO_4 : Vec Ideal S4096x64 .f32 := W10 m c main_v9

/-- Region 4 on the chain: its output array at (r, q) is, of its three input arrays as it is entered,
    the maximum of zero and row r of the first against column q of the second plus the bias at q. -/
theorem regval4 (r : Fin 4096) (q : Fin 64) :
    rvO_4 m c (ix2 r q) = max ((∑ k : Fin 128, rvA_4 m c (ix2 r k) * rvB_4 m c (ix2 k q)) + rvC_4 m c (ix2 (0 : Fin 1) q)) 0 := by
  have h := final4_of (fun c b => W9 m c b) c (dat4 (fun c b => W9 m c b) c) (A_eq4 _ c) (after4_3 _ c) r q
  show W10 m c main_v9 (ix2 r q) = _
  rw [W10_out]
  exact h

/-- Region 5's three input arrays as the region is entered, and its output array as the region leaves it. -/
abbrev rvA_5 : Vec Ideal S4096x64 .f32 := W11 m c main_v9
abbrev rvB_5 : Vec Ideal S64x1 .f32 := W11 m c main_arg22
abbrev rvC_5 : Vec Ideal S1x1 .f32 := W11 m c main_v10
abbrev rvO_5 : Vec Ideal S4096x1 .f32 := W12 m c main_v11

/-- Region 5 on the chain: its output array at (r, q) is, of its three input arrays as it is entered,
    the logistic function of row r of the first against column q of the second plus the bias at q. -/
theorem regval5 (r : Fin 4096) (q : Fin 1) :
    rvO_5 m c (ix2 r q) = Ideal.logistic ((∑ k : Fin 64, rvA_5 m c (ix2 r k) * rvB_5 m c (ix2 k q)) + rvC_5 m c (ix2 (0 : Fin 1) q)) := by
  have h := final5_of (fun c b => W11 m c b) c (dat5 (fun c b => W11 m c b) c) (A_eq5 _ c) (after5_3 _ c) r q
  show W12 m c main_v11 (ix2 r q) = _
  rw [W12_out]
  exact h

/-- Region 6's three input arrays as the region is entered, and its output array as the region leaves it. -/
abbrev rvA_6 : Vec Ideal S4096x128 .f32 := W13 m c main_v3
abbrev rvB_6 : Vec Ideal S128x64 .f32 := W13 m c main_arg24
abbrev rvC_6 : Vec Ideal S1x64 .f32 := W13 m c main_v14
abbrev rvO_6 : Vec Ideal S4096x64 .f32 := W14 m c main_v15

/-- Region 6 on the chain: its output array at (r, q) is, of its three input arrays as it is entered,
    the maximum of zero and row r of the first against column q of the second plus the bias at q. -/
theorem regval6 (r : Fin 4096) (q : Fin 64) :
    rvO_6 m c (ix2 r q) = max ((∑ k : Fin 128, rvA_6 m c (ix2 r k) * rvB_6 m c (ix2 k q)) + rvC_6 m c (ix2 (0 : Fin 1) q)) 0 := by
  have h := final6_of (fun c b => W13 m c b) c (dat6 (fun c b => W13 m c b) c) (A_eq6 _ c) (after6_3 _ c) r q
  show W14 m c main_v15 (ix2 r q) = _
  rw [W14_out]
  exact h

/-- Region 7's three input arrays as the region is entered, and its output array as the region leaves it. -/
abbrev rvA_7 : Vec Ideal S4096x64 .f32 := W15 m c main_v15
abbrev rvB_7 : Vec Ideal S64x1 .f32 := W15 m c main_arg26
abbrev rvC_7 : Vec Ideal S1x1 .f32 := W15 m c main_v16
abbrev rvO_7 : Vec Ideal S4096x1 .f32 := W16 m c main_v17

/-- Region 7 on the chain: its output array at (r, q) is, of its three input arrays as it is entered,
    the logistic function of row r of the first against column q of the second plus the bias at q. -/
theorem regval7 (r : Fin 4096) (q : Fin 1) :
    rvO_7 m c (ix2 r q) = Ideal.logistic ((∑ k : Fin 64, rvA_7 m c (ix2 r k) * rvB_7 m c (ix2 k q)) + rvC_7 m c (ix2 (0 : Fin 1) q)) := by
  have h := final7_of (fun c b => W15 m c b) c (dat7 (fun c b => W15 m c b) c) (A_eq7 _ c) (after7_3 _ c) r q
  show W16 m c main_v17 (ix2 r q) = _
  rw [W16_out]
  exact h

/-- Region 8's three input arrays as the region is entered, and its output array as the region leaves it. -/
abbrev rvA_8 : Vec Ideal S4096x256 .f32 := W17 m c main_v20
abbrev rvB_8 : Vec Ideal S256x128 .f32 := W17 m c main_arg28
abbrev rvC_8 : Vec Ideal S1x128 .f32 := W17 m c main_v21
abbrev rvO_8 : Vec Ideal S4096x128 .f32 := W18 m c main_v22

/-- Region 8 on the chain: its output array at (r, q) is, of its three input arrays as it is entered,
    the maximum of zero and row r of the first against column q of the second plus the bias at q. -/
theorem regval8 (r : Fin 4096) (q : Fin 128) :
    rvO_8 m c (ix2 r q) = max ((∑ k : Fin 256, rvA_8 m c (ix2 r k) * rvB_8 m c (ix2 k q)) + rvC_8 m c (ix2 (0 : Fin 1) q)) 0 := by
  have h := final8_of (fun c b => W17 m c b) c (dat8 (fun c b => W17 m c b) c) (A_eq8 _ c) (after8_3 _ c) r q
  show W18 m c main_v22 (ix2 r q) = _
  rw [W18_out]
  exact h

/-- Region 9's three input arrays as the region is entered, and its output array as the region leaves it. -/
abbrev rvA_9 : Vec Ideal S4096x128 .f32 := W19 m c main_v22
abbrev rvB_9 : Vec Ideal S128x128 .f32 := W19 m c main_arg30
abbrev rvC_9 : Vec Ideal S1x128 .f32 := W19 m c main_v23
abbrev rvO_9 : Vec Ideal S4096x128 .f32 := W20 m c main_v24

/-- Region 9 on the chain: its output array at (r, q) is, of its three input arrays as it is entered,
    row r of the first against column q of the second, plus the bias at q. -/
theorem regval9 (r : Fin 4096) (q : Fin 128) :
    rvO_9 m c (ix2 r q) = (∑ k : Fin 128, rvA_9 m c (ix2 r k) * rvB_9 m c (ix2 k q)) + rvC_9 m c (ix2 (0 : Fin 1) q) := by
  have h := final9_of (fun c b => W19 m c b) c (dat9 (fun c b => W19 m c b) c) (A_eq9 _ c) (after9_3 _ c) r q
  show W20 m c main_v24 (ix2 r q) = _
  rw [W20_out]
  exact h

/-- Region 10's three input arrays as the region is entered, and its output array as the region leaves it. -/
abbrev rvA_10 : Vec Ideal S4096x256 .f32 := W21 m c main_v31
abbrev rvB_10 : Vec Ideal S256x128 .f32 := W21 m c main_arg32
abbrev rvC_10 : Vec Ideal S1x128 .f32 := W21 m c main_v32
abbrev rvO_10 : Vec Ideal S4096x128 .f32 := W22 m c main_v33

/-- Region 10 on the chain: its output array at (r, q) is, of its three input arrays as it is entered,
    the maximum of zero and row r of the first against column q of the second plus the bias at q. -/
theorem regval10 (r : Fin 4096) (q : Fin 128) :
    rvO_10 m c (ix2 r q) = max ((∑ k : Fin 256, rvA_10 m c (ix2 r k) * rvB_10 m c (ix2 k q)) + rvC_10 m c (ix2 (0 : Fin 1) q)) 0 := by
  have h := final10_of (fun c b => W21 m c b) c (dat10 (fun c b => W21 m c b) c) (A_eq10 _ c) (after10_3 _ c) r q
  show W22 m c main_v33 (ix2 r q) = _
  rw [W22_out]
  exact h

/-- Region 11's three input arrays as the region is entered, and its output array as the region leaves it. -/
abbrev rvA_11 : Vec Ideal S4096x128 .f32 := W23 m c main_v33
abbrev rvB_11 : Vec Ideal S128x128 .f32 := W23 m c main_arg34
abbrev rvC_11 : Vec Ideal S1x128 .f32 := W23 m c main_v34
abbrev rvO_11 : Vec Ideal S4096x128 .f32 := W24 m c main_v35

/-- Region 11 on the chain: its output array at (r, q) is, of its three input arrays as it is entered,
    row r of the first against column q of the second, plus the bias at q. -/
theorem regval11 (r : Fin 4096) (q : Fin 128) :
    rvO_11 m c (ix2 r q) = (∑ k : Fin 128, rvA_11 m c (ix2 r k) * rvB_11 m c (ix2 k q)) + rvC_11 m c (ix2 (0 : Fin 1) q) := by
  have h := final11_of (fun c b => W23 m c b) c (dat11 (fun c b => W23 m c b) c) (A_eq11 _ c) (after11_3 _ c) r q
  show W24 m c main_v35 (ix2 r q) = _
  rw [W24_out]
  exact h

/-- Region 12's three input arrays as the region is entered, and its output array as the region leaves it. -/
abbrev rvA_12 : Vec Ideal S8192x4096 .f32 := W25 m c main_arg0
abbrev rvB_12 : Vec Ideal S4096x512 .f32 := W25 m c main_v42
abbrev rvC_12 : Vec Ideal S1x512 .f32 := W25 m c main_v44
abbrev rvO_12 : Vec Ideal S8192x512 .f32 := W26 m c main_v45

/-- Region 12 on the chain: its output array at (r, q) is, of its three input arrays as it is entered,
    row r of the first against column q of the second, plus the bias at q. -/
theorem regval12 (r : Fin 8192) (q : Fin 512) :
    rvO_12 m c (ix2 r q) = (∑ k : Fin 4096, rvA_12 m c (ix2 r k) * rvB_12 m c (ix2 k q)) + rvC_12 m c (ix2 (0 : Fin 1) q) := by
  have h := final12_of (fun c b => W25 m c b) c (dat12 (fun c b => W25 m c b) c) (A_eq12 _ c) (after12_3 _ c) r q
  show W26 m c main_v45 (ix2 r q) = _
  rw [W26_out]
  exact h

/-- Region 13's three input arrays as the region is entered, and its output array as the region leaves it. -/
abbrev rvA_13 : Vec Ideal S4096x8192 .f32 := W27 m c main_arg1
abbrev rvB_13 : Vec Ideal S8192x640 .f32 := W27 m c main_v50
abbrev rvC_13 : Vec Ideal S1x640 .f32 := W27 m c main_v52
abbrev rvO_13 : Vec Ideal S4096x640 .f32 := W28 m c main_v53

/-- Region 13 on the chain: its output array at (r, q) is, of its three input arrays as it is entered,
    row r of the first against column q of the second, plus the bias at q. -/
theorem regval13 (r : Fin 4096) (q : Fin 640) :
    rvO_13 m c (ix2 r q) = (∑ k : Fin 8192, rvA_13 m c (ix2 r k) * rvB_13 m c (ix2 k q)) + rvC_13 m c (ix2 (0 : Fin 1) q) := by
  have h := final13_of (fun c b => W27 m c b) c (dat13 (fun c b => W27 m c b) c) (A_eq13 _ c) (after13_3 _ c) r q
  show W28 m c main_v53 (ix2 r q) = _
  rw [W28_out]
  exact h

/-- Region 14's three input arrays as the region is entered, and its output array as the region leaves it. -/
abbrev rvA_14 : Vec Ideal S8192x4096 .f32 := W29 m c main_arg0
abbrev rvB_14 : Vec Ideal S4096x256 .f32 := W29 m c main_v59
abbrev rvC_14 : Vec Ideal S1x256 .f32 := W29 m c main_v61
abbrev rvO_14 : Vec Ideal S8192x256 .f32 := W30 m c main_v62

/-- Region 14 on the chain: its output array at (r, q) is, of its three input arrays as it is entered,
    row r of the first against column q of the second, plus the bias at q. -/
theorem regval14 (r : Fin 8192) (q : Fin 256) :
    rvO_14 m c (ix2 r q) = (∑ k : Fin 4096, rvA_14 m c (ix2 r k) * rvB_14 m c (ix2 k q)) + rvC_14 m c (ix2 (0 : Fin 1) q) := by
  have h := final14_of (fun c b => W29 m c b) c (dat14 (fun c b => W29 m c b) c) (A_eq14 _ c) (after14_3 _ c) r q
  show W30 m c main_v62 (ix2 r q) = _
  rw [W30_out]
  exact h

/-- Region 15's three input arrays as the region is entered, and its output array as the region leaves it. -/
abbrev rvA_15 : Vec Ideal S4096x8192 .f32 := W31 m c main_arg1
abbrev rvB_15 : Vec Ideal S8192x128 .f32 := W31 m c main_v75
abbrev rvC_15 : Vec Ideal S1x128 .f32 := W31 m c main_v77
abbrev rvO_15 : Vec Ideal S4096x128 .f32 := W32 m c main_v78

/-- Region 15 on the chain: its output array at (r, q) is, of its three input arrays as it is entered,
    row r of the first against column q of the second, plus the bias at q. -/
theorem regval15 (r : Fin 4096) (q : Fin 128) :
    rvO_15 m c (ix2 r q) = (∑ k : Fin 8192, rvA_15 m c (ix2 r k) * rvB_15 m c (ix2 k q)) + rvC_15 m c (ix2 (0 : Fin 1) q) := by
  have h := final15_of (fun c b => W31 m c b) c (dat15 (fun c b => W31 m c b) c) (A_eq15 _ c) (after15_3 _ c) r q
  show W32 m c main_v78 (ix2 r q) = _
  rw [W32_out]
  exact h

end Cert.KernelIdeal.Gen

end
-- ==== Proof.KI.HostMlp.lean ====
import proofs.«103213_j15710990369585_1_alg».proof.Proof.KI.Chain
import proofs.«103213_j15710990369585_1_alg».proof.Proof.KI.Args
import proofs.«103213_j15710990369585_1_alg».proof.Proof.KI.RegVals
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe
open Idealize.SL Idealize.SL.Sem
open Idealize.ShloMosaic.ValueIdx
open Cert.Spec (toMat toRow Mat Row)
open scoped BigOperators

theorem row_of_vec {n : Nat} (x : (⟨1, ![n]⟩ : Shape).Idx → EReal)
    (h : (⟨1, ![n]⟩ : Shape).ShapeCasts ⟨2, ![1, n]⟩) (q : Fin n) :
    shapeCast ⟨2, ![1, n]⟩ x h (ix2 (0 : Fin 1) q) = x (ix1 q) := by
  refine shapeCast_apply _ _ _ _ ?_
  rw [Shape.rowMajor_val_one, Shape.rowMajor_val_two]
  show q.val = 0 * n + q.val
  rw [Nat.zero_mul, Nat.zero_add]

theorem gate_apply (x : Vec Ideal S4096x128 .f32) (a : Vec Ideal S4096x1 .f32) (r : Fin 4096) (q : Fin 128) :
    mulf (F := Ideal) (s := S4096x128) (φ := .f32) x (broadcastInDim S4096x128 ![0, 1] bcast_S4096x1_S4096x128_0_1 a) (ix2 r q)
      = x (ix2 r q) * a (ix2 r (0 : Fin 1)) := by
  rw [mulf_apply]
  congr 1
  refine broadcastInDim_apply _ _ _ _ _ ?_
  intro d
  match d with
  | ⟨0, _⟩ => rfl
  | ⟨1, _⟩ => rfl

theorem bump_apply (x y : Vec Ideal S4096x128 .f32) (i : S4096x128.Idx) :
    addf (F := Ideal) (s := S4096x128) (φ := .f32) x
        (mulf (F := Ideal) (s := S4096x128) (φ := .f32)
          (broadcastInDim S4096x128 ![] bcast_S_S4096x128 (constant (F := Ideal) S_ .f32 0x3DCCCCCD#32)) y) i
      = x i + Cert.Spec.tenth * y i := by
  rw [addf_apply, mulf_apply, broadcastInDim_scalar_apply, constant_apply]
  rfl

theorem cat2_apply (x y : Vec Ideal S4096x128 .f32) (r : Fin 4096) (q : Fin 256) :
    concatenate S4096x256 1 [⟨S4096x128, x⟩, ⟨S4096x128, y⟩] concatenates_S4096x128_S4096x128_S4096x256_d1 (ix2 r q)
      = Cert.Spec.cat2 (toMat x) (toMat y) r q := by
  unfold Cert.Spec.cat2 toMat
  split
  · next h =>
    refine concatenate_pair_apply_left (t := S4096x256) (s₁ := S4096x128) (s₂ := S4096x128) 1 x y
      concatenates_S4096x128_S4096x128_S4096x256_d1 (ix2 r q) rfl (ix2 r ⟨q.val, h⟩) ?_
    intro b
    match b with
    | ⟨0, _⟩ => rfl
    | ⟨1, _⟩ => rfl
  · next h =>
    have hq : q.val - 128 < 128 := by omega
    refine concatenate_pair_apply_right (t := S4096x256) (s₁ := S4096x128) (s₂ := S4096x128) 1 x y
      concatenates_S4096x128_S4096x128_S4096x256_d1 (ix2 r q) rfl rfl (ix2 r ⟨q.val - 128, hq⟩) ?_ ?_
    · intro b hb
      match b with
      | ⟨0, _⟩ => rfl
      | ⟨1, _⟩ => exact absurd rfl hb
    · show (q.val - 128) + 128 = q.val
      omega

theorem cat4_apply (x0 x1 x2 x3 : Vec Ideal S4096x128 .f32) (r : Fin 4096) (q : Fin 512) :
    concatenate S4096x512 1 [⟨S4096x128, x0⟩, ⟨S4096x128, x1⟩, ⟨S4096x128, x2⟩, ⟨S4096x128, x3⟩]
        concatenates_S4096x128_S4096x128_S4096x128_S4096x128_S4096x512_d1 (ix2 r q)
      = if h0 : q.val < 128 then x0 (ix2 r ⟨q.val, h0⟩)
        else if h1 : q.val < 256 then x1 (ix2 r ⟨q.val - 128, by omega⟩)
        else if h2 : q.val < 384 then x2 (ix2 r ⟨q.val - 256, by omega⟩)
        else x3 (ix2 r ⟨q.val - 384, by omega⟩) := by

  have side : ∀ (p : Fin 128) (b : Fin S4096x128.rank), b.cast (rfl : S4096x128.rank = S4096x512.rank) ≠ 1 →
      ((ix2 r p : S4096x128.Idx) b).val = ((ix2 r q : S4096x512.Idx) (b.cast rfl)).val := by
    intro p b hb
    match b with
    | ⟨0, _⟩ => rfl
    | ⟨1, _⟩ => exact absurd rfl hb

  have piece : ∀ (k : Nat) (hk : k < 4) (xk : Vec Ideal S4096x128 .f32) (pre : Nat) (p : Fin 128),
      ([⟨S4096x128, x0⟩, ⟨S4096x128, x1⟩, ⟨S4096x128, x2⟩, ⟨S4096x128, x3⟩] : List ((s : Shape) × (s.Idx → Elt Ideal .f32)))[k]
        = ⟨S4096x128, xk⟩ →
      128 * k = pre → pre + p.val = q.val →
      concatenate S4096x512 1 [⟨S4096x128, x0⟩, ⟨S4096x128, x1⟩, ⟨S4096x128, x2⟩, ⟨S4096x128, x3⟩]
        concatenates_S4096x128_S4096x128_S4096x128_S4096x128_S4096x512_d1 (ix2 r q) = xk (ix2 r p) := by
    intro k hk xk pre p hx hpre hp
    refine concatenate_apply_piece (t := S4096x512) 1
      [⟨S4096x128, x0⟩, ⟨S4096x128, x1⟩, ⟨S4096x128, x2⟩, ⟨S4096x128, x3⟩]
      concatenates_S4096x128_S4096x128_S4096x128_S4096x128_S4096x512_d1 (ix2 r q) k hk S4096x128 xk hx rfl pre ?_
      (ix2 r p) (side p) hp
    subst hpre
    match k, hk with
    | 0, _ => rfl
    | 1, _ => rfl
    | 2, _ => rfl
    | 3, _ => rfl
  split
  · next h0 => exact piece 0 (by omega) x0 0 ⟨q.val, h0⟩ rfl rfl (by show 0 + q.val = q.val; omega)
  · next h0 =>
    split
    · next h1 => exact piece 1 (by omega) x1 128 ⟨q.val - 128, by omega⟩ rfl rfl (by show 128 + (q.val - 128) = q.val; omega)
    · next h1 =>
      split
      · next h2 => exact piece 2 (by omega) x2 256 ⟨q.val - 256, by omega⟩ rfl rfl (by show 256 + (q.val - 256) = q.val; omega)
      · next h2 => exact piece 3 (by omega) x3 384 ⟨q.val - 384, by omega⟩ rfl rfl (by show 384 + (q.val - 384) = q.val; omega)

theorem zero_row_apply (q : Fin 512) :
    shapeCast S1x512 (broadcastInDim S512 ![] bcast_S_S512 (constant (F := Ideal) S_ .f32 0x00000000#32)) shapeCasts_S512_S1x512
        (ix2 (0 : Fin 1) q) = 0 := by
  rw [row_of_vec, broadcastInDim_scalar_apply, constant_apply]
  exact Ideal.ofBits_zero_f32

section Host
variable (X : Valuation τ sig (Elt Ideal))

macro "bias_row" : tactic =>
  `(tactic| (unfold Cert.Spec.toMat Cert.Spec.toRow
             after_results
             exact row_of_vec _ _ _))

theorem host0_bias (q : Fin 128) :
    toMat (StableHlo.after hostOps0 X main_v0) (0 : Fin 1) q = toRow (X main_arg11) q := by bias_row
theorem host1_bias (q : Fin 128) :
    toMat (StableHlo.after hostOps1 X main_v2) (0 : Fin 1) q = toRow (X main_arg13) q := by bias_row
theorem host2_bias (q : Fin 128) :
    toMat (StableHlo.after hostOps2 X main_v4) (0 : Fin 1) q = toRow (X main_arg15) q := by bias_row
theorem host3_bias (q : Fin 128) :
    toMat (StableHlo.after hostOps3 X main_v6) (0 : Fin 1) q = toRow (X main_arg17) q := by bias_row
theorem host4_bias (q : Fin 64) :
    toMat (StableHlo.after hostOps4 X main_v8) (0 : Fin 1) q = toRow (X main_arg21) q := by bias_row
theorem host5_bias (q : Fin 1) :
    toMat (StableHlo.after hostOps5 X main_v10) (0 : Fin 1) q = toRow (X main_arg23) q := by bias_row
theorem host6_bias (q : Fin 64) :
    toMat (StableHlo.after hostOps6 X main_v14) (0 : Fin 1) q = toRow (X main_arg25) q := by bias_row
theorem host7_bias (q : Fin 1) :
    toMat (StableHlo.after hostOps7 X main_v16) (0 : Fin 1) q = toRow (X main_arg27) q := by bias_row
theorem host8_bias (q : Fin 128) :
    toMat (StableHlo.after hostOps8 X main_v21) (0 : Fin 1) q = toRow (X main_arg29) q := by bias_row
theorem host9_bias (q : Fin 128) :
    toMat (StableHlo.after hostOps9 X main_v23) (0 : Fin 1) q = toRow (X main_arg31) q := by bias_row
theorem host10_bias (q : Fin 128) :
    toMat (StableHlo.after hostOps10 X main_v32) (0 : Fin 1) q = toRow (X main_arg33) q := by bias_row
theorem host11_bias (q : Fin 128) :
    toMat (StableHlo.after hostOps11 X main_v34) (0 : Fin 1) q = toRow (X main_arg35) q := by bias_row

theorem host6_v13_fun :
    (StableHlo.after hostOps6 X main_v13 : Vec Ideal S4096x128 .f32)
      = mulf (F := Ideal) (s := S4096x128) (φ := .f32) (X main_v1)
          (broadcastInDim S4096x128 ![0, 1] bcast_S4096x1_S4096x128_0_1 (X main_v11 : Vec Ideal S4096x1 .f32)) := by
  show StableHlo.after hostOps6 X (Proc.devRef .tc main_v13) = _
  after_results <;> rfl

theorem host6_v13 : toMat (StableHlo.after hostOps6 X main_v13) = Cert.Spec.gate (toMat (X main_v1)) (toMat (X main_v11)) := by
  funext r q
  unfold Cert.Spec.gate toMat
  rw [host6_v13_fun]
  exact gate_apply _ _ r q

theorem host8_v19_fun :
    (StableHlo.after hostOps8 X main_v19 : Vec Ideal S4096x128 .f32)
      = mulf (F := Ideal) (s := S4096x128) (φ := .f32) (X main_v3)
          (broadcastInDim S4096x128 ![0, 1] bcast_S4096x1_S4096x128_0_1 (X main_v17 : Vec Ideal S4096x1 .f32)) := by
  show StableHlo.after hostOps8 X (Proc.devRef .tc main_v19) = _
  after_results <;> rfl

theorem host8_v19 : toMat (StableHlo.after hostOps8 X main_v19) = Cert.Spec.gate (toMat (X main_v3)) (toMat (X main_v17)) := by
  funext r q
  unfold Cert.Spec.gate toMat
  rw [host8_v19_fun]
  exact gate_apply _ _ r q

theorem host8_v20_fun :
    (StableHlo.after hostOps8 X main_v20 : Vec Ideal S4096x256 .f32)
      = concatenate S4096x256 1 [⟨S4096x128, (X main_v13 : Vec Ideal S4096x128 .f32)⟩,
          ⟨S4096x128, (StableHlo.after hostOps8 X main_v19 : Vec Ideal S4096x128 .f32)⟩]
          concatenates_S4096x128_S4096x128_S4096x256_d1 := by
  rw [host8_v19_fun]
  show StableHlo.after hostOps8 X (Proc.devRef .tc main_v20) = _
  after_results <;> rfl

theorem host8_v20 :
    toMat (StableHlo.after hostOps8 X main_v20)
      = Cert.Spec.cat2 (toMat (X main_v13)) (toMat (StableHlo.after hostOps8 X main_v19)) := by
  funext r q
  show (StableHlo.after hostOps8 X main_v20 : Vec Ideal S4096x256 .f32) (ix2 r q) = _
  rw [host8_v20_fun]
  exact cat2_apply _ _ r q

theorem host10_v27_fun :
    (StableHlo.after hostOps10 X main_v27 : Vec Ideal S4096x128 .f32)
      = addf (F := Ideal) (s := S4096x128) (φ := .f32) (X main_v13)
          (mulf (F := Ideal) (s := S4096x128) (φ := .f32)
            (broadcastInDim S4096x128 ![] bcast_S_S4096x128 (constant (F := Ideal) S_ .f32 0x3DCCCCCD#32)) (X main_v24)) := by
  show StableHlo.after hostOps10 X (Proc.devRef .tc main_v27) = _
  after_results <;> rfl

theorem host10_v27 : toMat (StableHlo.after hostOps10 X main_v27) = Cert.Spec.bump (toMat (X main_v13)) (toMat (X main_v24)) := by
  funext r q
  unfold Cert.Spec.bump toMat
  rw [host10_v27_fun]
  exact bump_apply _ _ _

theorem host10_v30_fun :
    (StableHlo.after hostOps10 X main_v30 : Vec Ideal S4096x128 .f32)
      = addf (F := Ideal) (s := S4096x128) (φ := .f32) (X main_v19)
          (mulf (F := Ideal) (s := S4096x128) (φ := .f32)
            (broadcastInDim S4096x128 ![] bcast_S_S4096x128 (constant (F := Ideal) S_ .f32 0x3DCCCCCD#32)) (X main_v24)) := by
  show StableHlo.after hostOps10 X (Proc.devRef .tc main_v30) = _
  after_results <;> rfl

theorem host10_v30 : toMat (StableHlo.after hostOps10 X main_v30) = Cert.Spec.bump (toMat (X main_v19)) (toMat (X main_v24)) := by
  funext r q
  unfold Cert.Spec.bump toMat
  rw [host10_v30_fun]
  exact bump_apply _ _ _

theorem host10_v31_fun :
    (StableHlo.after hostOps10 X main_v31 : Vec Ideal S4096x256 .f32)
      = concatenate S4096x256 1 [⟨S4096x128, (StableHlo.after hostOps10 X main_v27 : Vec Ideal S4096x128 .f32)⟩,
          ⟨S4096x128, (StableHlo.after hostOps10 X main_v30 : Vec Ideal S4096x128 .f32)⟩]
          concatenates_S4096x128_S4096x128_S4096x256_d1 := by
  rw [host10_v27_fun, host10_v30_fun]
  show StableHlo.after hostOps10 X (Proc.devRef .tc main_v31) = _
  after_results <;> rfl

theorem host10_v31 :
    toMat (StableHlo.after hostOps10 X main_v31)
      = Cert.Spec.cat2 (toMat (StableHlo.after hostOps10 X main_v27)) (toMat (StableHlo.after hostOps10 X main_v30)) := by
  funext r q
  show (StableHlo.after hostOps10 X main_v31 : Vec Ideal S4096x256 .f32) (ix2 r q) = _
  rw [host10_v31_fun]
  exact cat2_apply _ _ r q

theorem host12_v38_fun :
    (StableHlo.after hostOps12 X main_v38 : Vec Ideal S4096x128 .f32)
      = addf (F := Ideal) (s := S4096x128) (φ := .f32) (X main_v27)
          (mulf (F := Ideal) (s := S4096x128) (φ := .f32)
            (broadcastInDim S4096x128 ![] bcast_S_S4096x128 (constant (F := Ideal) S_ .f32 0x3DCCCCCD#32)) (X main_v35)) := by
  show StableHlo.after hostOps12 X (Proc.devRef .tc main_v38) = _
  after_results <;> rfl

theorem host12_v38 : toMat (StableHlo.after hostOps12 X main_v38) = Cert.Spec.bump (toMat (X main_v27)) (toMat (X main_v35)) := by
  funext r q
  unfold Cert.Spec.bump toMat
  rw [host12_v38_fun]
  exact bump_apply _ _ _

theorem host12_v41_fun :
    (StableHlo.after hostOps12 X main_v41 : Vec Ideal S4096x128 .f32)
      = addf (F := Ideal) (s := S4096x128) (φ := .f32) (X main_v30)
          (mulf (F := Ideal) (s := S4096x128) (φ := .f32)
            (broadcastInDim S4096x128 ![] bcast_S_S4096x128 (constant (F := Ideal) S_ .f32 0x3DCCCCCD#32)) (X main_v35)) := by
  show StableHlo.after hostOps12 X (Proc.devRef .tc main_v41) = _
  after_results <;> rfl

theorem host12_v41 : toMat (StableHlo.after hostOps12 X main_v41) = Cert.Spec.bump (toMat (X main_v30)) (toMat (X main_v35)) := by
  funext r q
  unfold Cert.Spec.bump toMat
  rw [host12_v41_fun]
  exact bump_apply _ _ _

theorem host12_v42_fun :
    (StableHlo.after hostOps12 X main_v42 : Vec Ideal S4096x512 .f32)
      = concatenate S4096x512 1 [⟨S4096x128, (StableHlo.after hostOps12 X main_v38 : Vec Ideal S4096x128 .f32)⟩,
          ⟨S4096x128, (StableHlo.after hostOps12 X main_v41 : Vec Ideal S4096x128 .f32)⟩,
          ⟨S4096x128, (X main_v7 : Vec Ideal S4096x128 .f32)⟩, ⟨S4096x128, (X main_arg19 : Vec Ideal S4096x128 .f32)⟩]
          concatenates_S4096x128_S4096x128_S4096x128_S4096x128_S4096x512_d1 := by
  rw [host12_v38_fun, host12_v41_fun]
  show StableHlo.after hostOps12 X (Proc.devRef .tc main_v42) = _
  after_results <;> rfl

theorem host12_v42 (r : Fin 4096) (q : Fin 512) :
    (StableHlo.after hostOps12 X main_v42 : Vec Ideal S4096x512 .f32) (ix2 r q)
      = if h0 : q.val < 128 then toMat (StableHlo.after hostOps12 X main_v38) r ⟨q.val, h0⟩
        else if h1 : q.val < 256 then toMat (StableHlo.after hostOps12 X main_v41) r ⟨q.val - 128, by omega⟩
        else if h2 : q.val < 384 then toMat (X main_v7) r ⟨q.val - 256, by omega⟩
        else toMat (X main_arg19) r ⟨q.val - 384, by omega⟩ := by
  rw [host12_v42_fun]
  exact cat4_apply _ _ _ _ r q

theorem host12_v44 (q : Fin 512) : toMat (StableHlo.after hostOps12 X main_v44) (0 : Fin 1) q = 0 := by
  have e : (StableHlo.after hostOps12 X main_v44 : Vec Ideal S1x512 .f32)
      = shapeCast S1x512 (broadcastInDim S512 ![] bcast_S_S512 (constant (F := Ideal) S_ .f32 0x00000000#32)) shapeCasts_S512_S1x512 := by
    show StableHlo.after hostOps12 X (Proc.devRef .tc main_v44) = _
    after_results <;> rfl
  unfold toMat
  rw [e]
  exact zero_row_apply q

end Host

open scoped BigOperators

theorem lin_of {R K C : Nat} (o : Vec Ideal ⟨2, ![R, C]⟩ .f32) (a : Vec Ideal ⟨2, ![R, K]⟩ .f32)
    (b : Vec Ideal ⟨2, ![K, C]⟩ .f32) (bias : Vec Ideal ⟨2, ![1, C]⟩ .f32) (A : Mat R K) (B : Mat K C) (bv : Row C)
    (ho : ∀ r q, o (ix2 r q) = (∑ k : Fin K, a (ix2 r k) * b (ix2 k q)) + bias (ix2 (0 : Fin 1) q))
    (hA : toMat a = A) (hB : toMat b = B) (hb : ∀ q, toMat bias (0 : Fin 1) q = bv q) :
    toMat o = Cert.Spec.lin A B bv := by
  subst hA hB
  funext r q
  show o (ix2 r q) = (∑ k : Fin K, a (ix2 r k) * b (ix2 k q)) + bv q
  rw [ho, ← hb]
  rfl

theorem relu_of {R K C : Nat} (o : Vec Ideal ⟨2, ![R, C]⟩ .f32) (a : Vec Ideal ⟨2, ![R, K]⟩ .f32)
    (b : Vec Ideal ⟨2, ![K, C]⟩ .f32) (bias : Vec Ideal ⟨2, ![1, C]⟩ .f32) (A : Mat R K) (B : Mat K C) (bv : Row C)
    (ho : ∀ r q, o (ix2 r q) = max ((∑ k : Fin K, a (ix2 r k) * b (ix2 k q)) + bias (ix2 (0 : Fin 1) q)) 0)
    (hA : toMat a = A) (hB : toMat b = B) (hb : ∀ q, toMat bias (0 : Fin 1) q = bv q) :
    toMat o = Cert.Spec.relu (Cert.Spec.lin A B bv) := by
  subst hA hB
  funext r q
  show o (ix2 r q) = max ((∑ k : Fin K, a (ix2 r k) * b (ix2 k q)) + bv q) 0
  rw [ho, ← hb]
  rfl

theorem sigm_of {R K C : Nat} (o : Vec Ideal ⟨2, ![R, C]⟩ .f32) (a : Vec Ideal ⟨2, ![R, K]⟩ .f32)
    (b : Vec Ideal ⟨2, ![K, C]⟩ .f32) (bias : Vec Ideal ⟨2, ![1, C]⟩ .f32) (A : Mat R K) (B : Mat K C) (bv : Row C)
    (ho : ∀ r q, o (ix2 r q) = Ideal.logistic ((∑ k : Fin K, a (ix2 r k) * b (ix2 k q)) + bias (ix2 (0 : Fin 1) q)))
    (hA : toMat a = A) (hB : toMat b = B) (hb : ∀ q, toMat bias (0 : Fin 1) q = bv q) :
    toMat o = Cert.Spec.sigm (Cert.Spec.lin A B bv) := by
  subst hA hB
  funext r q
  show o (ix2 r q) = Ideal.logistic ((∑ k : Fin K, a (ix2 r k) * b (ix2 k q)) + bv q)
  rw [ho, ← hb]
  rfl

macro "carry" : tactic =>
  `(tactic| repeat (first
      | (rw [W25_of]; rotate_left; decide)
      | (rw [W24_of_ne]; rotate_left; decide)
      | (rw [W23_of]; rotate_left; decide)
      | (rw [W22_of_ne]; rotate_left; decide)
      | (rw [W21_of]; rotate_left; decide)
      | (rw [W20_of_ne]; rotate_left; decide)
      | (rw [W19_of]; rotate_left; decide)
      | (rw [W18_of_ne]; rotate_left; decide)
      | (rw [W17_of]; rotate_left; decide)
      | (rw [W16_of_ne]; rotate_left; decide)
      | (rw [W15_of]; rotate_left; decide)
      | (rw [W14_of_ne]; rotate_left; decide)
      | (rw [W13_of]; rotate_left; decide)
      | (rw [W12_of_ne]; rotate_left; decide)
      | (rw [W11_of]; rotate_left; decide)
      | (rw [W10_of_ne]; rotate_left; decide)
      | (rw [W9_of]; rotate_left; decide)
      | (rw [W8_of_ne]; rotate_left; decide)
      | (rw [W7_of]; rotate_left; decide)
      | (rw [W6_of_ne]; rotate_left; decide)
      | (rw [W5_of]; rotate_left; decide)
      | (rw [W4_of_ne]; rotate_left; decide)
      | (rw [W3_of]; rotate_left; decide)
      | (rw [W2_of_ne]; rotate_left; decide)
      | (rw [W1_of]; rotate_left; decide)))

section Chain
variable (m : (ℓ : Loc nD τ sig) → Buf (Elt Ideal) ℓ) (c : Dev nD)

abbrev imgK : Vec Ideal S4096x128 .f32 := W2 m c main_v1
abbrev txtK : Vec Ideal S4096x128 .f32 := W4 m c main_v3
abbrev usrK : Vec Ideal S8192x128 .f32 := W6 m c main_v5
abbrev ttlK : Vec Ideal S4096x128 .f32 := W8 m c main_v7

abbrev hImgK : Vec Ideal S4096x64 .f32 := W10 m c main_v9
abbrev aImgK : Vec Ideal S4096x1 .f32 := W12 m c main_v11
abbrev eImgK : Vec Ideal S4096x128 .f32 := W13 m c main_v13

abbrev hTxtK : Vec Ideal S4096x64 .f32 := W14 m c main_v15
abbrev aTxtK : Vec Ideal S4096x1 .f32 := W16 m c main_v17
abbrev eTxtK : Vec Ideal S4096x128 .f32 := W17 m c main_v19
abbrev catEK : Vec Ideal S4096x256 .f32 := W17 m c main_v20

abbrev h1K : Vec Ideal S4096x128 .f32 := W18 m c main_v22
abbrev interK : Vec Ideal S4096x128 .f32 := W20 m c main_v24
abbrev eImg2K : Vec Ideal S4096x128 .f32 := W21 m c main_v27
abbrev eTxt2K : Vec Ideal S4096x128 .f32 := W21 m c main_v30
abbrev catE2K : Vec Ideal S4096x256 .f32 := W21 m c main_v31

abbrev h2K : Vec Ideal S4096x128 .f32 := W22 m c main_v33
abbrev fusK : Vec Ideal S4096x128 .f32 := W24 m c main_v35
abbrev imgFK : Vec Ideal S4096x128 .f32 := W25 m c main_v38
abbrev txtFK : Vec Ideal S4096x128 .f32 := W25 m c main_v41

abbrev rhsA : Vec Ideal S4096x512 .f32 := W25 m c main_v42
abbrev zeroA : Vec Ideal S1x512 .f32 := W25 m c main_v44

theorem k_img : toMat (imgK m c) = (Cert.KernelIdeal.specArgs m c).img := by
  refine lin_of (imgK m c) (rvA_0 m c) (rvB_0 m c) (rvC_0 m c) _ _ _ (regval0 m c) ?_ ?_ ?_
  · show toMat (W1 m c main_arg6) = (Cert.KernelIdeal.specArgs m c).imf
    carry <;> rfl
  · show toMat (W1 m c main_arg10) = (Cert.KernelIdeal.specArgs m c).wImg
    carry <;> rfl
  · intro q
    exact host0_bias (W0 m c) q

theorem k_txt : toMat (txtK m c) = (Cert.KernelIdeal.specArgs m c).txt := by
  refine lin_of (txtK m c) (rvA_1 m c) (rvB_1 m c) (rvC_1 m c) _ _ _ (regval1 m c) ?_ ?_ ?_
  · show toMat (W3 m c main_arg7) = (Cert.KernelIdeal.specArgs m c).txf
    carry <;> rfl
  · show toMat (W3 m c main_arg12) = (Cert.KernelIdeal.specArgs m c).wTxt
    carry <;> rfl
  · intro q
    refine (host1_bias (W2 m c) q).trans ?_
    show toRow (W2 m c main_arg13) q = (Cert.KernelIdeal.specArgs m c).bTxt q
    carry <;> rfl

theorem k_usr : Cert.Spec.toMat (usrK m c) = (Cert.KernelIdeal.specArgs m c).usr := by
  refine lin_of (usrK m c) (rvA_2 m c) (rvB_2 m c) (rvC_2 m c) _ _ _ (regval2 m c) ?_ ?_ ?_
  · show toMat (W5 m c main_arg8) = (Cert.KernelIdeal.specArgs m c).usf
    carry <;> rfl
  · show toMat (W5 m c main_arg14) = (Cert.KernelIdeal.specArgs m c).wUsr
    carry <;> rfl
  · intro q
    refine (host2_bias (W4 m c) q).trans ?_
    show toRow (W4 m c main_arg15) q = (Cert.KernelIdeal.specArgs m c).bUsr q
    carry <;> rfl

theorem k_ttl : toMat (ttlK m c) = (Cert.KernelIdeal.specArgs m c).ttl := by
  refine lin_of (ttlK m c) (rvA_3 m c) (rvB_3 m c) (rvC_3 m c) _ _ _ (regval3 m c) ?_ ?_ ?_
  · show toMat (W7 m c main_arg9) = (Cert.KernelIdeal.specArgs m c).ttf
    carry <;> rfl
  · show toMat (W7 m c main_arg16) = (Cert.KernelIdeal.specArgs m c).wTtl
    carry <;> rfl
  · intro q
    refine (host3_bias (W6 m c) q).trans ?_
    show toRow (W6 m c main_arg17) q = (Cert.KernelIdeal.specArgs m c).bTtl q
    carry <;> rfl

theorem k_hImg : toMat (hImgK m c) = (Cert.KernelIdeal.specArgs m c).hImg := by
  refine relu_of (hImgK m c) (rvA_4 m c) (rvB_4 m c) (rvC_4 m c) _ _ _ (regval4 m c) ?_ ?_ ?_
  · show toMat (W9 m c main_v1) = (Cert.KernelIdeal.specArgs m c).img
    carry
    exact k_img m c
  · show toMat (W9 m c main_arg20) = (Cert.KernelIdeal.specArgs m c).aiw1
    carry <;> rfl
  · intro q
    refine (host4_bias (W8 m c) q).trans ?_
    show toRow (W8 m c main_arg21) q = (Cert.KernelIdeal.specArgs m c).aib1 q
    carry <;> rfl

theorem k_aImg : toMat (aImgK m c) = (Cert.KernelIdeal.specArgs m c).aImg := by
  refine sigm_of (aImgK m c) (rvA_5 m c) (rvB_5 m c) (rvC_5 m c) _ _ _ (regval5 m c) ?_ ?_ ?_
  · show toMat (W11 m c main_v9) = (Cert.KernelIdeal.specArgs m c).hImg
    carry
    exact k_hImg m c
  · show toMat (W11 m c main_arg22) = (Cert.KernelIdeal.specArgs m c).aiw2
    carry <;> rfl
  · intro q
    refine (host5_bias (W10 m c) q).trans ?_
    show toRow (W10 m c main_arg23) q = (Cert.KernelIdeal.specArgs m c).aib2 q
    carry <;> rfl

theorem k_eImg : toMat (eImgK m c) = (Cert.KernelIdeal.specArgs m c).eImg := by
  show toMat (StableHlo.after hostOps6 (W12 m c) main_v13)
    = Cert.Spec.gate (Cert.KernelIdeal.specArgs m c).img (Cert.KernelIdeal.specArgs m c).aImg
  rw [host6_v13]
  have h1 : toMat (W12 m c main_v1) = (Cert.KernelIdeal.specArgs m c).img := by
    carry
    exact k_img m c
  have h2 : toMat (W12 m c main_v11) = (Cert.KernelIdeal.specArgs m c).aImg := k_aImg m c
  rw [h1, h2]

theorem k_hTxt : toMat (hTxtK m c) = (Cert.KernelIdeal.specArgs m c).hTxt := by
  refine relu_of (hTxtK m c) (rvA_6 m c) (rvB_6 m c) (rvC_6 m c) _ _ _ (regval6 m c) ?_ ?_ ?_
  · show toMat (W13 m c main_v3) = (Cert.KernelIdeal.specArgs m c).txt
    carry
    exact k_txt m c
  · show toMat (W13 m c main_arg24) = (Cert.KernelIdeal.specArgs m c).atw1
    carry <;> rfl
  · intro q
    refine (host6_bias (W12 m c) q).trans ?_
    show toRow (W12 m c main_arg25) q = (Cert.KernelIdeal.specArgs m c).atb1 q
    carry <;> rfl

theorem k_aTxt : toMat (aTxtK m c) = (Cert.KernelIdeal.specArgs m c).aTxt := by
  refine sigm_of (aTxtK m c) (rvA_7 m c) (rvB_7 m c) (rvC_7 m c) _ _ _ (regval7 m c) ?_ ?_ ?_
  · show toMat (W15 m c main_v15) = (Cert.KernelIdeal.specArgs m c).hTxt
    carry
    exact k_hTxt m c
  · show toMat (W15 m c main_arg26) = (Cert.KernelIdeal.specArgs m c).atw2
    carry <;> rfl
  · intro q
    refine (host7_bias (W14 m c) q).trans ?_
    show toRow (W14 m c main_arg27) q = (Cert.KernelIdeal.specArgs m c).atb2 q
    carry <;> rfl

theorem k_eTxt : toMat (eTxtK m c) = (Cert.KernelIdeal.specArgs m c).eTxt := by
  show toMat (StableHlo.after hostOps8 (W16 m c) main_v19)
    = Cert.Spec.gate (Cert.KernelIdeal.specArgs m c).txt (Cert.KernelIdeal.specArgs m c).aTxt
  rw [host8_v19]
  have h1 : toMat (W16 m c main_v3) = (Cert.KernelIdeal.specArgs m c).txt := by
    carry
    exact k_txt m c
  have h2 : toMat (W16 m c main_v17) = (Cert.KernelIdeal.specArgs m c).aTxt := k_aTxt m c
  rw [h1, h2]

theorem k_catE : toMat (catEK m c)
    = Cert.Spec.cat2 (Cert.KernelIdeal.specArgs m c).eImg (Cert.KernelIdeal.specArgs m c).eTxt := by
  show toMat (StableHlo.after hostOps8 (W16 m c) main_v20) = _
  rw [host8_v20]
  have h1 : toMat (W16 m c main_v13) = (Cert.KernelIdeal.specArgs m c).eImg := by
    carry
    exact k_eImg m c
  have h2 : toMat (StableHlo.after hostOps8 (W16 m c) main_v19) = (Cert.KernelIdeal.specArgs m c).eTxt := k_eTxt m c
  rw [h1, h2]

end Chain

end Cert.KernelIdeal.Gen

end
-- ==== Proof.KI.HostMlp2.lean ====
import proofs.«103213_j15710990369585_1_alg».proof.Proof.KI.HostMlp
import proofs.«103213_j15710990369585_1_alg».proof.Proof.KI.RegVals
import proofs.«103213_j15710990369585_1_alg».proof.Proof.KI.Args

noncomputable section

namespace Cert.KernelIdeal.Gen

open Idealize.ShloMosaic Idealize.ShloMosaic.TcCoe
open Idealize.SL Idealize.SL.Sem
open Idealize.ShloMosaic.ValueIdx
open Cert.Spec (toMat toRow Mat Row)

section Chain2
variable (m : (ℓ : Loc nD τ sig) → Buf (Elt Ideal) ℓ) (c : Dev nD)

local notation "𝔸" => Cert.KernelIdeal.specArgs m c

theorem k_h1 : toMat (h1K m c) = (𝔸).h1 := by
  refine relu_of (h1K m c) (catEK m c) (W17 m c main_arg28) (W17 m c main_v21) _ _ _ (regval8 m c) (k_catE m c) ?_ ?_
  · show toMat (W17 m c main_arg28) = (𝔸).fiw1
    carry <;> rfl
  · intro q
    refine (host8_bias (W16 m c) q).trans ?_
    show toRow (W16 m c main_arg29) q = (𝔸).fib1 q
    carry <;> rfl

theorem k_inter : toMat (interK m c) = (𝔸).inter := by
  refine lin_of (interK m c) (W19 m c main_v22) (W19 m c main_arg30) (W19 m c main_v23) _ _ _ (regval9 m c) ?_ ?_ ?_
  · show toMat (W19 m c main_v22) = (𝔸).h1
    carry
    exact k_h1 m c
  · show toMat (W19 m c main_arg30) = (𝔸).fiw2
    carry <;> rfl
  · intro q
    refine (host9_bias (W18 m c) q).trans ?_
    show toRow (W18 m c main_arg31) q = (𝔸).fib2 q
    carry <;> rfl

theorem k_eImg2 : toMat (eImg2K m c) = (𝔸).eImg2 := by
  show toMat (StableHlo.after hostOps10 (W20 m c) main_v27) = Cert.Spec.bump (𝔸).eImg (𝔸).inter
  rw [host10_v27]
  have hx : toMat (W20 m c main_v13) = (𝔸).eImg := by
    carry
    exact k_eImg m c
  have hy : toMat (W20 m c main_v24) = (𝔸).inter := k_inter m c
  rw [hx, hy]

theorem k_eTxt2 : toMat (eTxt2K m c) = (𝔸).eTxt2 := by
  show toMat (StableHlo.after hostOps10 (W20 m c) main_v30) = Cert.Spec.bump (𝔸).eTxt (𝔸).inter
  rw [host10_v30]
  have hx : toMat (W20 m c main_v19) = (𝔸).eTxt := by
    carry
    exact k_eTxt m c
  have hy : toMat (W20 m c main_v24) = (𝔸).inter := k_inter m c
  rw [hx, hy]

theorem k_catE2 : toMat (catE2K m c) = Cert.Spec.cat2 (𝔸).eImg2 (𝔸).eTxt2 := by
  show toMat (StableHlo.after hostOps10 (W20 m c) main_v31) = _
  rw [host10_v31]
  have hx : toMat (StableHlo.after hostOps10 (W20 m c) main_v27) = (𝔸).eImg2 := k_eImg2 m c
  have hy : toMat (StableHlo.after hostOps10 (W20 m c) main_v30) = (𝔸).eTxt2 := k_eTxt2 m c
  rw [hx, hy]

theorem k_h2 : toMat (h2K m c) = (𝔸).h2 := by
  refine relu_of (h2K m c) (catE2K m c) (W21 m c main_arg32) (W21 m c main_v32) _ _ _ (regval10 m c) (k_catE2 m c) ?_ ?_
  · show toMat (W21 m c main_arg32) = (𝔸).efw1
    carry <;> rfl
  · intro q
    refine (host10_bias (W20 m c) q).trans ?_
    show toRow (W20 m c main_arg33) q = (𝔸).efb1 q
    carry <;> rfl

theorem k_fus : toMat (fusK m c) = (𝔸).fus := by
  refine lin_of (fusK m c) (W23 m c main_v33) (W23 m c main_arg34) (W23 m c main_v34) _ _ _ (regval11 m c) ?_ ?_ ?_
  · show toMat (W23 m c main_v33) = (𝔸).h2
    carry
    exact k_h2 m c
  · show toMat (W23 m c main_arg34) = (𝔸).efw2
    carry <;> rfl
  · intro q
    refine (host11_bias (W22 m c) q).trans ?_
    show toRow (W22 m c main_arg35) q = (𝔸).efb2 q
    carry <;> rfl

theorem k_imgF : toMat (imgFK m c) = (𝔸).imgF := by
  show toMat (StableHlo.after hostOps12 (W24 m c) main_v38) = Cert.Spec.bump (𝔸).eImg2 (𝔸).fus
  rw [host12_v38]
  have hx : toMat (W24 m c main_v27) = (𝔸).eImg2 := by
    carry
    exact k_eImg2 m c
  have hy : toMat (W24 m c main_v35) = (𝔸).fus := k_fus m c
  rw [hx, hy]

theorem k_txtF : toMat (txtFK m c) = (𝔸).txtF := by
  show toMat (StableHlo.after hostOps12 (W24 m c) main_v41) = Cert.Spec.bump (𝔸).eTxt2 (𝔸).fus
  rw [host12_v41]
  have hx : toMat (W24 m c main_v30) = (𝔸).eTxt2 := by
    carry
    exact k_eTxt2 m c
  have hy : toMat (W24 m c main_v35) = (𝔸).fus := k_fus m c
  rw [hx, hy]

theorem k_rhsA (r : Fin 4096) (q : Fin 512) : rhsA m c (ix2 r q) =
    if h0 : q.val < 128 then (𝔸).imgF r ⟨q.val, h0⟩
    else if h1 : q.val < 256 then (𝔸).txtF r ⟨q.val - 128, by omega⟩
    else if h2 : q.val < 384 then (𝔸).ttl r ⟨q.val - 256, by omega⟩
    else (𝔸).iEmb r ⟨q.val - 384, by omega⟩ := by
  show (StableHlo.after hostOps12 (W24 m c) main_v42 : Vec Ideal S4096x512 .f32) (ix2 r q) = _
  rw [host12_v42]
  have h38 : toMat (StableHlo.after hostOps12 (W24 m c) main_v38) = (𝔸).imgF := k_imgF m c
  have h41 : toMat (StableHlo.after hostOps12 (W24 m c) main_v41) = (𝔸).txtF := k_txtF m c
  have h7 : toMat (W24 m c main_v7) = (𝔸).ttl := by
    carry
    exact k_ttl m c
  have h19 : toMat (W24 m c main_arg19) = (𝔸).iEmb := by
    carry <;> rfl
  rw [h38, h41, h7, h19]

theorem k_zeroA (q : Fin 512) : zeroA m c (ix2 (0 : Fin 1) q) = 0 :=
  host12_v44 (W24 m c) q

end Chain2

end Cert.KernelIdeal.Gen

end
-- ==== Proof.KI.HostGraph.lean ====
import proofs.«103213_j15710990369585_1_alg».proof.Proof.KI.Chain
import proofs.«103213_j15710990369585_1_alg».proof.Proof.KI.Args
import proofs.«103213_j15710990369585_1_alg».proof.Proof.KI.HostMlp2
import proofs.«103213_j15710990369585_1_alg».proof.Proof.KI.RegVals
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Gen

open Idealize.ShloMosaic Idealize.ShloMosaic.TcCoe

open Idealize.SL Idealize.SL.Sem

open Idealize.ShloMosaic.ValueIdx

open Cert.Spec (Mat Row toMat mm cat2 cat5 rowMax smax avg3 negInf zero32 three)

namespace Graph

theorem cat2_b0 {R : Nat} (X0 X1 : Mat R 128) (r : Fin R) (q : Fin 128) (c : Fin 256) (hc : c.val = q.val) :
    cat2 X0 X1 r c = X0 r q := by
  have hq := q.isLt
  unfold cat2
  rw [dif_pos (by omega)]
  exact congrArg (X0 r) (Fin.ext hc)

theorem cat2_b1 {R : Nat} (X0 X1 : Mat R 128) (r : Fin R) (q : Fin 128) (c : Fin 256) (hc : c.val = 128 + q.val) :
    cat2 X0 X1 r c = X1 r q := by
  unfold cat2
  rw [dif_neg (by omega)]
  exact congrArg (X1 r) (Fin.ext (by show c.val - 128 = q.val; omega))

theorem cat5_b0 {R : Nat} (X0 X1 X2 X3 X4 : Mat R 128) (r : Fin R) (q : Fin 128) (c : Fin 640) (hc : c.val = q.val) :
    cat5 X0 X1 X2 X3 X4 r c = X0 r q := by
  have hq := q.isLt
  unfold cat5
  rw [dif_pos (by omega)]
  exact congrArg (X0 r) (Fin.ext hc)

theorem cat5_b1 {R : Nat} (X0 X1 X2 X3 X4 : Mat R 128) (r : Fin R) (q : Fin 128) (c : Fin 640) (hc : c.val = 128 + q.val) :
    cat5 X0 X1 X2 X3 X4 r c = X1 r q := by
  have hq := q.isLt
  unfold cat5
  rw [dif_neg (by omega), dif_pos (by omega)]
  exact congrArg (X1 r) (Fin.ext (by show c.val - 128 = q.val; omega))

theorem cat5_b2 {R : Nat} (X0 X1 X2 X3 X4 : Mat R 128) (r : Fin R) (q : Fin 128) (c : Fin 640) (hc : c.val = 256 + q.val) :
    cat5 X0 X1 X2 X3 X4 r c = X2 r q := by
  have hq := q.isLt
  unfold cat5
  rw [dif_neg (by omega), dif_neg (by omega), dif_pos (by omega)]
  exact congrArg (X2 r) (Fin.ext (by show c.val - 256 = q.val; omega))

theorem cat5_b3 {R : Nat} (X0 X1 X2 X3 X4 : Mat R 128) (r : Fin R) (q : Fin 128) (c : Fin 640) (hc : c.val = 384 + q.val) :
    cat5 X0 X1 X2 X3 X4 r c = X3 r q := by
  have hq := q.isLt
  unfold cat5
  rw [dif_neg (by omega), dif_neg (by omega), dif_neg (by omega), dif_pos (by omega)]
  exact congrArg (X3 r) (Fin.ext (by show c.val - 384 = q.val; omega))

theorem cat5_b4 {R : Nat} (X0 X1 X2 X3 X4 : Mat R 128) (r : Fin R) (q : Fin 128) (c : Fin 640) (hc : c.val = 512 + q.val) :
    cat5 X0 X1 X2 X3 X4 r c = X4 r q := by
  unfold cat5
  rw [dif_neg (by omega), dif_neg (by omega), dif_neg (by omega), dif_neg (by omega)]
  exact congrArg (X4 r) (Fin.ext (by show c.val - 512 = q.val; omega))

def cat4 {R : Nat} (X0 X1 X2 X3 : Mat R 128) : Mat R 512 := fun r c =>
  if h0 : c.val < 128 then X0 r ⟨c.val, h0⟩
  else if h1 : c.val < 256 then X1 r ⟨c.val - 128, by omega⟩
  else if h2 : c.val < 384 then X2 r ⟨c.val - 256, by omega⟩
  else X3 r ⟨c.val - 384, by omega⟩

theorem cat4_b0 {R : Nat} (X0 X1 X2 X3 : Mat R 128) (r : Fin R) (q : Fin 128) (c : Fin 512) (hc : c.val = q.val) :
    cat4 X0 X1 X2 X3 r c = X0 r q := by
  have hq := q.isLt
  unfold cat4
  rw [dif_pos (by omega)]
  exact congrArg (X0 r) (Fin.ext hc)

theorem cat4_b1 {R : Nat} (X0 X1 X2 X3 : Mat R 128) (r : Fin R) (q : Fin 128) (c : Fin 512) (hc : c.val = 128 + q.val) :
    cat4 X0 X1 X2 X3 r c = X1 r q := by
  have hq := q.isLt
  unfold cat4
  rw [dif_neg (by omega), dif_pos (by omega)]
  exact congrArg (X1 r) (Fin.ext (by show c.val - 128 = q.val; omega))

theorem cat4_b2 {R : Nat} (X0 X1 X2 X3 : Mat R 128) (r : Fin R) (q : Fin 128) (c : Fin 512) (hc : c.val = 256 + q.val) :
    cat4 X0 X1 X2 X3 r c = X2 r q := by
  have hq := q.isLt
  unfold cat4
  rw [dif_neg (by omega), dif_neg (by omega), dif_pos (by omega)]
  exact congrArg (X2 r) (Fin.ext (by show c.val - 256 = q.val; omega))

theorem cat4_b3 {R : Nat} (X0 X1 X2 X3 : Mat R 128) (r : Fin R) (q : Fin 128) (c : Fin 512) (hc : c.val = 384 + q.val) :
    cat4 X0 X1 X2 X3 r c = X3 r q := by
  unfold cat4
  rw [dif_neg (by omega), dif_neg (by omega), dif_neg (by omega)]
  exact congrArg (X3 r) (Fin.ext (by show c.val - 384 = q.val; omega))

theorem concat5_apply {R : Nat} (x0 x1 x2 x3 x4 : (⟨2, ![R, 128]⟩ : Shape).Idx → EReal)
    (h : Shape.Concatenates [(⟨2, ![R, 128]⟩ : Shape), ⟨2, ![R, 128]⟩, ⟨2, ![R, 128]⟩, ⟨2, ![R, 128]⟩, ⟨2, ![R, 128]⟩] (⟨2, ![R, 640]⟩ : Shape) 1)
    (r : Fin R) (q : Fin 640) :
    concatenate (⟨2, ![R, 640]⟩ : Shape) 1 [⟨(⟨2, ![R, 128]⟩ : Shape), x0⟩, ⟨(⟨2, ![R, 128]⟩ : Shape), x1⟩, ⟨(⟨2, ![R, 128]⟩ : Shape), x2⟩, ⟨(⟨2, ![R, 128]⟩ : Shape), x3⟩, ⟨(⟨2, ![R, 128]⟩ : Shape), x4⟩] h (ix2 r q)
      = cat5 (toMat x0) (toMat x1) (toMat x2) (toMat x3) (toMat x4) r q := by
  have hq := q.isLt
  have hi : ∀ (k : Fin 128) (b : Fin (⟨2, ![R, 128]⟩ : Shape).rank), b.cast (rfl : (⟨2, ![R, 128]⟩ : Shape).rank = (⟨2, ![R, 640]⟩ : Shape).rank) ≠ (1 : Fin 2) →
      ((ix2 r k : (⟨2, ![R, 128]⟩ : Shape).Idx) b).val = ((ix2 r q : (⟨2, ![R, 640]⟩ : Shape).Idx) (b.cast rfl)).val := fun k b hb => by
    match b with
    | ⟨0, _⟩ => rfl
    | ⟨1, _⟩ => exact absurd rfl hb
  have key := concatenate_apply_piece (α := EReal) (t := (⟨2, ![R, 640]⟩ : Shape)) 1
    [⟨(⟨2, ![R, 128]⟩ : Shape), x0⟩, ⟨(⟨2, ![R, 128]⟩ : Shape), x1⟩, ⟨(⟨2, ![R, 128]⟩ : Shape), x2⟩, ⟨(⟨2, ![R, 128]⟩ : Shape), x3⟩, ⟨(⟨2, ![R, 128]⟩ : Shape), x4⟩] h (ix2 r q)
  by_cases h0 : q.val < 128
  · rw [cat5_b0 _ _ _ _ _ r ⟨q.val, h0⟩ q rfl]
    exact key 0 (by show 0 < 5; omega) _ x0 rfl rfl 0 rfl (ix2 r ⟨q.val, h0⟩) (hi _)
      (by show 0 + q.val = q.val; omega)
  by_cases h1 : q.val < 256
  · rw [cat5_b1 _ _ _ _ _ r ⟨q.val - 128, by omega⟩ q (by show q.val = 128 + (q.val - 128); omega)]
    exact key 1 (by show 1 < 5; omega) _ x1 rfl rfl 128 rfl (ix2 r ⟨q.val - 128, by omega⟩) (hi _)
      (by show 128 + (q.val - 128) = q.val; omega)
  by_cases h2 : q.val < 384
  · rw [cat5_b2 _ _ _ _ _ r ⟨q.val - 256, by omega⟩ q (by show q.val = 256 + (q.val - 256); omega)]
    exact key 2 (by show 2 < 5; omega) _ x2 rfl rfl 256 rfl (ix2 r ⟨q.val - 256, by omega⟩) (hi _)
      (by show 256 + (q.val - 256) = q.val; omega)
  by_cases h3 : q.val < 512
  · rw [cat5_b3 _ _ _ _ _ r ⟨q.val - 384, by omega⟩ q (by show q.val = 384 + (q.val - 384); omega)]
    exact key 3 (by show 3 < 5; omega) _ x3 rfl rfl 384 rfl (ix2 r ⟨q.val - 384, by omega⟩) (hi _)
      (by show 384 + (q.val - 384) = q.val; omega)
  · rw [cat5_b4 _ _ _ _ _ r ⟨q.val - 512, by omega⟩ q (by show q.val = 512 + (q.val - 512); omega)]
    exact key 4 (by show 4 < 5; omega) _ x4 rfl rfl 512 rfl (ix2 r ⟨q.val - 512, by omega⟩) (hi _)
      (by show 512 + (q.val - 512) = q.val; omega)

theorem concat2_apply {R : Nat} (x0 x1 : (⟨2, ![R, 128]⟩ : Shape).Idx → EReal)
    (h : Shape.Concatenates [(⟨2, ![R, 128]⟩ : Shape), ⟨2, ![R, 128]⟩] (⟨2, ![R, 256]⟩ : Shape) 1)
    (r : Fin R) (q : Fin 256) :
    concatenate (⟨2, ![R, 256]⟩ : Shape) 1 [⟨(⟨2, ![R, 128]⟩ : Shape), x0⟩, ⟨(⟨2, ![R, 128]⟩ : Shape), x1⟩] h (ix2 r q)
      = cat2 (toMat x0) (toMat x1) r q := by
  have hq := q.isLt
  have hi : ∀ (k : Fin 128) (b : Fin (⟨2, ![R, 128]⟩ : Shape).rank), b.cast (rfl : (⟨2, ![R, 128]⟩ : Shape).rank = (⟨2, ![R, 256]⟩ : Shape).rank) ≠ (1 : Fin 2) →
      ((ix2 r k : (⟨2, ![R, 128]⟩ : Shape).Idx) b).val = ((ix2 r q : (⟨2, ![R, 256]⟩ : Shape).Idx) (b.cast rfl)).val := fun k b hb => by
    match b with
    | ⟨0, _⟩ => rfl
    | ⟨1, _⟩ => exact absurd rfl hb
  have key := concatenate_apply_piece (α := EReal) (t := (⟨2, ![R, 256]⟩ : Shape)) 1
    [⟨(⟨2, ![R, 128]⟩ : Shape), x0⟩, ⟨(⟨2, ![R, 128]⟩ : Shape), x1⟩] h (ix2 r q)
  by_cases h0 : q.val < 128
  · rw [cat2_b0 _ _ r ⟨q.val, h0⟩ q rfl]
    exact key 0 (by show 0 < 2; omega) _ x0 rfl rfl 0 rfl (ix2 r ⟨q.val, h0⟩) (hi _)
      (by show 0 + q.val = q.val; omega)
  · rw [cat2_b1 _ _ r ⟨q.val - 128, by omega⟩ q (by show q.val = 128 + (q.val - 128); omega)]
    exact key 1 (by show 1 < 2; omega) _ x1 rfl rfl 128 rfl (ix2 r ⟨q.val - 128, by omega⟩) (hi _)
      (by show 128 + (q.val - 128) = q.val; omega)

theorem concatRows_apply (x0 : (⟨2, ![8192, 640]⟩ : Shape).Idx → EReal) (x1 : (⟨2, ![4096, 640]⟩ : Shape).Idx → EReal)
    (h : Shape.Concatenates [(⟨2, ![8192, 640]⟩ : Shape), ⟨2, ![4096, 640]⟩] (⟨2, ![12288, 640]⟩ : Shape) 0)
    (r : Fin 12288) (q : Fin 640) :
    concatenate (⟨2, ![12288, 640]⟩ : Shape) 0 [⟨(⟨2, ![8192, 640]⟩ : Shape), x0⟩, ⟨(⟨2, ![4096, 640]⟩ : Shape), x1⟩] h (ix2 r q)
      = if hr : r.val < 8192 then x0 (ix2 ⟨r.val, hr⟩ q) else x1 (ix2 ⟨r.val - 8192, by omega⟩ q) := by
  have hr' := r.isLt
  have key := concatenate_apply_piece (α := EReal) (t := (⟨2, ![12288, 640]⟩ : Shape)) 0
    [⟨(⟨2, ![8192, 640]⟩ : Shape), x0⟩, ⟨(⟨2, ![4096, 640]⟩ : Shape), x1⟩] h (ix2 r q)
  by_cases hr : r.val < 8192
  · rw [dif_pos hr]
    refine key 0 (by show 0 < 2; omega) _ x0 rfl rfl 0 rfl (ix2 ⟨r.val, hr⟩ q) (fun b hb => ?_) (by show 0 + r.val = r.val; omega)
    match b with
    | ⟨0, _⟩ => exact absurd rfl hb
    | ⟨1, _⟩ => rfl
  · rw [dif_neg hr]
    refine key 1 (by show 1 < 2; omega) _ x1 rfl rfl 8192 rfl (ix2 ⟨r.val - 8192, by omega⟩ q) (fun b hb => ?_)
      (by show 8192 + (r.val - 8192) = r.val; omega)
    match b with
    | ⟨0, _⟩ => exact absurd rfl hb
    | ⟨1, _⟩ => rfl

theorem zeroRow_apply {N : Nat} (hb : (⟨0, ![]⟩ : Shape).BroadcastsInDim (⟨1, ![N]⟩ : Shape) (![] : Fin 0 → Fin 1))
    (hs : (⟨1, ![N]⟩ : Shape).ShapeCasts (⟨2, ![1, N]⟩ : Shape)) (q : Fin N) :
    shapeCast (⟨2, ![1, N]⟩ : Shape) (broadcastInDim (⟨1, ![N]⟩ : Shape) ![] hb (constant (F := Ideal) (⟨0, ![]⟩ : Shape) .f32 0x00000000#32)) hs (ix2 (0 : Fin 1) q) = 0 := by
  rw [shapeCast_a_1a_apply, broadcastInDim_scalar_apply, constant_apply]
  exact Ideal.ofBits_zero_f32

theorem avg3_apply {R : Nat} (hb : (⟨0, ![]⟩ : Shape).BroadcastsInDim (⟨2, ![R, 128]⟩ : Shape) (![] : Fin 0 → Fin 2))
    (x y z : FVec Ideal (⟨2, ![R, 128]⟩ : Shape) .f32) (r : Fin R) (q : Fin 128) :
    Host.divf (addf (addf x y) z) (broadcastInDim (⟨2, ![R, 128]⟩ : Shape) ![] hb (constant (F := Ideal) (⟨0, ![]⟩ : Shape) .f32 0x40400000#32)) (ix2 r q)
      = avg3 (toMat x) (toMat y) (toMat z) r q := by
  rw [hostDivf_apply, addf_apply, addf_apply, broadcastInDim_scalar_apply, constant_apply]
  rfl

section Softmax

variable {R : Nat}
  (hred : (⟨2, ![R, 128]⟩ : Shape).ReducesTo [1] (⟨1, ![R]⟩ : Shape))
  (h0 : 0 < (⟨0, ![]⟩ : Shape).numel)
  (b0 : (⟨0, ![]⟩ : Shape).BroadcastsInDim (⟨1, ![R]⟩ : Shape) (![] : Fin 0 → Fin 1))
  (b1 : (⟨1, ![R]⟩ : Shape).BroadcastsInDim (⟨2, ![R, 1]⟩ : Shape) (![0] : Fin 1 → Fin 2))
  (b2 : (⟨2, ![R, 1]⟩ : Shape).BroadcastsInDim (⟨2, ![R, 128]⟩ : Shape) (![0, 1] : Fin 2 → Fin 2))

theorem bcastCol_apply (v : (⟨1, ![R]⟩ : Shape).Idx → EReal) (r : Fin R) (q : Fin 128) :
    broadcastInDim (⟨2, ![R, 128]⟩ : Shape) ![0, 1] b2 (broadcastInDim (⟨2, ![R, 1]⟩ : Shape) ![0] b1 v) (ix2 r q) = v (ix1 r) := by
  have hr := r.isLt
  refine (broadcastInDim_apply _ b2 _ (ix2 r q) (ix2 r (0 : Fin 1)) (fun a => ?_)).trans ?_
  · match a with
    | ⟨0, _⟩ =>
      show r.val = if R = 1 then 0 else r.val
      split
      · omega
      · rfl
    | ⟨1, _⟩ => rfl
  · refine broadcastInDim_apply _ b1 v (ix2 r (0 : Fin 1)) (ix1 r) (fun a => ?_)
    match a with
    | ⟨0, _⟩ =>
      show r.val = if R = 1 then 0 else r.val
      split
      · omega
      · rfl

def rowMaxOps (x : FVec Ideal (⟨2, ![R, 128]⟩ : Shape) .f32) : FVec Ideal (⟨1, ![R]⟩ : Shape) .f32 :=
  maximumf (broadcastInDim (⟨1, ![R]⟩ : Shape) ![] b0 (constant (F := Ideal) (⟨0, ![]⟩ : Shape) .f32 0xFF800000#32))
    (Host.reduce FloatOps.maximumf x (constant (F := Ideal) (⟨0, ![]⟩ : Shape) .f32 0xFF800000#32) hred h0)

def expShiftOps (x : FVec Ideal (⟨2, ![R, 128]⟩ : Shape) .f32) : FVec Ideal (⟨2, ![R, 128]⟩ : Shape) .f32 :=
  Host.exp (subf x (broadcastInDim (⟨2, ![R, 128]⟩ : Shape) ![0, 1] b2 (broadcastInDim (⟨2, ![R, 1]⟩ : Shape) ![0] b1 (rowMaxOps hred h0 b0 x))))

def softmaxOps (x : FVec Ideal (⟨2, ![R, 128]⟩ : Shape) .f32) : FVec Ideal (⟨2, ![R, 128]⟩ : Shape) .f32 :=
  Host.divf (expShiftOps hred h0 b0 b1 b2 x)
    (broadcastInDim (⟨2, ![R, 128]⟩ : Shape) ![0, 1] b2 (broadcastInDim (⟨2, ![R, 1]⟩ : Shape) ![0] b1
      (Host.reduceAdd (expShiftOps hred h0 b0 b1 b2 x) (constant (F := Ideal) (⟨0, ![]⟩ : Shape) .f32 0x00000000#32) hred h0)))

theorem lift_col (hR : (⟨2, ![R, 128]⟩ : Shape).Reduces [1] (⟨1, ![R]⟩ : Shape)) (r : Fin R)
    (k : Fin ((⟨2, ![R, 128]⟩ : Shape).size 1)) : hR.lift (ix1 r) k = ix2 r (⟨k.val, k.isLt⟩ : Fin 128) := by
  funext a
  apply Fin.ext
  match a with
  | ⟨0, _⟩ => rfl
  | ⟨1, _⟩ => rfl

theorem rowMaxOps_apply (x : FVec Ideal (⟨2, ![R, 128]⟩ : Shape) .f32) (r : Fin R) :
    rowMaxOps hred h0 b0 x (ix1 r) = rowMax (toMat x) r := by
  have hR : (⟨2, ![R, 128]⟩ : Shape).Reduces [1] (⟨1, ![R]⟩ : Shape) := ⟨hred.1, Nat.one_pos, hred.2⟩
  unfold rowMaxOps rowMax
  rw [maximumf_apply, broadcastInDim_scalar_apply, constant_apply, Host.reduce_eq_fold_single FloatOps.maximumf x _ hred hR h0]
  have hf : (x ∘ hR.lift (ix1 r)) = fun k : Fin 128 => toMat x r k := funext fun k => congrArg x (lift_col hR r k)
  rw [hf]
  rfl

theorem expShiftOps_apply (x : FVec Ideal (⟨2, ![R, 128]⟩ : Shape) .f32) (r : Fin R) (q : Fin 128) :
    expShiftOps hred h0 b0 b1 b2 x (ix2 r q) = Ideal.exp (toMat x r q - rowMax (toMat x) r) := by
  unfold expShiftOps
  show Ideal.exp (subf x _ (ix2 r q)) = _
  rw [subf_apply, bcastCol_apply, rowMaxOps_apply]
  rfl

theorem softmaxOps_apply (x : FVec Ideal (⟨2, ![R, 128]⟩ : Shape) .f32) (r : Fin R) (q : Fin 128) :
    softmaxOps hred h0 b0 b1 b2 x (ix2 r q) = smax (toMat x) r q := by
  have hR : (⟨2, ![R, 128]⟩ : Shape).Reduces [1] (⟨1, ![R]⟩ : Shape) := ⟨hred.1, Nat.one_pos, hred.2⟩
  unfold softmaxOps smax
  rw [hostDivf_apply, bcastCol_apply, hostReduceAdd_apply, Ideal.hostReduceAdd_single hred hR, constant_apply, expShiftOps_apply]
  refine congrArg (Ideal.div _) (congrArg (Cert.Spec.zero32 + ·) ?_)
  refine Finset.sum_congr rfl fun k _ => ?_
  rw [lift_col hR r k]
  exact expShiftOps_apply hred h0 b0 b1 b2 x r ⟨k.val, k.isLt⟩

end Softmax

def band {R C : Nat} (X : Mat R C) (o : Nat) (ho : o + 128 ≤ C) : Mat R 128 := fun r q => X r ⟨o + q.val, by have := q.isLt; omega⟩
/-- A band of columns of a product is the product with that band of the right factor. -/

theorem mm_band {R K C : Nat} (U : Mat R K) (X : Mat K C) (Y : Mat K 128) (o : Nat) (ho : o + 128 ≤ C)
    (h : ∀ k (q : Fin 128), X k ⟨o + q.val, by have := q.isLt; omega⟩ = Y k q) : band (mm U X) o ho = mm U Y := by
  funext r q; unfold band mm
  exact Finset.sum_congr rfl fun k _ => congrArg (U r k * ·) (h k q)

theorem mm_cat4_b0 {R K : Nat} (U : Mat R K) (X0 X1 X2 X3 : Mat K 128) : band (mm U (cat4 X0 X1 X2 X3)) 0 (by omega) = mm U X0 :=
  mm_band U _ _ 0 _ fun k q => cat4_b0 X0 X1 X2 X3 k q _ (by show 0 + q.val = q.val; omega)

theorem mm_cat4_b1 {R K : Nat} (U : Mat R K) (X0 X1 X2 X3 : Mat K 128) : band (mm U (cat4 X0 X1 X2 X3)) 128 (by omega) = mm U X1 :=
  mm_band U _ _ 128 _ fun k q => cat4_b1 X0 X1 X2 X3 k q _ rfl

theorem mm_cat4_b2 {R K : Nat} (U : Mat R K) (X0 X1 X2 X3 : Mat K 128) : band (mm U (cat4 X0 X1 X2 X3)) 256 (by omega) = mm U X2 :=
  mm_band U _ _ 256 _ fun k q => cat4_b2 X0 X1 X2 X3 k q _ rfl

theorem mm_cat4_b3 {R K : Nat} (U : Mat R K) (X0 X1 X2 X3 : Mat K 128) : band (mm U (cat4 X0 X1 X2 X3)) 384 (by omega) = mm U X3 :=
  mm_band U _ _ 384 _ fun k q => cat4_b3 X0 X1 X2 X3 k q _ rfl

theorem mm_cat5_b0 {R K : Nat} (U : Mat R K) (X0 X1 X2 X3 X4 : Mat K 128) : band (mm U (cat5 X0 X1 X2 X3 X4)) 0 (by omega) = mm U X0 :=
  mm_band U _ _ 0 _ fun k q => cat5_b0 X0 X1 X2 X3 X4 k q _ (by show 0 + q.val = q.val; omega)

theorem mm_cat5_b1 {R K : Nat} (U : Mat R K) (X0 X1 X2 X3 X4 : Mat K 128) : band (mm U (cat5 X0 X1 X2 X3 X4)) 128 (by omega) = mm U X1 :=
  mm_band U _ _ 128 _ fun k q => cat5_b1 X0 X1 X2 X3 X4 k q _ rfl

theorem mm_cat5_b2 {R K : Nat} (U : Mat R K) (X0 X1 X2 X3 X4 : Mat K 128) : band (mm U (cat5 X0 X1 X2 X3 X4)) 256 (by omega) = mm U X2 :=
  mm_band U _ _ 256 _ fun k q => cat5_b2 X0 X1 X2 X3 X4 k q _ rfl

theorem mm_cat5_b3 {R K : Nat} (U : Mat R K) (X0 X1 X2 X3 X4 : Mat K 128) : band (mm U (cat5 X0 X1 X2 X3 X4)) 384 (by omega) = mm U X3 :=
  mm_band U _ _ 384 _ fun k q => cat5_b3 X0 X1 X2 X3 X4 k q _ rfl

theorem mm_cat5_b4 {R K : Nat} (U : Mat R K) (X0 X1 X2 X3 X4 : Mat K 128) : band (mm U (cat5 X0 X1 X2 X3 X4)) 512 (by omega) = mm U X4 :=
  mm_band U _ _ 512 _ fun k q => cat5_b4 X0 X1 X2 X3 X4 k q _ rfl

theorem mm_cat2_b0 {R K : Nat} (U : Mat R K) (X0 X1 : Mat K 128) : band (mm U (cat2 X0 X1)) 0 (by omega) = mm U X0 :=
  mm_band U _ _ 0 _ fun k q => cat2_b0 X0 X1 k q _ (by show 0 + q.val = q.val; omega)

theorem mm_cat2_b1 {R K : Nat} (U : Mat R K) (X0 X1 : Mat K 128) : band (mm U (cat2 X0 X1)) 128 (by omega) = mm U X1 :=
  mm_band U _ _ 128 _ fun k q => cat2_b1 X0 X1 k q _ rfl

theorem slice_band {R C : Nat} (o : Nat) (x : (⟨2, ![R, C]⟩ : Shape).Idx → EReal)
    (h : (⟨2, ![R, C]⟩ : Shape).Slices ![0, o] (⟨2, ![R, 128]⟩ : Shape)) (ho : o + 128 ≤ C) :
    toMat (extractStridedSlice (⟨2, ![R, 128]⟩ : Shape) ![0, o] x h) = band (toMat x) o ho := by
  funext r q
  exact slice2_axis1_apply o x h r q _ rfl

section Parts

variable {F : FTy → Type} [FloatOps F]

abbrev ops16a : List (HloOp τ sig (Elt F)) :=
  [ StableHlo.nullary main_cst_10 (constant S_ .f32 0xFF800000#32),
    StableHlo.binary main_v78 main_cst_10 main_v79 ((fun x v => Host.reduce FloatOps.maximumf x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.nullary main_cst_11 (constant S_ .f32 0xFF800000#32),
    StableHlo.unary main_cst_11 main_v80 (broadcastInDim S4096 ![] bcast_S_S4096 : (⟨S_, .f32⟩ : BufTy).Contents (Elt F) → (⟨S4096, .f32⟩ : BufTy).Contents (Elt F)),
    StableHlo.binary main_v80 main_v79 main_v81 (maximumf : (⟨S4096, .f32⟩ : BufTy).Contents (Elt F) → (⟨S4096, .f32⟩ : BufTy).Contents (Elt F) → (⟨S4096, .f32⟩ : BufTy).Contents (Elt F)),
    StableHlo.unary main_v81 main_v82 (broadcastInDim S4096x1 ![0] bcast_S4096_S4096x1_0 : (⟨S4096, .f32⟩ : BufTy).Contents (Elt F) → (⟨S4096x1, .f32⟩ : BufTy).Contents (Elt F)),
    StableHlo.unary main_v82 main_v83 (broadcastInDim S4096x128 ![0, 1] bcast_S4096x1_S4096x128_0_1 : (⟨S4096x1, .f32⟩ : BufTy).Contents (Elt F) → (⟨S4096x128, .f32⟩ : BufTy).Contents (Elt F)),
    StableHlo.binary main_v78 main_v83 main_v84 (subf : (⟨S4096x128, .f32⟩ : BufTy).Contents (Elt F) → (⟨S4096x128, .f32⟩ : BufTy).Contents (Elt F) → (⟨S4096x128, .f32⟩ : BufTy).Contents (Elt F)),
    StableHlo.unary main_v84 main_v85 (Host.exp : (⟨S4096x128, .f32⟩ : BufTy).Contents (Elt F) → (⟨S4096x128, .f32⟩ : BufTy).Contents (Elt F)),
    StableHlo.nullary main_cst_12 (constant S_ .f32 0x00000000#32),
    StableHlo.binary main_v85 main_cst_12 main_v86 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v86 main_v87 (broadcastInDim S4096x1 ![0] bcast_S4096_S4096x1_0 : (⟨S4096, .f32⟩ : BufTy).Contents (Elt F) → (⟨S4096x1, .f32⟩ : BufTy).Contents (Elt F)),
    StableHlo.unary main_v87 main_v88 (broadcastInDim S4096x128 ![0, 1] bcast_S4096x1_S4096x128_0_1 : (⟨S4096x1, .f32⟩ : BufTy).Contents (Elt F) → (⟨S4096x128, .f32⟩ : BufTy).Contents (Elt F)),
    StableHlo.binary main_v85 main_v88 main_v89 (Host.divf : (⟨S4096x128, .f32⟩ : BufTy).Contents (Elt F) → (⟨S4096x128, .f32⟩ : BufTy).Contents (Elt F) → (⟨S4096x128, .f32⟩ : BufTy).Contents (Elt F)) ]

abbrev ops16b : List (HloOp τ sig (Elt F)) :=
  [ StableHlo.binary main_arg18 main_v49 main_v90 (addf : (⟨S8192x128, .f32⟩ : BufTy).Contents (Elt F) → (⟨S8192x128, .f32⟩ : BufTy).Contents (Elt F) → (⟨S8192x128, .f32⟩ : BufTy).Contents (Elt F)),
    StableHlo.binary main_v90 main_v75 main_v91 (addf : (⟨S8192x128, .f32⟩ : BufTy).Contents (Elt F) → (⟨S8192x128, .f32⟩ : BufTy).Contents (Elt F) → (⟨S8192x128, .f32⟩ : BufTy).Contents (Elt F)),
    StableHlo.nullary main_cst_13 (constant S_ .f32 0x40400000#32),
    StableHlo.unary main_cst_13 main_v92 (broadcastInDim S8192x128 ![] bcast_S_S8192x128 : (⟨S_, .f32⟩ : BufTy).Contents (Elt F) → (⟨S8192x128, .f32⟩ : BufTy).Contents (Elt F)),
    StableHlo.binary main_v91 main_v92 main_v93 (Host.divf : (⟨S8192x128, .f32⟩ : BufTy).Contents (Elt F) → (⟨S8192x128, .f32⟩ : BufTy).Contents (Elt F) → (⟨S8192x128, .f32⟩ : BufTy).Contents (Elt F)),
    StableHlo.binary main_arg19 main_v57 main_v94 (addf : (⟨S4096x128, .f32⟩ : BufTy).Contents (Elt F) → (⟨S4096x128, .f32⟩ : BufTy).Contents (Elt F) → (⟨S4096x128, .f32⟩ : BufTy).Contents (Elt F)),
    StableHlo.binary main_v94 main_v89 main_v95 (addf : (⟨S4096x128, .f32⟩ : BufTy).Contents (Elt F) → (⟨S4096x128, .f32⟩ : BufTy).Contents (Elt F) → (⟨S4096x128, .f32⟩ : BufTy).Contents (Elt F)),
    StableHlo.nullary main_cst_14 (constant S_ .f32 0x40400000#32),
    StableHlo.unary main_cst_14 main_v96 (broadcastInDim S4096x128 ![] bcast_S_S4096x128 : (⟨S_, .f32⟩ : BufTy).Contents (Elt F) → (⟨S4096x128, .f32⟩ : BufTy).Contents (Elt F)),
    StableHlo.binary main_v95 main_v96 main_v97 (Host.divf : (⟨S4096x128, .f32⟩ : BufTy).Contents (Elt F) → (⟨S4096x128, .f32⟩ : BufTy).Contents (Elt F) → (⟨S4096x128, .f32⟩ : BufTy).Contents (Elt F)) ]

abbrev ops16c : List (HloOp τ sig (Elt F)) :=
  [ StableHlo.nary ![main_v93, main_v63, main_v46, main_v47, main_v48] main_v98 (fun u => concatenate S8192x640 1 [⟨S8192x128, u 0⟩, ⟨S8192x128, u 1⟩, ⟨S8192x128, u 2⟩, ⟨S8192x128, u 3⟩, ⟨S8192x128, u 4⟩] concatenates_S8192x128_S8192x128_S8192x128_S8192x128_S8192x128_S8192x640_d1),
    StableHlo.nary ![main_v97, main_v58, main_v54, main_v55, main_v56] main_v99 (fun u => concatenate S4096x640 1 [⟨S4096x128, u 0⟩, ⟨S4096x128, u 1⟩, ⟨S4096x128, u 2⟩, ⟨S4096x128, u 3⟩, ⟨S4096x128, u 4⟩] concatenates_S4096x128_S4096x128_S4096x128_S4096x128_S4096x128_S4096x640_d1),
    StableHlo.binary main_v98 main_v99 main_v100 ((fun a b => concatenate S12288x640 0 [⟨S8192x640, a⟩, ⟨S4096x640, b⟩] concatenates_S8192x640_S4096x640_S12288x640_d0) : (⟨S8192x640, .f32⟩ : BufTy).Contents (Elt F) → (⟨S4096x640, .f32⟩ : BufTy).Contents (Elt F) → (⟨S12288x640, .f32⟩ : BufTy).Contents (Elt F)) ]

theorem hostOps16_split : (hostOps16 : List (HloOp τ sig (Elt F))) = ops16a ++ (ops16b ++ ops16c) := rfl

end Parts

section Stretches

variable (V : Valuation τ sig (Elt Ideal))

theorem nary5_result {x a b d e y : Ref sig .tc}
    (f : ((k : Fin 5) → ((![x, a, b, d, e] : Fin 5 → Ref sig .tc) k).ty.Contents (Elt Ideal)) → y.ty.Contents (Elt Ideal)) (hxs hy)
    (F : Valuation τ sig (Elt Ideal)) :
    (StableHlo.nary (τ := τ) ![x, a, b, d, e] y f hxs hy).result F (Proc.devRef .tc y)
      = f (Fin.cons (F (Proc.devRef .tc x)) (Fin.cons (F (Proc.devRef .tc a)) (Fin.cons (F (Proc.devRef .tc b)) (Fin.cons (F (Proc.devRef .tc d)) (Fin.cons (F (Proc.devRef .tc e)) (fun i => i.elim0)))))) := by
  rw [StableHlo.nary_result]; congr 1; funext k; fin_cases k <;> rfl

macro "stretch_results" : tactic =>
  `(tactic| (simp only [StableHlo.after_cons, StableHlo.after_nil]
             repeat (first
               | rw [StableHlo.nullary_result] | rw [StableHlo.unary_result] | rw [StableHlo.binary_result]
               | rw [StableHlo.reshape_result] | rw [nary5_result] | rw [StableHlo.nary4_result] | rw [StableHlo.nary_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

theorem st13_v46 : toMat (StableHlo.after hostOps13 V main_v46 : Vec Ideal S8192x128 .f32) = band (toMat (V main_v45 : Vec Ideal S8192x512 .f32)) 0 (by omega) := by
  refine (congrArg toMat ?_).trans (slice_band 0 (V main_v45 : Vec Ideal S8192x512 .f32) slices_S8192x512_S8192x128_0_0 _)
  stretch_results <;> rfl

theorem st13_v47 : toMat (StableHlo.after hostOps13 V main_v47 : Vec Ideal S8192x128 .f32) = band (toMat (V main_v45 : Vec Ideal S8192x512 .f32)) 128 (by omega) := by
  refine (congrArg toMat ?_).trans (slice_band 128 (V main_v45 : Vec Ideal S8192x512 .f32) slices_S8192x512_S8192x128_0_128 _)
  stretch_results <;> rfl

theorem st13_v48 : toMat (StableHlo.after hostOps13 V main_v48 : Vec Ideal S8192x128 .f32) = band (toMat (V main_v45 : Vec Ideal S8192x512 .f32)) 256 (by omega) := by
  refine (congrArg toMat ?_).trans (slice_band 256 (V main_v45 : Vec Ideal S8192x512 .f32) slices_S8192x512_S8192x128_0_256 _)
  stretch_results <;> rfl

theorem st13_v49 : toMat (StableHlo.after hostOps13 V main_v49 : Vec Ideal S8192x128 .f32) = band (toMat (V main_v45 : Vec Ideal S8192x512 .f32)) 384 (by omega) := by
  refine (congrArg toMat ?_).trans (slice_band 384 (V main_v45 : Vec Ideal S8192x512 .f32) slices_S8192x512_S8192x128_0_384 _)
  stretch_results <;> rfl

theorem st13_v50 : toMat (StableHlo.after hostOps13 V main_v50 : Vec Ideal S8192x640 .f32)
    = cat5 (band (toMat (V main_v45 : Vec Ideal S8192x512 .f32)) 0 (by omega)) (band (toMat (V main_v45 : Vec Ideal S8192x512 .f32)) 128 (by omega))
        (band (toMat (V main_v45 : Vec Ideal S8192x512 .f32)) 256 (by omega)) (band (toMat (V main_v45 : Vec Ideal S8192x512 .f32)) 384 (by omega))
        (toMat (V main_v5 : Vec Ideal S8192x128 .f32)) := by
  have e : (StableHlo.after hostOps13 V main_v50 : Vec Ideal S8192x640 .f32)
      = concatenate S8192x640 1 [⟨S8192x128, extractStridedSlice S8192x128 ![0, 0] (V main_v45 : Vec Ideal S8192x512 .f32) slices_S8192x512_S8192x128_0_0⟩,
          ⟨S8192x128, extractStridedSlice S8192x128 ![0, 128] (V main_v45 : Vec Ideal S8192x512 .f32) slices_S8192x512_S8192x128_0_128⟩,
          ⟨S8192x128, extractStridedSlice S8192x128 ![0, 256] (V main_v45 : Vec Ideal S8192x512 .f32) slices_S8192x512_S8192x128_0_256⟩,
          ⟨S8192x128, extractStridedSlice S8192x128 ![0, 384] (V main_v45 : Vec Ideal S8192x512 .f32) slices_S8192x512_S8192x128_0_384⟩,
          ⟨S8192x128, (V main_v5 : Vec Ideal S8192x128 .f32)⟩] concatenates_S8192x128_S8192x128_S8192x128_S8192x128_S8192x128_S8192x640_d1 := by
    stretch_results <;> rfl
  funext r q
  show (StableHlo.after hostOps13 V main_v50 : Vec Ideal S8192x640 .f32) (ix2 r q) = _
  rw [e, concat5_apply, slice_band 0 _ _ (by omega), slice_band 128 _ _ (by omega), slice_band 256 _ _ (by omega), slice_band 384 _ _ (by omega)]

theorem st13_v52 (q : Fin 640) : (StableHlo.after hostOps13 V main_v52 : Vec Ideal S1x640 .f32) (ix2 (0 : Fin 1) q) = (0 : EReal) := by
  have e : (StableHlo.after hostOps13 V main_v52 : Vec Ideal S1x640 .f32)
      = shapeCast S1x640 (broadcastInDim S640 ![] bcast_S_S640 (constant (F := Ideal) S_ .f32 0x00000000#32)) shapeCasts_S640_S1x640 := by
    stretch_results <;> rfl
  rw [e]; exact zeroRow_apply _ _ q

theorem st14_v54 : toMat (StableHlo.after hostOps14 V main_v54 : Vec Ideal S4096x128 .f32) = band (toMat (V main_v53 : Vec Ideal S4096x640 .f32)) 0 (by omega) := by
  refine (congrArg toMat ?_).trans (slice_band 0 (V main_v53 : Vec Ideal S4096x640 .f32) slices_S4096x640_S4096x128_0_0 _)
  stretch_results <;> rfl

theorem st14_v55 : toMat (StableHlo.after hostOps14 V main_v55 : Vec Ideal S4096x128 .f32) = band (toMat (V main_v53 : Vec Ideal S4096x640 .f32)) 128 (by omega) := by
  refine (congrArg toMat ?_).trans (slice_band 128 (V main_v53 : Vec Ideal S4096x640 .f32) slices_S4096x640_S4096x128_0_128 _)
  stretch_results <;> rfl

theorem st14_v56 : toMat (StableHlo.after hostOps14 V main_v56 : Vec Ideal S4096x128 .f32) = band (toMat (V main_v53 : Vec Ideal S4096x640 .f32)) 256 (by omega) := by
  refine (congrArg toMat ?_).trans (slice_band 256 (V main_v53 : Vec Ideal S4096x640 .f32) slices_S4096x640_S4096x128_0_256 _)
  stretch_results <;> rfl

theorem st14_v57 : toMat (StableHlo.after hostOps14 V main_v57 : Vec Ideal S4096x128 .f32) = band (toMat (V main_v53 : Vec Ideal S4096x640 .f32)) 384 (by omega) := by
  refine (congrArg toMat ?_).trans (slice_band 384 (V main_v53 : Vec Ideal S4096x640 .f32) slices_S4096x640_S4096x128_0_384 _)
  stretch_results <;> rfl

theorem st14_v58 : toMat (StableHlo.after hostOps14 V main_v58 : Vec Ideal S4096x128 .f32) = band (toMat (V main_v53 : Vec Ideal S4096x640 .f32)) 512 (by omega) := by
  refine (congrArg toMat ?_).trans (slice_band 512 (V main_v53 : Vec Ideal S4096x640 .f32) slices_S4096x640_S4096x128_0_512 _)
  stretch_results <;> rfl

theorem st14_v59 : toMat (StableHlo.after hostOps14 V main_v59 : Vec Ideal S4096x256 .f32)
    = cat2 (band (toMat (V main_v53 : Vec Ideal S4096x640 .f32)) 512 (by omega)) (band (toMat (V main_v53 : Vec Ideal S4096x640 .f32)) 384 (by omega)) := by
  have e : (StableHlo.after hostOps14 V main_v59 : Vec Ideal S4096x256 .f32)
      = concatenate S4096x256 1 [⟨S4096x128, extractStridedSlice S4096x128 ![0, 512] (V main_v53 : Vec Ideal S4096x640 .f32) slices_S4096x640_S4096x128_0_512⟩,
          ⟨S4096x128, extractStridedSlice S4096x128 ![0, 384] (V main_v53 : Vec Ideal S4096x640 .f32) slices_S4096x640_S4096x128_0_384⟩] concatenates_S4096x128_S4096x128_S4096x256_d1 := by
    stretch_results <;> rfl
  funext r q
  show (StableHlo.after hostOps14 V main_v59 : Vec Ideal S4096x256 .f32) (ix2 r q) = _
  rw [e, concat2_apply, slice_band 512 _ _ (by omega), slice_band 384 _ _ (by omega)]

theorem st14_v61 (q : Fin 256) : (StableHlo.after hostOps14 V main_v61 : Vec Ideal S1x256 .f32) (ix2 (0 : Fin 1) q) = (0 : EReal) := by
  have e : (StableHlo.after hostOps14 V main_v61 : Vec Ideal S1x256 .f32)
      = shapeCast S1x256 (broadcastInDim S256 ![] bcast_S_S256 (constant (F := Ideal) S_ .f32 0x00000000#32)) shapeCasts_S256_S1x256 := by
    stretch_results <;> rfl
  rw [e]; exact zeroRow_apply _ _ q

theorem st15_v63 : toMat (StableHlo.after hostOps15 V main_v63 : Vec Ideal S8192x128 .f32) = band (toMat (V main_v62 : Vec Ideal S8192x256 .f32)) 0 (by omega) := by
  refine (congrArg toMat ?_).trans (slice_band 0 (V main_v62 : Vec Ideal S8192x256 .f32) slices_S8192x256_S8192x128_0_0 _)
  stretch_results <;> rfl

theorem st15_v75 : toMat (StableHlo.after hostOps15 V main_v75 : Vec Ideal S8192x128 .f32) = smax (band (toMat (V main_v62 : Vec Ideal S8192x256 .f32)) 128 (by omega)) := by
  have e : (StableHlo.after hostOps15 V main_v75 : Vec Ideal S8192x128 .f32)
      = softmaxOps reducesTo_S8192x128_S8192_d1 h_S_ bcast_S_S8192 bcast_S8192_S8192x1_0 bcast_S8192x1_S8192x128_0_1
          (extractStridedSlice S8192x128 ![0, 128] (V main_v62 : Vec Ideal S8192x256 .f32) slices_S8192x256_S8192x128_0_128) := by
    stretch_results <;> rfl
  funext r q
  show (StableHlo.after hostOps15 V main_v75 : Vec Ideal S8192x128 .f32) (ix2 r q) = _
  rw [e, softmaxOps_apply, slice_band 128 _ _ (by omega)]

theorem st15_v77 (q : Fin 128) : (StableHlo.after hostOps15 V main_v77 : Vec Ideal S1x128 .f32) (ix2 (0 : Fin 1) q) = (0 : EReal) := by
  have e : (StableHlo.after hostOps15 V main_v77 : Vec Ideal S1x128 .f32)
      = shapeCast S1x128 (broadcastInDim S128 ![] bcast_S_S128 (constant (F := Ideal) S_ .f32 0x00000000#32)) shapeCasts_S128_S1x128 := by
    stretch_results <;> rfl
  rw [e]; exact zeroRow_apply _ _ q

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

theorem part_writes (l : List (HloOp τ sig (Elt Ideal))) (hl : ∀ op ∈ l, op ∈ (hostOps16 : List (HloOp τ sig (Elt Ideal)))) :
    l.Forall fun op => op.writes ⊆ (hostOps16_W.map (Proc.devRef (τ := τ) .tc)).toFinset :=
  List.forall_iff_forall_mem.2 fun op hop => List.forall_iff_forall_mem.1 hostOps16_writes op (hl op hop)

theorem ops16a_writes : (ops16a : List (HloOp τ sig (Elt Ideal))).Forall fun op => op.writes ⊆ (hostOps16_W.map (Proc.devRef (τ := τ) .tc)).toFinset :=
  part_writes _ fun op hop => by rw [hostOps16_split (F := Ideal)]; exact List.mem_append_left _ hop

theorem ops16b_writes : (ops16b : List (HloOp τ sig (Elt Ideal))).Forall fun op => op.writes ⊆ (hostOps16_W.map (Proc.devRef (τ := τ) .tc)).toFinset :=
  part_writes _ fun op hop => by rw [hostOps16_split (F := Ideal)]; exact List.mem_append_right _ (List.mem_append_left _ hop)

theorem ops16a_keep (r : Ref sig .tc) (h : r ∉ hostOps16_W) : StableHlo.after ops16a V r = V r :=
  StableHlo.after_of_writes_sub ops16a V ops16a_writes h

theorem ops16b_keep (r : Ref sig .tc) (h : r ∉ hostOps16_W) : StableHlo.after ops16b V r = V r :=
  StableHlo.after_of_writes_sub ops16b V ops16b_writes h

theorem st16a_v89 : (StableHlo.after ops16a V main_v89 : Vec Ideal S4096x128 .f32)
    = softmaxOps reducesTo_S4096x128_S4096_d1 h_S_ bcast_S_S4096 bcast_S4096_S4096x1_0 bcast_S4096x1_S4096x128_0_1 (V main_v78 : Vec Ideal S4096x128 .f32) := by
  stretch_results <;> rfl

theorem st16b_v93 : (StableHlo.after ops16b V main_v93 : Vec Ideal S8192x128 .f32)
    = Host.divf (addf (addf (V main_arg18 : Vec Ideal S8192x128 .f32) (V main_v49 : Vec Ideal S8192x128 .f32)) (V main_v75 : Vec Ideal S8192x128 .f32))
        (broadcastInDim S8192x128 ![] bcast_S_S8192x128 (constant (F := Ideal) S_ .f32 0x40400000#32)) := by
  stretch_results <;> rfl

theorem st16b_v97 : (StableHlo.after ops16b V main_v97 : Vec Ideal S4096x128 .f32)
    = Host.divf (addf (addf (V main_arg19 : Vec Ideal S4096x128 .f32) (V main_v57 : Vec Ideal S4096x128 .f32)) (V main_v89 : Vec Ideal S4096x128 .f32))
        (broadcastInDim S4096x128 ![] bcast_S_S4096x128 (constant (F := Ideal) S_ .f32 0x40400000#32)) := by
  stretch_results <;> rfl

theorem st16c_v100 : (StableHlo.after ops16c V main_v100 : Vec Ideal S12288x640 .f32)
    = concatenate S12288x640 0
        [⟨S8192x640, concatenate S8192x640 1
            [⟨S8192x128, (V main_v93 : Vec Ideal S8192x128 .f32)⟩, ⟨S8192x128, (V main_v63 : Vec Ideal S8192x128 .f32)⟩, ⟨S8192x128, (V main_v46 : Vec Ideal S8192x128 .f32)⟩,
             ⟨S8192x128, (V main_v47 : Vec Ideal S8192x128 .f32)⟩, ⟨S8192x128, (V main_v48 : Vec Ideal S8192x128 .f32)⟩]
            concatenates_S8192x128_S8192x128_S8192x128_S8192x128_S8192x128_S8192x640_d1⟩,
         ⟨S4096x640, concatenate S4096x640 1
            [⟨S4096x128, (V main_v97 : Vec Ideal S4096x128 .f32)⟩, ⟨S4096x128, (V main_v58 : Vec Ideal S4096x128 .f32)⟩, ⟨S4096x128, (V main_v54 : Vec Ideal S4096x128 .f32)⟩,
             ⟨S4096x128, (V main_v55 : Vec Ideal S4096x128 .f32)⟩, ⟨S4096x128, (V main_v56 : Vec Ideal S4096x128 .f32)⟩]
            concatenates_S4096x128_S4096x128_S4096x128_S4096x128_S4096x128_S4096x640_d1⟩]
        concatenates_S8192x640_S4096x640_S12288x640_d0 := by
  stretch_results <;> rfl

theorem st16c_apply (r : Fin 12288) (q : Fin 640) :
    (StableHlo.after ops16c V main_v100 : Vec Ideal S12288x640 .f32) (ix2 r q)
      = if hr : r.val < 8192 then
          cat5 (toMat (V main_v93 : Vec Ideal S8192x128 .f32)) (toMat (V main_v63 : Vec Ideal S8192x128 .f32)) (toMat (V main_v46 : Vec Ideal S8192x128 .f32))
            (toMat (V main_v47 : Vec Ideal S8192x128 .f32)) (toMat (V main_v48 : Vec Ideal S8192x128 .f32)) ⟨r.val, hr⟩ q
        else
          cat5 (toMat (V main_v97 : Vec Ideal S4096x128 .f32)) (toMat (V main_v58 : Vec Ideal S4096x128 .f32)) (toMat (V main_v54 : Vec Ideal S4096x128 .f32))
            (toMat (V main_v55 : Vec Ideal S4096x128 .f32)) (toMat (V main_v56 : Vec Ideal S4096x128 .f32)) ⟨r.val - 8192, by omega⟩ q := by
  rw [st16c_v100, concatRows_apply]
  by_cases hr : r.val < 8192
  · rw [dif_pos hr, dif_pos hr, concat5_apply]
  · rw [dif_neg hr, dif_neg hr, concat5_apply]

theorem st16b_m93 : toMat (StableHlo.after ops16b V main_v93 : Vec Ideal S8192x128 .f32)
    = avg3 (toMat (V main_arg18 : Vec Ideal S8192x128 .f32)) (toMat (V main_v49 : Vec Ideal S8192x128 .f32)) (toMat (V main_v75 : Vec Ideal S8192x128 .f32)) := by
  funext r q
  show (StableHlo.after ops16b V main_v93 : Vec Ideal S8192x128 .f32) (ix2 r q) = _
  rw [st16b_v93]; exact avg3_apply _ _ _ _ r q

theorem st16b_m97 : toMat (StableHlo.after ops16b V main_v97 : Vec Ideal S4096x128 .f32)
    = avg3 (toMat (V main_arg19 : Vec Ideal S4096x128 .f32)) (toMat (V main_v57 : Vec Ideal S4096x128 .f32)) (toMat (V main_v89 : Vec Ideal S4096x128 .f32)) := by
  funext r q
  show (StableHlo.after ops16b V main_v97 : Vec Ideal S4096x128 .f32) (ix2 r q) = _
  rw [st16b_v97]; exact avg3_apply _ _ _ _ r q

theorem st16a_m89 : toMat (StableHlo.after ops16a V main_v89 : Vec Ideal S4096x128 .f32) = smax (toMat (V main_v78 : Vec Ideal S4096x128 .f32)) := by
  funext r q
  show (StableHlo.after ops16a V main_v89 : Vec Ideal S4096x128 .f32) (ix2 r q) = _
  rw [st16a_v89]; exact softmaxOps_apply _ _ _ _ _ _ r q

theorem st16_v100 (r : Fin 12288) (q : Fin 640) :
    (StableHlo.after hostOps16 V main_v100 : Vec Ideal S12288x640 .f32) (ix2 r q)
      = if hr : r.val < 8192 then
          cat5 (avg3 (toMat (V main_arg18 : Vec Ideal S8192x128 .f32)) (toMat (V main_v49 : Vec Ideal S8192x128 .f32)) (toMat (V main_v75 : Vec Ideal S8192x128 .f32)))
            (toMat (V main_v63 : Vec Ideal S8192x128 .f32)) (toMat (V main_v46 : Vec Ideal S8192x128 .f32))
            (toMat (V main_v47 : Vec Ideal S8192x128 .f32)) (toMat (V main_v48 : Vec Ideal S8192x128 .f32)) ⟨r.val, hr⟩ q
        else
          cat5 (avg3 (toMat (V main_arg19 : Vec Ideal S4096x128 .f32)) (toMat (V main_v57 : Vec Ideal S4096x128 .f32)) (smax (toMat (V main_v78 : Vec Ideal S4096x128 .f32))))
            (toMat (V main_v58 : Vec Ideal S4096x128 .f32)) (toMat (V main_v54 : Vec Ideal S4096x128 .f32))
            (toMat (V main_v55 : Vec Ideal S4096x128 .f32)) (toMat (V main_v56 : Vec Ideal S4096x128 .f32)) ⟨r.val - 8192, by omega⟩ q := by
  have hs : StableHlo.after hostOps16 V = StableHlo.after ops16c (StableHlo.after ops16b (StableHlo.after ops16a V)) := by
    rw [hostOps16_split (F := Ideal), after_append, after_append]
  rw [hs, st16c_apply, st16b_m93, st16b_m97, st16a_m89]
  rw [ops16b_keep _ main_v63 (by decide), ops16b_keep _ main_v46 (by decide), ops16b_keep _ main_v47 (by decide), ops16b_keep _ main_v48 (by decide),
    ops16b_keep _ main_v58 (by decide), ops16b_keep _ main_v54 (by decide), ops16b_keep _ main_v55 (by decide), ops16b_keep _ main_v56 (by decide)]
  rw [ops16a_keep V main_arg18 (by decide), ops16a_keep V main_v49 (by decide), ops16a_keep V main_v75 (by decide), ops16a_keep V main_arg19 (by decide),
    ops16a_keep V main_v57 (by decide), ops16a_keep V main_v63 (by decide), ops16a_keep V main_v46 (by decide), ops16a_keep V main_v47 (by decide),
    ops16a_keep V main_v48 (by decide), ops16a_keep V main_v58 (by decide), ops16a_keep V main_v54 (by decide), ops16a_keep V main_v55 (by decide),
    ops16a_keep V main_v56 (by decide)]

end Stretches

section Chain

variable (m : (ℓ : Loc nD τ sig) → Buf (Elt Ideal) ℓ) (c : Dev nD)

abbrev AA : Cert.Spec.Args := Cert.KernelIdeal.specArgs m c
/-- An argument array is written by nothing before stage 25, so that stage reads it as at entry. -/

theorem W25_arg (r : Ref sig .tc) (hr : r = main_arg0 ∨ r = main_arg1 ∨ r = main_arg18 ∨ r = main_arg19) :
    W25 m c r = m ((c : Thread nD τ).loc r) := by
  rcases hr with rfl | rfl | rfl | rfl <;> exact
    (W25_of m c _ (by decide)).trans <| (W24_of_ne m c _ (by decide)).trans <| (W23_of m c _ (by decide)).trans <| (W22_of_ne m c _ (by decide)).trans <| (W21_of m c _ (by decide)).trans <| (W20_of_ne m c _ (by decide)).trans <| (W19_of m c _ (by decide)).trans <| (W18_of_ne m c _ (by decide)).trans <| (W17_of m c _ (by decide)).trans <| (W16_of_ne m c _ (by decide)).trans <| (W15_of m c _ (by decide)).trans <| (W14_of_ne m c _ (by decide)).trans <| (W13_of m c _ (by decide)).trans <| (W12_of_ne m c _ (by decide)).trans <| (W11_of m c _ (by decide)).trans <| (W10_of_ne m c _ (by decide)).trans <| (W9_of m c _ (by decide)).trans <| (W8_of_ne m c _ (by decide)).trans <| (W7_of m c _ (by decide)).trans <| (W6_of_ne m c _ (by decide)).trans <| (W5_of m c _ (by decide)).trans <| (W4_of_ne m c _ (by decide)).trans <| (W3_of m c _ (by decide)).trans <| (W2_of_ne m c _ (by decide)).trans <| (W1_of m c _ (by decide))

theorem W25_arg0 : W25 m c main_arg0 = m ((c : Thread nD τ).loc main_arg0) := W25_arg m c _ (.inl rfl)

theorem W29_arg0 : W29 m c main_arg0 = m ((c : Thread nD τ).loc main_arg0) :=
  (W29_of m c main_arg0 (by decide)).trans <| (W28_of_ne m c main_arg0 (by decide)).trans <| (W27_of m c main_arg0 (by decide)).trans <| (W26_of_ne m c main_arg0 (by decide)).trans <| W25_arg0 m c

theorem W27_arg1 : W27 m c main_arg1 = m ((c : Thread nD τ).loc main_arg1) :=
  (W27_of m c main_arg1 (by decide)).trans <| (W26_of_ne m c main_arg1 (by decide)).trans <| W25_arg m c _ (.inr (.inl rfl))

theorem W31_arg1 : W31 m c main_arg1 = m ((c : Thread nD τ).loc main_arg1) :=
  (W31_of m c main_arg1 (by decide)).trans <| (W30_of_ne m c main_arg1 (by decide)).trans <| (W29_of m c main_arg1 (by decide)).trans <| (W28_of_ne m c main_arg1 (by decide)).trans <| W27_arg1 m c

theorem W32_of_W27 (b : Ref sig .tc) (h1 : b ≠ main_v78) (h2 : b ∉ hostOps15_W) (h3 : b ≠ main_v62) (h4 : b ∉ hostOps14_W) (h5 : b ≠ main_v53) :
    W32 m c b = W27 m c b :=
  (W32_of_ne m c b h1).trans <| (W31_of m c b h2).trans <| (W30_of_ne m c b h3).trans <| (W29_of m c b h4).trans <| W28_of_ne m c b h5

theorem W32_arg18 : W32 m c main_arg18 = m ((c : Thread nD τ).loc main_arg18) :=
  (W32_of_W27 m c main_arg18 (by decide) (by decide) (by decide) (by decide) (by decide)).trans <| (W27_of m c main_arg18 (by decide)).trans <|
    (W26_of_ne m c main_arg18 (by decide)).trans <| W25_arg m c _ (.inr (.inr (.inl rfl)))

theorem W32_arg19 : W32 m c main_arg19 = m ((c : Thread nD τ).loc main_arg19) :=
  (W32_of_W27 m c main_arg19 (by decide) (by decide) (by decide) (by decide) (by decide)).trans <| (W27_of m c main_arg19 (by decide)).trans <|
    (W26_of_ne m c main_arg19 (by decide)).trans <| W25_arg m c _ (.inr (.inr (.inr rfl)))

theorem k_ui25 : toMat (W25 m c main_arg0 : Vec Ideal S8192x4096 .f32) = (AA m c).ui := congrArg toMat (W25_arg0 m c)

theorem k_ui29 : toMat (W29 m c main_arg0 : Vec Ideal S8192x4096 .f32) = (AA m c).ui := congrArg toMat (W29_arg0 m c)

theorem k_iu27 : toMat (W27 m c main_arg1 : Vec Ideal S4096x8192 .f32) = (AA m c).iu := congrArg toMat (W27_arg1 m c)

theorem k_iu31 : toMat (W31 m c main_arg1 : Vec Ideal S4096x8192 .f32) = (AA m c).iu := congrArg toMat (W31_arg1 m c)

theorem k_uEmb32 : toMat (W32 m c main_arg18 : Vec Ideal S8192x128 .f32) = (AA m c).uEmb := congrArg toMat (W32_arg18 m c)

theorem k_iEmb32 : toMat (W32 m c main_arg19 : Vec Ideal S4096x128 .f32) = (AA m c).iEmb := congrArg toMat (W32_arg19 m c)

theorem W26_v5 : W26 m c main_v5 = W6 m c main_v5 :=
  (W26_of_ne m c main_v5 (by decide)).trans <| (W25_of m c main_v5 (by decide)).trans <| (W24_of_ne m c main_v5 (by decide)).trans <| (W23_of m c main_v5 (by decide)).trans <| (W22_of_ne m c main_v5 (by decide)).trans <| (W21_of m c main_v5 (by decide)).trans <| (W20_of_ne m c main_v5 (by decide)).trans <| (W19_of m c main_v5 (by decide)).trans <| (W18_of_ne m c main_v5 (by decide)).trans <| (W17_of m c main_v5 (by decide)).trans <| (W16_of_ne m c main_v5 (by decide)).trans <| (W15_of m c main_v5 (by decide)).trans <| (W14_of_ne m c main_v5 (by decide)).trans <| (W13_of m c main_v5 (by decide)).trans <| (W12_of_ne m c main_v5 (by decide)).trans <| (W11_of m c main_v5 (by decide)).trans <| (W10_of_ne m c main_v5 (by decide)).trans <| (W9_of m c main_v5 (by decide)).trans <| (W8_of_ne m c main_v5 (by decide)).trans <| (W7_of m c main_v5 (by decide))

theorem W32_of_W29 (b : Ref sig .tc) (h1 : b ≠ main_v78) (h2 : b ∉ hostOps15_W) (h3 : b ≠ main_v62) : W32 m c b = W29 m c b :=
  (W32_of_ne m c b h1).trans <| (W31_of m c b h2).trans <| W30_of_ne m c b h3

theorem k_o12 : toMat (rvO_12 m c) = mm (AA m c).ui (cat4 (AA m c).imgF (AA m c).txtF (AA m c).ttl (AA m c).iEmb) := by
  funext r q
  show rvO_12 m c (ix2 r q) = _
  rw [regval12]
  have hb : rvC_12 m c (ix2 (0 : Fin 1) q) = (0 : EReal) := k_zeroA m c q
  rw [hb, add_zero]
  unfold mm
  refine Finset.sum_congr rfl fun k _ => ?_
  exact congrArg₂ (· * ·) (congrFun (congrFun (k_ui25 m c) r) k) ((k_rhsA m c k q).trans rfl)

theorem k_v50 : toMat (W27 m c main_v50 : Vec Ideal S8192x640 .f32)
    = cat5 (AA m c).imageUser (AA m c).textUser (AA m c).titleUser (AA m c).u1 (AA m c).usr := by
  refine (st13_v50 (W26 m c)).trans ?_
  have hu : toMat (W26 m c main_v5 : Vec Ideal S8192x128 .f32) = (AA m c).usr := (congrArg toMat (W26_v5 m c)).trans (k_usr m c)
  rw [hu, show toMat (W26 m c main_v45 : Vec Ideal S8192x512 .f32) = _ from k_o12 m c, mm_cat4_b0, mm_cat4_b1, mm_cat4_b2, mm_cat4_b3]
  rfl

theorem k_o13 : toMat (rvO_13 m c)
    = mm (AA m c).iu (cat5 (AA m c).imageUser (AA m c).textUser (AA m c).titleUser (AA m c).u1 (AA m c).usr) := by
  funext r q
  show rvO_13 m c (ix2 r q) = _
  rw [regval13]
  have hb : rvC_13 m c (ix2 (0 : Fin 1) q) = (0 : EReal) := st13_v52 (W26 m c) q
  rw [hb, add_zero]
  unfold mm
  refine Finset.sum_congr rfl fun k _ => ?_
  exact congrArg₂ (· * ·) (congrFun (congrFun (k_iu27 m c) r) k) (congrFun (congrFun (k_v50 m c) k) q)

theorem k_v59 : toMat (W29 m c main_v59 : Vec Ideal S4096x256 .f32) = cat2 (AA m c).itemProf (AA m c).i1 := by
  refine (st14_v59 (W28 m c)).trans ?_
  rw [show toMat (W28 m c main_v53 : Vec Ideal S4096x640 .f32) = _ from k_o13 m c, mm_cat5_b4, mm_cat5_b3]
  rfl

theorem k_o14 : toMat (rvO_14 m c) = mm (AA m c).ui (cat2 (AA m c).itemProf (AA m c).i1) := by
  funext r q
  show rvO_14 m c (ix2 r q) = _
  rw [regval14]
  have hb : rvC_14 m c (ix2 (0 : Fin 1) q) = (0 : EReal) := st14_v61 (W28 m c) q
  rw [hb, add_zero]
  unfold mm
  refine Finset.sum_congr rfl fun k _ => ?_
  exact congrArg₂ (· * ·) (congrFun (congrFun (k_ui29 m c) r) k) (congrFun (congrFun (k_v59 m c) k) q)

theorem k_v75 : toMat (W31 m c main_v75 : Vec Ideal S8192x128 .f32) = (AA m c).u2 := by
  refine (st15_v75 (W30 m c)).trans ?_
  rw [show toMat (W30 m c main_v62 : Vec Ideal S8192x256 .f32) = _ from k_o14 m c, mm_cat2_b1]
  rfl

theorem k_o15 : toMat (rvO_15 m c) = mm (AA m c).iu (AA m c).u2 := by
  funext r q
  show rvO_15 m c (ix2 r q) = _
  rw [regval15]
  have hb : rvC_15 m c (ix2 (0 : Fin 1) q) = (0 : EReal) := st15_v77 (W30 m c) q
  rw [hb, add_zero]
  unfold mm
  refine Finset.sum_congr rfl fun k _ => ?_
  exact congrArg₂ (· * ·) (congrFun (congrFun (k_iu31 m c) r) k) (congrFun (congrFun (k_v75 m c) k) q)

theorem k32_v49 : toMat (W32 m c main_v49 : Vec Ideal S8192x128 .f32) = (AA m c).u1 :=
  (congrArg toMat (W32_of_W27 m c main_v49 (by decide) (by decide) (by decide) (by decide) (by decide))).trans <|
    (st13_v49 (W26 m c)).trans <| (congrArg (fun X => band X 384 (by omega)) (k_o12 m c)).trans <| mm_cat4_b3 _ _ _ _ _

theorem k32_v46 : toMat (W32 m c main_v46 : Vec Ideal S8192x128 .f32) = (AA m c).imageUser :=
  (congrArg toMat (W32_of_W27 m c main_v46 (by decide) (by decide) (by decide) (by decide) (by decide))).trans <|
    (st13_v46 (W26 m c)).trans <| (congrArg (fun X => band X 0 (by omega)) (k_o12 m c)).trans <| mm_cat4_b0 _ _ _ _ _

theorem k32_v47 : toMat (W32 m c main_v47 : Vec Ideal S8192x128 .f32) = (AA m c).textUser :=
  (congrArg toMat (W32_of_W27 m c main_v47 (by decide) (by decide) (by decide) (by decide) (by decide))).trans <|
    (st13_v47 (W26 m c)).trans <| (congrArg (fun X => band X 128 (by omega)) (k_o12 m c)).trans <| mm_cat4_b1 _ _ _ _ _

theorem k32_v48 : toMat (W32 m c main_v48 : Vec Ideal S8192x128 .f32) = (AA m c).titleUser :=
  (congrArg toMat (W32_of_W27 m c main_v48 (by decide) (by decide) (by decide) (by decide) (by decide))).trans <|
    (st13_v48 (W26 m c)).trans <| (congrArg (fun X => band X 256 (by omega)) (k_o12 m c)).trans <| mm_cat4_b2 _ _ _ _ _

theorem k32_v54 : toMat (W32 m c main_v54 : Vec Ideal S4096x128 .f32) = (AA m c).imageItem :=
  (congrArg toMat (W32_of_W29 m c main_v54 (by decide) (by decide) (by decide))).trans <|
    (st14_v54 (W28 m c)).trans <| (congrArg (fun X => band X 0 (by omega)) (k_o13 m c)).trans <| mm_cat5_b0 _ _ _ _ _ _

theorem k32_v55 : toMat (W32 m c main_v55 : Vec Ideal S4096x128 .f32) = (AA m c).textItem :=
  (congrArg toMat (W32_of_W29 m c main_v55 (by decide) (by decide) (by decide))).trans <|
    (st14_v55 (W28 m c)).trans <| (congrArg (fun X => band X 128 (by omega)) (k_o13 m c)).trans <| mm_cat5_b1 _ _ _ _ _ _

theorem k32_v56 : toMat (W32 m c main_v56 : Vec Ideal S4096x128 .f32) = (AA m c).titleItem :=
  (congrArg toMat (W32_of_W29 m c main_v56 (by decide) (by decide) (by decide))).trans <|
    (st14_v56 (W28 m c)).trans <| (congrArg (fun X => band X 256 (by omega)) (k_o13 m c)).trans <| mm_cat5_b2 _ _ _ _ _ _

theorem k32_v57 : toMat (W32 m c main_v57 : Vec Ideal S4096x128 .f32) = (AA m c).i1 :=
  (congrArg toMat (W32_of_W29 m c main_v57 (by decide) (by decide) (by decide))).trans <|
    (st14_v57 (W28 m c)).trans <| (congrArg (fun X => band X 384 (by omega)) (k_o13 m c)).trans <| mm_cat5_b3 _ _ _ _ _ _

theorem k32_v58 : toMat (W32 m c main_v58 : Vec Ideal S4096x128 .f32) = (AA m c).itemProf :=
  (congrArg toMat (W32_of_W29 m c main_v58 (by decide) (by decide) (by decide))).trans <|
    (st14_v58 (W28 m c)).trans <| (congrArg (fun X => band X 512 (by omega)) (k_o13 m c)).trans <| mm_cat5_b4 _ _ _ _ _ _

theorem k32_v63 : toMat (W32 m c main_v63 : Vec Ideal S8192x128 .f32) = (AA m c).userProf :=
  (congrArg toMat (W32_of_ne m c main_v63 (by decide))).trans <|
    (st15_v63 (W30 m c)).trans <| (congrArg (fun X => band X 0 (by omega)) (k_o14 m c)).trans <| mm_cat2_b0 _ _ _

theorem k32_v75 : toMat (W32 m c main_v75 : Vec Ideal S8192x128 .f32) = (AA m c).u2 :=
  (congrArg toMat (W32_of_ne m c main_v75 (by decide))).trans (k_v75 m c)

theorem result_apply (r : Fin 12288) (q : Fin 640) :
    (W33 m c main_v100 : Vec Ideal S12288x640 .f32) (ix2 r q) = (AA m c).result r q := by
  refine (st16_v100 (W32 m c) r q).trans ?_
  rw [k_uEmb32, k32_v49, k32_v75, k32_v63, k32_v46, k32_v47, k32_v48, k_iEmb32, k32_v57,
    show toMat (W32 m c main_v78 : Vec Ideal S4096x128 .f32) = _ from k_o15 m c, k32_v58, k32_v54, k32_v55, k32_v56]
  rfl

end Chain

end Graph

section Result

variable (m : (ℓ : Loc nD τ sig) → Buf (Elt Ideal) ℓ) (c : Dev nD)

abbrev resK : Vec Ideal S12288x640 .f32 := W33 m c main_v100

theorem kernel_result (r : Fin 12288) (q : Fin 640) :
    resK m c (ValueIdx.ix2 r q) = (Cert.KernelIdeal.specArgs m c).result r q :=
  Graph.result_apply m c r q

end Result

end Cert.KernelIdeal.Gen
end
-- ==== Proof.Ref.Args.lean ====
import proofs.«103213_j15710990369585_1_alg».proof.ReferenceIdeal
import proofs.«103213_j15710990369585_1_alg».proof.Proof.Spec

noncomputable section

namespace Cert.ReferenceIdeal

open Idealize.ShloMosaic Idealize.ShloMosaic.TcCoe Idealize.SL.Sem

def specArgs (m : (ℓ : Loc nD τ sig) → Buf (Elt Ideal) ℓ) (c : Dev nD) : Cert.Spec.Args where
  ui := Cert.Spec.toMat (m ((c.tc : Thread nD τ).loc main_arg0))
  iu := Cert.Spec.toMat (m ((c.tc : Thread nD τ).loc main_arg1))
  imf := Cert.Spec.toMat (m ((c.tc : Thread nD τ).loc main_arg6))
  txf := Cert.Spec.toMat (m ((c.tc : Thread nD τ).loc main_arg7))
  usf := Cert.Spec.toMat (m ((c.tc : Thread nD τ).loc main_arg8))
  ttf := Cert.Spec.toMat (m ((c.tc : Thread nD τ).loc main_arg9))
  wImg := Cert.Spec.toMat (m ((c.tc : Thread nD τ).loc main_arg10))
  bImg := Cert.Spec.toRow (m ((c.tc : Thread nD τ).loc main_arg11))
  wTxt := Cert.Spec.toMat (m ((c.tc : Thread nD τ).loc main_arg12))
  bTxt := Cert.Spec.toRow (m ((c.tc : Thread nD τ).loc main_arg13))
  wUsr := Cert.Spec.toMat (m ((c.tc : Thread nD τ).loc main_arg14))
  bUsr := Cert.Spec.toRow (m ((c.tc : Thread nD τ).loc main_arg15))
  wTtl := Cert.Spec.toMat (m ((c.tc : Thread nD τ).loc main_arg16))
  bTtl := Cert.Spec.toRow (m ((c.tc : Thread nD τ).loc main_arg17))
  uEmb := Cert.Spec.toMat (m ((c.tc : Thread nD τ).loc main_arg18))
  iEmb := Cert.Spec.toMat (m ((c.tc : Thread nD τ).loc main_arg19))
  aiw1 := Cert.Spec.toMat (m ((c.tc : Thread nD τ).loc main_arg20))
  aib1 := Cert.Spec.toRow (m ((c.tc : Thread nD τ).loc main_arg21))
  aiw2 := Cert.Spec.toMat (m ((c.tc : Thread nD τ).loc main_arg22))
  aib2 := Cert.Spec.toRow (m ((c.tc : Thread nD τ).loc main_arg23))
  atw1 := Cert.Spec.toMat (m ((c.tc : Thread nD τ).loc main_arg24))
  atb1 := Cert.Spec.toRow (m ((c.tc : Thread nD τ).loc main_arg25))
  atw2 := Cert.Spec.toMat (m ((c.tc : Thread nD τ).loc main_arg26))
  atb2 := Cert.Spec.toRow (m ((c.tc : Thread nD τ).loc main_arg27))
  fiw1 := Cert.Spec.toMat (m ((c.tc : Thread nD τ).loc main_arg28))
  fib1 := Cert.Spec.toRow (m ((c.tc : Thread nD τ).loc main_arg29))
  fiw2 := Cert.Spec.toMat (m ((c.tc : Thread nD τ).loc main_arg30))
  fib2 := Cert.Spec.toRow (m ((c.tc : Thread nD τ).loc main_arg31))
  efw1 := Cert.Spec.toMat (m ((c.tc : Thread nD τ).loc main_arg32))
  efb1 := Cert.Spec.toRow (m ((c.tc : Thread nD τ).loc main_arg33))
  efw2 := Cert.Spec.toMat (m ((c.tc : Thread nD τ).loc main_arg34))
  efb2 := Cert.Spec.toRow (m ((c.tc : Thread nD τ).loc main_arg35))

end Cert.ReferenceIdeal

end
-- ==== Proof.Ref.Mlp.lean ====
import proofs.«103213_j15710990369585_1_alg».proof.Proof.RefR.Read
import proofs.«103213_j15710990369585_1_alg».proof.Proof.Ref.Args
import Idealize.ShloMosaic.Lib.ValueIdx
import Idealize.ShloMosaic.Lib.Pipeline.Value
import Idealize.ShloMosaic.Lib.IdealHost
import Idealize.ShloMosaic.Lib.StackMember
import Idealize.ShloMosaic.PureOps.Ideal.Laws

noncomputable section

namespace Cert.ReferenceIdeal.RefValue

open Cert.ReferenceIdeal Cert.ReferenceIdeal.Read Idealize.ShloMosaic Idealize.ShloMosaic.TcCoe Idealize.SL.Sem

variable (m : (ℓ : Loc nD τ sig) → Buf (Elt Ideal) ℓ) (c : Dev nD)

local notation "X" n:max => m (Thread.loc (c.tc : Thread nD τ) n)

local notation "V3" => val_main_v3 (F := Ideal) (X main_arg6) (X main_arg10) (X main_arg11)
local notation "V7" => val_main_v7 (F := Ideal) (X main_arg7) (X main_arg12) (X main_arg13)
local notation "V11" => val_main_v11 (F := Ideal) (X main_arg8) (X main_arg14) (X main_arg15)
local notation "V15" => val_main_v15 (F := Ideal) (X main_arg9) (X main_arg16) (X main_arg17)
local notation "V20" => val_main_v20 (F := Ideal) (X main_arg6) (X main_arg10) (X main_arg11) (X main_arg20) (X main_arg21)
local notation "V30" => val_main_v30 (F := Ideal) (X main_arg6) (X main_arg10) (X main_arg11) (X main_arg20) (X main_arg21) (X main_arg22) (X main_arg23)
local notation "V32" => val_main_v32 (F := Ideal) (X main_arg6) (X main_arg10) (X main_arg11) (X main_arg20) (X main_arg21) (X main_arg22) (X main_arg23)
local notation "V37" => val_main_v37 (F := Ideal) (X main_arg7) (X main_arg12) (X main_arg13) (X main_arg24) (X main_arg25)
local notation "V47" => val_main_v47 (F := Ideal) (X main_arg7) (X main_arg12) (X main_arg13) (X main_arg24) (X main_arg25) (X main_arg26) (X main_arg27)
local notation "V49" => val_main_v49 (F := Ideal) (X main_arg7) (X main_arg12) (X main_arg13) (X main_arg24) (X main_arg25) (X main_arg26) (X main_arg27)
local notation "V50" => val_main_v50 (F := Ideal) (X main_arg6) (X main_arg7) (X main_arg10) (X main_arg11) (X main_arg12) (X main_arg13) (X main_arg20) (X main_arg21) (X main_arg22) (X main_arg23) (X main_arg24) (X main_arg25) (X main_arg26) (X main_arg27)

local macro "idx1" : tactic =>
  `(tactic| exact funext fun a => Fin.ext (by match a with | ⟨0, _⟩ => rfl))

theorem toMat_at {R C : Nat} (x : (⟨2, ![R, C]⟩ : Shape).Idx → EReal) (M : Cert.Spec.Mat R C)
    (h : Cert.Spec.toMat x = M) (r : Fin R) (q : Fin C) : x (ValueIdx.ix2 r q) = M r q :=
  congrFun (congrFun h r) q

/-- A product of an R×K by a K×C array, at (r, q), is the matrix product's entry. -/
theorem dot_mm {R K C : Nat} (d : DotDims ⟨2, ![R, K]⟩ ⟨2, ![K, C]⟩ ⟨2, ![R, C]⟩) (hd : d = DotDims.plain R K C)
    (A : FVec Ideal ⟨2, ![R, K]⟩ .f32) (B : FVec Ideal ⟨2, ![K, C]⟩ .f32) (r : Fin R) (q : Fin C) :
    Host.dotGeneral d none A B (ValueIdx.ix2 r q) = Cert.Spec.mm (Cert.Spec.toMat A) (Cert.Spec.toMat B) r q := by
  subst hd
  exact StackMember.dotGeneral_plain_apply none A B r q

theorem bias2 (x11 : (⟨S128, .f32⟩ : BufTy).Contents (Elt Ideal)) (r : Fin 4096) (q : Fin 128) :
    val_main_v2 (F := Ideal) x11 (ValueIdx.ix2 r q) = Cert.Spec.toRow x11 q := by
  rw [val_main_v2_apply, val_main_v1_apply,
    show idx_main_v1 (idx_main_v2 (ValueIdx.ix2 r q)) = ValueIdx.ix1 q by idx1]
  rfl

theorem bias6 (x13 : (⟨S128, .f32⟩ : BufTy).Contents (Elt Ideal)) (r : Fin 4096) (q : Fin 128) :
    val_main_v6 (F := Ideal) x13 (ValueIdx.ix2 r q) = Cert.Spec.toRow x13 q := by
  rw [val_main_v6_apply, val_main_v5_apply,
    show idx_main_v5 (idx_main_v6 (ValueIdx.ix2 r q)) = ValueIdx.ix1 q by idx1]
  rfl

theorem bias10 (x15 : (⟨S128, .f32⟩ : BufTy).Contents (Elt Ideal)) (r : Fin 8192) (q : Fin 128) :
    val_main_v10 (F := Ideal) x15 (ValueIdx.ix2 r q) = Cert.Spec.toRow x15 q := by
  rw [val_main_v10_apply, val_main_v9_apply,
    show idx_main_v9 (idx_main_v10 (ValueIdx.ix2 r q)) = ValueIdx.ix1 q by idx1]
  rfl

section
variable (x17 : (⟨S128, .f32⟩ : BufTy).Contents (Elt Ideal))
theorem bias14 (r : Fin 4096) (q : Fin 128) :
    val_main_v14 (F := Ideal) x17 (ValueIdx.ix2 r q) = Cert.Spec.toRow x17 q := by
  rw [val_main_v14_apply, val_main_v13_apply,
    show idx_main_v13 (idx_main_v14 (ValueIdx.ix2 r q)) = ValueIdx.ix1 q by idx1]
  rfl
end

theorem bias18 (x21 : (⟨S64, .f32⟩ : BufTy).Contents (Elt Ideal)) (r : Fin 4096) (q : Fin 64) :
    val_main_v18 (F := Ideal) x21 (ValueIdx.ix2 r q) = Cert.Spec.toRow x21 q := by
  rw [val_main_v18_apply, val_main_v17_apply,
    show idx_main_v17 (idx_main_v18 (ValueIdx.ix2 r q)) = ValueIdx.ix1 q by idx1]
  rfl

theorem bias23 (x23 : (⟨S1, .f32⟩ : BufTy).Contents (Elt Ideal)) (r : Fin 4096) :
    val_main_v23 (F := Ideal) x23 (ValueIdx.ix2 r (0 : Fin 1)) = Cert.Spec.toRow x23 0 := by
  rw [val_main_v23_apply, val_main_v22_apply,
    show idx_main_v22 (idx_main_v23 (ValueIdx.ix2 r (0 : Fin 1))) = ValueIdx.ix1 0 by idx1]
  rfl

theorem bias35 (x25 : (⟨S64, .f32⟩ : BufTy).Contents (Elt Ideal)) (r : Fin 4096) (q : Fin 64) :
    val_main_v35 (F := Ideal) x25 (ValueIdx.ix2 r q) = Cert.Spec.toRow x25 q := by
  rw [val_main_v35_apply, val_main_v34_apply,
    show idx_main_v34 (idx_main_v35 (ValueIdx.ix2 r q)) = ValueIdx.ix1 q by idx1]
  rfl

theorem bias40 (x27 : (⟨S1, .f32⟩ : BufTy).Contents (Elt Ideal)) (r : Fin 4096) :
    val_main_v40 (F := Ideal) x27 (ValueIdx.ix2 r (0 : Fin 1)) = Cert.Spec.toRow x27 0 := by
  rw [val_main_v40_apply, val_main_v39_apply,
    show idx_main_v39 (idx_main_v40 (ValueIdx.ix2 r (0 : Fin 1))) = ValueIdx.ix1 0 by idx1]
  rfl

theorem zero_call0 (i : S4096x64.Idx) : val_main_call0_v0 (F := Ideal) i = (0 : EReal) := by
  rw [val_main_call0_v0_apply, val_main_call0_cst_apply, Ideal.ofBits_def, Ideal.ofBits_zero_f32]
theorem zero_call1 (i : S4096x64.Idx) : val_main_call1_v0 (F := Ideal) i = (0 : EReal) := by
  rw [val_main_call1_v0_apply, val_main_call1_cst_apply, Ideal.ofBits_def, Ideal.ofBits_zero_f32]
theorem one27 (i : S4096x1.Idx) : val_main_v27 (F := Ideal) i = (1 : EReal) := by
  rw [val_main_v27_apply, val_main_cst_apply, Ideal.ofBits_def, Ideal.ofBits_one_f32]
theorem one29 (i : S4096x1.Idx) : val_main_v29 (F := Ideal) i = (1 : EReal) := by
  rw [val_main_v29_apply, val_main_cst_0_apply, Ideal.ofBits_def, Ideal.ofBits_one_f32]
theorem one44 (i : S4096x1.Idx) : val_main_v44 (F := Ideal) i = (1 : EReal) := by
  rw [val_main_v44_apply, val_main_cst_1_apply, Ideal.ofBits_def, Ideal.ofBits_one_f32]
theorem one46 (i : S4096x1.Idx) : val_main_v46 (F := Ideal) i = (1 : EReal) := by
  rw [val_main_v46_apply, val_main_cst_2_apply, Ideal.ofBits_def, Ideal.ofBits_one_f32]

theorem cat_eq (x₁ x₂ : (⟨S4096x128, .f32⟩ : BufTy).Contents (Elt Ideal)) (h : Shape.Concatenates [S4096x128, S4096x128] S4096x256 1) :
    Cert.Spec.toMat (concatenate S4096x256 1 [⟨S4096x128, x₁⟩, ⟨S4096x128, x₂⟩] h)
      = Cert.Spec.cat2 (Cert.Spec.toMat x₁) (Cert.Spec.toMat x₂) := by
  funext r q
  have hlt : q.val < 256 := q.isLt
  by_cases hq : q.val < 128
  · simp only [Cert.Spec.cat2, dif_pos hq]
    exact concatenate_pair_apply_left (1 : Fin S4096x256.rank) x₁ x₂ h (ValueIdx.ix2 r q) rfl
      (ValueIdx.ix2 r ⟨q.val, hq⟩) (fun b => by match b with | ⟨0, _⟩ => rfl | ⟨1, _⟩ => rfl)
  · simp only [Cert.Spec.cat2, dif_neg hq]
    exact concatenate_pair_apply_right (1 : Fin S4096x256.rank) x₁ x₂ h (ValueIdx.ix2 r q) rfl rfl
      (ValueIdx.ix2 r ⟨q.val - 128, by omega⟩)
      (fun b hb => by match b, hb with | ⟨0, _⟩, _ => rfl | ⟨1, _⟩, hb => exact absurd rfl hb)
      (by show q.val - 128 + 128 = q.val; omega)

theorem img_eq : Cert.Spec.toMat V3 = (specArgs m c).img := by
  funext r q
  show V3 (ValueIdx.ix2 r q) = _
  rw [val_main_v3_apply, bias2]
  unfold val_main_v0
  rw [dot_mm]
  · rfl
  · rfl

theorem txt_eq : Cert.Spec.toMat V7 = (specArgs m c).txt := by
  funext r q
  show V7 (ValueIdx.ix2 r q) = _
  rw [val_main_v7_apply, bias6]
  unfold val_main_v4
  rw [dot_mm]
  · rfl
  · rfl

theorem usr_eq : Cert.Spec.toMat V11 = (specArgs m c).usr := by
  funext r q
  show V11 (ValueIdx.ix2 r q) = _
  rw [val_main_v11_apply, bias10]
  unfold val_main_v8
  rw [dot_mm]
  · rfl
  · rfl

theorem ttl_eq : Cert.Spec.toMat V15 = (specArgs m c).ttl := by
  funext r q
  show V15 (ValueIdx.ix2 r q) = _
  rw [val_main_v15_apply, bias14]
  unfold val_main_v12
  rw [dot_mm]
  · rfl
  · rfl

theorem hImg_eq : Cert.Spec.toMat V20 = (specArgs m c).hImg := by
  funext r q
  show V20 (ValueIdx.ix2 r q) = _
  rw [val_main_v20_apply, val_main_v19_apply, bias18, zero_call0]
  unfold val_main_v16
  rw [dot_mm, img_eq m c]
  · rfl
  · rfl

theorem aImg_eq : Cert.Spec.toMat V30 = (specArgs m c).aImg := by
  funext r q
  have hq : q = 0 := Fin.eq_zero q
  subst hq
  show V30 (ValueIdx.ix2 r (0 : Fin 1)) = _
  rw [val_main_v30_apply, one29, val_main_v28_apply, one27, val_main_v26_apply, val_main_v25_apply,
    val_main_v24_apply, bias23]
  unfold val_main_v21
  rw [dot_mm, hImg_eq m c]
  · rfl
  · rfl

theorem eImg_eq : Cert.Spec.toMat V32 = (specArgs m c).eImg := by
  funext r q
  show V32 (ValueIdx.ix2 r q) = _
  rw [val_main_v32_apply, val_main_v31_apply,
    show idx_main_v31 (ValueIdx.ix2 r q) = ValueIdx.ix2 r (0 : Fin 1) from Shape.idx_ext₂ rfl rfl,
    toMat_at _ _ (img_eq m c) r q, toMat_at _ _ (aImg_eq m c) r 0]
  rfl

theorem hTxt_eq : Cert.Spec.toMat V37 = (specArgs m c).hTxt := by
  funext r q
  show V37 (ValueIdx.ix2 r q) = _
  rw [val_main_v37_apply, val_main_v36_apply, bias35, zero_call1]
  unfold val_main_v33
  rw [dot_mm, txt_eq m c]
  · rfl
  · rfl

theorem aTxt_eq : Cert.Spec.toMat V47 = (specArgs m c).aTxt := by
  funext r q
  have hq : q = 0 := Fin.eq_zero q
  subst hq
  show V47 (ValueIdx.ix2 r (0 : Fin 1)) = _
  rw [val_main_v47_apply, one46, val_main_v45_apply, one44, val_main_v43_apply, val_main_v42_apply,
    val_main_v41_apply, bias40]
  unfold val_main_v38
  rw [dot_mm, hTxt_eq m c]
  · rfl
  · rfl

theorem eTxt_eq : Cert.Spec.toMat V49 = (specArgs m c).eTxt := by
  funext r q
  show V49 (ValueIdx.ix2 r q) = _
  rw [val_main_v49_apply, val_main_v48_apply,
    show idx_main_v48 (ValueIdx.ix2 r q) = ValueIdx.ix2 r (0 : Fin 1) from Shape.idx_ext₂ rfl rfl,
    toMat_at _ _ (txt_eq m c) r q, toMat_at _ _ (aTxt_eq m c) r 0]
  rfl

theorem cat50_eq : Cert.Spec.toMat V50 = Cert.Spec.cat2 (specArgs m c).eImg (specArgs m c).eTxt := by
  unfold val_main_v50
  rw [cat_eq, eImg_eq m c, eTxt_eq m c]

end Cert.ReferenceIdeal.RefValue

end
-- ==== Proof.Ref.Mlp2.lean ====
import proofs.«103213_j15710990369585_1_alg».proof.Proof.Ref.Mlp
import proofs.«103213_j15710990369585_1_alg».proof.Proof.RefR.Read
import proofs.«103213_j15710990369585_1_alg».proof.Proof.Ref.Args
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RefValue

open Cert.ReferenceIdeal Cert.ReferenceIdeal.Read Idealize.ShloMosaic Idealize.ShloMosaic.TcCoe Idealize.SL.Sem

variable (m : (ℓ : Loc nD τ sig) → Buf (Elt Ideal) ℓ) (c : Dev nD)

local notation "X" n:max => m (Thread.loc (c.tc : Thread nD τ) n)

local notation "V55" => val_main_v55 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29)
local notation "V59" => val_main_v59 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29) (X main_arg30) (X main_arg31)
local notation "V62" => val_main_v62 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29) (X main_arg30) (X main_arg31)
local notation "V65" => val_main_v65 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29) (X main_arg30) (X main_arg31)
local notation "V66" => val_main_v66 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29) (X main_arg30) (X main_arg31)
local notation "V71" => val_main_v71 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29) (X main_arg30) (X main_arg31) (X main_arg32) (X main_arg33)
local notation "V75" => val_main_v75 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29) (X main_arg30) (X main_arg31) (X main_arg32) (X main_arg33) (X main_arg34) (X main_arg35)
local notation "V78" => val_main_v78 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29) (X main_arg30) (X main_arg31) (X main_arg32) (X main_arg33) (X main_arg34) (X main_arg35)
local notation "V81" => val_main_v81 (F := Ideal) (X main_arg6) (X main_arg7) (X main_arg10) (X main_arg11) (X main_arg12) (X main_arg13) (X main_arg20) (X main_arg21) (X main_arg22) (X main_arg23) (X main_arg24) (X main_arg25) (X main_arg26) (X main_arg27) (X main_arg28) (X main_arg29) (X main_arg30) (X main_arg31) (X main_arg32) (X main_arg33) (X main_arg34) (X main_arg35)

local macro "idx1" : tactic =>
  `(tactic| exact funext fun a => Fin.ext (by match a with | ⟨0, _⟩ => rfl))

theorem bias53 (x29 : (⟨S128, .f32⟩ : BufTy).Contents (Elt Ideal)) (r : Fin 4096) (q : Fin 128) :
    val_main_v53 (F := Ideal) x29 (ValueIdx.ix2 r q) = Cert.Spec.toRow x29 q := by
  rw [val_main_v53_apply, val_main_v52_apply,
    show idx_main_v52 (idx_main_v53 (ValueIdx.ix2 r q)) = ValueIdx.ix1 q by idx1]
  rfl

theorem bias58 (x31 : (⟨S128, .f32⟩ : BufTy).Contents (Elt Ideal)) (r : Fin 4096) (q : Fin 128) :
    val_main_v58 (F := Ideal) x31 (ValueIdx.ix2 r q) = Cert.Spec.toRow x31 q := by
  rw [val_main_v58_apply, val_main_v57_apply,
    show idx_main_v57 (idx_main_v58 (ValueIdx.ix2 r q)) = ValueIdx.ix1 q by idx1]
  rfl

theorem bias69 (x33 : (⟨S128, .f32⟩ : BufTy).Contents (Elt Ideal)) (r : Fin 4096) (q : Fin 128) :
    val_main_v69 (F := Ideal) x33 (ValueIdx.ix2 r q) = Cert.Spec.toRow x33 q := by
  rw [val_main_v69_apply, val_main_v68_apply,
    show idx_main_v68 (idx_main_v69 (ValueIdx.ix2 r q)) = ValueIdx.ix1 q by idx1]
  rfl

theorem bias74 (x35 : (⟨S128, .f32⟩ : BufTy).Contents (Elt Ideal)) (r : Fin 4096) (q : Fin 128) :
    val_main_v74 (F := Ideal) x35 (ValueIdx.ix2 r q) = Cert.Spec.toRow x35 q := by
  rw [val_main_v74_apply, val_main_v73_apply,
    show idx_main_v73 (idx_main_v74 (ValueIdx.ix2 r q)) = ValueIdx.ix1 q by idx1]
  rfl

theorem zero_call2 (i : S4096x128.Idx) : val_main_call2_v0 (F := Ideal) i = (0 : EReal) := by
  rw [val_main_call2_v0_apply, val_main_call2_cst_apply, Ideal.ofBits_def, Ideal.ofBits_zero_f32]
theorem zero_call3 (i : S4096x128.Idx) : val_main_call3_v0 (F := Ideal) i = (0 : EReal) := by
  rw [val_main_call3_v0_apply, val_main_call3_cst_apply, Ideal.ofBits_def, Ideal.ofBits_zero_f32]

theorem tenth60 (i : S4096x128.Idx) : val_main_v60 (F := Ideal) i = Cert.Spec.tenth := by
  rw [val_main_v60_apply, val_main_cst_3_apply, Ideal.ofBits_def]
  rfl
theorem tenth63 (i : S4096x128.Idx) : val_main_v63 (F := Ideal) i = Cert.Spec.tenth := by
  rw [val_main_v63_apply, val_main_cst_4_apply, Ideal.ofBits_def]
  rfl
theorem tenth76 (i : S4096x128.Idx) : val_main_v76 (F := Ideal) i = Cert.Spec.tenth := by
  rw [val_main_v76_apply, val_main_cst_5_apply, Ideal.ofBits_def]
  rfl
theorem tenth79 (i : S4096x128.Idx) : val_main_v79 (F := Ideal) i = Cert.Spec.tenth := by
  rw [val_main_v79_apply, val_main_cst_6_apply, Ideal.ofBits_def]
  rfl

theorem h1_eq : Cert.Spec.toMat V55 = (specArgs m c).h1 := by
  funext r q
  show V55 (ValueIdx.ix2 r q) = _
  rw [val_main_v55_apply, val_main_v54_apply, bias53, zero_call2]
  unfold val_main_v51
  rw [dot_mm, cat50_eq m c]
  · rfl
  · rfl

theorem inter_eq : Cert.Spec.toMat V59 = (specArgs m c).inter := by
  funext r q
  show V59 (ValueIdx.ix2 r q) = _
  rw [val_main_v59_apply, bias58]
  unfold val_main_v56
  rw [dot_mm, h1_eq m c]
  · rfl
  · rfl

theorem eImg2_eq : Cert.Spec.toMat V62 = (specArgs m c).eImg2 := by
  funext r q
  show V62 (ValueIdx.ix2 r q) = _
  rw [val_main_v62_apply, val_main_v61_apply, tenth60, toMat_at _ _ (eImg_eq m c) r q,
    toMat_at _ _ (inter_eq m c) r q]
  rfl

theorem eTxt2_eq : Cert.Spec.toMat V65 = (specArgs m c).eTxt2 := by
  funext r q
  show V65 (ValueIdx.ix2 r q) = _
  rw [val_main_v65_apply, val_main_v64_apply, tenth63, toMat_at _ _ (eTxt_eq m c) r q,
    toMat_at _ _ (inter_eq m c) r q]
  rfl

theorem cat2_eq : Cert.Spec.toMat V66 = Cert.Spec.cat2 (specArgs m c).eImg2 (specArgs m c).eTxt2 := by
  unfold val_main_v66
  rw [cat_eq, eImg2_eq m c, eTxt2_eq m c]

theorem h2_eq : Cert.Spec.toMat V71 = (specArgs m c).h2 := by
  funext r q
  show V71 (ValueIdx.ix2 r q) = _
  rw [val_main_v71_apply, val_main_v70_apply, bias69, zero_call3]
  unfold val_main_v67
  rw [dot_mm, cat2_eq m c]
  · rfl
  · rfl

theorem fus_eq : Cert.Spec.toMat V75 = (specArgs m c).fus := by
  funext r q
  show V75 (ValueIdx.ix2 r q) = _
  rw [val_main_v75_apply, bias74]
  unfold val_main_v72
  rw [dot_mm, h2_eq m c]
  · rfl
  · rfl

theorem imgF_eq : Cert.Spec.toMat V78 = (specArgs m c).imgF := by
  funext r q
  show V78 (ValueIdx.ix2 r q) = _
  rw [val_main_v78_apply, val_main_v77_apply, tenth76, toMat_at _ _ (eImg2_eq m c) r q,
    toMat_at _ _ (fus_eq m c) r q]
  rfl

theorem txtF_eq : Cert.Spec.toMat V81 = (specArgs m c).txtF := by
  funext r q
  show V81 (ValueIdx.ix2 r q) = _
  rw [val_main_v81_apply, val_main_v80_apply, tenth79, toMat_at _ _ (eTxt2_eq m c) r q,
    toMat_at _ _ (fus_eq m c) r q]
  rfl

end Cert.ReferenceIdeal.RefValue

end
-- ==== Proof.Ref.Graph.lean ====
import proofs.«103213_j15710990369585_1_alg».proof.Proof.RefR.Read
import proofs.«103213_j15710990369585_1_alg».proof.Proof.Ref.Args
import proofs.«103213_j15710990369585_1_alg».proof.Proof.Ref.Mlp2
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem
open Cert.Spec (toMat mm smax avg3 cat5 rowMax negInf zero32 three)
open Idealize.ShloMosaic.ValueIdx (ix1 ix2 ix3)

namespace Graph

abbrev A1 (R : Nat) := (⟨1, ![R]⟩ : Shape).Idx → EReal
abbrev A2 (R C : Nat) := (⟨2, ![R, C]⟩ : Shape).Idx → EReal
abbrev A3 (N R C : Nat) := (⟨3, ![N, R, C]⟩ : Shape).Idx → EReal

theorem toMat_dot {R K C : Nat} (A : FVec Ideal ⟨2, ![R, K]⟩ .f32) (B : FVec Ideal ⟨2, ![K, C]⟩ .f32) :
    toMat (Host.dotGeneral (F := Ideal) (DotDims.plain R K C) none A B) = mm (toMat A) (toMat B) :=
  funext fun r => funext fun q => StackMember.dotGeneral_plain_apply none A B r q

theorem lift_row {R : Nat} (h : (⟨2, ![R, 128]⟩ : Shape).Reduces [1] (⟨1, ![R]⟩ : Shape)) (r : Fin R)
    (k : Fin ((⟨2, ![R, 128]⟩ : Shape).size 1)) : h.lift (ix1 r) k = ix2 r (⟨k.val, k.isLt⟩ : Fin 128) := by
  funext d
  apply Fin.ext
  match d with
  | ⟨0, _⟩ => rfl
  | ⟨1, _⟩ => rfl

theorem reduce_max_row {R : Nat} (x : A2 R 128) (init : (⟨0, ![]⟩ : Shape).Idx → EReal)
    (h' : (⟨2, ![R, 128]⟩ : Shape).ReducesTo [1] (⟨1, ![R]⟩ : Shape))
    (h : (⟨2, ![R, 128]⟩ : Shape).Reduces [1] (⟨1, ![R]⟩ : Shape)) (hu : 0 < (⟨0, ![]⟩ : Shape).numel)
    (hinit : ∀ i, init i = negInf) (r : Fin R) :
    Host.reduce (FloatOps.maximumf (F := Ideal) (φ := .f32)) x init h' hu (ix1 r)
      = (Finset.univ : Finset (Fin 128)).fold max negInf (fun k => toMat x r k) := by
  rw [Host.reduce_eq_fold_single (FloatOps.maximumf (F := Ideal) (φ := .f32)) x init h' h hu, hinit]
  have hf : (x ∘ h.lift (ix1 r)) = fun k : Fin 128 => toMat x r k := funext fun k => congrArg x (lift_row h r k)
  exact congrArg (fun f => Finset.fold max negInf f (Finset.univ : Finset (Fin 128))) hf

theorem smax_of_chain {R : Nat} (P e d : A2 R 128) (mx sm : A1 R)
    (hmx : ∀ r, mx (ix1 r) = rowMax (toMat P) r)
    (he : ∀ r q, e (ix2 r q) = Ideal.exp (P (ix2 r q) - mx (ix1 r)))
    (hs : ∀ r, sm (ix1 r) = zero32 + ∑ k : Fin 128, e (ix2 r k))
    (hd : ∀ r q, d (ix2 r q) = Ideal.div (e (ix2 r q)) (sm (ix1 r))) :
    toMat d = smax (toMat P) := by
  funext r q
  show d (ix2 r q) = Ideal.div (Ideal.exp (P (ix2 r q) - rowMax (toMat P) r))
    (zero32 + ∑ k : Fin 128, Ideal.exp (P (ix2 r k) - rowMax (toMat P) r))
  rw [hd, hs, he, hmx]
  refine congrArg (fun z => Ideal.div _ (zero32 + z)) (Finset.sum_congr rfl fun k _ => ?_)
  rw [he, hmx]

theorem avg3_of_chain {R : Nat} (X Y Z s d : A2 R 128) (cat : A3 3 R 128)
    (h0 : ∀ r q, cat (ix3 0 r q) = X (ix2 r q)) (h1 : ∀ r q, cat (ix3 1 r q) = Y (ix2 r q))
    (h2 : ∀ r q, cat (ix3 2 r q) = Z (ix2 r q))
    (hs : ∀ r q, s (ix2 r q) = zero32 + ∑ k : Fin 3, cat (ix3 k r q))
    (hd : ∀ r q, d (ix2 r q) = Ideal.div (s (ix2 r q)) three) :
    toMat d = avg3 (toMat X) (toMat Y) (toMat Z) := by
  funext r q
  show d (ix2 r q) = Ideal.div (X (ix2 r q) + Y (ix2 r q) + Z (ix2 r q)) three
  rw [hd, hs, Fin.sum_univ_three, h0, h1, h2]
  show Ideal.div (Ideal.ofBits .f32 0x00000000#32 + _) three = _
  rw [Ideal.ofBits_zero_f32, zero_add]

theorem cat3_at0 {R : Nat} (y0 y1 y2 : A3 1 R 128)
    (h : Shape.Concatenates [(⟨3, ![1, R, 128]⟩ : Shape), ⟨3, ![1, R, 128]⟩, ⟨3, ![1, R, 128]⟩] (⟨3, ![3, R, 128]⟩ : Shape) 0)
    (r : Fin R) (q : Fin 128) :
    concatenate (⟨3, ![3, R, 128]⟩ : Shape) 0
        [⟨(⟨3, ![1, R, 128]⟩ : Shape), y0⟩, ⟨(⟨3, ![1, R, 128]⟩ : Shape), y1⟩, ⟨(⟨3, ![1, R, 128]⟩ : Shape), y2⟩] h (ix3 0 r q)
      = y0 (ix3 0 r q) :=
  concatenate_apply_piece 0 [⟨(⟨3, ![1, R, 128]⟩ : Shape), y0⟩, ⟨(⟨3, ![1, R, 128]⟩ : Shape), y1⟩, ⟨(⟨3, ![1, R, 128]⟩ : Shape), y2⟩] h
    (ix3 0 r q) 0 (show 0 < 3 by decide) (⟨3, ![1, R, 128]⟩ : Shape) y0 rfl rfl 0 rfl (ix3 0 r q)
    (fun b hb => match b, hb with | ⟨0, _⟩, hb => absurd rfl hb | ⟨1, _⟩, _ => rfl | ⟨2, _⟩, _ => rfl) rfl

theorem cat3_at1 {R : Nat} (y0 y1 y2 : A3 1 R 128)
    (h : Shape.Concatenates [(⟨3, ![1, R, 128]⟩ : Shape), ⟨3, ![1, R, 128]⟩, ⟨3, ![1, R, 128]⟩] (⟨3, ![3, R, 128]⟩ : Shape) 0)
    (r : Fin R) (q : Fin 128) :
    concatenate (⟨3, ![3, R, 128]⟩ : Shape) 0
        [⟨(⟨3, ![1, R, 128]⟩ : Shape), y0⟩, ⟨(⟨3, ![1, R, 128]⟩ : Shape), y1⟩, ⟨(⟨3, ![1, R, 128]⟩ : Shape), y2⟩] h (ix3 1 r q)
      = y1 (ix3 0 r q) :=
  concatenate_apply_piece 0 [⟨(⟨3, ![1, R, 128]⟩ : Shape), y0⟩, ⟨(⟨3, ![1, R, 128]⟩ : Shape), y1⟩, ⟨(⟨3, ![1, R, 128]⟩ : Shape), y2⟩] h
    (ix3 1 r q) 1 (show 1 < 3 by decide) (⟨3, ![1, R, 128]⟩ : Shape) y1 rfl rfl 1 rfl (ix3 0 r q)
    (fun b hb => match b, hb with | ⟨0, _⟩, hb => absurd rfl hb | ⟨1, _⟩, _ => rfl | ⟨2, _⟩, _ => rfl) rfl

theorem cat3_at2 {R : Nat} (y0 y1 y2 : A3 1 R 128)
    (h : Shape.Concatenates [(⟨3, ![1, R, 128]⟩ : Shape), ⟨3, ![1, R, 128]⟩, ⟨3, ![1, R, 128]⟩] (⟨3, ![3, R, 128]⟩ : Shape) 0)
    (r : Fin R) (q : Fin 128) :
    concatenate (⟨3, ![3, R, 128]⟩ : Shape) 0
        [⟨(⟨3, ![1, R, 128]⟩ : Shape), y0⟩, ⟨(⟨3, ![1, R, 128]⟩ : Shape), y1⟩, ⟨(⟨3, ![1, R, 128]⟩ : Shape), y2⟩] h (ix3 2 r q)
      = y2 (ix3 0 r q) :=
  concatenate_apply_piece 0 [⟨(⟨3, ![1, R, 128]⟩ : Shape), y0⟩, ⟨(⟨3, ![1, R, 128]⟩ : Shape), y1⟩, ⟨(⟨3, ![1, R, 128]⟩ : Shape), y2⟩] h
    (ix3 2 r q) 2 (show 2 < 3 by decide) (⟨3, ![1, R, 128]⟩ : Shape) y2 rfl rfl 2 rfl (ix3 0 r q)
    (fun b hb => match b, hb with | ⟨0, _⟩, hb => absurd rfl hb | ⟨1, _⟩, _ => rfl | ⟨2, _⟩, _ => rfl) rfl

theorem cat5_eq {R : Nat} (y0 y1 y2 y3 y4 : A2 R 128)
    (h : Shape.Concatenates [(⟨2, ![R, 128]⟩ : Shape), ⟨2, ![R, 128]⟩, ⟨2, ![R, 128]⟩, ⟨2, ![R, 128]⟩, ⟨2, ![R, 128]⟩]
      (⟨2, ![R, 640]⟩ : Shape) 1) :
    toMat (concatenate (⟨2, ![R, 640]⟩ : Shape) 1
        [⟨(⟨2, ![R, 128]⟩ : Shape), y0⟩, ⟨(⟨2, ![R, 128]⟩ : Shape), y1⟩, ⟨(⟨2, ![R, 128]⟩ : Shape), y2⟩,
          ⟨(⟨2, ![R, 128]⟩ : Shape), y3⟩, ⟨(⟨2, ![R, 128]⟩ : Shape), y4⟩] h)
      = cat5 (toMat y0) (toMat y1) (toMat y2) (toMat y3) (toMat y4) := by
  funext r q
  have key := concatenate_apply_piece (1 : Fin (⟨2, ![R, 640]⟩ : Shape).rank)
    [⟨(⟨2, ![R, 128]⟩ : Shape), y0⟩, ⟨(⟨2, ![R, 128]⟩ : Shape), y1⟩, ⟨(⟨2, ![R, 128]⟩ : Shape), y2⟩,
      ⟨(⟨2, ![R, 128]⟩ : Shape), y3⟩, ⟨(⟨2, ![R, 128]⟩ : Shape), y4⟩] h (ix2 r q)
  show _ = cat5 (toMat y0) (toMat y1) (toMat y2) (toMat y3) (toMat y4) r q
  unfold cat5
  by_cases h0 : q.val < 128
  · rw [dif_pos h0]
    exact key 0 (show 0 < 5 by decide) (⟨2, ![R, 128]⟩ : Shape) y0 rfl rfl 0 rfl (ix2 r ⟨q.val, h0⟩)
      (fun b hb => match b, hb with | ⟨0, _⟩, _ => rfl | ⟨1, _⟩, hb => absurd rfl hb) (by show 0 + q.val = q.val; omega)
  rw [dif_neg h0]
  by_cases h1 : q.val < 256
  · rw [dif_pos h1]
    exact key 1 (show 1 < 5 by decide) (⟨2, ![R, 128]⟩ : Shape) y1 rfl rfl 128 rfl (ix2 r ⟨q.val - 128, by omega⟩)
      (fun b hb => match b, hb with | ⟨0, _⟩, _ => rfl | ⟨1, _⟩, hb => absurd rfl hb) (by show 128 + (q.val - 128) = q.val; omega)
  rw [dif_neg h1]
  by_cases h2 : q.val < 384
  · rw [dif_pos h2]
    exact key 2 (show 2 < 5 by decide) (⟨2, ![R, 128]⟩ : Shape) y2 rfl rfl 256 rfl (ix2 r ⟨q.val - 256, by omega⟩)
      (fun b hb => match b, hb with | ⟨0, _⟩, _ => rfl | ⟨1, _⟩, hb => absurd rfl hb) (by show 256 + (q.val - 256) = q.val; omega)
  rw [dif_neg h2]
  by_cases h3 : q.val < 512
  · rw [dif_pos h3]
    exact key 3 (show 3 < 5 by decide) (⟨2, ![R, 128]⟩ : Shape) y3 rfl rfl 384 rfl (ix2 r ⟨q.val - 384, by omega⟩)
      (fun b hb => match b, hb with | ⟨0, _⟩, _ => rfl | ⟨1, _⟩, hb => absurd rfl hb) (by show 384 + (q.val - 384) = q.val; omega)
  rw [dif_neg h3]
  exact key 4 (show 4 < 5 by decide) (⟨2, ![R, 128]⟩ : Shape) y4 rfl rfl 512 rfl (ix2 r ⟨q.val - 512, by have := q.isLt; omega⟩)
    (fun b hb => match b, hb with | ⟨0, _⟩, _ => rfl | ⟨1, _⟩, hb => absurd rfl hb) (by show 512 + (q.val - 512) = q.val; omega)

theorem rows_eq (y0 : A2 8192 640) (y1 : A2 4096 640)
    (h : Shape.Concatenates [(⟨2, ![8192, 640]⟩ : Shape), ⟨2, ![4096, 640]⟩] (⟨2, ![12288, 640]⟩ : Shape) 0)
    (r : Fin 12288) (q : Fin 640) :
    concatenate (⟨2, ![12288, 640]⟩ : Shape) 0 [⟨(⟨2, ![8192, 640]⟩ : Shape), y0⟩, ⟨(⟨2, ![4096, 640]⟩ : Shape), y1⟩] h (ix2 r q)
      = if hr : r.val < 8192 then toMat y0 ⟨r.val, hr⟩ q else toMat y1 ⟨r.val - 8192, by omega⟩ q := by
  by_cases hr : r.val < 8192
  · rw [dif_pos hr]
    exact concatenate_pair_apply_left 0 y0 y1 h (ix2 r q) rfl (ix2 ⟨r.val, hr⟩ q)
      (fun b => by match b with | ⟨0, _⟩ => rfl | ⟨1, _⟩ => rfl)
  · rw [dif_neg hr]
    exact concatenate_pair_apply_right 0 y0 y1 h (ix2 r q) rfl rfl (ix2 ⟨r.val - 8192, by omega⟩ q)
      (fun b hb => match b, hb with | ⟨0, _⟩, hb => absurd rfl hb | ⟨1, _⟩, _ => rfl)
      (by show (r.val - 8192) + 8192 = r.val; omega)

end Graph

section Chains

variable (x0 : (⟨S8192x4096, .f32⟩ : BufTy).Contents (Elt Ideal)) (x1 : (⟨S4096x8192, .f32⟩ : BufTy).Contents (Elt Ideal))
  (x18 : (⟨S8192x128, .f32⟩ : BufTy).Contents (Elt Ideal)) (x19 : (⟨S4096x128, .f32⟩ : BufTy).Contents (Elt Ideal))

theorem u_smax : toMat (val_main_v103 (F := Ideal) x0 x1 x19) = smax (toMat (val_main_v92 (F := Ideal) x0 x1 x19)) :=
  Graph.smax_of_chain (val_main_v92 (F := Ideal) x0 x1 x19) (val_main_v99 (F := Ideal) x0 x1 x19)
    (val_main_v103 (F := Ideal) x0 x1 x19) (val_main_v95 (F := Ideal) x0 x1 x19) (val_main_v100 (F := Ideal) x0 x1 x19)
    (fun r => by
      rw [val_main_v95_apply, val_main_v94_apply, val_main_cst_8_apply]
      exact congrArg (max negInf) (Graph.reduce_max_row (val_main_v92 (F := Ideal) x0 x1 x19) (val_main_cst_7 (F := Ideal))
        reducesTo_S8192x128_S8192_d1 (by decide) h_S_ (fun i => val_main_cst_7_apply i) r))
    (fun r q => by
      rw [val_main_v99_apply, val_main_v98_apply, val_main_v97_apply, val_main_v96_apply]
      have e : idx_main_v96 (idx_main_v97 (ix2 r q)) = ix1 r := funext fun a => Fin.ext (by match a with | ⟨0, _⟩ => rfl)
      rw [e]
      rfl)
    (fun r => by
      rw [val_main_v100_apply, val_main_cst_9_apply]
      exact congrArg (zero32 + ·) (Finset.sum_congr rfl fun k _ => congrArg (val_main_v99 (F := Ideal) x0 x1 x19)
        (Shape.idx_ext₂ rfl rfl)))
    (fun r q => by
      rw [val_main_v103_apply, val_main_v102_apply, val_main_v101_apply]
      have e : idx_main_v101 (idx_main_v102 (ix2 r q)) = ix1 r := funext fun a => Fin.ext (by match a with | ⟨0, _⟩ => rfl)
      rw [e]
      rfl)

theorem i_smax : toMat (val_main_v115 (F := Ideal) x0 x1 x19) = smax (toMat (val_main_v104 (F := Ideal) x0 x1 x19)) :=
  Graph.smax_of_chain (val_main_v104 (F := Ideal) x0 x1 x19) (val_main_v111 (F := Ideal) x0 x1 x19)
    (val_main_v115 (F := Ideal) x0 x1 x19) (val_main_v107 (F := Ideal) x0 x1 x19) (val_main_v112 (F := Ideal) x0 x1 x19)
    (fun r => by
      rw [val_main_v107_apply, val_main_v106_apply, val_main_cst_11_apply]
      exact congrArg (max negInf) (Graph.reduce_max_row (val_main_v104 (F := Ideal) x0 x1 x19) (val_main_cst_10 (F := Ideal))
        reducesTo_S4096x128_S4096_d1 (by decide) h_S_ (fun i => val_main_cst_10_apply i) r))
    (fun r q => by
      rw [val_main_v111_apply, val_main_v110_apply, val_main_v109_apply, val_main_v108_apply]
      have e : idx_main_v108 (idx_main_v109 (ix2 r q)) = ix1 r := funext fun a => Fin.ext (by match a with | ⟨0, _⟩ => rfl)
      rw [e]
      rfl)
    (fun r => by
      rw [val_main_v112_apply, val_main_cst_12_apply]
      exact congrArg (zero32 + ·) (Finset.sum_congr rfl fun k _ => congrArg (val_main_v111 (F := Ideal) x0 x1 x19)
        (Shape.idx_ext₂ rfl rfl)))
    (fun r q => by
      rw [val_main_v115_apply, val_main_v114_apply, val_main_v113_apply]
      have e : idx_main_v113 (idx_main_v114 (ix2 r q)) = ix1 r := funext fun a => Fin.ext (by match a with | ⟨0, _⟩ => rfl)
      rw [e]
      rfl)

theorem u_avg : toMat (val_main_v122 (F := Ideal) x0 x1 x18 x19)
    = avg3 (toMat x18) (toMat (val_main_v90 (F := Ideal) x0 x19)) (toMat (val_main_v103 (F := Ideal) x0 x1 x19)) :=
  Graph.avg3_of_chain x18 (val_main_v90 (F := Ideal) x0 x19) (val_main_v103 (F := Ideal) x0 x1 x19)
    (val_main_v120 (F := Ideal) x0 x1 x18 x19) (val_main_v122 (F := Ideal) x0 x1 x18 x19) (val_main_v119 (F := Ideal) x0 x1 x18 x19)
    (fun r q =>
      (Graph.cat3_at0 (val_main_v116 (F := Ideal) x18) (val_main_v117 (F := Ideal) x0 x19) (val_main_v118 (F := Ideal) x0 x1 x19)
          concatenates_S1x8192x128_S1x8192x128_S1x8192x128_S3x8192x128_d0 r q).trans
        ((val_main_v116_apply x18 _).trans
          (congrArg x18 (Shape.idx_ext₂ rfl rfl))))
    (fun r q =>
      (Graph.cat3_at1 (val_main_v116 (F := Ideal) x18) (val_main_v117 (F := Ideal) x0 x19) (val_main_v118 (F := Ideal) x0 x1 x19)
          concatenates_S1x8192x128_S1x8192x128_S1x8192x128_S3x8192x128_d0 r q).trans
        ((val_main_v117_apply x0 x19 _).trans
          (congrArg (val_main_v90 (F := Ideal) x0 x19) (Shape.idx_ext₂ rfl rfl))))
    (fun r q =>
      (Graph.cat3_at2 (val_main_v116 (F := Ideal) x18) (val_main_v117 (F := Ideal) x0 x19) (val_main_v118 (F := Ideal) x0 x1 x19)
          concatenates_S1x8192x128_S1x8192x128_S1x8192x128_S3x8192x128_d0 r q).trans
        ((val_main_v118_apply x0 x1 x19 _).trans
          (congrArg (val_main_v103 (F := Ideal) x0 x1 x19) (Shape.idx_ext₂ rfl rfl))))
    (fun r q => by
      rw [val_main_v120_apply, val_main_cst_13_apply]
      exact congrArg (zero32 + ·) (Finset.sum_congr rfl fun k _ => congrArg (val_main_v119 (F := Ideal) x0 x1 x18 x19)
        (funext fun a => Fin.ext (by match a with | ⟨0, _⟩ => rfl | ⟨1, _⟩ => rfl | ⟨2, _⟩ => rfl))))
    (fun r q => by
      rw [val_main_v122_apply, val_main_v121_apply, val_main_cst_14_apply]
      rfl)

theorem i_avg : toMat (val_main_v129 (F := Ideal) x0 x1 x19)
    = avg3 (toMat x19) (toMat (val_main_v91 (F := Ideal) x0 x1 x19)) (toMat (val_main_v115 (F := Ideal) x0 x1 x19)) :=
  Graph.avg3_of_chain x19 (val_main_v91 (F := Ideal) x0 x1 x19) (val_main_v115 (F := Ideal) x0 x1 x19)
    (val_main_v127 (F := Ideal) x0 x1 x19) (val_main_v129 (F := Ideal) x0 x1 x19) (val_main_v126 (F := Ideal) x0 x1 x19)
    (fun r q =>
      (Graph.cat3_at0 (val_main_v123 (F := Ideal) x19) (val_main_v124 (F := Ideal) x0 x1 x19) (val_main_v125 (F := Ideal) x0 x1 x19)
          concatenates_S1x4096x128_S1x4096x128_S1x4096x128_S3x4096x128_d0 r q).trans
        ((val_main_v123_apply x19 _).trans
          (congrArg x19 (Shape.idx_ext₂ rfl rfl))))
    (fun r q =>
      (Graph.cat3_at1 (val_main_v123 (F := Ideal) x19) (val_main_v124 (F := Ideal) x0 x1 x19) (val_main_v125 (F := Ideal) x0 x1 x19)
          concatenates_S1x4096x128_S1x4096x128_S1x4096x128_S3x4096x128_d0 r q).trans
        ((val_main_v124_apply x0 x1 x19 _).trans
          (congrArg (val_main_v91 (F := Ideal) x0 x1 x19) (Shape.idx_ext₂ rfl rfl))))
    (fun r q =>
      (Graph.cat3_at2 (val_main_v123 (F := Ideal) x19) (val_main_v124 (F := Ideal) x0 x1 x19) (val_main_v125 (F := Ideal) x0 x1 x19)
          concatenates_S1x4096x128_S1x4096x128_S1x4096x128_S3x4096x128_d0 r q).trans
        ((val_main_v125_apply x0 x1 x19 _).trans
          (congrArg (val_main_v115 (F := Ideal) x0 x1 x19) (Shape.idx_ext₂ rfl rfl))))
    (fun r q => by
      rw [val_main_v127_apply, val_main_cst_15_apply]
      exact congrArg (zero32 + ·) (Finset.sum_congr rfl fun k _ => congrArg (val_main_v126 (F := Ideal) x0 x1 x19)
        (funext fun a => Fin.ext (by match a with | ⟨0, _⟩ => rfl | ⟨1, _⟩ => rfl | ⟨2, _⟩ => rfl))))
    (fun r q => by
      rw [val_main_v129_apply, val_main_v128_apply, val_main_cst_16_apply]
      rfl)

end Chains

variable (m : (ℓ : Loc nD τ sig) → Buf (Elt Ideal) ℓ) (c : Dev nD)

set_option quotPrecheck false

local notation "⟪" n "⟫" => m ((c.tc : Thread nD τ).loc n)
local notation "V11" => val_main_v11 (F := Ideal) ⟪main_arg8⟫ ⟪main_arg14⟫ ⟪main_arg15⟫
local notation "V15" => val_main_v15 (F := Ideal) ⟪main_arg9⟫ ⟪main_arg16⟫ ⟪main_arg17⟫
local notation "V78" => val_main_v78 (F := Ideal) ⟪main_arg6⟫ ⟪main_arg7⟫ ⟪main_arg10⟫ ⟪main_arg11⟫ ⟪main_arg12⟫ ⟪main_arg13⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫
local notation "V81" => val_main_v81 (F := Ideal) ⟪main_arg6⟫ ⟪main_arg7⟫ ⟪main_arg10⟫ ⟪main_arg11⟫ ⟪main_arg12⟫ ⟪main_arg13⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫
local notation "V82" => val_main_v82 (F := Ideal) ⟪main_arg0⟫ ⟪main_arg6⟫ ⟪main_arg7⟫ ⟪main_arg10⟫ ⟪main_arg11⟫ ⟪main_arg12⟫ ⟪main_arg13⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫
local notation "V83" => val_main_v83 (F := Ideal) ⟪main_arg0⟫ ⟪main_arg1⟫ ⟪main_arg6⟫ ⟪main_arg7⟫ ⟪main_arg10⟫ ⟪main_arg11⟫ ⟪main_arg12⟫ ⟪main_arg13⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫
local notation "V84" => val_main_v84 (F := Ideal) ⟪main_arg0⟫ ⟪main_arg6⟫ ⟪main_arg7⟫ ⟪main_arg10⟫ ⟪main_arg11⟫ ⟪main_arg12⟫ ⟪main_arg13⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫
local notation "V85" => val_main_v85 (F := Ideal) ⟪main_arg0⟫ ⟪main_arg1⟫ ⟪main_arg6⟫ ⟪main_arg7⟫ ⟪main_arg10⟫ ⟪main_arg11⟫ ⟪main_arg12⟫ ⟪main_arg13⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫
local notation "V86" => val_main_v86 (F := Ideal) ⟪main_arg0⟫ ⟪main_arg9⟫ ⟪main_arg16⟫ ⟪main_arg17⟫
local notation "V87" => val_main_v87 (F := Ideal) ⟪main_arg0⟫ ⟪main_arg1⟫ ⟪main_arg9⟫ ⟪main_arg16⟫ ⟪main_arg17⟫
local notation "V88" => val_main_v88 (F := Ideal) ⟪main_arg1⟫ ⟪main_arg8⟫ ⟪main_arg14⟫ ⟪main_arg15⟫
local notation "V89" => val_main_v89 (F := Ideal) ⟪main_arg0⟫ ⟪main_arg1⟫ ⟪main_arg8⟫ ⟪main_arg14⟫ ⟪main_arg15⟫
local notation "V90" => val_main_v90 (F := Ideal) ⟪main_arg0⟫ ⟪main_arg19⟫
local notation "V91" => val_main_v91 (F := Ideal) ⟪main_arg0⟫ ⟪main_arg1⟫ ⟪main_arg19⟫
local notation "V92" => val_main_v92 (F := Ideal) ⟪main_arg0⟫ ⟪main_arg1⟫ ⟪main_arg19⟫
local notation "V103" => val_main_v103 (F := Ideal) ⟪main_arg0⟫ ⟪main_arg1⟫ ⟪main_arg19⟫
local notation "V104" => val_main_v104 (F := Ideal) ⟪main_arg0⟫ ⟪main_arg1⟫ ⟪main_arg19⟫
local notation "V115" => val_main_v115 (F := Ideal) ⟪main_arg0⟫ ⟪main_arg1⟫ ⟪main_arg19⟫
local notation "V122" => val_main_v122 (F := Ideal) ⟪main_arg0⟫ ⟪main_arg1⟫ ⟪main_arg18⟫ ⟪main_arg19⟫
local notation "V129" => val_main_v129 (F := Ideal) ⟪main_arg0⟫ ⟪main_arg1⟫ ⟪main_arg19⟫
local notation "V130" => val_main_v130 (F := Ideal) ⟪main_arg0⟫ ⟪main_arg1⟫ ⟪main_arg6⟫ ⟪main_arg7⟫ ⟪main_arg8⟫ ⟪main_arg9⟫ ⟪main_arg10⟫ ⟪main_arg11⟫ ⟪main_arg12⟫ ⟪main_arg13⟫ ⟪main_arg14⟫ ⟪main_arg15⟫ ⟪main_arg16⟫ ⟪main_arg17⟫ ⟪main_arg18⟫ ⟪main_arg19⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫
local notation "V131" => val_main_v131 (F := Ideal) ⟪main_arg0⟫ ⟪main_arg1⟫ ⟪main_arg6⟫ ⟪main_arg7⟫ ⟪main_arg8⟫ ⟪main_arg9⟫ ⟪main_arg10⟫ ⟪main_arg11⟫ ⟪main_arg12⟫ ⟪main_arg13⟫ ⟪main_arg14⟫ ⟪main_arg15⟫ ⟪main_arg16⟫ ⟪main_arg17⟫ ⟪main_arg19⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫
local notation "V132" => val_main_v132 (F := Ideal) ⟪main_arg0⟫ ⟪main_arg1⟫ ⟪main_arg6⟫ ⟪main_arg7⟫ ⟪main_arg8⟫ ⟪main_arg9⟫ ⟪main_arg10⟫ ⟪main_arg11⟫ ⟪main_arg12⟫ ⟪main_arg13⟫ ⟪main_arg14⟫ ⟪main_arg15⟫ ⟪main_arg16⟫ ⟪main_arg17⟫ ⟪main_arg18⟫ ⟪main_arg19⟫ ⟪main_arg20⟫ ⟪main_arg21⟫ ⟪main_arg22⟫ ⟪main_arg23⟫ ⟪main_arg24⟫ ⟪main_arg25⟫ ⟪main_arg26⟫ ⟪main_arg27⟫ ⟪main_arg28⟫ ⟪main_arg29⟫ ⟪main_arg30⟫ ⟪main_arg31⟫ ⟪main_arg32⟫ ⟪main_arg33⟫ ⟪main_arg34⟫ ⟪main_arg35⟫

theorem imageUser_eq : toMat V82 = (specArgs m c).imageUser :=
  (Graph.toMat_dot (R := 8192) (K := 4096) (C := 128) ⟪main_arg0⟫ V78 : toMat V82 = _).trans
    (by rw [imgF_eq m c]; rfl)

theorem imageItem_eq : toMat V83 = (specArgs m c).imageItem :=
  (Graph.toMat_dot (R := 4096) (K := 8192) (C := 128) ⟪main_arg1⟫ V82 : toMat V83 = _).trans
    (by rw [imageUser_eq m c]; rfl)

theorem textUser_eq : toMat V84 = (specArgs m c).textUser :=
  (Graph.toMat_dot (R := 8192) (K := 4096) (C := 128) ⟪main_arg0⟫ V81 : toMat V84 = _).trans
    (by rw [txtF_eq m c]; rfl)

theorem textItem_eq : toMat V85 = (specArgs m c).textItem :=
  (Graph.toMat_dot (R := 4096) (K := 8192) (C := 128) ⟪main_arg1⟫ V84 : toMat V85 = _).trans
    (by rw [textUser_eq m c]; rfl)

theorem titleUser_eq : toMat V86 = (specArgs m c).titleUser :=
  (Graph.toMat_dot (R := 8192) (K := 4096) (C := 128) ⟪main_arg0⟫ V15 : toMat V86 = _).trans
    (by rw [ttl_eq m c]; rfl)

theorem titleItem_eq : toMat V87 = (specArgs m c).titleItem :=
  (Graph.toMat_dot (R := 4096) (K := 8192) (C := 128) ⟪main_arg1⟫ V86 : toMat V87 = _).trans
    (by rw [titleUser_eq m c]; rfl)

theorem itemProf_eq : toMat V88 = (specArgs m c).itemProf :=
  (Graph.toMat_dot (R := 4096) (K := 8192) (C := 128) ⟪main_arg1⟫ V11 : toMat V88 = _).trans
    (by rw [usr_eq m c]; rfl)

theorem userProf_eq : toMat V89 = (specArgs m c).userProf :=
  (Graph.toMat_dot (R := 8192) (K := 4096) (C := 128) ⟪main_arg0⟫ V88 : toMat V89 = _).trans
    (by rw [itemProf_eq m c]; rfl)

theorem u1_eq : toMat V90 = (specArgs m c).u1 :=
  (Graph.toMat_dot (R := 8192) (K := 4096) (C := 128) ⟪main_arg0⟫ ⟪main_arg19⟫ : toMat V90 = _)

theorem i1_eq : toMat V91 = (specArgs m c).i1 :=
  (Graph.toMat_dot (R := 4096) (K := 8192) (C := 128) ⟪main_arg1⟫ V90 : toMat V91 = _).trans
    (by rw [u1_eq m c]; rfl)

theorem v92_eq : toMat V92 = mm (specArgs m c).ui (specArgs m c).i1 :=
  (Graph.toMat_dot (R := 8192) (K := 4096) (C := 128) ⟪main_arg0⟫ V91 : toMat V92 = _).trans
    (by rw [i1_eq m c]; rfl)

theorem u2_eq : toMat V103 = (specArgs m c).u2 :=
  (u_smax ⟪main_arg0⟫ ⟪main_arg1⟫ ⟪main_arg19⟫).trans (by rw [v92_eq m c]; rfl)

theorem v104_eq : toMat V104 = mm (specArgs m c).iu (specArgs m c).u2 :=
  (Graph.toMat_dot (R := 4096) (K := 8192) (C := 128) ⟪main_arg1⟫ V103 : toMat V104 = _).trans
    (by rw [u2_eq m c]; rfl)

theorem i2_eq : toMat V115 = (specArgs m c).i2 :=
  (i_smax ⟪main_arg0⟫ ⟪main_arg1⟫ ⟪main_arg19⟫).trans (by rw [v104_eq m c]; rfl)

theorem uFinal_eq : toMat V122 = (specArgs m c).uFinal :=
  (u_avg ⟪main_arg0⟫ ⟪main_arg1⟫ ⟪main_arg18⟫ ⟪main_arg19⟫).trans (by rw [u1_eq m c, u2_eq m c]; rfl)

theorem iFinal_eq : toMat V129 = (specArgs m c).iFinal :=
  (i_avg ⟪main_arg0⟫ ⟪main_arg1⟫ ⟪main_arg19⟫).trans (by rw [i1_eq m c, i2_eq m c]; rfl)

theorem outU_eq : toMat V130 = (specArgs m c).outU :=
  (Graph.cat5_eq V122 V89 V82 V84 V86
    concatenates_S8192x128_S8192x128_S8192x128_S8192x128_S8192x128_S8192x640_d1).trans
    (by rw [uFinal_eq m c, userProf_eq m c, imageUser_eq m c, textUser_eq m c, titleUser_eq m c]; rfl)

theorem outI_eq : toMat V131 = (specArgs m c).outI :=
  (Graph.cat5_eq V129 V88 V83 V85 V87
    concatenates_S4096x128_S4096x128_S4096x128_S4096x128_S4096x128_S4096x640_d1).trans
    (by rw [iFinal_eq m c, itemProf_eq m c, imageItem_eq m c, textItem_eq m c, titleItem_eq m c]; rfl)

theorem result_eq (r : Fin 12288) (q : Fin 640) :
    (V132 : S12288x640.Idx → EReal) (ix2 r q) = (specArgs m c).result r q := by
  refine (Graph.rows_eq V130 V131 concatenates_S8192x640_S4096x640_S12288x640_d0 r q).trans ?_
  rw [outU_eq m c, outI_eq m c]
  rfl

end Cert.ReferenceIdeal.RefValue

end
-- ==== Proof.Ref.RunStages.lean ====
import proofs.«103213_j15710990369585_1_alg».proof.Proof.RefR.Read
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

abbrev c0 : List (HloOp τ sig (Elt F)) :=
  [ binary main_arg6 main_arg10 main_v0 ((fun l r => Host.dotGeneral dot_S4096x4096_S4096x128_S4096x128_1_0_0_1_n_n none l r)),
    unary main_arg11 main_v1 (broadcastInDim S1x128 ![1] bcast_S128_S1x128_1),
    unary main_v1 main_v2 (broadcastInDim S4096x128 ![0, 1] bcast_S1x128_S4096x128_0_1),
    binary main_v0 main_v2 main_v3 (addf),
    binary main_arg7 main_arg12 main_v4 ((fun l r => Host.dotGeneral dot_S4096x768_S768x128_S4096x128_1_0_0_1_n_n none l r)),
    unary main_arg13 main_v5 (broadcastInDim S1x128 ![1] bcast_S128_S1x128_1),
    unary main_v5 main_v6 (broadcastInDim S4096x128 ![0, 1] bcast_S1x128_S4096x128_0_1),
    binary main_v4 main_v6 main_v7 (addf),
    binary main_arg8 main_arg14 main_v8 ((fun l r => Host.dotGeneral dot_S8192x768_S768x128_S8192x128_1_0_0_1_n_n none l r)),
    unary main_arg15 main_v9 (broadcastInDim S1x128 ![1] bcast_S128_S1x128_1),
    unary main_v9 main_v10 (broadcastInDim S8192x128 ![0, 1] bcast_S1x128_S8192x128_0_1),
    binary main_v8 main_v10 main_v11 (addf),
    binary main_arg9 main_arg16 main_v12 ((fun l r => Host.dotGeneral dot_S4096x768_S768x128_S4096x128_1_0_0_1_n_n none l r)),
    unary main_arg17 main_v13 (broadcastInDim S1x128 ![1] bcast_S128_S1x128_1),
    unary main_v13 main_v14 (broadcastInDim S4096x128 ![0, 1] bcast_S1x128_S4096x128_0_1),
    binary main_v12 main_v14 main_v15 (addf) ]
abbrev w0 : List (Ref sig .tc) := [main_v0, main_v1, main_v2, main_v3, main_v4, main_v5, main_v6, main_v7, main_v8, main_v9, main_v10, main_v11, main_v12, main_v13, main_v14, main_v15]

abbrev c1 : List (HloOp τ sig (Elt F)) :=
  [ binary main_v3 main_arg20 main_v16 ((fun l r => Host.dotGeneral dot_S4096x128_S128x64_S4096x64_1_0_0_1_n_n none l r)),
    unary main_arg21 main_v17 (broadcastInDim S1x64 ![1] bcast_S64_S1x64_1),
    unary main_v17 main_v18 (broadcastInDim S4096x64 ![0, 1] bcast_S1x64_S4096x64_0_1),
    binary main_v16 main_v18 main_v19 (addf),
    TRef.nullary (TRef.of (T := ⟨S_, .f32⟩) main_call0_cst) (constant S_ .f32 0x00000000#32),
    TRef.unary (TRef.of (T := ⟨S_, .f32⟩) main_call0_cst) (TRef.of (T := ⟨S4096x64, .f32⟩) main_call0_v0) (broadcastInDim S4096x64 ![] bcast_S_S4096x64),
    TRef.binary (TRef.of (T := ⟨S4096x64, .f32⟩) main_v19) (TRef.of (T := ⟨S4096x64, .f32⟩) main_call0_v0) (TRef.of (T := ⟨S4096x64, .f32⟩) main_v20) maximumf,
    binary main_v20 main_arg22 main_v21 ((fun l r => Host.dotGeneral dot_S4096x64_S64x1_S4096x1_1_0_0_1_n_n none l r)),
    unary main_arg23 main_v22 (broadcastInDim S1x1 ![1] bcast_S1_S1x1_1),
    unary main_v22 main_v23 (broadcastInDim S4096x1 ![0, 1] bcast_S1x1_S4096x1_0_1),
    binary main_v21 main_v23 main_v24 (addf),
    unary main_v24 main_v25 (Host.negf),
    unary main_v25 main_v26 (Host.exp),
    nullary main_cst (constant S_ .f32 0x3F800000#32),
    unary main_cst main_v27 (broadcastInDim S4096x1 ![] bcast_S_S4096x1),
    binary main_v27 main_v26 main_v28 (addf),
    nullary main_cst_0 (constant S_ .f32 0x3F800000#32),
    unary main_cst_0 main_v29 (broadcastInDim S4096x1 ![] bcast_S_S4096x1),
    binary main_v29 main_v28 main_v30 (Host.divf),
    unary main_v30 main_v31 (broadcastInDim S4096x128 ![0, 1] bcast_S4096x1_S4096x128_0_1),
    binary main_v3 main_v31 main_v32 (mulf) ]
abbrev w1 : List (Ref sig .tc) := [main_v16, main_v17, main_v18, main_v19, main_call0_cst, main_call0_v0, main_v20, main_v21, main_v22, main_v23, main_v24, main_v25, main_v26, main_cst, main_v27, main_v28, main_cst_0, main_v29, main_v30, main_v31, main_v32]

abbrev c2 : List (HloOp τ sig (Elt F)) :=
  [ binary main_v7 main_arg24 main_v33 ((fun l r => Host.dotGeneral dot_S4096x128_S128x64_S4096x64_1_0_0_1_n_n none l r)),
    unary main_arg25 main_v34 (broadcastInDim S1x64 ![1] bcast_S64_S1x64_1),
    unary main_v34 main_v35 (broadcastInDim S4096x64 ![0, 1] bcast_S1x64_S4096x64_0_1),
    binary main_v33 main_v35 main_v36 (addf),
    TRef.nullary (TRef.of (T := ⟨S_, .f32⟩) main_call1_cst) (constant S_ .f32 0x00000000#32),
    TRef.unary (TRef.of (T := ⟨S_, .f32⟩) main_call1_cst) (TRef.of (T := ⟨S4096x64, .f32⟩) main_call1_v0) (broadcastInDim S4096x64 ![] bcast_S_S4096x64),
    TRef.binary (TRef.of (T := ⟨S4096x64, .f32⟩) main_v36) (TRef.of (T := ⟨S4096x64, .f32⟩) main_call1_v0) (TRef.of (T := ⟨S4096x64, .f32⟩) main_v37) maximumf,
    binary main_v37 main_arg26 main_v38 ((fun l r => Host.dotGeneral dot_S4096x64_S64x1_S4096x1_1_0_0_1_n_n none l r)),
    unary main_arg27 main_v39 (broadcastInDim S1x1 ![1] bcast_S1_S1x1_1),
    unary main_v39 main_v40 (broadcastInDim S4096x1 ![0, 1] bcast_S1x1_S4096x1_0_1),
    binary main_v38 main_v40 main_v41 (addf),
    unary main_v41 main_v42 (Host.negf),
    unary main_v42 main_v43 (Host.exp),
    nullary main_cst_1 (constant S_ .f32 0x3F800000#32),
    unary main_cst_1 main_v44 (broadcastInDim S4096x1 ![] bcast_S_S4096x1),
    binary main_v44 main_v43 main_v45 (addf),
    nullary main_cst_2 (constant S_ .f32 0x3F800000#32),
    unary main_cst_2 main_v46 (broadcastInDim S4096x1 ![] bcast_S_S4096x1),
    binary main_v46 main_v45 main_v47 (Host.divf),
    unary main_v47 main_v48 (broadcastInDim S4096x128 ![0, 1] bcast_S4096x1_S4096x128_0_1),
    binary main_v7 main_v48 main_v49 (mulf) ]
abbrev w2 : List (Ref sig .tc) := [main_v33, main_v34, main_v35, main_v36, main_call1_cst, main_call1_v0, main_v37, main_v38, main_v39, main_v40, main_v41, main_v42, main_v43, main_cst_1, main_v44, main_v45, main_cst_2, main_v46, main_v47, main_v48, main_v49]

abbrev c3 : List (HloOp τ sig (Elt F)) :=
  [ binary main_v32 main_v49 main_v50 ((fun a b => concatenate S4096x256 1 [⟨S4096x128, a⟩, ⟨S4096x128, b⟩] concatenates_S4096x128_S4096x128_S4096x256_d1)),
    binary main_v50 main_arg28 main_v51 ((fun l r => Host.dotGeneral dot_S4096x256_S256x128_S4096x128_1_0_0_1_n_n none l r)),
    unary main_arg29 main_v52 (broadcastInDim S1x128 ![1] bcast_S128_S1x128_1),
    unary main_v52 main_v53 (broadcastInDim S4096x128 ![0, 1] bcast_S1x128_S4096x128_0_1),
    binary main_v51 main_v53 main_v54 (addf),
    TRef.nullary (TRef.of (T := ⟨S_, .f32⟩) main_call2_cst) (constant S_ .f32 0x00000000#32),
    TRef.unary (TRef.of (T := ⟨S_, .f32⟩) main_call2_cst) (TRef.of (T := ⟨S4096x128, .f32⟩) main_call2_v0) (broadcastInDim S4096x128 ![] bcast_S_S4096x128),
    TRef.binary (TRef.of (T := ⟨S4096x128, .f32⟩) main_v54) (TRef.of (T := ⟨S4096x128, .f32⟩) main_call2_v0) (TRef.of (T := ⟨S4096x128, .f32⟩) main_v55) maximumf,
    binary main_v55 main_arg30 main_v56 ((fun l r => Host.dotGeneral dot_S4096x128_S128x128_S4096x128_1_0_0_1_n_n none l r)),
    unary main_arg31 main_v57 (broadcastInDim S1x128 ![1] bcast_S128_S1x128_1),
    unary main_v57 main_v58 (broadcastInDim S4096x128 ![0, 1] bcast_S1x128_S4096x128_0_1),
    binary main_v56 main_v58 main_v59 (addf) ]
abbrev w3 : List (Ref sig .tc) := [main_v50, main_v51, main_v52, main_v53, main_v54, main_call2_cst, main_call2_v0, main_v55, main_v56, main_v57, main_v58, main_v59]

abbrev c4 : List (HloOp τ sig (Elt F)) :=
  [ nullary main_cst_3 (constant S_ .f32 0x3DCCCCCD#32),
    unary main_cst_3 main_v60 (broadcastInDim S4096x128 ![] bcast_S_S4096x128),
    binary main_v60 main_v59 main_v61 (mulf),
    binary main_v32 main_v61 main_v62 (addf),
    nullary main_cst_4 (constant S_ .f32 0x3DCCCCCD#32),
    unary main_cst_4 main_v63 (broadcastInDim S4096x128 ![] bcast_S_S4096x128),
    binary main_v63 main_v59 main_v64 (mulf),
    binary main_v49 main_v64 main_v65 (addf) ]
abbrev w4 : List (Ref sig .tc) := [main_cst_3, main_v60, main_v61, main_v62, main_cst_4, main_v63, main_v64, main_v65]

abbrev c5 : List (HloOp τ sig (Elt F)) :=
  [ binary main_v62 main_v65 main_v66 ((fun a b => concatenate S4096x256 1 [⟨S4096x128, a⟩, ⟨S4096x128, b⟩] concatenates_S4096x128_S4096x128_S4096x256_d1)),
    binary main_v66 main_arg32 main_v67 ((fun l r => Host.dotGeneral dot_S4096x256_S256x128_S4096x128_1_0_0_1_n_n none l r)),
    unary main_arg33 main_v68 (broadcastInDim S1x128 ![1] bcast_S128_S1x128_1),
    unary main_v68 main_v69 (broadcastInDim S4096x128 ![0, 1] bcast_S1x128_S4096x128_0_1),
    binary main_v67 main_v69 main_v70 (addf),
    TRef.nullary (TRef.of (T := ⟨S_, .f32⟩) main_call3_cst) (constant S_ .f32 0x00000000#32),
    TRef.unary (TRef.of (T := ⟨S_, .f32⟩) main_call3_cst) (TRef.of (T := ⟨S4096x128, .f32⟩) main_call3_v0) (broadcastInDim S4096x128 ![] bcast_S_S4096x128),
    TRef.binary (TRef.of (T := ⟨S4096x128, .f32⟩) main_v70) (TRef.of (T := ⟨S4096x128, .f32⟩) main_call3_v0) (TRef.of (T := ⟨S4096x128, .f32⟩) main_v71) maximumf,
    binary main_v71 main_arg34 main_v72 ((fun l r => Host.dotGeneral dot_S4096x128_S128x128_S4096x128_1_0_0_1_n_n none l r)),
    unary main_arg35 main_v73 (broadcastInDim S1x128 ![1] bcast_S128_S1x128_1),
    unary main_v73 main_v74 (broadcastInDim S4096x128 ![0, 1] bcast_S1x128_S4096x128_0_1),
    binary main_v72 main_v74 main_v75 (addf) ]
abbrev w5 : List (Ref sig .tc) := [main_v66, main_v67, main_v68, main_v69, main_v70, main_call3_cst, main_call3_v0, main_v71, main_v72, main_v73, main_v74, main_v75]

abbrev c6 : List (HloOp τ sig (Elt F)) :=
  [ nullary main_cst_5 (constant S_ .f32 0x3DCCCCCD#32),
    unary main_cst_5 main_v76 (broadcastInDim S4096x128 ![] bcast_S_S4096x128),
    binary main_v76 main_v75 main_v77 (mulf),
    binary main_v62 main_v77 main_v78 (addf),
    nullary main_cst_6 (constant S_ .f32 0x3DCCCCCD#32),
    unary main_cst_6 main_v79 (broadcastInDim S4096x128 ![] bcast_S_S4096x128),
    binary main_v79 main_v75 main_v80 (mulf),
    binary main_v65 main_v80 main_v81 (addf) ]
abbrev w6 : List (Ref sig .tc) := [main_cst_5, main_v76, main_v77, main_v78, main_cst_6, main_v79, main_v80, main_v81]

abbrev c7 : List (HloOp τ sig (Elt F)) :=
  [ binary main_arg0 main_v78 main_v82 ((fun l r => Host.dotGeneral dot_S8192x4096_S4096x128_S8192x128_1_0_0_1_n_n none l r)),
    binary main_arg1 main_v82 main_v83 ((fun l r => Host.dotGeneral dot_S4096x8192_S8192x128_S4096x128_1_0_0_1_n_n none l r)),
    binary main_arg0 main_v81 main_v84 ((fun l r => Host.dotGeneral dot_S8192x4096_S4096x128_S8192x128_1_0_0_1_n_n none l r)),
    binary main_arg1 main_v84 main_v85 ((fun l r => Host.dotGeneral dot_S4096x8192_S8192x128_S4096x128_1_0_0_1_n_n none l r)),
    binary main_arg0 main_v15 main_v86 ((fun l r => Host.dotGeneral dot_S8192x4096_S4096x128_S8192x128_1_0_0_1_n_n none l r)),
    binary main_arg1 main_v86 main_v87 ((fun l r => Host.dotGeneral dot_S4096x8192_S8192x128_S4096x128_1_0_0_1_n_n none l r)),
    binary main_arg1 main_v11 main_v88 ((fun l r => Host.dotGeneral dot_S4096x8192_S8192x128_S4096x128_1_0_0_1_n_n none l r)),
    binary main_arg0 main_v88 main_v89 ((fun l r => Host.dotGeneral dot_S8192x4096_S4096x128_S8192x128_1_0_0_1_n_n none l r)),
    binary main_arg0 main_arg19 main_v90 ((fun l r => Host.dotGeneral dot_S8192x4096_S4096x128_S8192x128_1_0_0_1_n_n none l r)),
    binary main_arg1 main_v90 main_v91 ((fun l r => Host.dotGeneral dot_S4096x8192_S8192x128_S4096x128_1_0_0_1_n_n none l r)),
    binary main_arg0 main_v91 main_v92 ((fun l r => Host.dotGeneral dot_S8192x4096_S4096x128_S8192x128_1_0_0_1_n_n none l r)) ]
abbrev w7 : List (Ref sig .tc) := [main_v82, main_v83, main_v84, main_v85, main_v86, main_v87, main_v88, main_v89, main_v90, main_v91, main_v92]

abbrev c8 : List (HloOp τ sig (Elt F)) :=
  [ nullary main_cst_7 (constant S_ .f32 0xFF800000#32),
    binary main_v92 main_cst_7 main_v93 ((fun x v => Host.reduce FloatOps.maximumf x v reducesTo_S8192x128_S8192_d1 h_S_)),
    nullary main_cst_8 (constant S_ .f32 0xFF800000#32),
    unary main_cst_8 main_v94 (broadcastInDim S8192 ![] bcast_S_S8192),
    binary main_v94 main_v93 main_v95 (maximumf),
    unary main_v95 main_v96 (broadcastInDim S8192x1 ![0] bcast_S8192_S8192x1_0),
    unary main_v96 main_v97 (broadcastInDim S8192x128 ![0, 1] bcast_S8192x1_S8192x128_0_1),
    binary main_v92 main_v97 main_v98 (subf),
    unary main_v98 main_v99 (Host.exp) ]
abbrev w8 : List (Ref sig .tc) := [main_cst_7, main_v93, main_cst_8, main_v94, main_v95, main_v96, main_v97, main_v98, main_v99]

abbrev c9 : List (HloOp τ sig (Elt F)) :=
  [ nullary main_cst_9 (constant S_ .f32 0x00000000#32),
    binary main_v99 main_cst_9 main_v100 ((fun x v => Host.reduceAdd x v reducesTo_S8192x128_S8192_d1 h_S_)),
    unary main_v100 main_v101 (broadcastInDim S8192x1 ![0] bcast_S8192_S8192x1_0),
    unary main_v101 main_v102 (broadcastInDim S8192x128 ![0, 1] bcast_S8192x1_S8192x128_0_1),
    binary main_v99 main_v102 main_v103 (Host.divf),
    binary main_arg1 main_v103 main_v104 ((fun l r => Host.dotGeneral dot_S4096x8192_S8192x128_S4096x128_1_0_0_1_n_n none l r)) ]
abbrev w9 : List (Ref sig .tc) := [main_cst_9, main_v100, main_v101, main_v102, main_v103, main_v104]

abbrev c10 : List (HloOp τ sig (Elt F)) :=
  [ nullary main_cst_10 (constant S_ .f32 0xFF800000#32),
    binary main_v104 main_cst_10 main_v105 ((fun x v => Host.reduce FloatOps.maximumf x v reducesTo_S4096x128_S4096_d1 h_S_)),
    nullary main_cst_11 (constant S_ .f32 0xFF800000#32),
    unary main_cst_11 main_v106 (broadcastInDim S4096 ![] bcast_S_S4096),
    binary main_v106 main_v105 main_v107 (maximumf),
    unary main_v107 main_v108 (broadcastInDim S4096x1 ![0] bcast_S4096_S4096x1_0),
    unary main_v108 main_v109 (broadcastInDim S4096x128 ![0, 1] bcast_S4096x1_S4096x128_0_1),
    binary main_v104 main_v109 main_v110 (subf),
    unary main_v110 main_v111 (Host.exp) ]
abbrev w10 : List (Ref sig .tc) := [main_cst_10, main_v105, main_cst_11, main_v106, main_v107, main_v108, main_v109, main_v110, main_v111]

abbrev c11 : List (HloOp τ sig (Elt F)) :=
  [ nullary main_cst_12 (constant S_ .f32 0x00000000#32),
    binary main_v111 main_cst_12 main_v112 ((fun x v => Host.reduceAdd x v reducesTo_S4096x128_S4096_d1 h_S_)),
    unary main_v112 main_v113 (broadcastInDim S4096x1 ![0] bcast_S4096_S4096x1_0),
    unary main_v113 main_v114 (broadcastInDim S4096x128 ![0, 1] bcast_S4096x1_S4096x128_0_1),
    binary main_v111 main_v114 main_v115 (Host.divf) ]
abbrev w11 : List (Ref sig .tc) := [main_cst_12, main_v112, main_v113, main_v114, main_v115]

abbrev c12 : List (HloOp τ sig (Elt F)) :=
  [ unary main_arg18 main_v116 (broadcastInDim S1x8192x128 ![1, 2] bcast_S8192x128_S1x8192x128_1_2),
    unary main_v90 main_v117 (broadcastInDim S1x8192x128 ![1, 2] bcast_S8192x128_S1x8192x128_1_2),
    unary main_v103 main_v118 (broadcastInDim S1x8192x128 ![1, 2] bcast_S8192x128_S1x8192x128_1_2),
    nary ![main_v116, main_v117, main_v118] main_v119 (fun u => concatenate S3x8192x128 0 [⟨S1x8192x128, u 0⟩, ⟨S1x8192x128, u 1⟩, ⟨S1x8192x128, u 2⟩] concatenates_S1x8192x128_S1x8192x128_S1x8192x128_S3x8192x128_d0),
    nullary main_cst_13 (constant S_ .f32 0x00000000#32),
    binary main_v119 main_cst_13 main_v120 ((fun x v => Host.reduceAdd x v reducesTo_S3x8192x128_S8192x128_d0 h_S_)),
    nullary main_cst_14 (constant S_ .f32 0x40400000#32),
    unary main_cst_14 main_v121 (broadcastInDim S8192x128 ![] bcast_S_S8192x128),
    binary main_v120 main_v121 main_v122 (Host.divf) ]
abbrev w12 : List (Ref sig .tc) := [main_v116, main_v117, main_v118, main_v119, main_cst_13, main_v120, main_cst_14, main_v121, main_v122]

abbrev c13 : List (HloOp τ sig (Elt F)) :=
  [ unary main_arg19 main_v123 (broadcastInDim S1x4096x128 ![1, 2] bcast_S4096x128_S1x4096x128_1_2),
    unary main_v91 main_v124 (broadcastInDim S1x4096x128 ![1, 2] bcast_S4096x128_S1x4096x128_1_2),
    unary main_v115 main_v125 (broadcastInDim S1x4096x128 ![1, 2] bcast_S4096x128_S1x4096x128_1_2),
    nary ![main_v123, main_v124, main_v125] main_v126 (fun u => concatenate S3x4096x128 0 [⟨S1x4096x128, u 0⟩, ⟨S1x4096x128, u 1⟩, ⟨S1x4096x128, u 2⟩] concatenates_S1x4096x128_S1x4096x128_S1x4096x128_S3x4096x128_d0),
    nullary main_cst_15 (constant S_ .f32 0x00000000#32),
    binary main_v126 main_cst_15 main_v127 ((fun x v => Host.reduceAdd x v reducesTo_S3x4096x128_S4096x128_d0 h_S_)),
    nullary main_cst_16 (constant S_ .f32 0x40400000#32),
    unary main_cst_16 main_v128 (broadcastInDim S4096x128 ![] bcast_S_S4096x128),
    binary main_v127 main_v128 main_v129 (Host.divf) ]
abbrev w13 : List (Ref sig .tc) := [main_v123, main_v124, main_v125, main_v126, main_cst_15, main_v127, main_cst_16, main_v128, main_v129]

abbrev c14 : List (HloOp τ sig (Elt F)) :=
  [ nary ![main_v122, main_v89, main_v82, main_v84, main_v86] main_v130 (fun u => concatenate S8192x640 1 [⟨S8192x128, u 0⟩, ⟨S8192x128, u 1⟩, ⟨S8192x128, u 2⟩, ⟨S8192x128, u 3⟩, ⟨S8192x128, u 4⟩] concatenates_S8192x128_S8192x128_S8192x128_S8192x128_S8192x128_S8192x640_d1),
    nary ![main_v129, main_v88, main_v83, main_v85, main_v87] main_v131 (fun u => concatenate S4096x640 1 [⟨S4096x128, u 0⟩, ⟨S4096x128, u 1⟩, ⟨S4096x128, u 2⟩, ⟨S4096x128, u 3⟩, ⟨S4096x128, u 4⟩] concatenates_S4096x128_S4096x128_S4096x128_S4096x128_S4096x128_S4096x640_d1),
    binary main_v130 main_v131 main_v132 ((fun a b => concatenate S12288x640 0 [⟨S8192x640, a⟩, ⟨S4096x640, b⟩] concatenates_S8192x640_S4096x640_S12288x640_d0)) ]
abbrev w14 : List (Ref sig .tc) := [main_v130, main_v131, main_v132]

set_option maxRecDepth 8192 in
theorem ops_eq : (ops : List (HloOp τ sig (Elt F)))
    = c0 ++ (c1 ++ (c2 ++ (c3 ++ (c4 ++ (c5 ++ (c6 ++ (c7 ++ (c8 ++ (c9 ++ (c10 ++ (c11 ++ (c12 ++ (c13 ++ c14))))))))))))) := rfl

def chunk : Nat → List (HloOp τ sig (Elt F))
  | 0 => c0 | 1 => c1 | 2 => c2 | 3 => c3 | 4 => c4 | 5 => c5 | 6 => c6 | 7 => c7
  | 8 => c8 | 9 => c9 | 10 => c10 | 11 => c11 | 12 => c12 | 13 => c13 | 14 => c14
  | _ => []

def W : Nat → List (Ref sig .tc)
  | 0 => w0 | 1 => w1 | 2 => w2 | 3 => w3 | 4 => w4 | 5 => w5 | 6 => w6 | 7 => w7
  | 8 => w8 | 9 => w9 | 10 => w10 | 11 => w11 | 12 => w12 | 13 => w13 | 14 => w14
  | _ => []

local macro "chunk_writes_tac" cc:ident : tactic =>
  `(tactic| (simp only [chunk, $cc:ident, List.Forall, nullary_writes, unary_writes, binary_writes, nary_writes,
               Finset.singleton_subset_iff, List.mem_toFinset]
             and_intros
             all_goals exact List.mem_map_of_mem (by decide)))

theorem chunk_writes : ∀ k : Nat, (chunk (F := F) k).Forall fun op => op.writes ⊆ ((W k).map (Proc.devRef (τ := τ) .tc)).toFinset
  | 0 => by chunk_writes_tac c0 | 1 => by chunk_writes_tac c1 | 2 => by chunk_writes_tac c2 | 3 => by chunk_writes_tac c3
  | 4 => by chunk_writes_tac c4 | 5 => by chunk_writes_tac c5 | 6 => by chunk_writes_tac c6 | 7 => by chunk_writes_tac c7
  | 8 => by chunk_writes_tac c8 | 9 => by chunk_writes_tac c9 | 10 => by chunk_writes_tac c10 | 11 => by chunk_writes_tac c11
  | 12 => by chunk_writes_tac c12 | 13 => by chunk_writes_tac c13 | 14 => by chunk_writes_tac c14
  | _ + 15 => trivial

section Levels

variable (m : (ℓ : Loc nD τ sig) → Buf (Elt F) ℓ) (c : Dev nD)

def R : Nat → Valuation τ sig (Elt F)
  | 0 => launchContents m c
  | k + 1 => after (chunk k) (R k)

set_option maxRecDepth 8192 in
theorem fold_eq : after (ops (F := F)) (launchContents m c) = R m c 15 := by
  rw [ops_eq]; simp only [after_append]; rfl

theorem R_keep {r : Ref sig .tc} {j k : Nat} (hjk : j ≤ k) (hk : k ≤ 15) (h : ∀ i < 15, j ≤ i → r ∉ W i) :
    R m c k (Proc.devRef .tc r) = R m c j (Proc.devRef .tc r) := by
  induction k with
  | zero => cases Nat.eq_zero_of_le_zero hjk; rfl
  | succ k ih =>
    rcases Nat.eq_or_lt_of_le hjk with e | hlt
    · cases e; rfl
    · have hjk' : j ≤ k := Nat.le_of_lt_succ hlt
      exact (after_of_writes_sub (chunk k) (R m c k) (chunk_writes k) (h k (Nat.lt_of_succ_le hk) hjk')).trans
        (ih hjk' (Nat.le_of_succ_le hk))

theorem arg_at (r : Ref sig .tc) (k : Nat) (hk : k ≤ 15) (h : ∀ i < 15, 0 ≤ i → r ∉ W i) :
    R m c k (Proc.devRef .tc r) = m ((c.tc : Thread nD τ).loc r) :=
  R_keep m c (Nat.zero_le k) hk h

section Nary
variable {Val : EltTy → Type} {x a b d e y : Ref sig .tc}

theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem nary5_result
    (f : ((k : Fin 5) → ((![x, a, b, d, e] : Fin 5 → Ref sig .tc) k).ty.Contents Val) → y.ty.Contents Val) (hxs hy)
    (V : Valuation τ sig Val) :
    (nary (τ := τ) ![x, a, b, d, e] y f hxs hy).result V (Proc.devRef .tc y)
      = f (Fin.cons (V (Proc.devRef .tc x)) (Fin.cons (V (Proc.devRef .tc a)) (Fin.cons (V (Proc.devRef .tc b))
          (Fin.cons (V (Proc.devRef .tc d)) (Fin.cons (V (Proc.devRef .tc e)) (fun i => i.elim0)))))) := by
  rw [nary_result]; congr 1; funext k; fin_cases k <;> rfl

end Nary

local macro "chunk_results" : tactic =>
  `(tactic| (simp only [after_cons, after_nil]
             repeat (first
               | rw [nullary_result] | rw [unary_result] | rw [binary_result] | rw [nary3_result] | rw [nary5_result]
               | (rw [nullary_result_ne]; rotate_left; decide)
               | (rw [unary_result_ne]; rotate_left; decide)
               | (rw [binary_result_ne]; rotate_left; decide)
               | (rw [nary_result_ne]; rotate_left; decide))))

set_option quotPrecheck false

local notation "x0" => m ((c.tc : Thread nD τ).loc main_arg0)
local notation "x1" => m ((c.tc : Thread nD τ).loc main_arg1)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)
local notation "x17" => m ((c.tc : Thread nD τ).loc main_arg17)
local notation "x18" => m ((c.tc : Thread nD τ).loc main_arg18)
local notation "x19" => m ((c.tc : Thread nD τ).loc main_arg19)
local notation "x20" => m ((c.tc : Thread nD τ).loc main_arg20)
local notation "x21" => m ((c.tc : Thread nD τ).loc main_arg21)
local notation "x22" => m ((c.tc : Thread nD τ).loc main_arg22)
local notation "x23" => m ((c.tc : Thread nD τ).loc main_arg23)
local notation "x24" => m ((c.tc : Thread nD τ).loc main_arg24)
local notation "x25" => m ((c.tc : Thread nD τ).loc main_arg25)
local notation "x26" => m ((c.tc : Thread nD τ).loc main_arg26)
local notation "x27" => m ((c.tc : Thread nD τ).loc main_arg27)
local notation "x28" => m ((c.tc : Thread nD τ).loc main_arg28)
local notation "x29" => m ((c.tc : Thread nD τ).loc main_arg29)
local notation "x30" => m ((c.tc : Thread nD τ).loc main_arg30)
local notation "x31" => m ((c.tc : Thread nD τ).loc main_arg31)
local notation "x32" => m ((c.tc : Thread nD τ).loc main_arg32)
local notation "x33" => m ((c.tc : Thread nD τ).loc main_arg33)
local notation "x34" => m ((c.tc : Thread nD τ).loc main_arg34)
local notation "x35" => m ((c.tc : Thread nD τ).loc main_arg35)

set_option maxHeartbeats 4000000

local macro "argAt%" r:ident k:num : term => `(arg_at _ _ $r $k (by decide) (by decide))

theorem v3_at (k : Nat) (hk : 1 ≤ k ∧ k ≤ 15) : R m c k (Proc.devRef .tc main_v3) = val_main_v3 x6 x10 x11 := by
  refine (R_keep m c hk.1 hk.2 (by decide)).trans ?_
  show after c0 (R m c 0) (Proc.devRef .tc main_v3) = _
  unfold c0; chunk_results
  rw [argAt% main_arg6 0, argAt% main_arg10 0, argAt% main_arg11 0]
  unfold val_main_v3; rfl

theorem v7_at (k : Nat) (hk : 1 ≤ k ∧ k ≤ 15) : R m c k (Proc.devRef .tc main_v7) = val_main_v7 x7 x12 x13 := by
  refine (R_keep m c hk.1 hk.2 (by decide)).trans ?_
  show after c0 (R m c 0) (Proc.devRef .tc main_v7) = _
  unfold c0; chunk_results
  rw [argAt% main_arg7 0, argAt% main_arg12 0, argAt% main_arg13 0]
  unfold val_main_v7; rfl

theorem v11_at (k : Nat) (hk : 1 ≤ k ∧ k ≤ 15) : R m c k (Proc.devRef .tc main_v11) = val_main_v11 x8 x14 x15 := by
  refine (R_keep m c hk.1 hk.2 (by decide)).trans ?_
  show after c0 (R m c 0) (Proc.devRef .tc main_v11) = _
  unfold c0; chunk_results
  rw [argAt% main_arg8 0, argAt% main_arg14 0, argAt% main_arg15 0]
  unfold val_main_v11; rfl

theorem v15_at (k : Nat) (hk : 1 ≤ k ∧ k ≤ 15) : R m c k (Proc.devRef .tc main_v15) = val_main_v15 x9 x16 x17 := by
  refine (R_keep m c hk.1 hk.2 (by decide)).trans ?_
  show after c0 (R m c 0) (Proc.devRef .tc main_v15) = _
  unfold c0; chunk_results
  rw [argAt% main_arg9 0, argAt% main_arg16 0, argAt% main_arg17 0]
  unfold val_main_v15; rfl

theorem v32_at (k : Nat) (hk : 2 ≤ k ∧ k ≤ 15) :
    R m c k (Proc.devRef .tc main_v32) = val_main_v32 x6 x10 x11 x20 x21 x22 x23 := by
  refine (R_keep m c hk.1 hk.2 (by decide)).trans ?_
  show after c1 (R m c 1) (Proc.devRef .tc main_v32) = _
  unfold c1; chunk_results
  rw [v3_at m c 1 (by decide), argAt% main_arg20 1, argAt% main_arg21 1, argAt% main_arg22 1, argAt% main_arg23 1]
  simp only [TRef.ofBuf, TRef.toBuf, cast_eq]
  unfold val_main_v32; rfl

theorem v49_at (k : Nat) (hk : 3 ≤ k ∧ k ≤ 15) :
    R m c k (Proc.devRef .tc main_v49) = val_main_v49 x7 x12 x13 x24 x25 x26 x27 := by
  refine (R_keep m c hk.1 hk.2 (by decide)).trans ?_
  show after c2 (R m c 2) (Proc.devRef .tc main_v49) = _
  unfold c2; chunk_results
  rw [v7_at m c 2 (by decide), argAt% main_arg24 2, argAt% main_arg25 2, argAt% main_arg26 2, argAt% main_arg27 2]
  simp only [TRef.ofBuf, TRef.toBuf, cast_eq]
  unfold val_main_v49; rfl

theorem v59_at (k : Nat) (hk : 4 ≤ k ∧ k ≤ 15) :
    R m c k (Proc.devRef .tc main_v59) = val_main_v59 x6 x7 x10 x11 x12 x13 x20 x21 x22 x23 x24 x25 x26 x27 x28 x29 x30 x31 := by
  refine (R_keep m c hk.1 hk.2 (by decide)).trans ?_
  show after c3 (R m c 3) (Proc.devRef .tc main_v59) = _
  unfold c3; chunk_results
  rw [v32_at m c 3 (by decide), v49_at m c 3 (by decide), argAt% main_arg28 3, argAt% main_arg29 3, argAt% main_arg30 3,
    argAt% main_arg31 3]
  simp only [TRef.ofBuf, TRef.toBuf, cast_eq]
  unfold val_main_v59; rfl

theorem v62_at (k : Nat) (hk : 5 ≤ k ∧ k ≤ 15) :
    R m c k (Proc.devRef .tc main_v62) = val_main_v62 x6 x7 x10 x11 x12 x13 x20 x21 x22 x23 x24 x25 x26 x27 x28 x29 x30 x31 := by
  refine (R_keep m c hk.1 hk.2 (by decide)).trans ?_
  show after c4 (R m c 4) (Proc.devRef .tc main_v62) = _
  unfold c4; chunk_results
  rw [v32_at m c 4 (by decide), v59_at m c 4 (by decide)]
  unfold val_main_v62; rfl

theorem v65_at (k : Nat) (hk : 5 ≤ k ∧ k ≤ 15) :
    R m c k (Proc.devRef .tc main_v65) = val_main_v65 x6 x7 x10 x11 x12 x13 x20 x21 x22 x23 x24 x25 x26 x27 x28 x29 x30 x31 := by
  refine (R_keep m c hk.1 hk.2 (by decide)).trans ?_
  show after c4 (R m c 4) (Proc.devRef .tc main_v65) = _
  unfold c4; chunk_results
  rw [v49_at m c 4 (by decide), v59_at m c 4 (by decide)]
  unfold val_main_v65; rfl

theorem v75_at (k : Nat) (hk : 6 ≤ k ∧ k ≤ 15) :
    R m c k (Proc.devRef .tc main_v75) = val_main_v75 x6 x7 x10 x11 x12 x13 x20 x21 x22 x23 x24 x25 x26 x27 x28 x29 x30 x31 x32 x33 x34 x35 := by
  refine (R_keep m c hk.1 hk.2 (by decide)).trans ?_
  show after c5 (R m c 5) (Proc.devRef .tc main_v75) = _
  unfold c5; chunk_results
  rw [v62_at m c 5 (by decide), v65_at m c 5 (by decide), argAt% main_arg32 5, argAt% main_arg33 5, argAt% main_arg34 5,
    argAt% main_arg35 5]
  simp only [TRef.ofBuf, TRef.toBuf, cast_eq]
  unfold val_main_v75; rfl

theorem v78_at (k : Nat) (hk : 7 ≤ k ∧ k ≤ 15) :
    R m c k (Proc.devRef .tc main_v78) = val_main_v78 x6 x7 x10 x11 x12 x13 x20 x21 x22 x23 x24 x25 x26 x27 x28 x29 x30 x31 x32 x33 x34 x35 := by
  refine (R_keep m c hk.1 hk.2 (by decide)).trans ?_
  show after c6 (R m c 6) (Proc.devRef .tc main_v78) = _
  unfold c6; chunk_results
  rw [v62_at m c 6 (by decide), v75_at m c 6 (by decide)]
  unfold val_main_v78; rfl

theorem v81_at (k : Nat) (hk : 7 ≤ k ∧ k ≤ 15) :
    R m c k (Proc.devRef .tc main_v81) = val_main_v81 x6 x7 x10 x11 x12 x13 x20 x21 x22 x23 x24 x25 x26 x27 x28 x29 x30 x31 x32 x33 x34 x35 := by
  refine (R_keep m c hk.1 hk.2 (by decide)).trans ?_
  show after c6 (R m c 6) (Proc.devRef .tc main_v81) = _
  unfold c6; chunk_results
  rw [v65_at m c 6 (by decide), v75_at m c 6 (by decide)]
  unfold val_main_v81; rfl

theorem v82_at (k : Nat) (hk : 8 ≤ k ∧ k ≤ 15) :
    R m c k (Proc.devRef .tc main_v82) = val_main_v82 x0 x6 x7 x10 x11 x12 x13 x20 x21 x22 x23 x24 x25 x26 x27 x28 x29 x30 x31 x32 x33 x34 x35 := by
  refine (R_keep m c hk.1 hk.2 (by decide)).trans ?_
  show after c7 (R m c 7) (Proc.devRef .tc main_v82) = _
  unfold c7; chunk_results
  rw [argAt% main_arg0 7, v78_at m c 7 (by decide)]
  unfold val_main_v82; rfl

theorem v83_at (k : Nat) (hk : 8 ≤ k ∧ k ≤ 15) :
    R m c k (Proc.devRef .tc main_v83) = val_main_v83 x0 x1 x6 x7 x10 x11 x12 x13 x20 x21 x22 x23 x24 x25 x26 x27 x28 x29 x30 x31 x32 x33 x34 x35 := by
  refine (R_keep m c hk.1 hk.2 (by decide)).trans ?_
  show after c7 (R m c 7) (Proc.devRef .tc main_v83) = _
  unfold c7; chunk_results
  rw [argAt% main_arg0 7, argAt% main_arg1 7, v78_at m c 7 (by decide)]
  unfold val_main_v83; rfl

theorem v84_at (k : Nat) (hk : 8 ≤ k ∧ k ≤ 15) :
    R m c k (Proc.devRef .tc main_v84) = val_main_v84 x0 x6 x7 x10 x11 x12 x13 x20 x21 x22 x23 x24 x25 x26 x27 x28 x29 x30 x31 x32 x33 x34 x35 := by
  refine (R_keep m c hk.1 hk.2 (by decide)).trans ?_
  show after c7 (R m c 7) (Proc.devRef .tc main_v84) = _
  unfold c7; chunk_results
  rw [argAt% main_arg0 7, v81_at m c 7 (by decide)]
  unfold val_main_v84; rfl

theorem v85_at (k : Nat) (hk : 8 ≤ k ∧ k ≤ 15) :
    R m c k (Proc.devRef .tc main_v85) = val_main_v85 x0 x1 x6 x7 x10 x11 x12 x13 x20 x21 x22 x23 x24 x25 x26 x27 x28 x29 x30 x31 x32 x33 x34 x35 := by
  refine (R_keep m c hk.1 hk.2 (by decide)).trans ?_
  show after c7 (R m c 7) (Proc.devRef .tc main_v85) = _
  unfold c7; chunk_results
  rw [argAt% main_arg0 7, argAt% main_arg1 7, v81_at m c 7 (by decide)]
  unfold val_main_v85; rfl

theorem v86_at (k : Nat) (hk : 8 ≤ k ∧ k ≤ 15) :
    R m c k (Proc.devRef .tc main_v86) = val_main_v86 x0 x9 x16 x17 := by
  refine (R_keep m c hk.1 hk.2 (by decide)).trans ?_
  show after c7 (R m c 7) (Proc.devRef .tc main_v86) = _
  unfold c7; chunk_results
  rw [argAt% main_arg0 7, v15_at m c 7 (by decide)]
  unfold val_main_v86; rfl

theorem v87_at (k : Nat) (hk : 8 ≤ k ∧ k ≤ 15) :
    R m c k (Proc.devRef .tc main_v87) = val_main_v87 x0 x1 x9 x16 x17 := by
  refine (R_keep m c hk.1 hk.2 (by decide)).trans ?_
  show after c7 (R m c 7) (Proc.devRef .tc main_v87) = _
  unfold c7; chunk_results
  rw [argAt% main_arg0 7, argAt% main_arg1 7, v15_at m c 7 (by decide)]
  unfold val_main_v87; rfl

theorem v88_at (k : Nat) (hk : 8 ≤ k ∧ k ≤ 15) :
    R m c k (Proc.devRef .tc main_v88) = val_main_v88 x1 x8 x14 x15 := by
  refine (R_keep m c hk.1 hk.2 (by decide)).trans ?_
  show after c7 (R m c 7) (Proc.devRef .tc main_v88) = _
  unfold c7; chunk_results
  rw [argAt% main_arg1 7, v11_at m c 7 (by decide)]
  unfold val_main_v88; rfl

theorem v89_at (k : Nat) (hk : 8 ≤ k ∧ k ≤ 15) :
    R m c k (Proc.devRef .tc main_v89) = val_main_v89 x0 x1 x8 x14 x15 := by
  refine (R_keep m c hk.1 hk.2 (by decide)).trans ?_
  show after c7 (R m c 7) (Proc.devRef .tc main_v89) = _
  unfold c7; chunk_results
  rw [argAt% main_arg0 7, argAt% main_arg1 7, v11_at m c 7 (by decide)]
  unfold val_main_v89; rfl

theorem v90_at (k : Nat) (hk : 8 ≤ k ∧ k ≤ 15) :
    R m c k (Proc.devRef .tc main_v90) = val_main_v90 x0 x19 := by
  refine (R_keep m c hk.1 hk.2 (by decide)).trans ?_
  show after c7 (R m c 7) (Proc.devRef .tc main_v90) = _
  unfold c7; chunk_results
  rw [argAt% main_arg0 7, argAt% main_arg19 7]
  unfold val_main_v90; rfl

theorem v91_at (k : Nat) (hk : 8 ≤ k ∧ k ≤ 15) :
    R m c k (Proc.devRef .tc main_v91) = val_main_v91 x0 x1 x19 := by
  refine (R_keep m c hk.1 hk.2 (by decide)).trans ?_
  show after c7 (R m c 7) (Proc.devRef .tc main_v91) = _
  unfold c7; chunk_results
  rw [argAt% main_arg0 7, argAt% main_arg1 7, argAt% main_arg19 7]
  unfold val_main_v91; rfl

theorem v92_at (k : Nat) (hk : 8 ≤ k ∧ k ≤ 15) :
    R m c k (Proc.devRef .tc main_v92) = val_main_v92 x0 x1 x19 := by
  refine (R_keep m c hk.1 hk.2 (by decide)).trans ?_
  show after c7 (R m c 7) (Proc.devRef .tc main_v92) = _
  unfold c7; chunk_results
  rw [argAt% main_arg0 7, argAt% main_arg1 7, argAt% main_arg19 7]
  unfold val_main_v92; rfl

theorem v99_at (k : Nat) (hk : 9 ≤ k ∧ k ≤ 15) :
    R m c k (Proc.devRef .tc main_v99) = val_main_v99 x0 x1 x19 := by
  refine (R_keep m c hk.1 hk.2 (by decide)).trans ?_
  show after c8 (R m c 8) (Proc.devRef .tc main_v99) = _
  unfold c8; chunk_results
  rw [v92_at m c 8 (by decide)]
  unfold val_main_v99; rfl

theorem v103_at (k : Nat) (hk : 10 ≤ k ∧ k ≤ 15) :
    R m c k (Proc.devRef .tc main_v103) = val_main_v103 x0 x1 x19 := by
  refine (R_keep m c hk.1 hk.2 (by decide)).trans ?_
  show after c9 (R m c 9) (Proc.devRef .tc main_v103) = _
  unfold c9; chunk_results
  rw [v99_at m c 9 (by decide)]
  unfold val_main_v103; rfl

theorem v104_at (k : Nat) (hk : 10 ≤ k ∧ k ≤ 15) :
    R m c k (Proc.devRef .tc main_v104) = val_main_v104 x0 x1 x19 := by
  refine (R_keep m c hk.1 hk.2 (by decide)).trans ?_
  show after c9 (R m c 9) (Proc.devRef .tc main_v104) = _
  unfold c9; chunk_results
  rw [argAt% main_arg1 9, v99_at m c 9 (by decide)]
  unfold val_main_v104; rfl

theorem v111_at (k : Nat) (hk : 11 ≤ k ∧ k ≤ 15) :
    R m c k (Proc.devRef .tc main_v111) = val_main_v111 x0 x1 x19 := by
  refine (R_keep m c hk.1 hk.2 (by decide)).trans ?_
  show after c10 (R m c 10) (Proc.devRef .tc main_v111) = _
  unfold c10; chunk_results
  rw [v104_at m c 10 (by decide)]
  unfold val_main_v111; rfl

theorem v115_at (k : Nat) (hk : 12 ≤ k ∧ k ≤ 15) :
    R m c k (Proc.devRef .tc main_v115) = val_main_v115 x0 x1 x19 := by
  refine (R_keep m c hk.1 hk.2 (by decide)).trans ?_
  show after c11 (R m c 11) (Proc.devRef .tc main_v115) = _
  unfold c11; chunk_results
  rw [v111_at m c 11 (by decide)]
  unfold val_main_v115; rfl

theorem v122_at (k : Nat) (hk : 13 ≤ k ∧ k ≤ 15) :
    R m c k (Proc.devRef .tc main_v122) = val_main_v122 x0 x1 x18 x19 := by
  refine (R_keep m c hk.1 hk.2 (by decide)).trans ?_
  show after c12 (R m c 12) (Proc.devRef .tc main_v122) = _
  unfold c12; chunk_results
  rw [argAt% main_arg18 12, v90_at m c 12 (by decide), v103_at m c 12 (by decide)]
  unfold val_main_v122; rfl

theorem v129_at (k : Nat) (hk : 14 ≤ k ∧ k ≤ 15) :
    R m c k (Proc.devRef .tc main_v129) = val_main_v129 x0 x1 x19 := by
  refine (R_keep m c hk.1 hk.2 (by decide)).trans ?_
  show after c13 (R m c 13) (Proc.devRef .tc main_v129) = _
  unfold c13; chunk_results
  rw [argAt% main_arg19 13, v91_at m c 13 (by decide), v115_at m c 13 (by decide)]
  unfold val_main_v129; rfl

theorem v132_at (k : Nat) (hk : 15 ≤ k ∧ k ≤ 15) :
    R m c k (Proc.devRef .tc main_v132) = val_main_v132 x0 x1 x6 x7 x8 x9 x10 x11 x12 x13 x14 x15 x16 x17 x18 x19 x20 x21 x22 x23 x24 x25 x26 x27 x28 x29 x30 x31 x32 x33 x34 x35 := by
  refine (R_keep m c hk.1 hk.2 (by decide)).trans ?_
  show after c14 (R m c 14) (Proc.devRef .tc main_v132) = _
  unfold c14; chunk_results
  rw [v122_at m c 14 (by decide), v89_at m c 14 (by decide), v82_at m c 14 (by decide), v84_at m c 14 (by decide),
    v86_at m c 14 (by decide), v129_at m c 14 (by decide), v88_at m c 14 (by decide), v83_at m c 14 (by decide),
    v85_at m c 14 (by decide), v87_at m c 14 (by decide)]
  unfold val_main_v132; rfl

theorem res_eq_val :
    Cert.ReferenceIdeal.Value.res_main_v132 m c = Cert.ReferenceIdeal.Read.val_main_v132 (F := F) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) := by
  show after (ops (F := F)) (launchContents m c) (Proc.devRef .tc main_v132) = _
  rw [fold_eq]
  exact v132_at m c 15 (by decide)

end Levels

end Cert.ReferenceIdeal.RefValue

end
-- ==== Proof.lean ====
/-
  The kernel program (sixteen launches of one blocked linear-layer kernel between host operations) and its reference compute, over the
  extended reals, the same [12288, 640] array of the arguments: both are the specification of Proof/Spec.lean. A product computed in row
  blocks, its contraction added up in K-steps, is the product, and a bias row of zeros adds nothing.
  Each program's frame is its run with the result dropped.
-/
import proofs.«103213_j15710990369585_1_alg».proof.Defs
import proofs.«103213_j15710990369585_1_alg».proof.Proof.Gen.Kernel
import proofs.«103213_j15710990369585_1_alg».proof.Proof.Gen.KernelIdeal
import proofs.«103213_j15710990369585_1_alg».proof.Proof.Gen.ReferenceIdeal
import proofs.«103213_j15710990369585_1_alg».proof.Proof.Gen.Pre_finite_inputs
import proofs.«103213_j15710990369585_1_alg».proof.Proof.K.Run
import proofs.«103213_j15710990369585_1_alg».proof.Proof.KI.Run
import proofs.«103213_j15710990369585_1_alg».proof.Proof.KI.HostGraph
import proofs.«103213_j15710990369585_1_alg».proof.Proof.Ref.Graph
import proofs.«103213_j15710990369585_1_alg».proof.Proof.Ref.RunStages
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Gen.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Gen.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

theorem specArgs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (h31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (h32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (h33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (h34 : m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34))
    (h35 : m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) :
    Cert.ReferenceIdeal.specArgs m' c = Cert.KernelIdeal.specArgs m c := by
  unfold Cert.ReferenceIdeal.specArgs Cert.KernelIdeal.specArgs
  congr 1 <;> first | exact congrArg Cert.Spec.toMat ‹_› | exact congrArg Cert.Spec.toRow ‹_›

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Gen.W33 m c Cert.KernelIdeal.main_v100, Cert.KernelIdeal.Gen.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22, a23, a24, a25, a26, a27, a28, a29, a30, a31, a32, a33, a34, a35⟩ := hagree c
  have hargs := specArgs_eq m m' c a0 a1 a6 a7 a8 a9 a10 a11 a12 a13 a14 a15 a16 a17 a18 a19 a20 a21 a22 a23 a24 a25 a26 a27 a28 a29 a30 a31 a32 a33 a34 a35
  rw [Cert.ReferenceIdeal.RefValue.res_eq_val m' c]
  funext j
  rw [ValueIdx.eq_ix2 j]
  exact (Cert.ReferenceIdeal.RefValue.result_eq m' c (j 0) (j 1)).trans
    ((congrArg (fun a : Cert.Spec.Args => a.result (j 0) (j 1)) hargs).trans (Cert.KernelIdeal.Gen.kernel_result m c (j 0) (j 1)).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
